-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x64x64 : Shape := ⟨4, ![8, 64, 64, 64]⟩
abbrev S8x2048 : Shape := ⟨2, ![8, 2048]⟩
abbrev S8x2x2048 : Shape := ⟨3, ![8, 2, 2048]⟩
abbrev S_ : Shape := ⟨0, ![]⟩

class Facts : Prop where
  bcast_S_S8x64x64x64 : S_.BroadcastsInDim S8x64x64x64 (![] : Fin 0 → Fin S8x64x64x64.rank)
  reducesTo_S8x64x64x64_S_d0_1_2_3 : S8x64x64x64.ReducesTo [0, 1, 2, 3] S_
  h_S_ : 0 < S_.numel
  bcast_S_S8x2048 : S_.BroadcastsInDim S8x2048 (![] : Fin 0 → Fin S8x2048.rank)
  reducesTo_S8x2048_S_d0_1 : S8x2048.ReducesTo [0, 1] S_
  bcast_S_S8x2x2048 : S_.BroadcastsInDim S8x2x2048 (![] : Fin 0 → Fin S8x2x2048.rank)
  reducesTo_S8x2x2048_S_d0_1_2 : S8x2x2048.ReducesTo [0, 1, 2] S_

variable [Facts]

def fn_part1 {F : FTy → Type} [FloatOps F] (main_arg3 : IVec S8x2x2048 32) (main_v12 : IVec S_ 1) (main_v15 : IVec S_ 1) : IVec S_ 1 :=
  let main_v16 : IVec S_ 1 := andi main_v12 main_v15
  let main_c_6 : IVec S_ 32 := constantI S_ 32 0#32
  let main_v17 : IVec S8x2x2048 32 := broadcastInDim S8x2x2048 ![] bcast_S_S8x2x2048 main_c_6
  let main_v18 : IVec S8x2x2048 1 := cmpi .sge main_arg3 main_v17
  let main_c_7 : IVec S_ 1 := constantI S_ 1 1#1
  let main_v19 : IVec S_ 1 := (fun x v => Host.reduce IntOp.andi x v reducesTo_S8x2x2048_S_d0_1_2 h_S_) main_v18 main_c_7
  let main_v20 : IVec S_ 1 := andi main_v16 main_v19
  let main_c_8 : IVec S_ 32 := constantI S_ 32 64#32
  let main_v21 : IVec S8x2x2048 32 := broadcastInDim S8x2x2048 ![] bcast_S_S8x2x2048 main_c_8
  let main_v22 : IVec S8x2x2048 1 := cmpi .slt main_arg3 main_v21
  let main_c_9 : IVec S_ 1 := constantI S_ 1 1#1
  let main_v23 : IVec S_ 1 := (fun x v => Host.reduce IntOp.andi x v reducesTo_S8x2x2048_S_d0_1_2 h_S_) main_v22 main_c_9
  let main_v24 : IVec S_ 1 := andi main_v20 main_v23
  main_v24

def fn {F : FTy → Type} [FloatOps F] (main_arg0 : FVec F S8x64x64x64 .f32) (main_arg1 : FVec F S8x64x64x64 .f32) (main_arg2 : IVec S8x2048 32) (main_arg3 : IVec S8x2x2048 32) : IVec S_ 1 :=
  let main_v0 : FVec F S8x64x64x64 .f32 := Host.absf main_arg0
  let main_cst : FVec F S_ .f32 := constant S_ .f32 0x7F800000#32
  let main_v1 : FVec F S8x64x64x64 .f32 := broadcastInDim S8x64x64x64 ![] bcast_S_S8x64x64x64 main_cst
  let main_v2 : IVec S8x64x64x64 1 := cmpf .olt main_v0 main_v1
  let main_c : IVec S_ 1 := constantI S_ 1 1#1
  let main_v3 : IVec S_ 1 := (fun x v => Host.reduce IntOp.andi x v reducesTo_S8x64x64x64_S_d0_1_2_3 h_S_) main_v2 main_c
  let main_v4 : FVec F S8x64x64x64 .f32 := Host.absf main_arg1
  let main_cst_0 : FVec F S_ .f32 := constant S_ .f32 0x7F800000#32
  let main_v5 : FVec F S8x64x64x64 .f32 := broadcastInDim S8x64x64x64 ![] bcast_S_S8x64x64x64 main_cst_0
  let main_v6 : IVec S8x64x64x64 1 := cmpf .olt main_v4 main_v5
  let main_c_1 : IVec S_ 1 := constantI S_ 1 1#1
  let main_v7 : IVec S_ 1 := (fun x v => Host.reduce IntOp.andi x v reducesTo_S8x64x64x64_S_d0_1_2_3 h_S_) main_v6 main_c_1
  let main_v8 : IVec S_ 1 := andi main_v3 main_v7
  let main_c_2 : IVec S_ 32 := constantI S_ 32 0#32
  let main_v9 : IVec S8x2048 32 := broadcastInDim S8x2048 ![] bcast_S_S8x2048 main_c_2
  let main_v10 : IVec S8x2048 1 := cmpi .sge main_arg2 main_v9
  let main_c_3 : IVec S_ 1 := constantI S_ 1 1#1
  let main_v11 : IVec S_ 1 := (fun x v => Host.reduce IntOp.andi x v reducesTo_S8x2048_S_d0_1 h_S_) main_v10 main_c_3
  let main_v12 : IVec S_ 1 := andi main_v8 main_v11
  let main_c_4 : IVec S_ 32 := constantI S_ 32 4096#32
  let main_v13 : IVec S8x2048 32 := broadcastInDim S8x2048 ![] bcast_S_S8x2048 main_c_4
  let main_v14 : IVec S8x2048 1 := cmpi .slt main_arg2 main_v13
  let main_c_5 : IVec S_ 1 := constantI S_ 1 1#1
  let main_v15 : IVec S_ 1 := (fun x v => Host.reduce IntOp.andi x v reducesTo_S8x2048_S_d0_1 h_S_) main_v14 main_c_5
  fn_part1 (F := F) main_arg3 main_v12 main_v15
-- ==== Kernel.lean ====
abbrev S8x64x64x64 : Shape := ⟨4, ![8, 64, 64, 64]⟩
abbrev S8x2048 : Shape := ⟨2, ![8, 2048]⟩
abbrev S8x2x2048 : Shape := ⟨3, ![8, 2, 2048]⟩
abbrev S8x64x4096 : Shape := ⟨3, ![8, 64, 4096]⟩
abbrev S_ : Shape := ⟨0, ![]⟩
abbrev S8x4096 : Shape := ⟨2, ![8, 4096]⟩
abbrev S8x1x4096 : Shape := ⟨3, ![8, 1, 4096]⟩
abbrev S8x1x2048 : Shape := ⟨3, ![8, 1, 2048]⟩
abbrev S8x64x2048 : Shape := ⟨3, ![8, 64, 2048]⟩
abbrev S8x64x2048x1 : Shape := ⟨4, ![8, 64, 2048, 1]⟩
abbrev S1 : Shape := ⟨1, ![1]⟩
abbrev S1x1x1x1 : Shape := ⟨4, ![1, 1, 1, 1]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S1x4096 : Shape := ⟨2, ![1, 4096]⟩
abbrev S2x4096 : Shape := ⟨2, ![2, 4096]⟩
abbrev S1x64x2048 : Shape := ⟨3, ![1, 64, 2048]⟩
abbrev S1x64x512 : Shape := ⟨3, ![1, 64, 512]⟩
abbrev S1x2x2048 : Shape := ⟨3, ![1, 2, 2048]⟩
abbrev S2x512 : Shape := ⟨2, ![2, 512]⟩
abbrev S1x1x2048 : Shape := ⟨3, ![1, 1, 2048]⟩
abbrev S1x2048 : Shape := ⟨2, ![1, 2048]⟩
abbrev S64x2048 : Shape := ⟨2, ![64, 2048]⟩
abbrev S64x512 : Shape := ⟨2, ![64, 512]⟩
abbrev S2x2048 : Shape := ⟨2, ![2, 2048]⟩
abbrev S512x2048 : Shape := ⟨2, ![512, 2048]⟩
abbrev S2048 : Shape := ⟨1, ![2048]⟩
abbrev S1x512 : Shape := ⟨2, ![1, 512]⟩
abbrev S512 : Shape := ⟨1, ![512]⟩
abbrev S512x1 : Shape := ⟨2, ![512, 1]⟩

abbrev nBuf : Space → Nat
  | .hbm => 177
  | .vmem => 22
  | .smem => 0
  | _ => 0

abbrev hbmTy0_0 (i : Nat) : BufTy := match i % 128 with
  | 0 => ⟨S8x64x64x64, .f32⟩
  | 1 => ⟨S8x64x64x64, .f32⟩
  | 2 => ⟨S8x2048, .i32⟩
  | 3 => ⟨S8x2x2048, .i32⟩
  | 4 => ⟨S8x64x4096, .f32⟩
  | 5 => ⟨S8x64x4096, .f32⟩
  | 6 => ⟨S8x64x4096, .f32⟩
  | 7 => ⟨S_, .f32⟩
  | 8 => ⟨S8x4096, .f32⟩
  | 9 => ⟨S8x1x4096, .f32⟩
  | 10 => ⟨S8x1x4096, .f32⟩
  | 11 => ⟨S_, .f32⟩
  | 12 => ⟨S8x1x4096, .f32⟩
  | 13 => ⟨S8x1x4096, .f32⟩
  | 14 => ⟨S8x64x4096, .f32⟩
  | 15 => ⟨S8x64x4096, .f32⟩
  | 16 => ⟨S8x64x4096, .f32⟩
  | 17 => ⟨S_, .f32⟩
  | 18 => ⟨S8x4096, .f32⟩
  | 19 => ⟨S8x1x4096, .f32⟩
  | 20 => ⟨S8x1x4096, .f32⟩
  | 21 => ⟨S_, .f32⟩
  | 22 => ⟨S8x1x4096, .f32⟩
  | 23 => ⟨S8x1x4096, .f32⟩
  | 24 => ⟨S8x64x4096, .f32⟩
  | 25 => ⟨S8x64x4096, .f32⟩
  | 26 => ⟨S8x1x2048, .i32⟩
  | 27 => ⟨S8x64x2048, .i32⟩
  | 28 => ⟨S_, .i32⟩
  | 29 => ⟨S8x64x2048, .i32⟩
  | 30 => ⟨S8x64x2048, .i1⟩
  | 31 => ⟨S_, .i32⟩
  | 32 => ⟨S8x64x2048, .i32⟩
  | 33 => ⟨S8x64x2048, .i32⟩
  | 34 => ⟨S8x64x2048, .i32⟩
  | 35 => ⟨S8x64x2048x1, .i32⟩
  | 36 => ⟨S1, .i32⟩
  | 37 => ⟨S_, .i32⟩
  | 38 => ⟨S8x64x2048x1, .i32⟩
  | 39 => ⟨S8x64x2048x1, .i1⟩
  | 40 => ⟨S1x1x1x1, .i32⟩
  | 41 => ⟨S8x64x2048x1, .i32⟩
  | 42 => ⟨S8x64x2048x1, .i1⟩
  | 43 => ⟨S8x64x2048x1, .i1⟩
  | 44 => ⟨S_, .i1⟩
  | 45 => ⟨S8x64x2048, .i1⟩
  | 46 => ⟨S8x64x2048, .f32⟩
  | 47 => ⟨S_, .f32⟩
  | 48 => ⟨S8x64x2048, .f32⟩
  | 49 => ⟨S8x64x2048, .f32⟩
  | 50 => ⟨S8x1x2048, .i32⟩
  | 51 => ⟨S8x2048, .i32⟩
  | 52 => ⟨S8x1x2048, .i32⟩
  | 53 => ⟨S8x2048, .i32⟩
  | 54 => ⟨S_, .i32⟩
  | 55 => ⟨S8x2048, .i32⟩
  | 56 => ⟨S8x2048, .i32⟩
  | 57 => ⟨S8x2048, .i32⟩
  | 58 => ⟨S8x1x2048, .i32⟩
  | 59 => ⟨S8x64x2048, .i32⟩
  | 60 => ⟨S_, .i32⟩
  | 61 => ⟨S8x64x2048, .i32⟩
  | 62 => ⟨S8x64x2048, .i1⟩
  | 63 => ⟨S_, .i32⟩
  | 64 => ⟨S8x64x2048, .i32⟩
  | 65 => ⟨S8x64x2048, .i32⟩
  | 66 => ⟨S8x64x2048, .i32⟩
  | 67 => ⟨S8x64x2048x1, .i32⟩
  | 68 => ⟨S1, .i32⟩
  | 69 => ⟨S_, .i32⟩
  | 70 => ⟨S8x64x2048x1, .i32⟩
  | 71 => ⟨S8x64x2048x1, .i1⟩
  | 72 => ⟨S1x1x1x1, .i32⟩
  | 73 => ⟨S8x64x2048x1, .i32⟩
  | 74 => ⟨S8x64x2048x1, .i1⟩
  | 75 => ⟨S8x64x2048x1, .i1⟩
  | 76 => ⟨S_, .i1⟩
  | 77 => ⟨S8x64x2048, .i1⟩
  | 78 => ⟨S8x64x2048, .f32⟩
  | 79 => ⟨S_, .f32⟩
  | 80 => ⟨S8x64x2048, .f32⟩
  | 81 => ⟨S8x64x2048, .f32⟩
  | 82 => ⟨S8x64x2048, .f32⟩
  | 83 => ⟨S_, .f32⟩
  | 84 => ⟨S8x2048, .f32⟩
  | 85 => ⟨S8x1x2048, .f32⟩
  | 86 => ⟨S8x1x2048, .f32⟩
  | 87 => ⟨S_, .f32⟩
  | 88 => ⟨S8x1x2048, .f32⟩
  | 89 => ⟨S8x1x2048, .f32⟩
  | 90 => ⟨S8x64x2048, .f32⟩
  | 91 => ⟨S8x64x2048, .f32⟩
  | 92 => ⟨S_, .i32⟩
  | 93 => ⟨S_, .i32⟩
  | 94 => ⟨S8x2048, .i32⟩
  | 95 => ⟨S8x2048, .i32⟩
  | 96 => ⟨S8x2048, .i32⟩
  | 97 => ⟨S_, .i32⟩
  | 98 => ⟨S8x2048, .i32⟩
  | 99 => ⟨S8x2048, .i1⟩
  | 100 => ⟨S8x2048, .i32⟩
  | 101 => ⟨S8x2048, .i32⟩
  | 102 => ⟨S_, .i32⟩
  | 103 => ⟨S8x2048, .i32⟩
  | 104 => ⟨S8x2048, .i1⟩
  | 105 => ⟨S8x2048, .i1⟩
  | 106 => ⟨S_, .i32⟩
  | 107 => ⟨S8x2048, .i32⟩
  | 108 => ⟨S8x2048, .i32⟩
  | 109 => ⟨S8x2048, .i32⟩
  | 110 => ⟨S_, .i32⟩
  | 111 => ⟨S_, .i32⟩
  | 112 => ⟨S_, .i32⟩
  | 113 => ⟨S_, .i1⟩
  | 114 => ⟨S_, .i32⟩
  | 115 => ⟨S_, .i32⟩
  | 116 => ⟨S8x2048, .i32⟩
  | 117 => ⟨S8x2048, .i32⟩
  | 118 => ⟨S_, .i32⟩
  | 119 => ⟨S8x2048, .i32⟩
  | 120 => ⟨S8x2048, .i1⟩
  | 121 => ⟨S_, .i32⟩
  | 122 => ⟨S8x2048, .i32⟩
  | 123 => ⟨S8x2048, .i1⟩
  | 124 => ⟨S_, .i32⟩
  | 125 => ⟨S_, .i1⟩
  | 126 => ⟨S8x2048, .i1⟩
  | 127 => ⟨S8x2048, .i1⟩
  | _ => ⟨S8x64x64x64, .f32⟩

abbrev hbmTy0_1 (i : Nat) : BufTy := match i % 128 with
  | 0 => ⟨S8x2048, .i1⟩
  | 1 => ⟨S8x2048, .i32⟩
  | 2 => ⟨S8x2048, .i32⟩
  | 3 => ⟨S8x2048, .i32⟩
  | 4 => ⟨S8x1x2048, .i32⟩
  | 5 => ⟨S8x1x2048, .i32⟩
  | 6 => ⟨S8x2x2048, .i32⟩
  | 7 => ⟨S8x2x2048, .f32⟩
  | 8 => ⟨S8x2x2048, .f32⟩
  | 9 => ⟨S64, .i32⟩
  | 10 => ⟨S64x64, .i32⟩
  | 11 => ⟨S4096, .i32⟩
  | 12 => ⟨S64, .i32⟩
  | 13 => ⟨S1x64, .i32⟩
  | 14 => ⟨S64x64, .i32⟩
  | 15 => ⟨S4096, .i32⟩
  | 16 => ⟨S1x4096, .i32⟩
  | 17 => ⟨S1x4096, .i32⟩
  | 18 => ⟨S2x4096, .i32⟩
  | 19 => ⟨S2x4096, .f32⟩
  | 20 => ⟨S8x64x2048, .f32⟩
  | 21 => ⟨S_, .f32⟩
  | 22 => ⟨S8x2048, .f32⟩
  | 23 => ⟨S_, .f32⟩
  | 24 => ⟨S8x2048, .f32⟩
  | 25 => ⟨S8x2048, .f32⟩
  | 26 => ⟨S_, .f32⟩
  | 27 => ⟨S8x2048, .f32⟩
  | 28 => ⟨S8x2048, .f32⟩
  | 29 => ⟨S8x64x2048, .bf16⟩
  | 30 => ⟨S8x64x2048, .bf16⟩
  | 31 => ⟨S8x64x4096, .bf16⟩
  | 32 => ⟨S8x64x4096, .bf16⟩
  | 33 => ⟨S8x1x2048, .f32⟩
  | 34 => ⟨S8x2048, .f32⟩
  | 35 => ⟨S8x1x2048, .f32⟩
  | 36 => ⟨S8x2048, .f32⟩
  | 37 => ⟨S8x2048, .f32⟩
  | 38 => ⟨S8x2048, .f32⟩
  | 39 => ⟨S_, .f32⟩
  | 40 => ⟨S8x2048, .f32⟩
  | 41 => ⟨S8x2048, .f32⟩
  | 42 => ⟨S_, .f32⟩
  | 43 => ⟨S8x2048, .f32⟩
  | 44 => ⟨S8x2048, .f32⟩
  | 45 => ⟨S_, .f32⟩
  | 46 => ⟨S_, .f32⟩
  | 47 => ⟨S_, .f32⟩
  | 48 => ⟨S_, .f32⟩
  | _ => ⟨S8x64x64x64, .f32⟩

abbrev hbmTy (i : Nat) : BufTy := match i / 128 with
  | 0 => hbmTy0_0 i
  | 1 => hbmTy0_1 i
  | _ => ⟨S8x64x64x64, .f32⟩

abbrev bufTy : (tb : Table) → Fin (tcTables nBuf tb) → BufTy
  | .hbm, ⟨i, _⟩ => hbmTy i
  | .local _ .vmem, ⟨0, _⟩ => ⟨S1x64x2048, .bf16⟩
  | .local _ .vmem, ⟨1, _⟩ => ⟨S1x64x2048, .bf16⟩
  | .local _ .vmem, ⟨2, _⟩ => ⟨S1x64x512, .bf16⟩
  | .local _ .vmem, ⟨3, _⟩ => ⟨S1x64x512, .bf16⟩
  | .local _ .vmem, ⟨4, _⟩ => ⟨S1x2x2048, .f32⟩
  | .local _ .vmem, ⟨5, _⟩ => ⟨S1x2x2048, .f32⟩
  | .local _ .vmem, ⟨6, _⟩ => ⟨S2x512, .f32⟩
  | .local _ .vmem, ⟨7, _⟩ => ⟨S2x512, .f32⟩
  | .local _ .vmem, ⟨8, _⟩ => ⟨S1x1x2048, .f32⟩
  | .local _ .vmem, ⟨9, _⟩ => ⟨S1x1x2048, .f32⟩
  | .local _ .vmem, ⟨10, _⟩ => ⟨S1x2048, .f32⟩
  | .local _ .vmem, ⟨11, _⟩ => ⟨S1x64x2048, .bf16⟩
  | .local _ .vmem, ⟨12, _⟩ => ⟨S1x64x2048, .bf16⟩
  | .local _ .vmem, ⟨13, _⟩ => ⟨S1x64x512, .bf16⟩
  | .local _ .vmem, ⟨14, _⟩ => ⟨S1x64x512, .bf16⟩
  | .local _ .vmem, ⟨15, _⟩ => ⟨S1x2x2048, .f32⟩
  | .local _ .vmem, ⟨16, _⟩ => ⟨S1x2x2048, .f32⟩
  | .local _ .vmem, ⟨17, _⟩ => ⟨S2x512, .f32⟩
  | .local _ .vmem, ⟨18, _⟩ => ⟨S2x512, .f32⟩
  | .local _ .vmem, ⟨19, _⟩ => ⟨S1x1x2048, .f32⟩
  | .local _ .vmem, ⟨20, _⟩ => ⟨S1x1x2048, .f32⟩
  | .local _ .vmem, ⟨21, _⟩ => ⟨S1x2048, .f32⟩
  | _, _ => ⟨S8x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_c : Ref sig .tc := ⟨.hbm, 28, rfl⟩
abbrev main_call0_v0 : Ref sig .tc := ⟨.hbm, 29, rfl⟩
abbrev main_call0_v1 : Ref sig .tc := ⟨.hbm, 30, rfl⟩
abbrev main_call0_c_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_c_1 : Ref sig .tc := ⟨.hbm, 36, rfl⟩
abbrev main_call0_c_2 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_3 : Ref sig .tc := ⟨.hbm, 44, rfl⟩
abbrev main_call0_v12 : Ref sig .tc := ⟨.hbm, 45, rfl⟩
abbrev main_call0_v13 : Ref sig .tc := ⟨.hbm, 46, rfl⟩
abbrev main_call0_cst : Ref sig .tc := ⟨.hbm, 47, rfl⟩
abbrev main_call0_v14 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_c : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_call1_c : Ref sig .tc := ⟨.hbm, 60, rfl⟩
abbrev main_call1_v0 : Ref sig .tc := ⟨.hbm, 61, rfl⟩
abbrev main_call1_v1 : Ref sig .tc := ⟨.hbm, 62, rfl⟩
abbrev main_call1_c_0 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_call1_v5 : Ref sig .tc := ⟨.hbm, 67, rfl⟩
abbrev main_call1_c_1 : Ref sig .tc := ⟨.hbm, 68, rfl⟩
abbrev main_call1_c_2 : Ref sig .tc := ⟨.hbm, 69, rfl⟩
abbrev main_call1_v6 : Ref sig .tc := ⟨.hbm, 70, rfl⟩
abbrev main_call1_v7 : Ref sig .tc := ⟨.hbm, 71, rfl⟩
abbrev main_call1_v8 : Ref sig .tc := ⟨.hbm, 72, rfl⟩
abbrev main_call1_v9 : Ref sig .tc := ⟨.hbm, 73, rfl⟩
abbrev main_call1_v10 : Ref sig .tc := ⟨.hbm, 74, rfl⟩
abbrev main_call1_v11 : Ref sig .tc := ⟨.hbm, 75, rfl⟩
abbrev main_call1_c_3 : Ref sig .tc := ⟨.hbm, 76, rfl⟩
abbrev main_call1_v12 : Ref sig .tc := ⟨.hbm, 77, rfl⟩
abbrev main_call1_v13 : Ref sig .tc := ⟨.hbm, 78, rfl⟩
abbrev main_call1_cst : Ref sig .tc := ⟨.hbm, 79, rfl⟩
abbrev main_call1_v14 : Ref sig .tc := ⟨.hbm, 80, rfl⟩
abbrev main_v30 : Ref sig .tc := ⟨.hbm, 81, rfl⟩
abbrev main_v31 : Ref sig .tc := ⟨.hbm, 82, rfl⟩
abbrev main_cst_3 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_cst_4 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_c_5 : Ref sig .tc := ⟨.hbm, 92, rfl⟩
abbrev main_call2_v0 : Ref sig .tc := ⟨.hbm, 93, rfl⟩
abbrev main_call2_v1 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_call2_v5 : Ref sig .tc := ⟨.hbm, 98, rfl⟩
abbrev main_call2_v6 : Ref sig .tc := ⟨.hbm, 99, rfl⟩
abbrev main_call2_v7 : Ref sig .tc := ⟨.hbm, 100, rfl⟩
abbrev main_call2_v8 : Ref sig .tc := ⟨.hbm, 101, rfl⟩
abbrev main_call2_c : Ref sig .tc := ⟨.hbm, 102, rfl⟩
abbrev main_call2_v9 : Ref sig .tc := ⟨.hbm, 103, rfl⟩
abbrev main_call2_v10 : Ref sig .tc := ⟨.hbm, 104, rfl⟩
abbrev main_call2_v11 : Ref sig .tc := ⟨.hbm, 105, rfl⟩
abbrev main_call2_c_0 : Ref sig .tc := ⟨.hbm, 106, rfl⟩
abbrev main_call2_v12 : Ref sig .tc := ⟨.hbm, 107, rfl⟩
abbrev main_call2_v13 : Ref sig .tc := ⟨.hbm, 108, rfl⟩
abbrev main_v39 : Ref sig .tc := ⟨.hbm, 109, rfl⟩
abbrev main_c_6 : Ref sig .tc := ⟨.hbm, 110, rfl⟩
abbrev main_call3_v0 : Ref sig .tc := ⟨.hbm, 111, rfl⟩
abbrev main_call3_c : Ref sig .tc := ⟨.hbm, 112, rfl⟩
abbrev main_call3_v1 : Ref sig .tc := ⟨.hbm, 113, rfl⟩
abbrev main_call3_c_0 : Ref sig .tc := ⟨.hbm, 114, rfl⟩
abbrev main_call3_v2 : Ref sig .tc := ⟨.hbm, 115, rfl⟩
abbrev main_call3_v3 : Ref sig .tc := ⟨.hbm, 116, rfl⟩
abbrev main_call3_v4 : Ref sig .tc := ⟨.hbm, 117, rfl⟩
abbrev main_call3_c_1 : Ref sig .tc := ⟨.hbm, 118, rfl⟩
abbrev main_call3_v5 : Ref sig .tc := ⟨.hbm, 119, rfl⟩
abbrev main_call3_v6 : Ref sig .tc := ⟨.hbm, 120, rfl⟩
abbrev main_call3_c_2 : Ref sig .tc := ⟨.hbm, 121, rfl⟩
abbrev main_call3_v7 : Ref sig .tc := ⟨.hbm, 122, rfl⟩
abbrev main_call3_v8 : Ref sig .tc := ⟨.hbm, 123, rfl⟩
abbrev main_call3_c_3 : Ref sig .tc := ⟨.hbm, 124, rfl⟩
abbrev main_call3_v9 : Ref sig .tc := ⟨.hbm, 125, rfl⟩
abbrev main_call3_v10 : Ref sig .tc := ⟨.hbm, 126, rfl⟩
abbrev main_call3_v11 : Ref sig .tc := ⟨.hbm, 127, rfl⟩
abbrev main_call3_v12 : Ref sig .tc := ⟨.hbm, 128, rfl⟩
abbrev main_call3_v13 : Ref sig .tc := ⟨.hbm, 129, rfl⟩
abbrev main_call3_v14 : Ref sig .tc := ⟨.hbm, 130, rfl⟩
abbrev main_v40 : Ref sig .tc := ⟨.hbm, 131, rfl⟩
abbrev main_v41 : Ref sig .tc := ⟨.hbm, 132, rfl⟩
abbrev main_v42 : Ref sig .tc := ⟨.hbm, 133, rfl⟩
abbrev main_v43 : Ref sig .tc := ⟨.hbm, 134, rfl⟩
abbrev main_v44 : Ref sig .tc := ⟨.hbm, 135, rfl⟩
abbrev main_v45 : Ref sig .tc := ⟨.hbm, 136, rfl⟩
abbrev main_v46 : Ref sig .tc := ⟨.hbm, 137, rfl⟩
abbrev main_v47 : Ref sig .tc := ⟨.hbm, 138, rfl⟩
abbrev main_v48 : Ref sig .tc := ⟨.hbm, 139, rfl⟩
abbrev main_v49 : Ref sig .tc := ⟨.hbm, 140, rfl⟩
abbrev main_v50 : Ref sig .tc := ⟨.hbm, 141, rfl⟩
abbrev main_v51 : Ref sig .tc := ⟨.hbm, 142, rfl⟩
abbrev main_v52 : Ref sig .tc := ⟨.hbm, 143, rfl⟩
abbrev main_v53 : Ref sig .tc := ⟨.hbm, 144, rfl⟩
abbrev main_v54 : Ref sig .tc := ⟨.hbm, 145, rfl⟩
abbrev main_v55 : Ref sig .tc := ⟨.hbm, 146, rfl⟩
abbrev main_v56 : Ref sig .tc := ⟨.hbm, 147, rfl⟩
abbrev main_v57 : Ref sig .tc := ⟨.hbm, 148, rfl⟩
abbrev main_cst_7 : Ref sig .tc := ⟨.hbm, 149, rfl⟩
abbrev main_v58 : Ref sig .tc := ⟨.hbm, 150, rfl⟩
abbrev main_cst_8 : Ref sig .tc := ⟨.hbm, 151, rfl⟩
abbrev main_v59 : Ref sig .tc := ⟨.hbm, 152, rfl⟩
abbrev main_v60 : Ref sig .tc := ⟨.hbm, 153, rfl⟩
abbrev main_cst_9 : Ref sig .tc := ⟨.hbm, 154, rfl⟩
abbrev main_v61 : Ref sig .tc := ⟨.hbm, 155, rfl⟩
abbrev main_v62 : Ref sig .tc := ⟨.hbm, 156, rfl⟩
abbrev main_v63 : Ref sig .tc := ⟨.hbm, 157, rfl⟩
abbrev main_v64 : Ref sig .tc := ⟨.hbm, 158, rfl⟩
abbrev main_v65 : Ref sig .tc := ⟨.hbm, 159, rfl⟩
abbrev main_v66 : Ref sig .tc := ⟨.hbm, 160, rfl⟩
abbrev main_v67 : Ref sig .tc := ⟨.hbm, 161, rfl⟩
abbrev main_v68 : Ref sig .tc := ⟨.hbm, 162, rfl⟩
abbrev main_v69 : Ref sig .tc := ⟨.hbm, 163, rfl⟩
abbrev main_v70 : Ref sig .tc := ⟨.hbm, 164, rfl⟩
abbrev main_v71 : Ref sig .tc := ⟨.hbm, 165, rfl⟩
abbrev main_v72 : Ref sig .tc := ⟨.hbm, 166, rfl⟩
abbrev main_cst_10 : Ref sig .tc := ⟨.hbm, 167, rfl⟩
abbrev main_v73 : Ref sig .tc := ⟨.hbm, 168, rfl⟩
abbrev main_v74 : Ref sig .tc := ⟨.hbm, 169, rfl⟩
abbrev main_cst_11 : Ref sig .tc := ⟨.hbm, 170, rfl⟩
abbrev main_v75 : Ref sig .tc := ⟨.hbm, 171, rfl⟩
abbrev main_v76 : Ref sig .tc := ⟨.hbm, 172, rfl⟩
abbrev main_cst_12 : Ref sig .tc := ⟨.hbm, 173, rfl⟩
abbrev main_v77 : Ref sig .tc := ⟨.hbm, 174, rfl⟩
abbrev main_cst_13 : Ref sig .tc := ⟨.hbm, 175, rfl⟩
abbrev main_v78 : Ref sig .tc := ⟨.hbm, 176, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v50 : BitVec 1 := Scalar.cmpi .eq arg1 c7_i32
  let v51 : BitVec 32 := Scalar.extui v50
  let c0_i32_21 : BitVec 32 := 0#32
  let v52 : BitVec 1 := Scalar.cmpi .ne v51 c0_i32_21
  v52

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v50 : BitVec 1 := Scalar.cmpi .eq arg1 c7_i32
  let v51 : BitVec 32 := Scalar.extui v50
  let c0_i32_21 : BitVec 32 := 0#32
  let v52 : BitVec 1 := Scalar.cmpi .ne v51 c0_i32_21
  v52

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x64x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x64x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x2x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S2x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x1x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  shapeCasts_S8x64x64x64_S8x64x4096 : S8x64x64x64.ShapeCasts S8x64x4096
  reducesTo_S8x64x4096_S8x4096_d1 : S8x64x4096.ReducesTo [1] S8x4096
  h_S_ : 0 < S_.numel
  bcast_S8x4096_S8x1x4096_0_2 : S8x4096.BroadcastsInDim S8x1x4096 (![0, 2] : Fin 2 → Fin S8x1x4096.rank)
  bcast_S_S8x1x4096 : S_.BroadcastsInDim S8x1x4096 (![] : Fin 0 → Fin S8x1x4096.rank)
  bcast_S8x1x4096_S8x64x4096_0_1_2 : S8x1x4096.BroadcastsInDim S8x64x4096 (![0, 1, 2] : Fin 3 → Fin S8x64x4096.rank)
  bcast_S8x2048_S8x1x2048_0_2 : S8x2048.BroadcastsInDim S8x1x2048 (![0, 2] : Fin 2 → Fin S8x1x2048.rank)
  bcast_S8x1x2048_S8x64x2048_0_1_2 : S8x1x2048.BroadcastsInDim S8x64x2048 (![0, 1, 2] : Fin 3 → Fin S8x64x2048.rank)
  bcast_S_S8x64x2048 : S_.BroadcastsInDim S8x64x2048 (![] : Fin 0 → Fin S8x64x2048.rank)
  shapeCasts_S8x64x2048_S8x64x2048x1 : S8x64x2048.ShapeCasts S8x64x2048x1
  bcast_S_S8x64x2048x1 : S_.BroadcastsInDim S8x64x2048x1 (![] : Fin 0 → Fin S8x64x2048x1.rank)
  bcast_S1_S1x1x1x1_3 : S1.BroadcastsInDim S1x1x1x1 (![3] : Fin 1 → Fin S1x1x1x1.rank)
  bcast_S1x1x1x1_S8x64x2048x1_0_1_2_3 : S1x1x1x1.BroadcastsInDim S8x64x2048x1 (![0, 1, 2, 3] : Fin 4 → Fin S8x64x2048x1.rank)
  reducesTo_S8x64x2048x1_S8x64x2048_d3 : S8x64x2048x1.ReducesTo [3] S8x64x2048
  slices_S8x2x2048_S8x1x2048_0_0_0 : S8x2x2048.Slices ![0, 0, 0] S8x1x2048
  shapeCasts_S8x1x2048_S8x2048 : S8x1x2048.ShapeCasts S8x2048
  slices_S8x2x2048_S8x1x2048_0_1_0 : S8x2x2048.Slices ![0, 1, 0] S8x1x2048
  bcast_S_S8x2048 : S_.BroadcastsInDim S8x2048 (![] : Fin 0 → Fin S8x2048.rank)
  reducesTo_S8x64x2048_S8x2048_d1 : S8x64x2048.ReducesTo [1] S8x2048
  bcast_S_S8x1x2048 : S_.BroadcastsInDim S8x1x2048 (![] : Fin 0 → Fin S8x1x2048.rank)
  concatenates_S8x1x2048_S8x1x2048_S8x2x2048_d1 : Shape.Concatenates [S8x1x2048, S8x1x2048] S8x2x2048 1
  bcast_S64_S64x64_0 : S64.BroadcastsInDim S64x64 (![0] : Fin 1 → Fin S64x64.rank)
  shapeCasts_S64x64_S4096 : S64x64.ShapeCasts S4096
  shapeCasts_S64_S1x64 : S64.ShapeCasts S1x64
  bcast_S1x64_S64x64_0_1 : S1x64.BroadcastsInDim S64x64 (![0, 1] : Fin 2 → Fin S64x64.rank)
  bcast_S4096_S1x4096_1 : S4096.BroadcastsInDim S1x4096 (![1] : Fin 1 → Fin S1x4096.rank)
  concatenates_S1x4096_S1x4096_S2x4096_d0 : Shape.Concatenates [S1x4096, S1x4096] S2x4096 0
  bitsLt_bf16_f32 : FTy.bits .bf16 < FTy.bits .f32
  inb_S1x64x2048_S1x64x2048_0_0_0 : ∀ a, (![0, 0, 0] : Fin 3 → Nat) a + S1x64x2048.size a ≤ S1x64x2048.size a
  h_S1x64x2048 : 0 < S1x64x2048.numel
  shapeCasts_S1x64x2048_S64x2048 : S1x64x2048.ShapeCasts S64x2048
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  inb_S1x2x2048_S1x2x2048_0_0_0 : ∀ a, (![0, 0, 0] : Fin 3 → Nat) a + S1x2x2048.size a ≤ S1x2x2048.size a
  h_S1x2x2048 : 0 < S1x2x2048.numel
  shapeCasts_S1x2x2048_S2x2048 : S1x2x2048.ShapeCasts S2x2048
  inb_S2x512_S2x512_0_0 : ∀ a, (![0, 0] : Fin 2 → Nat) a + S2x512.size a ≤ S2x512.size a
  h_S2x512 : 0 < S2x512.numel
  shapeCasts_S2x512_S2x512 : S2x512.ShapeCasts S2x512
  slices_S2x2048_o0_0_S1x2048 : S2x2048.Slices ![0, 0] S1x2048
  shapeCasts_S1x2048_S2048 : S1x2048.ShapeCasts S2048
  slices_S2x2048_o1_0_S1x2048 : S2x2048.Slices ![1, 0] S1x2048
  slices_S2x512_o0_0_S1x512 : S2x512.Slices ![0, 0] S1x512
  shapeCasts_S1x512_S512 : S1x512.ShapeCasts S512
  slices_S2x512_o1_0_S1x512 : S2x512.Slices ![1, 0] S1x512
  shapeCasts_S512_S512x1 : S512.ShapeCasts S512x1
  shapeCasts_S2048_S1x2048 : S2048.ShapeCasts S1x2048
  broadcasts_S512x1_S512x2048 : S512x1.Broadcasts S512x2048
  broadcasts_S1x2048_S512x2048 : S1x2048.Broadcasts S512x2048
  reduces_S512x2048_S2048 : S512x2048.Reduces [0] S2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  shapeCasts_S1x2048_S1x1x2048 : S1x2048.ShapeCasts S1x1x2048
  reducesTo_S8x2048_S_d0_1 : S8x2048.ReducesTo [0, 1] S_
  gather_S8x64x4096_S8x64x2048x1_S8x64x2048_n_2_01_01_2_3_111_wf : GatherDims.WF S8x64x4096 S8x64x2048x1 S8x64x2048 [] [2] [0, 1] [2] [0, 1] 3 ![1, 1, 1]
  dot_S64x512_S64x2048_S512x2048_0_0_1_1_n_n_wf : DotDims.WF S64x512 S64x2048 S512x2048 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x2048.size a ≤ S8x64x2048.size a
  hwx0_0 : ∀ i : grid0.Coords, EltTy.bits .bf16 = 32 ∨ (Rect.block (s := S8x64x2048) S1x64x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x512.size a ≤ S8x64x4096.size a
  hwx0_1 : ∀ i : grid0.Coords, EltTy.bits .bf16 = 32 ∨ (Rect.block (s := S8x64x4096) S1x64x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2x2048.size a ≤ S8x2x2048.size a
  hwx0_2 : ∀ i : grid0.Coords, EltTy.bits .f32 = 32 ∨ (Rect.block (s := S8x2x2048) S1x2x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x512.size a ≤ S2x4096.size a
  hwx0_3 : ∀ i : grid0.Coords, EltTy.bits .f32 = 32 ∨ (Rect.block (s := S2x4096) S2x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x2048.size a ≤ S8x1x2048.size a
  hwx0_4 : ∀ i : grid0.Coords, EltTy.bits .f32 = 32 ∨ (Rect.block (s := S8x1x2048) S1x1x2048.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x2048.size a ≤ S8x64x2048.size a
  hwx1_0 : ∀ i : grid1.Coords, EltTy.bits .bf16 = 32 ∨ (Rect.block (s := S8x64x2048) S1x64x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x512.size a ≤ S8x64x4096.size a
  hwx1_1 : ∀ i : grid1.Coords, EltTy.bits .bf16 = 32 ∨ (Rect.block (s := S8x64x4096) S1x64x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2x2048.size a ≤ S8x2x2048.size a
  hwx1_2 : ∀ i : grid1.Coords, EltTy.bits .f32 = 32 ∨ (Rect.block (s := S8x2x2048) S1x2x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2x512.size a ≤ S2x4096.size a
  hwx1_3 : ∀ i : grid1.Coords, EltTy.bits .f32 = 32 ∨ (Rect.block (s := S2x4096) S2x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x2048.size a ≤ S8x1x2048.size a
  hwx1_4 : ∀ i : grid1.Coords, EltTy.bits .f32 = 32 ∨ (Rect.block (s := S8x1x2048) S1x1x2048.size (cc1_transform_4 i) (hinb1_4 i)).WholeWords (EltTy.packing .f32)

variable [Facts₀]

def gather_S8x64x4096_S8x64x2048x1_S8x64x2048_n_2_01_01_2_3_111 : GatherDims S8x64x4096 S8x64x2048x1 S8x64x2048 where
  offsetDims := []
  collapsedSliceDims := [2]
  operandBatchingDims := [0, 1]
  startIndicesBatchingDims := [0, 1]
  startIndexMap := [2]
  indexVectorDim := 3
  sliceSizes := ![1, 1, 1]
  wf := gather_S8x64x4096_S8x64x2048x1_S8x64x2048_n_2_01_01_2_3_111_wf
def dot_S64x512_S64x2048_S512x2048_0_0_1_1_n_n : DotDims S64x512 S64x2048 S512x2048 where
  lhsContracting := [0]
  rhsContracting := [0]
  lhsNonContracting := [1]
  rhsNonContracting := [1]
  lhsBatch := []
  rhsBatch := []
  wf := dot_S64x512_S64x2048_S512x2048_0_0_1_1_n_n_wf

abbrev win0_0 : Pipeline.Window sig grid0 :=
  Pipeline.Window.ofSpec (Memref.whole main_v63) S1x64x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v66) S1x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v45) S1x2x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v56) S2x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v67) S1x1x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v64) S1x64x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v65) S1x64x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S1x2x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v56) S2x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v69) S1x1x2048.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8x64x64x64 : Shape := ⟨4, ![8, 64, 64, 64]⟩
abbrev S8x2048 : Shape := ⟨2, ![8, 2048]⟩
abbrev S8x2x2048 : Shape := ⟨3, ![8, 2, 2048]⟩
abbrev S8x64x4096 : Shape := ⟨3, ![8, 64, 4096]⟩
abbrev S_ : Shape := ⟨0, ![]⟩
abbrev S8x4096 : Shape := ⟨2, ![8, 4096]⟩
abbrev S8x1x4096 : Shape := ⟨3, ![8, 1, 4096]⟩
abbrev S8x2048x1 : Shape := ⟨3, ![8, 2048, 1]⟩
abbrev S8x64x2048 : Shape := ⟨3, ![8, 64, 2048]⟩
abbrev S8x1x2048 : Shape := ⟨3, ![8, 1, 2048]⟩
abbrev S8x2048x2 : Shape := ⟨3, ![8, 2048, 2]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S1x4096 : Shape := ⟨2, ![1, 4096]⟩
abbrev S2x4096 : Shape := ⟨2, ![2, 4096]⟩
abbrev S8x2x2048x1 : Shape := ⟨4, ![8, 2, 2048, 1]⟩
abbrev S2x1x4096 : Shape := ⟨3, ![2, 1, 4096]⟩
abbrev S1x2x1x4096 : Shape := ⟨4, ![1, 2, 1, 4096]⟩
abbrev S8x2x2048x4096 : Shape := ⟨4, ![8, 2, 2048, 4096]⟩
abbrev S8x2048x4096 : Shape := ⟨3, ![8, 2048, 4096]⟩
abbrev S2048x4096 : Shape := ⟨2, ![2048, 4096]⟩
abbrev S1x8x2048 : Shape := ⟨3, ![1, 8, 2048]⟩
abbrev S2x8x2048 : Shape := ⟨3, ![2, 8, 2048]⟩
abbrev S8 : Shape := ⟨1, ![8]⟩

abbrev nBuf : Space → Nat
  | .hbm => 221
  | .vmem => 0
  | .smem => 0
  | _ => 0

abbrev hbmTy0_0 (i : Nat) : BufTy := match i % 128 with
  | 0 => ⟨S8x64x64x64, .f32⟩
  | 1 => ⟨S8x64x64x64, .f32⟩
  | 2 => ⟨S8x2048, .i32⟩
  | 3 => ⟨S8x2x2048, .i32⟩
  | 4 => ⟨S8x64x4096, .f32⟩
  | 5 => ⟨S8x64x4096, .f32⟩
  | 6 => ⟨S_, .f32⟩
  | 7 => ⟨S8x4096, .f32⟩
  | 8 => ⟨S8x1x4096, .f32⟩
  | 9 => ⟨S8x1x4096, .f32⟩
  | 10 => ⟨S_, .f32⟩
  | 11 => ⟨S8x1x4096, .f32⟩
  | 12 => ⟨S8x1x4096, .f32⟩
  | 13 => ⟨S8x64x4096, .f32⟩
  | 14 => ⟨S8x64x4096, .f32⟩
  | 15 => ⟨S8x64x4096, .f32⟩
  | 16 => ⟨S8x64x4096, .f32⟩
  | 17 => ⟨S_, .f32⟩
  | 18 => ⟨S8x4096, .f32⟩
  | 19 => ⟨S8x1x4096, .f32⟩
  | 20 => ⟨S8x1x4096, .f32⟩
  | 21 => ⟨S_, .f32⟩
  | 22 => ⟨S8x1x4096, .f32⟩
  | 23 => ⟨S8x1x4096, .f32⟩
  | 24 => ⟨S8x64x4096, .f32⟩
  | 25 => ⟨S8x64x4096, .f32⟩
  | 26 => ⟨S_, .i32⟩
  | 27 => ⟨S8x2048, .i32⟩
  | 28 => ⟨S8x2048, .i1⟩
  | 29 => ⟨S_, .i32⟩
  | 30 => ⟨S8x2048, .i32⟩
  | 31 => ⟨S8x2048, .i32⟩
  | 32 => ⟨S8x2048, .i32⟩
  | 33 => ⟨S8x2048x1, .i32⟩
  | 34 => ⟨S8x64x2048, .f32⟩
  | 35 => ⟨S8x1x2048, .i32⟩
  | 36 => ⟨S8x2048, .i32⟩
  | 37 => ⟨S8x1x2048, .i32⟩
  | 38 => ⟨S8x2048, .i32⟩
  | 39 => ⟨S_, .i32⟩
  | 40 => ⟨S8x2048, .i32⟩
  | 41 => ⟨S8x2048, .i1⟩
  | 42 => ⟨S_, .i32⟩
  | 43 => ⟨S8x2048, .i32⟩
  | 44 => ⟨S8x2048, .i32⟩
  | 45 => ⟨S8x2048, .i32⟩
  | 46 => ⟨S_, .i32⟩
  | 47 => ⟨S8x2048, .i32⟩
  | 48 => ⟨S8x2048, .i1⟩
  | 49 => ⟨S_, .i32⟩
  | 50 => ⟨S8x2048, .i32⟩
  | 51 => ⟨S8x2048, .i32⟩
  | 52 => ⟨S8x2048, .i32⟩
  | 53 => ⟨S8x2048x1, .i32⟩
  | 54 => ⟨S8x2048x1, .i32⟩
  | 55 => ⟨S8x2048x2, .i32⟩
  | 56 => ⟨S8x64x2048, .f32⟩
  | 57 => ⟨S8x64x2048, .f32⟩
  | 58 => ⟨S_, .f32⟩
  | 59 => ⟨S8x2048, .f32⟩
  | 60 => ⟨S8x1x2048, .f32⟩
  | 61 => ⟨S8x1x2048, .f32⟩
  | 62 => ⟨S_, .f32⟩
  | 63 => ⟨S8x1x2048, .f32⟩
  | 64 => ⟨S8x1x2048, .f32⟩
  | 65 => ⟨S8x64x2048, .f32⟩
  | 66 => ⟨S8x64x2048, .f32⟩
  | 67 => ⟨S8x64x2048, .f32⟩
  | 68 => ⟨S_, .f32⟩
  | 69 => ⟨S8x2048, .f32⟩
  | 70 => ⟨S_, .f32⟩
  | 71 => ⟨S8x2048, .f32⟩
  | 72 => ⟨S8x2048, .f32⟩
  | 73 => ⟨S_, .f32⟩
  | 74 => ⟨S8x2048, .f32⟩
  | 75 => ⟨S8x2048, .f32⟩
  | 76 => ⟨S64, .i32⟩
  | 77 => ⟨S64x64, .i32⟩
  | 78 => ⟨S4096, .i32⟩
  | 79 => ⟨S64, .i32⟩
  | 80 => ⟨S1x64, .i32⟩
  | 81 => ⟨S64x64, .i32⟩
  | 82 => ⟨S4096, .i32⟩
  | 83 => ⟨S1x4096, .i32⟩
  | 84 => ⟨S1x4096, .i32⟩
  | 85 => ⟨S2x4096, .i32⟩
  | 86 => ⟨S2x4096, .f32⟩
  | 87 => ⟨S8x2x2048x1, .i32⟩
  | 88 => ⟨S8x2x2048x1, .f32⟩
  | 89 => ⟨S2x1x4096, .f32⟩
  | 90 => ⟨S1x2x1x4096, .f32⟩
  | 91 => ⟨S8x2x2048x4096, .f32⟩
  | 92 => ⟨S8x2x2048x4096, .f32⟩
  | 93 => ⟨S8x2x2048x4096, .f32⟩
  | 94 => ⟨S8x2x2048x4096, .f32⟩
  | 95 => ⟨S_, .f32⟩
  | 96 => ⟨S8x2048x4096, .f32⟩
  | 97 => ⟨S8x2048x4096, .f32⟩
  | 98 => ⟨S_, .f32⟩
  | 99 => ⟨S8x2048x4096, .f32⟩
  | 100 => ⟨S8x2048x4096, .f32⟩
  | 101 => ⟨S_, .f32⟩
  | 102 => ⟨S8x2048x4096, .f32⟩
  | 103 => ⟨S8x2048x4096, .f32⟩
  | 104 => ⟨S_, .f32⟩
  | 105 => ⟨S8x2048x4096, .f32⟩
  | 106 => ⟨S8x2048x4096, .i1⟩
  | 107 => ⟨S_, .f32⟩
  | 108 => ⟨S_, .f32⟩
  | 109 => ⟨S2048x4096, .f32⟩
  | 110 => ⟨S2048x4096, .f32⟩
  | 111 => ⟨S8x2048x4096, .f32⟩
  | 112 => ⟨S8x2048x4096, .f32⟩
  | 113 => ⟨S8x2048x4096, .f32⟩
  | 114 => ⟨S8x2048x4096, .f32⟩
  | 115 => ⟨S8x2048x4096, .f32⟩
  | 116 => ⟨S_, .f32⟩
  | 117 => ⟨S8x2048, .f32⟩
  | 118 => ⟨S_, .i32⟩
  | 119 => ⟨S_, .i32⟩
  | 120 => ⟨S8x2048, .i32⟩
  | 121 => ⟨S8x2048, .i32⟩
  | 122 => ⟨S8x2048, .i32⟩
  | 123 => ⟨S_, .i32⟩
  | 124 => ⟨S8x2048, .i32⟩
  | 125 => ⟨S8x2048, .i1⟩
  | 126 => ⟨S8x2048, .i32⟩
  | 127 => ⟨S8x2048, .i32⟩
  | _ => ⟨S8x64x64x64, .f32⟩

abbrev hbmTy0_1 (i : Nat) : BufTy := match i % 128 with
  | 0 => ⟨S_, .i32⟩
  | 1 => ⟨S8x2048, .i32⟩
  | 2 => ⟨S8x2048, .i1⟩
  | 3 => ⟨S8x2048, .i1⟩
  | 4 => ⟨S_, .i32⟩
  | 5 => ⟨S8x2048, .i32⟩
  | 6 => ⟨S8x2048, .i32⟩
  | 7 => ⟨S8x2048, .i32⟩
  | 8 => ⟨S_, .i32⟩
  | 9 => ⟨S_, .i32⟩
  | 10 => ⟨S_, .i32⟩
  | 11 => ⟨S_, .i1⟩
  | 12 => ⟨S_, .i32⟩
  | 13 => ⟨S_, .i32⟩
  | 14 => ⟨S8x2048, .i32⟩
  | 15 => ⟨S8x2048, .i32⟩
  | 16 => ⟨S_, .i32⟩
  | 17 => ⟨S8x2048, .i32⟩
  | 18 => ⟨S8x2048, .i1⟩
  | 19 => ⟨S_, .i32⟩
  | 20 => ⟨S8x2048, .i32⟩
  | 21 => ⟨S8x2048, .i1⟩
  | 22 => ⟨S_, .i32⟩
  | 23 => ⟨S_, .i1⟩
  | 24 => ⟨S8x2048, .i1⟩
  | 25 => ⟨S8x2048, .i1⟩
  | 26 => ⟨S8x2048, .i1⟩
  | 27 => ⟨S8x2048, .i32⟩
  | 28 => ⟨S8x2048, .i32⟩
  | 29 => ⟨S8x2048, .i32⟩
  | 30 => ⟨S1x8x2048, .i32⟩
  | 31 => ⟨S1x8x2048, .i32⟩
  | 32 => ⟨S2x8x2048, .i32⟩
  | 33 => ⟨S2x8x2048, .f32⟩
  | 34 => ⟨S64, .i32⟩
  | 35 => ⟨S64x64, .i32⟩
  | 36 => ⟨S4096, .i32⟩
  | 37 => ⟨S64, .i32⟩
  | 38 => ⟨S1x64, .i32⟩
  | 39 => ⟨S64x64, .i32⟩
  | 40 => ⟨S4096, .i32⟩
  | 41 => ⟨S1x4096, .i32⟩
  | 42 => ⟨S1x4096, .i32⟩
  | 43 => ⟨S2x4096, .i32⟩
  | 44 => ⟨S2x4096, .f32⟩
  | 45 => ⟨S8x2x2048, .f32⟩
  | 46 => ⟨S8x2x2048x1, .f32⟩
  | 47 => ⟨S2x1x4096, .f32⟩
  | 48 => ⟨S1x2x1x4096, .f32⟩
  | 49 => ⟨S8x2x2048x4096, .f32⟩
  | 50 => ⟨S8x2x2048x4096, .f32⟩
  | 51 => ⟨S8x2x2048x4096, .f32⟩
  | 52 => ⟨S8x2x2048x4096, .f32⟩
  | 53 => ⟨S_, .f32⟩
  | 54 => ⟨S8x2048x4096, .f32⟩
  | 55 => ⟨S8x2048x4096, .f32⟩
  | 56 => ⟨S_, .f32⟩
  | 57 => ⟨S8x2048x4096, .f32⟩
  | 58 => ⟨S8x2048x4096, .f32⟩
  | 59 => ⟨S_, .f32⟩
  | 60 => ⟨S8x2048x4096, .f32⟩
  | 61 => ⟨S8x2048x4096, .f32⟩
  | 62 => ⟨S_, .f32⟩
  | 63 => ⟨S8x2048x4096, .f32⟩
  | 64 => ⟨S8x2048x4096, .i1⟩
  | 65 => ⟨S_, .f32⟩
  | 66 => ⟨S_, .f32⟩
  | 67 => ⟨S2048x4096, .f32⟩
  | 68 => ⟨S2048x4096, .f32⟩
  | 69 => ⟨S8x2048x4096, .f32⟩
  | 70 => ⟨S8x2048x4096, .f32⟩
  | 71 => ⟨S8x2048x4096, .f32⟩
  | 72 => ⟨S8x2048x4096, .f32⟩
  | 73 => ⟨S8x2048x4096, .f32⟩
  | 74 => ⟨S_, .f32⟩
  | 75 => ⟨S8x2048, .f32⟩
  | 76 => ⟨S8x2048, .f32⟩
  | 77 => ⟨S8x2048, .f32⟩
  | 78 => ⟨S_, .f32⟩
  | 79 => ⟨S8x2048, .f32⟩
  | 80 => ⟨S8x2048, .f32⟩
  | 81 => ⟨S_, .f32⟩
  | 82 => ⟨S8x2048, .f32⟩
  | 83 => ⟨S8x2048, .f32⟩
  | 84 => ⟨S_, .f32⟩
  | 85 => ⟨S8, .f32⟩
  | 86 => ⟨S_, .f32⟩
  | 87 => ⟨S8, .f32⟩
  | 88 => ⟨S8, .f32⟩
  | 89 => ⟨S_, .f32⟩
  | 90 => ⟨S_, .f32⟩
  | 91 => ⟨S_, .f32⟩
  | 92 => ⟨S_, .f32⟩
  | _ => ⟨S8x64x64x64, .f32⟩

abbrev hbmTy (i : Nat) : BufTy := match i / 128 with
  | 0 => hbmTy0_0 i
  | 1 => hbmTy0_1 i
  | _ => ⟨S8x64x64x64, .f32⟩

abbrev bufTy : (tb : Table) → Fin (tcTables nBuf tb) → BufTy
  | .hbm, ⟨i, _⟩ => hbmTy i
  | _, _ => ⟨S8x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c : Ref sig .tc := ⟨.hbm, 26, rfl⟩
abbrev main_v18 : Ref sig .tc := ⟨.hbm, 27, rfl⟩
abbrev main_v19 : Ref sig .tc := ⟨.hbm, 28, rfl⟩
abbrev main_c_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_4 : Ref sig .tc := ⟨.hbm, 39, rfl⟩
abbrev main_v29 : Ref sig .tc := ⟨.hbm, 40, rfl⟩
abbrev main_v30 : Ref sig .tc := ⟨.hbm, 41, rfl⟩
abbrev main_c_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_6 : Ref sig .tc := ⟨.hbm, 46, rfl⟩
abbrev main_v34 : Ref sig .tc := ⟨.hbm, 47, rfl⟩
abbrev main_v35 : Ref sig .tc := ⟨.hbm, 48, rfl⟩
abbrev main_c_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_9 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_10 : Ref sig .tc := ⟨.hbm, 68, rfl⟩
abbrev main_v52 : Ref sig .tc := ⟨.hbm, 69, rfl⟩
abbrev main_cst_11 : Ref sig .tc := ⟨.hbm, 70, rfl⟩
abbrev main_v53 : Ref sig .tc := ⟨.hbm, 71, rfl⟩
abbrev main_v54 : Ref sig .tc := ⟨.hbm, 72, rfl⟩
abbrev main_cst_12 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_cst_13 : Ref sig .tc := ⟨.hbm, 95, rfl⟩
abbrev main_v76 : Ref sig .tc := ⟨.hbm, 96, rfl⟩
abbrev main_v77 : Ref sig .tc := ⟨.hbm, 97, rfl⟩
abbrev main_cst_14 : Ref sig .tc := ⟨.hbm, 98, rfl⟩
abbrev main_v78 : Ref sig .tc := ⟨.hbm, 99, rfl⟩
abbrev main_v79 : Ref sig .tc := ⟨.hbm, 100, rfl⟩
abbrev main_cst_15 : Ref sig .tc := ⟨.hbm, 101, rfl⟩
abbrev main_v80 : Ref sig .tc := ⟨.hbm, 102, rfl⟩
abbrev main_v81 : Ref sig .tc := ⟨.hbm, 103, rfl⟩
abbrev main_cst_16 : Ref sig .tc := ⟨.hbm, 104, rfl⟩
abbrev main_v82 : Ref sig .tc := ⟨.hbm, 105, rfl⟩
abbrev main_v83 : Ref sig .tc := ⟨.hbm, 106, rfl⟩
abbrev main_cst_17 : Ref sig .tc := ⟨.hbm, 107, rfl⟩
abbrev main_cst_18 : Ref sig .tc := ⟨.hbm, 108, rfl⟩
abbrev main_call0_v0 : Ref sig .tc := ⟨.hbm, 109, rfl⟩
abbrev main_call0_v1 : Ref sig .tc := ⟨.hbm, 110, rfl⟩
abbrev main_call0_v2 : Ref sig .tc := ⟨.hbm, 111, rfl⟩
abbrev main_call0_v3 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_19 : Ref sig .tc := ⟨.hbm, 116, rfl⟩
abbrev main_v87 : Ref sig .tc := ⟨.hbm, 117, rfl⟩
abbrev main_c_20 : Ref sig .tc := ⟨.hbm, 118, rfl⟩
abbrev main_call1_v0 : Ref sig .tc := ⟨.hbm, 119, rfl⟩
abbrev main_call1_v1 : Ref sig .tc := ⟨.hbm, 120, rfl⟩
abbrev main_call1_v2 : Ref sig .tc := ⟨.hbm, 121, rfl⟩
abbrev main_call1_v3 : Ref sig .tc := ⟨.hbm, 122, rfl⟩
abbrev main_call1_v4 : Ref sig .tc := ⟨.hbm, 123, rfl⟩
abbrev main_call1_v5 : Ref sig .tc := ⟨.hbm, 124, rfl⟩
abbrev main_call1_v6 : Ref sig .tc := ⟨.hbm, 125, rfl⟩
abbrev main_call1_v7 : Ref sig .tc := ⟨.hbm, 126, rfl⟩
abbrev main_call1_v8 : Ref sig .tc := ⟨.hbm, 127, rfl⟩
abbrev main_call1_c : Ref sig .tc := ⟨.hbm, 128, rfl⟩
abbrev main_call1_v9 : Ref sig .tc := ⟨.hbm, 129, rfl⟩
abbrev main_call1_v10 : Ref sig .tc := ⟨.hbm, 130, rfl⟩
abbrev main_call1_v11 : Ref sig .tc := ⟨.hbm, 131, rfl⟩
abbrev main_call1_c_0 : Ref sig .tc := ⟨.hbm, 132, rfl⟩
abbrev main_call1_v12 : Ref sig .tc := ⟨.hbm, 133, rfl⟩
abbrev main_call1_v13 : Ref sig .tc := ⟨.hbm, 134, rfl⟩
abbrev main_v88 : Ref sig .tc := ⟨.hbm, 135, rfl⟩
abbrev main_c_21 : Ref sig .tc := ⟨.hbm, 136, rfl⟩
abbrev main_call2_v0 : Ref sig .tc := ⟨.hbm, 137, rfl⟩
abbrev main_call2_c : Ref sig .tc := ⟨.hbm, 138, rfl⟩
abbrev main_call2_v1 : Ref sig .tc := ⟨.hbm, 139, rfl⟩
abbrev main_call2_c_0 : Ref sig .tc := ⟨.hbm, 140, rfl⟩
abbrev main_call2_v2 : Ref sig .tc := ⟨.hbm, 141, rfl⟩
abbrev main_call2_v3 : Ref sig .tc := ⟨.hbm, 142, rfl⟩
abbrev main_call2_v4 : Ref sig .tc := ⟨.hbm, 143, rfl⟩
abbrev main_call2_c_1 : Ref sig .tc := ⟨.hbm, 144, rfl⟩
abbrev main_call2_v5 : Ref sig .tc := ⟨.hbm, 145, rfl⟩
abbrev main_call2_v6 : Ref sig .tc := ⟨.hbm, 146, rfl⟩
abbrev main_call2_c_2 : Ref sig .tc := ⟨.hbm, 147, rfl⟩
abbrev main_call2_v7 : Ref sig .tc := ⟨.hbm, 148, rfl⟩
abbrev main_call2_v8 : Ref sig .tc := ⟨.hbm, 149, rfl⟩
abbrev main_call2_c_3 : Ref sig .tc := ⟨.hbm, 150, rfl⟩
abbrev main_call2_v9 : Ref sig .tc := ⟨.hbm, 151, rfl⟩
abbrev main_call2_v10 : Ref sig .tc := ⟨.hbm, 152, rfl⟩
abbrev main_call2_v11 : Ref sig .tc := ⟨.hbm, 153, rfl⟩
abbrev main_call2_v12 : Ref sig .tc := ⟨.hbm, 154, rfl⟩
abbrev main_call2_v13 : Ref sig .tc := ⟨.hbm, 155, rfl⟩
abbrev main_call2_v14 : Ref sig .tc := ⟨.hbm, 156, rfl⟩
abbrev main_v89 : Ref sig .tc := ⟨.hbm, 157, rfl⟩
abbrev main_v90 : Ref sig .tc := ⟨.hbm, 158, rfl⟩
abbrev main_v91 : Ref sig .tc := ⟨.hbm, 159, rfl⟩
abbrev main_v92 : Ref sig .tc := ⟨.hbm, 160, rfl⟩
abbrev main_v93 : Ref sig .tc := ⟨.hbm, 161, rfl⟩
abbrev main_v94 : Ref sig .tc := ⟨.hbm, 162, rfl⟩
abbrev main_v95 : Ref sig .tc := ⟨.hbm, 163, rfl⟩
abbrev main_v96 : Ref sig .tc := ⟨.hbm, 164, rfl⟩
abbrev main_v97 : Ref sig .tc := ⟨.hbm, 165, rfl⟩
abbrev main_v98 : Ref sig .tc := ⟨.hbm, 166, rfl⟩
abbrev main_v99 : Ref sig .tc := ⟨.hbm, 167, rfl⟩
abbrev main_v100 : Ref sig .tc := ⟨.hbm, 168, rfl⟩
abbrev main_v101 : Ref sig .tc := ⟨.hbm, 169, rfl⟩
abbrev main_v102 : Ref sig .tc := ⟨.hbm, 170, rfl⟩
abbrev main_v103 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_v107 : Ref sig .tc := ⟨.hbm, 175, rfl⟩
abbrev main_v108 : Ref sig .tc := ⟨.hbm, 176, rfl⟩
abbrev main_v109 : Ref sig .tc := ⟨.hbm, 177, rfl⟩
abbrev main_v110 : Ref sig .tc := ⟨.hbm, 178, rfl⟩
abbrev main_v111 : Ref sig .tc := ⟨.hbm, 179, rfl⟩
abbrev main_v112 : Ref sig .tc := ⟨.hbm, 180, rfl⟩
abbrev main_cst_22 : Ref sig .tc := ⟨.hbm, 181, rfl⟩
abbrev main_v113 : Ref sig .tc := ⟨.hbm, 182, rfl⟩
abbrev main_v114 : Ref sig .tc := ⟨.hbm, 183, rfl⟩
abbrev main_cst_23 : Ref sig .tc := ⟨.hbm, 184, rfl⟩
abbrev main_v115 : Ref sig .tc := ⟨.hbm, 185, rfl⟩
abbrev main_v116 : Ref sig .tc := ⟨.hbm, 186, rfl⟩
abbrev main_cst_24 : Ref sig .tc := ⟨.hbm, 187, rfl⟩
abbrev main_v117 : Ref sig .tc := ⟨.hbm, 188, rfl⟩
abbrev main_v118 : Ref sig .tc := ⟨.hbm, 189, rfl⟩
abbrev main_cst_25 : Ref sig .tc := ⟨.hbm, 190, rfl⟩
abbrev main_v119 : Ref sig .tc := ⟨.hbm, 191, rfl⟩
abbrev main_v120 : Ref sig .tc := ⟨.hbm, 192, rfl⟩
abbrev main_cst_26 : Ref sig .tc := ⟨.hbm, 193, rfl⟩
abbrev main_cst_27 : Ref sig .tc := ⟨.hbm, 194, rfl⟩
abbrev main_call3_v0 : Ref sig .tc := ⟨.hbm, 195, rfl⟩
abbrev main_call3_v1 : Ref sig .tc := ⟨.hbm, 196, rfl⟩
abbrev main_call3_v2 : Ref sig .tc := ⟨.hbm, 197, rfl⟩
abbrev main_call3_v3 : Ref sig .tc := ⟨.hbm, 198, rfl⟩
abbrev main_v121 : Ref sig .tc := ⟨.hbm, 199, rfl⟩
abbrev main_v122 : Ref sig .tc := ⟨.hbm, 200, rfl⟩
abbrev main_v123 : Ref sig .tc := ⟨.hbm, 201, rfl⟩
abbrev main_cst_28 : Ref sig .tc := ⟨.hbm, 202, rfl⟩
abbrev main_v124 : Ref sig .tc := ⟨.hbm, 203, rfl⟩
abbrev main_v125 : Ref sig .tc := ⟨.hbm, 204, rfl⟩
abbrev main_v126 : Ref sig .tc := ⟨.hbm, 205, rfl⟩
abbrev main_cst_29 : Ref sig .tc := ⟨.hbm, 206, rfl⟩
abbrev main_v127 : Ref sig .tc := ⟨.hbm, 207, rfl⟩
abbrev main_v128 : Ref sig .tc := ⟨.hbm, 208, rfl⟩
abbrev main_call4_cst : Ref sig .tc := ⟨.hbm, 209, rfl⟩
abbrev main_call4_v0 : Ref sig .tc := ⟨.hbm, 210, rfl⟩
abbrev main_v129 : Ref sig .tc := ⟨.hbm, 211, rfl⟩
abbrev main_cst_30 : Ref sig .tc := ⟨.hbm, 212, rfl⟩
abbrev main_v130 : Ref sig .tc := ⟨.hbm, 213, rfl⟩
abbrev main_cst_31 : Ref sig .tc := ⟨.hbm, 214, rfl⟩
abbrev main_v131 : Ref sig .tc := ⟨.hbm, 215, rfl⟩
abbrev main_v132 : Ref sig .tc := ⟨.hbm, 216, rfl⟩
abbrev main_cst_32 : Ref sig .tc := ⟨.hbm, 217, rfl⟩
abbrev main_v133 : Ref sig .tc := ⟨.hbm, 218, rfl⟩
abbrev main_cst_33 : Ref sig .tc := ⟨.hbm, 219, rfl⟩
abbrev main_v134 : Ref sig .tc := ⟨.hbm, 220, rfl⟩

abbrev nD : Nat := 1
abbrev τ : Topo := Topo.v7x

variable {F : FTy → Type} [FloatOps F]

class Facts₀ : Prop where
  shapeCasts_S8x64x64x64_S8x64x4096 : S8x64x64x64.ShapeCasts S8x64x4096
  reducesTo_S8x64x4096_S8x4096_d1 : S8x64x4096.ReducesTo [1] S8x4096
  h_S_ : 0 < S_.numel
  bcast_S8x4096_S8x1x4096_0_2 : S8x4096.BroadcastsInDim S8x1x4096 (![0, 2] : Fin 2 → Fin S8x1x4096.rank)
  bcast_S_S8x1x4096 : S_.BroadcastsInDim S8x1x4096 (![] : Fin 0 → Fin S8x1x4096.rank)
  bcast_S8x1x4096_S8x64x4096_0_1_2 : S8x1x4096.BroadcastsInDim S8x64x4096 (![0, 1, 2] : Fin 3 → Fin S8x64x4096.rank)
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  slices_S8x2x2048_S8x1x2048_0_0_0 : S8x2x2048.Slices ![0, 0, 0] S8x1x2048
  shapeCasts_S8x1x2048_S8x2048 : S8x1x2048.ShapeCasts S8x2048
  slices_S8x2x2048_S8x1x2048_0_1_0 : S8x2x2048.Slices ![0, 1, 0] S8x1x2048
  concatenates_S8x2048x1_S8x2048x1_S8x2048x2_d2 : Shape.Concatenates [S8x2048x1, S8x2048x1] S8x2048x2 2
  reducesTo_S8x64x2048_S8x2048_d1 : S8x64x2048.ReducesTo [1] S8x2048
  bcast_S8x2048_S8x1x2048_0_2 : S8x2048.BroadcastsInDim S8x1x2048 (![0, 2] : Fin 2 → Fin S8x1x2048.rank)
  bcast_S_S8x1x2048 : S_.BroadcastsInDim S8x1x2048 (![] : Fin 0 → Fin S8x1x2048.rank)
  bcast_S8x1x2048_S8x64x2048_0_1_2 : S8x1x2048.BroadcastsInDim S8x64x2048 (![0, 1, 2] : Fin 3 → Fin S8x64x2048.rank)
  bcast_S64_S64x64_0 : S64.BroadcastsInDim S64x64 (![0] : Fin 1 → Fin S64x64.rank)
  shapeCasts_S64x64_S4096 : S64x64.ShapeCasts S4096
  shapeCasts_S64_S1x64 : S64.ShapeCasts S1x64
  bcast_S1x64_S64x64_0_1 : S1x64.BroadcastsInDim S64x64 (![0, 1] : Fin 2 → Fin S64x64.rank)
  bcast_S4096_S1x4096_1 : S4096.BroadcastsInDim S1x4096 (![1] : Fin 1 → Fin S1x4096.rank)
  concatenates_S1x4096_S1x4096_S2x4096_d0 : Shape.Concatenates [S1x4096, S1x4096] S2x4096 0
  bcast_S8x2x2048_S8x2x2048x1_0_1_2 : S8x2x2048.BroadcastsInDim S8x2x2048x1 (![0, 1, 2] : Fin 3 → Fin S8x2x2048x1.rank)
  bcast_S2x4096_S2x1x4096_0_2 : S2x4096.BroadcastsInDim S2x1x4096 (![0, 2] : Fin 2 → Fin S2x1x4096.rank)
  bcast_S2x1x4096_S1x2x1x4096_1_2_3 : S2x1x4096.BroadcastsInDim S1x2x1x4096 (![1, 2, 3] : Fin 3 → Fin S1x2x1x4096.rank)
  bcast_S8x2x2048x1_S8x2x2048x4096_0_1_2_3 : S8x2x2048x1.BroadcastsInDim S8x2x2048x4096 (![0, 1, 2, 3] : Fin 4 → Fin S8x2x2048x4096.rank)
  bcast_S1x2x1x4096_S8x2x2048x4096_0_1_2_3 : S1x2x1x4096.BroadcastsInDim S8x2x2048x4096 (![0, 1, 2, 3] : Fin 4 → Fin S8x2x2048x4096.rank)
  reducesTo_S8x2x2048x4096_S8x2048x4096_d1 : S8x2x2048x4096.ReducesTo [1] S8x2048x4096
  bcast_S_S8x2048x4096 : S_.BroadcastsInDim S8x2048x4096 (![] : Fin 0 → Fin S8x2048x4096.rank)
  bcast_S_S2048x4096 : S_.BroadcastsInDim S2048x4096 (![] : Fin 0 → Fin S2048x4096.rank)
  bcast_S2048x4096_S8x2048x4096_1_2 : S2048x4096.BroadcastsInDim S8x2048x4096 (![1, 2] : Fin 2 → Fin S8x2048x4096.rank)
  reducesTo_S8x2048x4096_S8x2048_d2 : S8x2048x4096.ReducesTo [2] S8x2048
  bcast_S8x2048_S1x8x2048_1_2 : S8x2048.BroadcastsInDim S1x8x2048 (![1, 2] : Fin 2 → Fin S1x8x2048.rank)
  concatenates_S1x8x2048_S1x8x2048_S2x8x2048_d0 : Shape.Concatenates [S1x8x2048, S1x8x2048] S2x8x2048 0
  transposes_S2x8x2048_S8x2x2048_1_0_2 : S2x8x2048.Transposes [1, 0, 2] S8x2x2048
  reducesTo_S8x2048_S8_d1 : S8x2048.ReducesTo [1] S8
  bcast_S_S8 : S_.BroadcastsInDim S8 (![] : Fin 0 → Fin S8.rank)
  reducesTo_S8_S_d0 : S8.ReducesTo [0] S_
  gather_S8x64x4096_S8x2048x1_S8x64x2048_1_2_0_0_2_2_1641_wf : GatherDims.WF S8x64x4096 S8x2048x1 S8x64x2048 [1] [2] [0] [2] [0] 2 ![1, 64, 1]
  gather_S8x64x64x64_S8x2048x2_S8x64x2048_1_23_0_0_23_2_16411_wf : GatherDims.WF S8x64x64x64 S8x2048x2 S8x64x2048 [1] [2, 3] [0] [2, 3] [0] 2 ![1, 64, 1, 1]
  dot_S8x64x2048_S8x64x4096_S8x2048x4096_1_1_2_2_0_0_wf : DotDims.WF S8x64x2048 S8x64x4096 S8x2048x4096 [1] [1] [2] [2] [0] [0]

variable [Facts₀]

def gather_S8x64x4096_S8x2048x1_S8x64x2048_1_2_0_0_2_2_1641 : GatherDims S8x64x4096 S8x2048x1 S8x64x2048 where
  offsetDims := [1]
  collapsedSliceDims := [2]
  operandBatchingDims := [0]
  startIndicesBatchingDims := [0]
  startIndexMap := [2]
  indexVectorDim := 2
  sliceSizes := ![1, 64, 1]
  wf := gather_S8x64x4096_S8x2048x1_S8x64x2048_1_2_0_0_2_2_1641_wf
def gather_S8x64x64x64_S8x2048x2_S8x64x2048_1_23_0_0_23_2_16411 : GatherDims S8x64x64x64 S8x2048x2 S8x64x2048 where
  offsetDims := [1]
  collapsedSliceDims := [2, 3]
  operandBatchingDims := [0]
  startIndicesBatchingDims := [0]
  startIndexMap := [2, 3]
  indexVectorDim := 2
  sliceSizes := ![1, 64, 1, 1]
  wf := gather_S8x64x64x64_S8x2048x2_S8x64x2048_1_23_0_0_23_2_16411_wf
def dot_S8x64x2048_S8x64x4096_S8x2048x4096_1_1_2_2_0_0 : DotDims S8x64x2048 S8x64x4096 S8x2048x4096 where
  lhsContracting := [1]
  rhsContracting := [1]
  lhsNonContracting := [2]
  rhsNonContracting := [2]
  lhsBatch := [0]
  rhsBatch := [0]
  wf := dot_S8x64x2048_S8x64x4096_S8x2048x4096_1_1_2_2_0_0_wf

class Facts : Prop extends Facts₀ where

variable [Facts]
-- ==== Proof.KI0Base.lean ====
import proofs.«417968_j21749714387505_1_alg».proof.Proof.Gen.KernelIdeal.Launch
import proofs.«417968_j21749714387505_1_alg».proof.Proof.Gen.KernelIdeal.Skeleton
import proofs.«417968_j21749714387505_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 8 = 0 :=
  (by decide +kernel : ∀ t : Fin grid0.N, cond0_0 (grid0.coords t) ↔ t.val % 8 = 0)

abbrev cond0_1 (i : grid0.Coords) : Prop := k0_cond2 i = 1#1

theorem hcond0_1 : ∀ t : Fin cfg0.N, cond0_1 (grid0.coords t) ↔ t.val % 8 = 7 :=
  (by decide +kernel : ∀ t : Fin grid0.N, cond0_1 (grid0.coords t) ↔ t.val % 8 = 7)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel

theorem idleAt0_4 : ∀ t : Fin cfg0.N, ¬cond0_1 (grid0.coords t) → cfg0.idle 4 (grid0.coords t) = true := by decide +kernel

theorem noFlush0_4 : ∀ t : Fin cfg0.N, ¬cond0_1 (grid0.coords t) → (cfg0.win 4).flush t = false := by decide +kernel

theorem liveAt0_4 : ∀ t : Fin cfg0.N, cond0_1 (grid0.coords t) → cfg0.idle 4 (grid0.coords t) = false := by decide +kernel

abbrev VO0_4 : View sig .tc .vmem S1x1x2048 .f32 := (Memref.whole cc0_stg4_0 : Memref sig .tc .vmem S1x1x2048 .f32).view
abbrev ms0_0 (t : Fin cfg0.N) : Memref sig .tc .vmem S1x64x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x64x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x2048 .f32 := win0_4.stage (cfg0.slots t 4)
abbrev hs0_4 (t : Fin cfg0.N) : (ms0_4 t).IsWhole := hstage0_4 ((cfg0.slots t 4).cast nbuf0_4)

abbrev scM0_0 : Memref sig .tc .vmem S1x2048 .f32 := Memref.whole cc0_scratch0
abbrev VS0_0 : View sig .tc .vmem S1x2048 .f32 := scM0_0.view

def otherScoped0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

theorem PhiA0_eq (c : Dev nD) :
    (Pipeline.ΦA spec0 c : sProp 𝕄)
      = iprop(iprop((∃ d, owns (c : Thread nD τ) scM0_0 fullShare d) ∗ otherScoped0 (F := F) c) ∗ (∃ r, prngReg c r)) := by
  unfold Pipeline.ΦA otherScoped0; rw [scopedRest0_eq]; simp only [scM0_0, owns_whole]; try rfl

end Cert.KernelIdeal.Hand

end
-- ==== Proof.KI0RunA.lean ====
import proofs.«417968_j21749714387505_1_alg».proof.Proof.KI0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in

noncomputable def kernelRun0_A (c : Dev nD) (i : grid0.Coords) (arg2 : Memref sig .tc .vmem S1x64x2048 .bf16) (harg2 : arg2.IsWhole) (arg3 : Memref sig .tc .vmem S1x64x512 .bf16) (harg3 : arg3.IsWhole) (arg4 : Memref sig .tc .vmem S1x2x2048 .f32) (harg4 : arg4.IsWhole) (arg5 : Memref sig .tc .vmem S2x512 .f32) (harg5 : arg5.IsWhole) (arg6 : Memref sig .tc .vmem S1x1x2048 .f32) (harg6 : arg6.IsWhole) (arg7 : Memref sig .tc .vmem S1x2048 .f32) (harg7 : arg7.IsWhole) (hc0 : cond0_0 i) (hc1 : ¬cond0_1 i)
    (x0 : Vec F S1x64x2048 .bf16) (x1 : Vec F S1x64x512 .bf16) (x2 : Vec F S1x2x2048 .f32) (x3 : Vec F S2x512 .f32) :
    Σ' (L4 : List (View.Piece (Elt F) S1x1x2048 .f32)), { LS0 : List (View.Piece (Elt F) S1x2048 .f32) //
      ∀ (xi4 : Vec F S1x1x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__masked_min_kernel i arg2 harg2 arg3 harg3 arg4 harg4 arg5 harg5 arg6 harg6 arg7 harg7) K } := by
  refine ⟨[], ?_, fun xi4 E K => ?run⟩
  case run =>
    simp only [cc0__masked_min_kernel_eq_skeleton]; unfold cc0__masked_min_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KI0RunB.lean ====
import proofs.«417968_j21749714387505_1_alg».proof.Proof.KI0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in

noncomputable def kernelRun0_B (c : Dev nD) (i : grid0.Coords) (arg2 : Memref sig .tc .vmem S1x64x2048 .bf16) (harg2 : arg2.IsWhole) (arg3 : Memref sig .tc .vmem S1x64x512 .bf16) (harg3 : arg3.IsWhole) (arg4 : Memref sig .tc .vmem S1x2x2048 .f32) (harg4 : arg4.IsWhole) (arg5 : Memref sig .tc .vmem S2x512 .f32) (harg5 : arg5.IsWhole) (arg6 : Memref sig .tc .vmem S1x1x2048 .f32) (harg6 : arg6.IsWhole) (arg7 : Memref sig .tc .vmem S1x2048 .f32) (harg7 : arg7.IsWhole) (hc0 : ¬cond0_0 i) (hc1 : ¬cond0_1 i)
    (x0 : Vec F S1x64x2048 .bf16) (x1 : Vec F S1x64x512 .bf16) (x2 : Vec F S1x2x2048 .f32) (x3 : Vec F S2x512 .f32) (xs0 : Vec F S1x2048 .f32) :
    Σ' (L4 : List (View.Piece (Elt F) S1x1x2048 .f32)), { LS0 : List (View.Piece (Elt F) S1x2048 .f32) //
      ∀ (xi4 : Vec F S1x1x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__masked_min_kernel i arg2 harg2 arg3 harg3 arg4 harg4 arg5 harg5 arg6 harg6 arg7 harg7) K } := by
  refine ⟨[], ?_, fun xi4 E K => ?run⟩
  case run =>
    simp only [cc0__masked_min_kernel_eq_skeleton]; unfold cc0__masked_min_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KI0RunC.lean ====
import proofs.«417968_j21749714387505_1_alg».proof.Proof.KI0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in

noncomputable def kernelRun0_C (c : Dev nD) (i : grid0.Coords) (arg2 : Memref sig .tc .vmem S1x64x2048 .bf16) (harg2 : arg2.IsWhole) (arg3 : Memref sig .tc .vmem S1x64x512 .bf16) (harg3 : arg3.IsWhole) (arg4 : Memref sig .tc .vmem S1x2x2048 .f32) (harg4 : arg4.IsWhole) (arg5 : Memref sig .tc .vmem S2x512 .f32) (harg5 : arg5.IsWhole) (arg6 : Memref sig .tc .vmem S1x1x2048 .f32) (harg6 : arg6.IsWhole) (arg7 : Memref sig .tc .vmem S1x2048 .f32) (harg7 : arg7.IsWhole) (hc0 : ¬cond0_0 i) (hc1 : cond0_1 i)
    (x0 : Vec F S1x64x2048 .bf16) (x1 : Vec F S1x64x512 .bf16) (x2 : Vec F S1x2x2048 .f32) (x3 : Vec F S2x512 .f32) (xs0 : Vec F S1x2048 .f32) :
    Σ' (L4 : List (View.Piece (Elt F) S1x1x2048 .f32)), { LS0 : List (View.Piece (Elt F) S1x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__masked_min_kernel i arg2 harg2 arg3 harg3 arg4 harg4 arg5 harg5 arg6 harg6 arg7 harg7) K } := by
  refine ⟨?_, ?_, fun E K => ?run⟩
  case run =>
    simp only [cc0__masked_min_kernel_eq_skeleton]; unfold cc0__masked_min_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Hand

end
-- ==== Proof.KI0Defs.lean ====
import proofs.«417968_j21749714387505_1_alg».proof.Proof.KI0RunA
import proofs.«417968_j21749714387505_1_alg».proof.Proof.KI0RunB
import proofs.«417968_j21749714387505_1_alg».proof.Proof.KI0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem scover0_A_0 (c : Dev nD) (i : grid0.Coords) (arg2 : Memref sig .tc .vmem S1x64x2048 .bf16) (harg2 : arg2.IsWhole) (arg3 : Memref sig .tc .vmem S1x64x512 .bf16) (harg3 : arg3.IsWhole) (arg4 : Memref sig .tc .vmem S1x2x2048 .f32) (harg4 : arg4.IsWhole) (arg5 : Memref sig .tc .vmem S2x512 .f32) (harg5 : arg5.IsWhole) (arg6 : Memref sig .tc .vmem S1x1x2048 .f32) (harg6 : arg6.IsWhole) (arg7 : Memref sig .tc .vmem S1x2048 .f32) (harg7 : arg7.IsWhole) (hc0 : cond0_0 i) (hc1 : ¬cond0_1 i)
    (x0 : Vec F S1x64x2048 .bf16) (x1 : Vec F S1x64x512 .bf16) (x2 : Vec F S1x2x2048 .f32) (x3 : Vec F S2x512 .f32) (y : S1x2048.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S1x2048.size (by sl_kernel_rfl) y

def sout0_A_0 (c : Dev nD) (i : grid0.Coords) (arg2 : Memref sig .tc .vmem S1x64x2048 .bf16) (harg2 : arg2.IsWhole) (arg3 : Memref sig .tc .vmem S1x64x512 .bf16) (harg3 : arg3.IsWhole) (arg4 : Memref sig .tc .vmem S1x2x2048 .f32) (harg4 : arg4.IsWhole) (arg5 : Memref sig .tc .vmem S2x512 .f32) (harg5 : arg5.IsWhole) (arg6 : Memref sig .tc .vmem S1x1x2048 .f32) (harg6 : arg6.IsWhole) (arg7 : Memref sig .tc .vmem S1x2048 .f32) (harg7 : arg7.IsWhole) (hc0 : cond0_0 i) (hc1 : ¬cond0_1 i)
    (x0 : Vec F S1x64x2048 .bf16) (x1 : Vec F S1x64x512 .bf16) (x2 : Vec F S1x2x2048 .f32) (x3 : Vec F S2x512 .f32) : Vec F S1x2048 .f32 :=
  VS0_0.read (Elt F) (VS0_0.writes (Elt F) VS0_0.junk (kernelRun0_A c i arg2 harg2 arg3 harg3 arg4 harg4 arg5 harg5 arg6 harg6 arg7 harg7 hc0 hc1 x0 x1 x2 x3).2.1)

def out0_A_4 (c : Dev nD) (i : grid0.Coords) (arg2 : Memref sig .tc .vmem S1x64x2048 .bf16) (harg2 : arg2.IsWhole) (arg3 : Memref sig .tc .vmem S1x64x512 .bf16) (harg3 : arg3.IsWhole) (arg4 : Memref sig .tc .vmem S1x2x2048 .f32) (harg4 : arg4.IsWhole) (arg5 : Memref sig .tc .vmem S2x512 .f32) (harg5 : arg5.IsWhole) (arg6 : Memref sig .tc .vmem S1x1x2048 .f32) (harg6 : arg6.IsWhole) (arg7 : Memref sig .tc .vmem S1x2048 .f32) (harg7 : arg7.IsWhole) (hc0 : cond0_0 i) (hc1 : ¬cond0_1 i)
    (x0 : Vec F S1x64x2048 .bf16) (x1 : Vec F S1x64x512 .bf16) (x2 : Vec F S1x2x2048 .f32) (x3 : Vec F S2x512 .f32) : Vec F S1x1x2048 .f32 :=
  VO0_4.read (Elt F) (VO0_4.writes (Elt F) VO0_4.junk (kernelRun0_A c i arg2 harg2 arg3 harg3 arg4 harg4 arg5 harg5 arg6 harg6 arg7 harg7 hc0 hc1 x0 x1 x2 x3).1)

theorem scover0_B_0 (c : Dev nD) (i : grid0.Coords) (arg2 : Memref sig .tc .vmem S1x64x2048 .bf16) (harg2 : arg2.IsWhole) (arg3 : Memref sig .tc .vmem S1x64x512 .bf16) (harg3 : arg3.IsWhole) (arg4 : Memref sig .tc .vmem S1x2x2048 .f32) (harg4 : arg4.IsWhole) (arg5 : Memref sig .tc .vmem S2x512 .f32) (harg5 : arg5.IsWhole) (arg6 : Memref sig .tc .vmem S1x1x2048 .f32) (harg6 : arg6.IsWhole) (arg7 : Memref sig .tc .vmem S1x2048 .f32) (harg7 : arg7.IsWhole) (hc0 : ¬cond0_0 i) (hc1 : ¬cond0_1 i)
    (x0 : Vec F S1x64x2048 .bf16) (x1 : Vec F S1x64x512 .bf16) (x2 : Vec F S1x2x2048 .f32) (x3 : Vec F S2x512 .f32) (xs0 : Vec F S1x2048 .f32) (y : S1x2048.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S1x2048.size (by sl_kernel_rfl) y

def sout0_B_0 (c : Dev nD) (i : grid0.Coords) (arg2 : Memref sig .tc .vmem S1x64x2048 .bf16) (harg2 : arg2.IsWhole) (arg3 : Memref sig .tc .vmem S1x64x512 .bf16) (harg3 : arg3.IsWhole) (arg4 : Memref sig .tc .vmem S1x2x2048 .f32) (harg4 : arg4.IsWhole) (arg5 : Memref sig .tc .vmem S2x512 .f32) (harg5 : arg5.IsWhole) (arg6 : Memref sig .tc .vmem S1x1x2048 .f32) (harg6 : arg6.IsWhole) (arg7 : Memref sig .tc .vmem S1x2048 .f32) (harg7 : arg7.IsWhole) (hc0 : ¬cond0_0 i) (hc1 : ¬cond0_1 i)
    (x0 : Vec F S1x64x2048 .bf16) (x1 : Vec F S1x64x512 .bf16) (x2 : Vec F S1x2x2048 .f32) (x3 : Vec F S2x512 .f32) (xs0 : Vec F S1x2048 .f32) : Vec F S1x2048 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).2.1)

def out0_B_4 (c : Dev nD) (i : grid0.Coords) (arg2 : Memref sig .tc .vmem S1x64x2048 .bf16) (harg2 : arg2.IsWhole) (arg3 : Memref sig .tc .vmem S1x64x512 .bf16) (harg3 : arg3.IsWhole) (arg4 : Memref sig .tc .vmem S1x2x2048 .f32) (harg4 : arg4.IsWhole) (arg5 : Memref sig .tc .vmem S2x512 .f32) (harg5 : arg5.IsWhole) (arg6 : Memref sig .tc .vmem S1x1x2048 .f32) (harg6 : arg6.IsWhole) (arg7 : Memref sig .tc .vmem S1x2048 .f32) (harg7 : arg7.IsWhole) (hc0 : ¬cond0_0 i) (hc1 : ¬cond0_1 i)
    (x0 : Vec F S1x64x2048 .bf16) (x1 : Vec F S1x64x512 .bf16) (x2 : Vec F S1x2x2048 .f32) (x3 : Vec F S2x512 .f32) (xs0 : Vec F S1x2048 .f32) : Vec F S1x1x2048 .f32 :=
  VO0_4.read (Elt F) (VO0_4.writes (Elt F) VO0_4.junk (kernelRun0_B c i arg2 harg2 arg3 harg3 arg4 harg4 arg5 harg5 arg6 harg6 arg7 harg7 hc0 hc1 x0 x1 x2 x3 xs0).1)

theorem scover0_C_0 (c : Dev nD) (i : grid0.Coords) (arg2 : Memref sig .tc .vmem S1x64x2048 .bf16) (harg2 : arg2.IsWhole) (arg3 : Memref sig .tc .vmem S1x64x512 .bf16) (harg3 : arg3.IsWhole) (arg4 : Memref sig .tc .vmem S1x2x2048 .f32) (harg4 : arg4.IsWhole) (arg5 : Memref sig .tc .vmem S2x512 .f32) (harg5 : arg5.IsWhole) (arg6 : Memref sig .tc .vmem S1x1x2048 .f32) (harg6 : arg6.IsWhole) (arg7 : Memref sig .tc .vmem S1x2048 .f32) (harg7 : arg7.IsWhole) (hc0 : ¬cond0_0 i) (hc1 : cond0_1 i)
    (x0 : Vec F S1x64x2048 .bf16) (x1 : Vec F S1x64x512 .bf16) (x2 : Vec F S1x2x2048 .f32) (x3 : Vec F S2x512 .f32) (xs0 : Vec F S1x2048 .f32) (y : S1x2048.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S1x2048.size (by sl_kernel_rfl) y

def sout0_C_0 (c : Dev nD) (i : grid0.Coords) (arg2 : Memref sig .tc .vmem S1x64x2048 .bf16) (harg2 : arg2.IsWhole) (arg3 : Memref sig .tc .vmem S1x64x512 .bf16) (harg3 : arg3.IsWhole) (arg4 : Memref sig .tc .vmem S1x2x2048 .f32) (harg4 : arg4.IsWhole) (arg5 : Memref sig .tc .vmem S2x512 .f32) (harg5 : arg5.IsWhole) (arg6 : Memref sig .tc .vmem S1x1x2048 .f32) (harg6 : arg6.IsWhole) (arg7 : Memref sig .tc .vmem S1x2048 .f32) (harg7 : arg7.IsWhole) (hc0 : ¬cond0_0 i) (hc1 : cond0_1 i)
    (x0 : Vec F S1x64x2048 .bf16) (x1 : Vec F S1x64x512 .bf16) (x2 : Vec F S1x2x2048 .f32) (x3 : Vec F S2x512 .f32) (xs0 : Vec F S1x2048 .f32) : Vec F S1x2048 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

def out0_C_4 (c : Dev nD) (i : grid0.Coords) (arg2 : Memref sig .tc .vmem S1x64x2048 .bf16) (harg2 : arg2.IsWhole) (arg3 : Memref sig .tc .vmem S1x64x512 .bf16) (harg3 : arg3.IsWhole) (arg4 : Memref sig .tc .vmem S1x2x2048 .f32) (harg4 : arg4.IsWhole) (arg5 : Memref sig .tc .vmem S2x512 .f32) (harg5 : arg5.IsWhole) (arg6 : Memref sig .tc .vmem S1x1x2048 .f32) (harg6 : arg6.IsWhole) (arg7 : Memref sig .tc .vmem S1x2048 .f32) (harg7 : arg7.IsWhole) (hc0 : ¬cond0_0 i) (hc1 : cond0_1 i)
    (x0 : Vec F S1x64x2048 .bf16) (x1 : Vec F S1x64x512 .bf16) (x2 : Vec F S1x2x2048 .f32) (x3 : Vec F S2x512 .f32) (xs0 : Vec F S1x2048 .f32) : Vec F S1x1x2048 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

theorem cover0_C_4 (c : Dev nD) (i : grid0.Coords) (arg2 : Memref sig .tc .vmem S1x64x2048 .bf16) (harg2 : arg2.IsWhole) (arg3 : Memref sig .tc .vmem S1x64x512 .bf16) (harg3 : arg3.IsWhole) (arg4 : Memref sig .tc .vmem S1x2x2048 .f32) (harg4 : arg4.IsWhole) (arg5 : Memref sig .tc .vmem S2x512 .f32) (harg5 : arg5.IsWhole) (arg6 : Memref sig .tc .vmem S1x1x2048 .f32) (harg6 : arg6.IsWhole) (arg7 : Memref sig .tc .vmem S1x2048 .f32) (harg7 : arg7.IsWhole) (hc0 : ¬cond0_0 i) (hc1 : cond0_1 i)
    (x0 : Vec F S1x64x2048 .bf16) (x1 : Vec F S1x64x512 .bf16) (x2 : Vec F S1x2x2048 .f32) (x3 : Vec F S2x512 .f32) (xs0 : Vec F S1x2048 .f32) (y : S1x1x2048.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S1x1x2048.size (by sl_kernel_rfl) y

def outsAt0 (c : Dev nD) : (n : ℕ) → n < cfg0.N → Vec F S1x1x2048 .f32 × Vec F S1x2048 .f32
  | 0, hn =>
    (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩),
     sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 8 = 0 then
      (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => (fun h => by (try dsimp only at h); omega) ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩),
       sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => (fun h => by (try dsimp only at h); omega) ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : (n + 1) % 8 = 7 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2,
         sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2,
         sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)

theorem outsAt0_A (c : Dev nD) (t : Fin cfg0.N) (h0 : t.val % 8 = 0) (h1 : ¬t.val % 8 = 7) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t) (iblk0 V c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans rfl

theorem outsAt0_B (c : Dev nD) (t : Fin cfg0.N) (h0 : ¬t.val % 8 = 0) (h1 : ¬t.val % 8 = 7) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ otherScoped0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ otherScoped0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ otherScoped0 (F := F) c) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

end Cert.KernelIdeal.Hand

end
-- ==== Proof.KI0Body.lean ====
import proofs.«417968_j21749714387505_1_alg».proof.Proof.KI0Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  rw [show (dat0 V c).leavesExact 2 t = owns (c : Thread nD τ) (ms0_2 t) fullShare ((dat0 V c).after 2 t) from by
      unfold Dat.leavesExact; rw [liveAt0_2 t], after0_2]
  rw [show (dat0 V c).leavesExact 3 t = owns (c : Thread nD τ) (ms0_3 t) fullShare ((dat0 V c).after 3 t) from by
      unfold Dat.leavesExact; rw [liveAt0_3 t], after0_3]
  by_cases h0 : t.val % 8 = 0
  · have h1 : ¬t.val % 8 = 7 := by omega
    rw [Dat.leavesExact_idle (dat0 V c) 4 t (idleAt0_4 t (fun h => h1 ((hcond0_1 t).mp h))) (noFlush0_4 t (fun h => h1 ((hcond0_1 t).mp h)))]
    rw [outsAt0_A V c t h0 h1]
    unfold sout0_A_0; (try dsimp only)
    by_cases hz : t.val = 0
    · rw [PhiS0_castSucc V c t, PhiS0_zero V c _ _ hz, PhiA0_eq]
      iintro ⟨⟨⟨HS0, Hoth⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A_0 c _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4
    · rw [PhiS0_castSucc V c t, PhiS0_pos V c _ _ hz]
      iintro ⟨⟨⟨HS0, Hoth⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A_0 c _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 8 = 7
    · rw [show (dat0 V c).leavesExact 4 t = owns (c : Thread nD τ) (ms0_4 t) fullShare ((dat0 V c).after 4 t) from by
        unfold Dat.leavesExact; rw [liveAt0_4 t ((hcond0_1 t).mpr h1)], after0_4]
      rw [outsAt0_C V c t h0 h1]
      unfold out0_C_4 sout0_C_0; (try dsimp only)
      rw [PhiS0_castSucc V c t, PhiS0_pos V c _ _ hz]
      iintro ⟨⟨⟨HS0, Hoth⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) (iblk0 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_C_0 c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _ _)
    · rw [Dat.leavesExact_idle (dat0 V c) 4 t (idleAt0_4 t (fun h => h1 ((hcond0_1 t).mp h))) (noFlush0_4 t (fun h => h1 ((hcond0_1 t).mp h)))]
      rw [outsAt0_B V c t h0 h1]
      unfold sout0_B_0; (try dsimp only)
      rw [PhiS0_castSucc V c t, PhiS0_pos V c _ _ hz]
      iintro ⟨⟨⟨HS0, Hoth⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B_0 c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 64 := N_0; omega), PhiA0_eq]
  iintro ⟨⟨HS0, Hoth⟩, Hg⟩
  isplitl [HS0 Hoth]
  · isplitl [HS0]
    · iexists _; iexact HS0
    iexact Hoth
  iexact Hg

end Cert.KernelIdeal.Hand

end
-- ==== Proof.KI1Base.lean ====
/-
  Region 1 of the kernel program (the second launch of the masked-minimum kernel, grid 8 × 8: image b, database tile k;
  point t = 8·b + k). What the body's two conditionals depend on, in closed form over the grid: the running minimum
  is reset at the first tile of an image (k = 0) and the output row is stored at the last (k = 7); the output window
  is idle, and not written back, at every other point.
-/
import proofs.«417968_j21749714387505_1_alg».proof.Proof.Gen.KernelIdeal.Launch
import proofs.«417968_j21749714387505_1_alg».proof.Proof.Gen.KernelIdeal.Skeleton
import proofs.«417968_j21749714387505_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The reset of the running minimum is taken: the tile coordinate is 0. -/
abbrev cond1_0 (i : grid1.Coords) : Prop := (Scalar.cmpi .ne (Scalar.extui (Scalar.cmpi .eq (BitVec.ofNat 32 (i 1).val) 0#32)) 0#32) = 1#1
/-- It holds exactly at the first tile of each image. -/
theorem hcond1_0 : ∀ t : Fin cfg1.N, cond1_0 (grid1.coords t) ↔ t.val % 8 = 0 :=
  (by decide +kernel : ∀ t : Fin grid1.N, cond1_0 (grid1.coords t) ↔ t.val % 8 = 0)

/-- The store of the output row is taken: the tile coordinate is 7. -/
abbrev cond1_1 (i : grid1.Coords) : Prop := k1_cond2 i = 1#1
/-- It holds exactly at the last tile of each image. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from the last tile the output window is idle … -/
theorem idleAt1_4 : ∀ t : Fin cfg1.N, ¬cond1_1 (grid1.coords t) → cfg1.idle 4 (grid1.coords t) = true := by decide +kernel
/-- … and not written back. -/
theorem noFlush1_4 : ∀ t : Fin cfg1.N, ¬cond1_1 (grid1.coords t) → (cfg1.win 4).flush t = false := by decide +kernel
/-- At the last tile it is live. -/
theorem liveAt1_4 : ∀ t : Fin cfg1.N, cond1_1 (grid1.coords t) → cfg1.idle 4 (grid1.coords t) = false := by decide +kernel

/-! ## The staging memrefs and the scratch -/

/-- One staging buffer of the output window, through which its contents are stated. -/
abbrev VO1_4 : View sig .tc .vmem S1x1x2048 .f32 := (Memref.whole cc1_stg4_0 : Memref sig .tc .vmem S1x1x2048 .f32).view
abbrev ms1_0 (t : Fin cfg1.N) : Memref sig .tc .vmem S1x64x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x64x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1x2048 .f32 := win1_4.stage (cfg1.slots t 4)
abbrev hs1_4 (t : Fin cfg1.N) : (ms1_4 t).IsWhole := hstage1_4 ((cfg1.slots t 4).cast nbuf1_4)
/-- The scratch row holding the running minimum: a whole scoped buffer of the kernel's own. -/
abbrev scM1_0 : Memref sig .tc .vmem S1x2048 .f32 := Memref.whole cc1_scratch0
abbrev VS1_0 : View sig .tc .vmem S1x2048 .f32 := scM1_0.view

/-- The core's other scoped buffers that this region stages nothing through (the first launch's staging buffers and
    scratch), each whole at some contents: they ride through the region untouched. -/
def otherScoped1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f))

/-- The class invariant gives the scratch as a memref owned at some contents, the other scoped buffers and the generator
    register, -/
theorem PhiA1_to (c : Dev nD) : (Pipeline.ΦA spec1 c : sProp 𝕄) ⊢ iprop(iprop((∃ d, owns (c : Thread nD τ) scM1_0 fullShare d) ∗ otherScoped1 (F := F) c) ∗ (∃ r, prngReg c r)) := by
  unfold Pipeline.ΦA otherScoped1; rw [scopedRest1_eq]; simp only [scM1_0, owns_whole]
  iintro ⟨⟨A0, A1, A2, A3, A4, A5, A6, A7, A8, A9, A10, AS⟩, Hg⟩
  isplitr [Hg]
  · isplitl [AS]; · iexact AS
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    iexact A10
  iexact Hg

/-- and is made of them. -/
theorem PhiA1_from (c : Dev nD) : iprop(iprop((∃ d, owns (c : Thread nD τ) scM1_0 fullShare d) ∗ otherScoped1 (F := F) c) ∗ (∃ r, prngReg c r)) ⊢ (Pipeline.ΦA spec1 c : sProp 𝕄) := by
  unfold Pipeline.ΦA otherScoped1; rw [scopedRest1_eq]; simp only [scM1_0, owns_whole]
  iintro ⟨⟨AS, A0, A1, A2, A3, A4, A5, A6, A7, A8, A9, A10⟩, Hg⟩
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    iexact AS
  iexact Hg

/-- The class invariant with the scratch as a memref owned at some contents, beside the other scoped buffers and the
    generator register. -/
theorem PhiA1_eq (c : Dev nD) :
    (Pipeline.ΦA spec1 c : sProp 𝕄)
      = iprop(iprop((∃ d, owns (c : Thread nD τ) scM1_0 fullShare d) ∗ otherScoped1 (F := F) c) ∗ (∃ r, prngReg c r)) :=
  equiv_iff.mp ⟨PhiA1_to c, PhiA1_from c⟩

end Cert.KernelIdeal.Hand

end
-- ==== Proof.KI1RunA.lean ====
/-
  The kernel body of region 1 at the first tile of an image (the reset is taken, the output row is not stored): on whole staging memrefs holding the four input blocks, the body runs to the
  end, leaves the inputs as they were, and leaves in the scratch row the pieces its stores wrote, found by running it symbolically.
-/
import proofs.«417968_j21749714387505_1_alg».proof.Proof.KI1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave (the output row is untouched: no piece) and in the scratch row (`LS0`), with the proof that the body runs to its end
    from the inputs at `x0 … x3` and hands everything back. -/
noncomputable def kernelRun1_A (c : Dev nD) (i : grid1.Coords) (arg2 : Memref sig .tc .vmem S1x64x2048 .bf16) (harg2 : arg2.IsWhole) (arg3 : Memref sig .tc .vmem S1x64x512 .bf16) (harg3 : arg3.IsWhole) (arg4 : Memref sig .tc .vmem S1x2x2048 .f32) (harg4 : arg4.IsWhole) (arg5 : Memref sig .tc .vmem S2x512 .f32) (harg5 : arg5.IsWhole) (arg6 : Memref sig .tc .vmem S1x1x2048 .f32) (harg6 : arg6.IsWhole) (arg7 : Memref sig .tc .vmem S1x2048 .f32) (harg7 : arg7.IsWhole) (hc0 : cond1_0 i) (hc1 : ¬cond1_1 i)
    (x0 : Vec F S1x64x2048 .bf16) (x1 : Vec F S1x64x512 .bf16) (x2 : Vec F S1x2x2048 .f32) (x3 : Vec F S2x512 .f32) :
    Σ' (L4 : List (View.Piece (Elt F) S1x1x2048 .f32)), { LS0 : List (View.Piece (Elt F) S1x2048 .f32) //
      ∀ (xi4 : Vec F S1x1x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__masked_min_kernel i arg2 harg2 arg3 harg3 arg4 harg4 arg5 harg5 arg6 harg6 arg7 harg7) K } := by
  refine ⟨[], ?_, fun xi4 E K => ?run⟩
  case run =>
    simp only [cc1__masked_min_kernel_eq_skeleton]; unfold cc1__masked_min_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KI1RunB.lean ====
/-
  The kernel body of region 1 at a middle tile (neither conditional is taken): on whole staging memrefs holding the four input blocks, the body runs to the
  end, leaves the inputs as they were, and leaves in the scratch row the pieces its stores wrote, found by running it symbolically.
-/
import proofs.«417968_j21749714387505_1_alg».proof.Proof.KI1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave (the output row is untouched: no piece) and in the scratch row (`LS0`), with the proof that the body runs to its end
    from the inputs at `x0 … x3`, the scratch at what the tile before left (`xs0`) and hands everything back. -/
noncomputable def kernelRun1_B (c : Dev nD) (i : grid1.Coords) (arg2 : Memref sig .tc .vmem S1x64x2048 .bf16) (harg2 : arg2.IsWhole) (arg3 : Memref sig .tc .vmem S1x64x512 .bf16) (harg3 : arg3.IsWhole) (arg4 : Memref sig .tc .vmem S1x2x2048 .f32) (harg4 : arg4.IsWhole) (arg5 : Memref sig .tc .vmem S2x512 .f32) (harg5 : arg5.IsWhole) (arg6 : Memref sig .tc .vmem S1x1x2048 .f32) (harg6 : arg6.IsWhole) (arg7 : Memref sig .tc .vmem S1x2048 .f32) (harg7 : arg7.IsWhole) (hc0 : ¬cond1_0 i) (hc1 : ¬cond1_1 i)
    (x0 : Vec F S1x64x2048 .bf16) (x1 : Vec F S1x64x512 .bf16) (x2 : Vec F S1x2x2048 .f32) (x3 : Vec F S2x512 .f32) (xs0 : Vec F S1x2048 .f32) :
    Σ' (L4 : List (View.Piece (Elt F) S1x1x2048 .f32)), { LS0 : List (View.Piece (Elt F) S1x2048 .f32) //
      ∀ (xi4 : Vec F S1x1x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__masked_min_kernel i arg2 harg2 arg3 harg3 arg4 harg4 arg5 harg5 arg6 harg6 arg7 harg7) K } := by
  refine ⟨[], ?_, fun xi4 E K => ?run⟩
  case run =>
    simp only [cc1__masked_min_kernel_eq_skeleton]; unfold cc1__masked_min_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KI1RunC.lean ====
/-
  The kernel body of region 1 at the last tile of an image (the output row is stored): on whole staging memrefs holding the four input blocks, the body runs to the
  end, leaves the inputs as they were, and leaves in the scratch row and in the output row the pieces its stores wrote, found by running it symbolically.
-/
import proofs.«417968_j21749714387505_1_alg».proof.Proof.KI1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output row (`L4`) and in the scratch row (`LS0`), with the proof that the body runs to its end
    from the inputs at `x0 … x3`, the scratch at what the tile before left (`xs0`) and hands everything back. -/
noncomputable def kernelRun1_C (c : Dev nD) (i : grid1.Coords) (arg2 : Memref sig .tc .vmem S1x64x2048 .bf16) (harg2 : arg2.IsWhole) (arg3 : Memref sig .tc .vmem S1x64x512 .bf16) (harg3 : arg3.IsWhole) (arg4 : Memref sig .tc .vmem S1x2x2048 .f32) (harg4 : arg4.IsWhole) (arg5 : Memref sig .tc .vmem S2x512 .f32) (harg5 : arg5.IsWhole) (arg6 : Memref sig .tc .vmem S1x1x2048 .f32) (harg6 : arg6.IsWhole) (arg7 : Memref sig .tc .vmem S1x2048 .f32) (harg7 : arg7.IsWhole) (hc0 : ¬cond1_0 i) (hc1 : cond1_1 i)
    (x0 : Vec F S1x64x2048 .bf16) (x1 : Vec F S1x64x512 .bf16) (x2 : Vec F S1x2x2048 .f32) (x3 : Vec F S2x512 .f32) (xs0 : Vec F S1x2048 .f32) :
    Σ' (L4 : List (View.Piece (Elt F) S1x1x2048 .f32)), { LS0 : List (View.Piece (Elt F) S1x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__masked_min_kernel i arg2 harg2 arg3 harg3 arg4 harg4 arg5 harg5 arg6 harg6 arg7 harg7) K } := by
  refine ⟨?_, ?_, fun E K => ?run⟩
  case run =>
    simp only [cc1__masked_min_kernel_eq_skeleton]; unfold cc1__masked_min_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Hand

end
-- ==== Proof.KI1Defs.lean ====
/-
  Region 1: what every grid point leaves. The scratch row after point n (the running minimum of image n / 8 over the
  tiles up to n % 8) and the output row's staging buffer, by recursion on the point through the body's three cases;
  the region's invariant (the scratch row at what the point before left, beside the core's other scoped buffers and
  the generator register); the proof data of the pipeline at the contents `V` the region is entered with.
-/
import proofs.«417968_j21749714387505_1_alg».proof.Proof.KI1RunA
import proofs.«417968_j21749714387505_1_alg».proof.Proof.KI1RunB
import proofs.«417968_j21749714387505_1_alg».proof.Proof.KI1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: a parameter, which the run instantiates
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- Case A's pieces for the scratch row cover it. -/
theorem scover1_A_0 (c : Dev nD) (i : grid1.Coords) (arg2 : Memref sig .tc .vmem S1x64x2048 .bf16) (harg2 : arg2.IsWhole) (arg3 : Memref sig .tc .vmem S1x64x512 .bf16) (harg3 : arg3.IsWhole) (arg4 : Memref sig .tc .vmem S1x2x2048 .f32) (harg4 : arg4.IsWhole) (arg5 : Memref sig .tc .vmem S2x512 .f32) (harg5 : arg5.IsWhole) (arg6 : Memref sig .tc .vmem S1x1x2048 .f32) (harg6 : arg6.IsWhole) (arg7 : Memref sig .tc .vmem S1x2048 .f32) (harg7 : arg7.IsWhole) (hc0 : cond1_0 i) (hc1 : ¬cond1_1 i)
    (x0 : Vec F S1x64x2048 .bf16) (x1 : Vec F S1x64x512 .bf16) (x2 : Vec F S1x2x2048 .f32) (x3 : Vec F S2x512 .f32) (y : S1x2048.Idx) :
    ∃ pc ∈ (kernelRun1_A c i arg2 harg2 arg3 harg3 arg4 harg4 arg5 harg5 arg6 harg6 arg7 harg7 hc0 hc1 x0 x1 x2 x3).2.1, y ∈ pc.1.set :=
  View.cover_of_tiledL (kernelRun1_A c i arg2 harg2 arg3 harg3 arg4 harg4 arg5 harg5 arg6 harg6 arg7 harg7 hc0 hc1 x0 x1 x2 x3).2.1 S1x2048.size (by sl_kernel_rfl) y

/-- What case A leaves in the scratch row: its pieces read back. -/
def sout1_A_0 (c : Dev nD) (i : grid1.Coords) (arg2 : Memref sig .tc .vmem S1x64x2048 .bf16) (harg2 : arg2.IsWhole) (arg3 : Memref sig .tc .vmem S1x64x512 .bf16) (harg3 : arg3.IsWhole) (arg4 : Memref sig .tc .vmem S1x2x2048 .f32) (harg4 : arg4.IsWhole) (arg5 : Memref sig .tc .vmem S2x512 .f32) (harg5 : arg5.IsWhole) (arg6 : Memref sig .tc .vmem S1x1x2048 .f32) (harg6 : arg6.IsWhole) (arg7 : Memref sig .tc .vmem S1x2048 .f32) (harg7 : arg7.IsWhole) (hc0 : cond1_0 i) (hc1 : ¬cond1_1 i)
    (x0 : Vec F S1x64x2048 .bf16) (x1 : Vec F S1x64x512 .bf16) (x2 : Vec F S1x2x2048 .f32) (x3 : Vec F S2x512 .f32) : Vec F S1x2048 .f32 :=
  VS1_0.read (Elt F) (VS1_0.writes (Elt F) VS1_0.junk (kernelRun1_A c i arg2 harg2 arg3 harg3 arg4 harg4 arg5 harg5 arg6 harg6 arg7 harg7 hc0 hc1 x0 x1 x2 x3).2.1)

/-- What case A leaves in the output row's staging buffer (nothing is stored: a placeholder nothing consults): its pieces read back. -/
def out1_A_4 (c : Dev nD) (i : grid1.Coords) (arg2 : Memref sig .tc .vmem S1x64x2048 .bf16) (harg2 : arg2.IsWhole) (arg3 : Memref sig .tc .vmem S1x64x512 .bf16) (harg3 : arg3.IsWhole) (arg4 : Memref sig .tc .vmem S1x2x2048 .f32) (harg4 : arg4.IsWhole) (arg5 : Memref sig .tc .vmem S2x512 .f32) (harg5 : arg5.IsWhole) (arg6 : Memref sig .tc .vmem S1x1x2048 .f32) (harg6 : arg6.IsWhole) (arg7 : Memref sig .tc .vmem S1x2048 .f32) (harg7 : arg7.IsWhole) (hc0 : cond1_0 i) (hc1 : ¬cond1_1 i)
    (x0 : Vec F S1x64x2048 .bf16) (x1 : Vec F S1x64x512 .bf16) (x2 : Vec F S1x2x2048 .f32) (x3 : Vec F S2x512 .f32) : Vec F S1x1x2048 .f32 :=
  VO1_4.read (Elt F) (VO1_4.writes (Elt F) VO1_4.junk (kernelRun1_A c i arg2 harg2 arg3 harg3 arg4 harg4 arg5 harg5 arg6 harg6 arg7 harg7 hc0 hc1 x0 x1 x2 x3).1)

/-- Case B's pieces for the scratch row cover it. -/
theorem scover1_B_0 (c : Dev nD) (i : grid1.Coords) (arg2 : Memref sig .tc .vmem S1x64x2048 .bf16) (harg2 : arg2.IsWhole) (arg3 : Memref sig .tc .vmem S1x64x512 .bf16) (harg3 : arg3.IsWhole) (arg4 : Memref sig .tc .vmem S1x2x2048 .f32) (harg4 : arg4.IsWhole) (arg5 : Memref sig .tc .vmem S2x512 .f32) (harg5 : arg5.IsWhole) (arg6 : Memref sig .tc .vmem S1x1x2048 .f32) (harg6 : arg6.IsWhole) (arg7 : Memref sig .tc .vmem S1x2048 .f32) (harg7 : arg7.IsWhole) (hc0 : ¬cond1_0 i) (hc1 : ¬cond1_1 i)
    (x0 : Vec F S1x64x2048 .bf16) (x1 : Vec F S1x64x512 .bf16) (x2 : Vec F S1x2x2048 .f32) (x3 : Vec F S2x512 .f32) (xs0 : Vec F S1x2048 .f32) (y : S1x2048.Idx) :
    ∃ pc ∈ (kernelRun1_B c i arg2 harg2 arg3 harg3 arg4 harg4 arg5 harg5 arg6 harg6 arg7 harg7 hc0 hc1 x0 x1 x2 x3 xs0).2.1, y ∈ pc.1.set :=
  View.cover_of_tiledL (kernelRun1_B c i arg2 harg2 arg3 harg3 arg4 harg4 arg5 harg5 arg6 harg6 arg7 harg7 hc0 hc1 x0 x1 x2 x3 xs0).2.1 S1x2048.size (by sl_kernel_rfl) y

/-- What case B leaves in the scratch row: its pieces read back. -/
def sout1_B_0 (c : Dev nD) (i : grid1.Coords) (arg2 : Memref sig .tc .vmem S1x64x2048 .bf16) (harg2 : arg2.IsWhole) (arg3 : Memref sig .tc .vmem S1x64x512 .bf16) (harg3 : arg3.IsWhole) (arg4 : Memref sig .tc .vmem S1x2x2048 .f32) (harg4 : arg4.IsWhole) (arg5 : Memref sig .tc .vmem S2x512 .f32) (harg5 : arg5.IsWhole) (arg6 : Memref sig .tc .vmem S1x1x2048 .f32) (harg6 : arg6.IsWhole) (arg7 : Memref sig .tc .vmem S1x2048 .f32) (harg7 : arg7.IsWhole) (hc0 : ¬cond1_0 i) (hc1 : ¬cond1_1 i)
    (x0 : Vec F S1x64x2048 .bf16) (x1 : Vec F S1x64x512 .bf16) (x2 : Vec F S1x2x2048 .f32) (x3 : Vec F S2x512 .f32) (xs0 : Vec F S1x2048 .f32) : Vec F S1x2048 .f32 :=
  VS1_0.read (Elt F) (VS1_0.writes (Elt F) VS1_0.junk (kernelRun1_B c i arg2 harg2 arg3 harg3 arg4 harg4 arg5 harg5 arg6 harg6 arg7 harg7 hc0 hc1 x0 x1 x2 x3 xs0).2.1)

/-- What case B leaves in the output row's staging buffer (nothing is stored: a placeholder nothing consults): its pieces read back. -/
def out1_B_4 (c : Dev nD) (i : grid1.Coords) (arg2 : Memref sig .tc .vmem S1x64x2048 .bf16) (harg2 : arg2.IsWhole) (arg3 : Memref sig .tc .vmem S1x64x512 .bf16) (harg3 : arg3.IsWhole) (arg4 : Memref sig .tc .vmem S1x2x2048 .f32) (harg4 : arg4.IsWhole) (arg5 : Memref sig .tc .vmem S2x512 .f32) (harg5 : arg5.IsWhole) (arg6 : Memref sig .tc .vmem S1x1x2048 .f32) (harg6 : arg6.IsWhole) (arg7 : Memref sig .tc .vmem S1x2048 .f32) (harg7 : arg7.IsWhole) (hc0 : ¬cond1_0 i) (hc1 : ¬cond1_1 i)
    (x0 : Vec F S1x64x2048 .bf16) (x1 : Vec F S1x64x512 .bf16) (x2 : Vec F S1x2x2048 .f32) (x3 : Vec F S2x512 .f32) (xs0 : Vec F S1x2048 .f32) : Vec F S1x1x2048 .f32 :=
  VO1_4.read (Elt F) (VO1_4.writes (Elt F) VO1_4.junk (kernelRun1_B c i arg2 harg2 arg3 harg3 arg4 harg4 arg5 harg5 arg6 harg6 arg7 harg7 hc0 hc1 x0 x1 x2 x3 xs0).1)

/-- Case C's pieces for the scratch row cover it. -/
theorem scover1_C_0 (c : Dev nD) (i : grid1.Coords) (arg2 : Memref sig .tc .vmem S1x64x2048 .bf16) (harg2 : arg2.IsWhole) (arg3 : Memref sig .tc .vmem S1x64x512 .bf16) (harg3 : arg3.IsWhole) (arg4 : Memref sig .tc .vmem S1x2x2048 .f32) (harg4 : arg4.IsWhole) (arg5 : Memref sig .tc .vmem S2x512 .f32) (harg5 : arg5.IsWhole) (arg6 : Memref sig .tc .vmem S1x1x2048 .f32) (harg6 : arg6.IsWhole) (arg7 : Memref sig .tc .vmem S1x2048 .f32) (harg7 : arg7.IsWhole) (hc0 : ¬cond1_0 i) (hc1 : cond1_1 i)
    (x0 : Vec F S1x64x2048 .bf16) (x1 : Vec F S1x64x512 .bf16) (x2 : Vec F S1x2x2048 .f32) (x3 : Vec F S2x512 .f32) (xs0 : Vec F S1x2048 .f32) (y : S1x2048.Idx) :
    ∃ pc ∈ (kernelRun1_C c i arg2 harg2 arg3 harg3 arg4 harg4 arg5 harg5 arg6 harg6 arg7 harg7 hc0 hc1 x0 x1 x2 x3 xs0).2.1, y ∈ pc.1.set :=
  View.cover_of_tiledL (kernelRun1_C c i arg2 harg2 arg3 harg3 arg4 harg4 arg5 harg5 arg6 harg6 arg7 harg7 hc0 hc1 x0 x1 x2 x3 xs0).2.1 S1x2048.size (by sl_kernel_rfl) y

/-- What case C leaves in the scratch row: its pieces read back. -/
def sout1_C_0 (c : Dev nD) (i : grid1.Coords) (arg2 : Memref sig .tc .vmem S1x64x2048 .bf16) (harg2 : arg2.IsWhole) (arg3 : Memref sig .tc .vmem S1x64x512 .bf16) (harg3 : arg3.IsWhole) (arg4 : Memref sig .tc .vmem S1x2x2048 .f32) (harg4 : arg4.IsWhole) (arg5 : Memref sig .tc .vmem S2x512 .f32) (harg5 : arg5.IsWhole) (arg6 : Memref sig .tc .vmem S1x1x2048 .f32) (harg6 : arg6.IsWhole) (arg7 : Memref sig .tc .vmem S1x2048 .f32) (harg7 : arg7.IsWhole) (hc0 : ¬cond1_0 i) (hc1 : cond1_1 i)
    (x0 : Vec F S1x64x2048 .bf16) (x1 : Vec F S1x64x512 .bf16) (x2 : Vec F S1x2x2048 .f32) (x3 : Vec F S2x512 .f32) (xs0 : Vec F S1x2048 .f32) : Vec F S1x2048 .f32 :=
  VS1_0.read (Elt F) (VS1_0.writes (Elt F) VS1_0.junk (kernelRun1_C c i arg2 harg2 arg3 harg3 arg4 harg4 arg5 harg5 arg6 harg6 arg7 harg7 hc0 hc1 x0 x1 x2 x3 xs0).2.1)

/-- What case C leaves in the output row's staging buffer: its pieces read back. -/
def out1_C_4 (c : Dev nD) (i : grid1.Coords) (arg2 : Memref sig .tc .vmem S1x64x2048 .bf16) (harg2 : arg2.IsWhole) (arg3 : Memref sig .tc .vmem S1x64x512 .bf16) (harg3 : arg3.IsWhole) (arg4 : Memref sig .tc .vmem S1x2x2048 .f32) (harg4 : arg4.IsWhole) (arg5 : Memref sig .tc .vmem S2x512 .f32) (harg5 : arg5.IsWhole) (arg6 : Memref sig .tc .vmem S1x1x2048 .f32) (harg6 : arg6.IsWhole) (arg7 : Memref sig .tc .vmem S1x2048 .f32) (harg7 : arg7.IsWhole) (hc0 : ¬cond1_0 i) (hc1 : cond1_1 i)
    (x0 : Vec F S1x64x2048 .bf16) (x1 : Vec F S1x64x512 .bf16) (x2 : Vec F S1x2x2048 .f32) (x3 : Vec F S2x512 .f32) (xs0 : Vec F S1x2048 .f32) : Vec F S1x1x2048 .f32 :=
  VO1_4.read (Elt F) (VO1_4.writes (Elt F) VO1_4.junk (kernelRun1_C c i arg2 harg2 arg3 harg3 arg4 harg4 arg5 harg5 arg6 harg6 arg7 harg7 hc0 hc1 x0 x1 x2 x3 xs0).1)

/-- Case C's pieces for the output row cover it. -/
theorem cover1_C_4 (c : Dev nD) (i : grid1.Coords) (arg2 : Memref sig .tc .vmem S1x64x2048 .bf16) (harg2 : arg2.IsWhole) (arg3 : Memref sig .tc .vmem S1x64x512 .bf16) (harg3 : arg3.IsWhole) (arg4 : Memref sig .tc .vmem S1x2x2048 .f32) (harg4 : arg4.IsWhole) (arg5 : Memref sig .tc .vmem S2x512 .f32) (harg5 : arg5.IsWhole) (arg6 : Memref sig .tc .vmem S1x1x2048 .f32) (harg6 : arg6.IsWhole) (arg7 : Memref sig .tc .vmem S1x2048 .f32) (harg7 : arg7.IsWhole) (hc0 : ¬cond1_0 i) (hc1 : cond1_1 i)
    (x0 : Vec F S1x64x2048 .bf16) (x1 : Vec F S1x64x512 .bf16) (x2 : Vec F S1x2x2048 .f32) (x3 : Vec F S2x512 .f32) (xs0 : Vec F S1x2048 .f32) (y : S1x1x2048.Idx) :
    ∃ pc ∈ (kernelRun1_C c i arg2 harg2 arg3 harg3 arg4 harg4 arg5 harg5 arg6 harg6 arg7 harg7 hc0 hc1 x0 x1 x2 x3 xs0).1, y ∈ pc.1.set :=
  View.cover_of_tiledL (kernelRun1_C c i arg2 harg2 arg3 harg3 arg4 harg4 arg5 harg5 arg6 harg6 arg7 harg7 hc0 hc1 x0 x1 x2 x3 xs0).1 S1x1x2048.size (by sl_kernel_rfl) y

/-! ## What the output row's buffer and the scratch row hold after each point -/

/-- After the body at position `n`: (the output row's staging buffer, the scratch row). At the first tile of an image the
    reset case, at the last the storing case, otherwise the middle case; the last two over what position `n - 1` left
    in the scratch row. -/
def outsAt1 (c : Dev nD) : (n : ℕ) → n < cfg1.N → Vec F S1x1x2048 .f32 × Vec F S1x2048 .f32
  | 0, hn =>
    (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩),
     sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 8 = 0 then
      (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩),
       sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 8 = 7 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2,
         sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2,
         sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

/-- `outsAt1` at a first tile: the reset case's contents. -/
theorem outsAt1_A (c : Dev nD) (t : Fin cfg1.N) (h0 : t.val % 8 = 0) (h1 : ¬t.val % 8 = 7) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans rfl

/-- `outsAt1` at a middle tile: the middle case's contents, over what the point before left. -/
theorem outsAt1_B (c : Dev nD) (t : Fin cfg1.N) (h0 : ¬t.val % 8 = 0) (h1 : ¬t.val % 8 = 7) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a last tile: the storing case's contents, over what the point before left. -/
theorem outsAt1_C (c : Dev nD) (t : Fin cfg1.N) (h0 : ¬t.val % 8 = 0) (h1 : t.val % 8 = 7) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: at the region's entry the class's invariant (every scoped buffer no window stages at anything,
    the generator register at some state); afterwards the scratch row at what the point before left, the other scoped
    buffers at anything, the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ otherScoped1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ otherScoped1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ otherScoped1 (F := F) c) ∗ (∃ r, prngReg c r)) := by
  cases n with
  | zero => exact absurd rfl hz
  | succ n => rfl

/-! ## The pipeline's proof data -/

/-- The arrays as the region finds them; after the body at point `t` each input's buffer at its block and the output
    row's at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

end Cert.KernelIdeal.Hand

end
-- ==== Proof.KI1Body.lean ====
/-
  Region 1: the body obligation. At every grid point the body, called on the current staging buffers holding the
  point's input blocks, under the region's invariant, runs to the end and leaves what the proof data say: the case is
  read off the point (first, middle or last tile of its image), the scratch row comes in at what the point before
  left (at anything when the region is entered) and goes back at this point's contents.
-/
import proofs.«417968_j21749714387505_1_alg».proof.Proof.KI1Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  rw [show (dat1 V c).leavesExact 3 t = owns (c : Thread nD τ) (ms1_3 t) fullShare ((dat1 V c).after 3 t) from by
      unfold Dat.leavesExact; rw [liveAt1_3 t], after1_3]
  by_cases h0 : t.val % 8 = 0
  · have h1 : ¬t.val % 8 = 7 := by omega
    rw [Dat.leavesExact_idle (dat1 V c) 4 t (idleAt1_4 t (fun h => h1 ((hcond1_1 t).mp h))) (noFlush1_4 t (fun h => h1 ((hcond1_1 t).mp h)))]
    rw [outsAt1_A V c t h0 h1]
    unfold sout1_A_0; (try dsimp only)
    by_cases hz : t.val = 0
    · rw [PhiS1_castSucc V c t, PhiS1_zero V c _ _ hz, PhiA1_eq]
      iintro ⟨⟨⟨HS0, Hoth⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_A_0 c _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_A_0 c _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 8 = 7
    · rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]
      unfold out1_C_4 sout1_C_0; (try dsimp only)
      rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_C_0 c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 c _ _ _ _ _ _ _ _ _ _ _ _ _ _ _ _ _ _ _ _)
    · rw [Dat.leavesExact_idle (dat1 V c) 4 t (idleAt1_4 t (fun h => h1 ((hcond1_1 t).mp h))) (noFlush1_4 t (fun h => h1 ((hcond1_1 t).mp h)))]
      rw [outsAt1_B V c t h0 h1]
      unfold sout1_B_0; (try dsimp only)
      rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_B_0 c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the scratch row's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨HS0, Hoth⟩, Hg⟩
  isplitl [HS0 Hoth]
  · isplitl [HS0]
    · iexists _; iexact HS0
    iexact Hoth
  iexact Hg

end Cert.KernelIdeal.Hand

end
-- ==== Proof.KIRun.lean ====
import proofs.«417968_j21749714387505_1_alg».proof.Proof.KI0Body
import proofs.«417968_j21749714387505_1_alg».proof.Proof.KI1Body
import proofs.«417968_j21749714387505_1_alg».proof.Proof.KIRunCond

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal.GenP

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev VR (W : Dev nD → Valuation τ sig (Elt F)) : (c : Dev nD) → (b : Ref sig .tc) → Buf (Elt F) ((c : Thread nD τ).loc b) := fun c b => W c b

def outs0 : Outs (F := F) := fun _ r c =>
  if h : r = main_v67 then h ▸ (show Buf (Elt F) ((c : Thread nD τ).loc main_v67) from (dat0 (VR (V9 m)) c).arrAt 4 cfg0.N) else V9 m c r

theorem outs0_67 (c : Dev nD) : outs0 m 10 main_v67 c = (dat0 (VR (V9 m)) c).arrAt 4 cfg0.N := by
  unfold outs0; rw [dif_pos rfl]

def outsOf : Outs (F := F) := fun J r c =>
  if h : r = main_v69 then h ▸ (show Buf (Elt F) ((c : Thread nD τ).loc main_v69) from (dat1 (VR (V11 m (outs0 m))) c).arrAt 4 cfg1.N) else outs0 m J r c

theorem outsOf_eq_outs0 (c : Dev nD) : outsOf m 10 main_v67 c = outs0 m 10 main_v67 c := by
  unfold outsOf; rw [dif_neg (by decide)]

theorem outsOf_67 (c : Dev nD) : outsOf m 10 main_v67 c = (dat0 (VR (V9 m)) c).arrAt 4 cfg0.N :=
  (outsOf_eq_outs0 m c).trans (outs0_67 m c)

theorem V11_outsOf : V11 m (outsOf m) = V11 m (outs0 m) := by
  funext c
  show StableHlo.after hostOps1 (Function.update (V9 m c) _ (outsOf m 10 main_v67 c)) = StableHlo.after hostOps1 (Function.update (V9 m c) _ (outs0 m 10 main_v67 c))
  rw [outsOf_eq_outs0]

theorem outsOf_69 (c : Dev nD) : outsOf m 12 main_v69 c = (dat1 (VR (V11 m (outsOf m))) c).arrAt 4 cfg1.N := by
  rw [V11_outsOf]; unfold outsOf; rw [dif_pos rfl]

def pdats : (p : Fin 2) → (c : Dev nD) → Dat τ (Elt F) Unit ℕ (UR sig nD τ) ℕ (cfgs p) c
  | ⟨0, _⟩ => fun c => dat0 (VR (V9 m)) c
  | ⟨1, _⟩ => fun c => dat1 (VR (V11 m (outsOf m))) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem hF0 (c : Dev nD) (w : Fin cfg0.W) : (pdats m 0 c).arrAt w cfg0.N = VR (V10 m (outsOf m)) c (Pipeline.arrRef spec0 w) := by
  match w with
  | ⟨0, _⟩ => exact ((dat0 (VR (V9 m)) c).arrAt_in 0 rfl _).trans ((A_eq0 (VR (V9 m)) c 0).trans (V10_of m (outsOf m) c main_v63 (by decide)).symm)
  | ⟨1, _⟩ => exact ((dat0 (VR (V9 m)) c).arrAt_in 1 rfl _).trans ((A_eq0 (VR (V9 m)) c 1).trans (V10_of m (outsOf m) c main_v66 (by decide)).symm)
  | ⟨2, _⟩ => exact ((dat0 (VR (V9 m)) c).arrAt_in 2 rfl _).trans ((A_eq0 (VR (V9 m)) c 2).trans (V10_of m (outsOf m) c main_v45 (by decide)).symm)
  | ⟨3, _⟩ => exact ((dat0 (VR (V9 m)) c).arrAt_in 3 rfl _).trans ((A_eq0 (VR (V9 m)) c 3).trans (V10_of m (outsOf m) c main_v56 (by decide)).symm)
  | ⟨4, _⟩ =>
    refine (outsOf_67 m c).symm.trans ?_
    show outsOf m 10 main_v67 c = Function.update (V9 m c) (main_v67 : DevRef τ sig) (outsOf m 10 main_v67 c) (main_v67 : DevRef τ sig)
    rw [Function.update_self]

theorem hrest0 (c : Dev nD) : ∀ b, b ∉ Finset.univ.image (Pipeline.arrRef spec0) → VR (V10 m (outsOf m)) c b = VR (V9 m) c b :=
  fun b hb => V10_of m (outsOf m) c b (by
    intro h
    rcases List.mem_singleton.mp h with rfl
    exact hb (Finset.mem_image.mpr ⟨4, Finset.mem_univ _, rfl⟩))

set_option backward.isDefEq.respectTransparency.types false in

def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VR (V9 m)) c).loose
  hwaits := Pipeline.hwaits_of_owed_zero _ _ _ _ L lv 0 fun _ _ => rfl
  pre c := iprop(StableHlo.held (c : Thread nD τ) (Pipeline.ucRefs τ sig) (V9 m c) ∗ R c)
  post c := iprop(StableHlo.held (c : Thread nD τ) (Pipeline.ucRefs τ sig) (V10 m (outsOf m) c) ∗ R c)
  X c := iprop(∃ r, prngReg c r)
  Y c := iprop(∃ r, prngReg c r)
  Z c := Pipeline.unscopedRest (Ix := Unit) (Name := ℕ) (U := UR sig nD τ) (Lvl := ℕ) spec0 c (VR (V9 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (VR (V9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (VR (V9 m)) c).Φ 0 from rfl]
    iintro ⟨Hp, -, Hr⟩
    iapply (hin0 (VR (V9 m)) c)
    unfold Pipeline.ΦA
    isplitl [Hr]; · iexact Hr
    iexact Hp
  hout c := by
    rw [Pipeline.ownSems0_none, show (pdats m 0 c).Φ (Fin.last _) = (dat0 (VR (V9 m)) c).Φ (Fin.last cfg0.N) from rfl]
    refine (hout0 (VR (V9 m)) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VR (V9 m) c) (VR (V10 m (outsOf m)) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hF1 (c : Dev nD) (w : Fin cfg1.W) : (pdats m 1 c).arrAt w cfg1.N = VR (V12 m (outsOf m)) c (Pipeline.arrRef spec1 w) := by
  match w with
  | ⟨0, _⟩ => exact ((dat1 (VR (V11 m (outsOf m))) c).arrAt_in 0 rfl _).trans ((A_eq1 (VR (V11 m (outsOf m))) c 0).trans (V12_of m (outsOf m) c main_v64 (by decide)).symm)
  | ⟨1, _⟩ => exact ((dat1 (VR (V11 m (outsOf m))) c).arrAt_in 1 rfl _).trans ((A_eq1 (VR (V11 m (outsOf m))) c 1).trans (V12_of m (outsOf m) c main_v65 (by decide)).symm)
  | ⟨2, _⟩ => exact ((dat1 (VR (V11 m (outsOf m))) c).arrAt_in 2 rfl _).trans ((A_eq1 (VR (V11 m (outsOf m))) c 2).trans (V12_of m (outsOf m) c main_v44 (by decide)).symm)
  | ⟨3, _⟩ => exact ((dat1 (VR (V11 m (outsOf m))) c).arrAt_in 3 rfl _).trans ((A_eq1 (VR (V11 m (outsOf m))) c 3).trans (V12_of m (outsOf m) c main_v56 (by decide)).symm)
  | ⟨4, _⟩ =>
    refine (outsOf_69 m c).symm.trans ?_
    show outsOf m 12 main_v69 c = Function.update (V11 m (outsOf m) c) (main_v69 : DevRef τ sig) (outsOf m 12 main_v69 c) (main_v69 : DevRef τ sig)
    rw [Function.update_self]

theorem hrest1 (c : Dev nD) : ∀ b, b ∉ Finset.univ.image (Pipeline.arrRef spec1) → VR (V12 m (outsOf m)) c b = VR (V11 m (outsOf m)) c b :=
  fun b hb => V12_of m (outsOf m) c b (by
    intro h
    rcases List.mem_singleton.mp h with rfl
    exact hb (Finset.mem_image.mpr ⟨4, Finset.mem_univ _, rfl⟩))

set_option backward.isDefEq.respectTransparency.types false in

def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VR (V11 m (outsOf m))) c).loose
  hwaits := Pipeline.hwaits_of_owed_zero _ _ _ _ L lv 1 fun _ _ => rfl
  pre c := iprop(StableHlo.held (c : Thread nD τ) (Pipeline.ucRefs τ sig) (V11 m (outsOf m) c) ∗ R c)
  post c := iprop(StableHlo.held (c : Thread nD τ) (Pipeline.ucRefs τ sig) (V12 m (outsOf m) c) ∗ R c)
  X c := iprop(∃ r, prngReg c r)
  Y c := iprop(∃ r, prngReg c r)
  Z c := Pipeline.unscopedRest (Ix := Unit) (Name := ℕ) (U := UR sig nD τ) (Lvl := ℕ) spec1 c (VR (V11 m (outsOf m)) c)
  hentry c := by
    rw [Pipeline.ownSems0_none]
    have hsplit := Pipeline.arrays_of_unscopedBufs (p := 1) (pcfgs (F := F)) adm (pdats m) launch1.win launch1.arr_whole c
      ((pdats m 1 c).share_full fun _ => rfl) (VR (V11 m (outsOf m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (VR (V11 m (outsOf m))) c).Φ 0 from rfl]
    iintro ⟨Hp, -, Hr⟩
    iapply (hin1 (VR (V11 m (outsOf m))) c)
    unfold Pipeline.ΦA
    isplitl [Hr]; · iexact Hr
    iexact Hp
  hout c := by
    rw [Pipeline.ownSems0_none, show (pdats m 1 c).Φ (Fin.last _) = (dat1 (VR (V11 m (outsOf m))) c).Φ (Fin.last cfg1.N) from rfl]
    refine (hout1 (VR (V11 m (outsOf m))) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VR (V11 m (outsOf m)) c) (VR (V12 m (outsOf m)) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = V13 m (outsOf m) c b) :=
  run_cond m (EP := emb₁) (ι := ()) (𝒱₀ := 𝒱₀) (L := L) (lv := lv) (hL := fun _ _ => rfl) (ρ := ρ) (outs := outsOf m) (pdats := pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE2 := fun c => by iintro ⟨-, HO⟩; iexact HO)
    (R0 := reg0 m) (hpre0 := fun _ => .rfl) (hpost0 := fun _ => .rfl)
    (R1 := reg1 m) (hpre1 := fun _ => .rfl) (hpost1 := fun _ => .rfl)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (V13_main_arg0 m (outsOf m) c),
     (h c _ (mem_uc main_arg1 (by decide))).trans (V13_main_arg1 m (outsOf m) c),
     (h c _ (mem_uc main_arg2 (by decide))).trans (V13_main_arg2 m (outsOf m) c),
     (h c _ (mem_uc main_arg3 (by decide))).trans (V13_main_arg3 m (outsOf m) c)⟩) (run_all m ρ)

theorem run_result : θ_run defs (onTc (τ := τ) (main (F := F))) ⟨m, fun _ => 0, ρ⟩ (fun r => ∀ c : Dev nD,
      r.2.mem ((c.tc : Thread nD τ).loc main_v78) = V13 m (outsOf m) c main_v78
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨h c _ (mem_uc main_v78 (by decide)),
     (h c _ (mem_uc main_arg0 (by decide))).trans (V13_main_arg0 m (outsOf m) c),
     (h c _ (mem_uc main_arg1 (by decide))).trans (V13_main_arg1 m (outsOf m) c),
     (h c _ (mem_uc main_arg2 (by decide))).trans (V13_main_arg2 m (outsOf m) c),
     (h c _ (mem_uc main_arg3 (by decide))).trans (V13_main_arg3 m (outsOf m) c)⟩) (run_all m ρ)

end Cert.KernelIdeal.Hand

end
-- ==== Proof.KB0Base.lean ====
/-
  Region 0 of the kernel program (the first launch of the masked-minimum kernel, grid 8 × 8: image b, database tile k;
  point t = 8·b + k). What the body's two conditionals depend on, in closed form over the grid: the running minimum
  is reset at the first tile of an image (k = 0) and the output row is stored at the last (k = 7); the output window
  is idle, and not written back, at every other point.
-/
import proofs.«417968_j21749714387505_1_alg».proof.Proof.Gen.Kernel.Launch
import proofs.«417968_j21749714387505_1_alg».proof.Proof.Gen.Kernel.Skeleton
import proofs.«417968_j21749714387505_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The reset of the running minimum is taken: the tile coordinate is 0. -/
abbrev cond0_0 (i : grid0.Coords) : Prop := (Scalar.cmpi .ne (Scalar.extui (Scalar.cmpi .eq (BitVec.ofNat 32 (i 1).val) 0#32)) 0#32) = 1#1
/-- It holds exactly at the first tile of each image. -/
theorem hcond0_0 : ∀ t : Fin cfg0.N, cond0_0 (grid0.coords t) ↔ t.val % 8 = 0 :=
  (by decide +kernel : ∀ t : Fin grid0.N, cond0_0 (grid0.coords t) ↔ t.val % 8 = 0)

/-- The store of the output row is taken: the tile coordinate is 7. -/
abbrev cond0_1 (i : grid0.Coords) : Prop := k0_cond2 i = 1#1
/-- It holds exactly at the last tile of each image. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last tile the output window is idle … -/
theorem idleAt0_4 : ∀ t : Fin cfg0.N, ¬cond0_1 (grid0.coords t) → cfg0.idle 4 (grid0.coords t) = true := by decide +kernel
/-- … and not written back. -/
theorem noFlush0_4 : ∀ t : Fin cfg0.N, ¬cond0_1 (grid0.coords t) → (cfg0.win 4).flush t = false := by decide +kernel
/-- At the last tile it is live. -/
theorem liveAt0_4 : ∀ t : Fin cfg0.N, cond0_1 (grid0.coords t) → cfg0.idle 4 (grid0.coords t) = false := by decide +kernel

/-! ## The staging memrefs and the scratch -/

/-- One staging buffer of the output window, through which its contents are stated. -/
abbrev VO0_4 : View sig .tc .vmem S1x1x2048 .f32 := (Memref.whole cc0_stg4_0 : Memref sig .tc .vmem S1x1x2048 .f32).view
abbrev ms0_0 (t : Fin cfg0.N) : Memref sig .tc .vmem S1x64x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x64x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x2048 .f32 := win0_4.stage (cfg0.slots t 4)
abbrev hs0_4 (t : Fin cfg0.N) : (ms0_4 t).IsWhole := hstage0_4 ((cfg0.slots t 4).cast nbuf0_4)
/-- The scratch row holding the running minimum: a whole scoped buffer of the kernel's own. -/
abbrev scM0_0 : Memref sig .tc .vmem S1x2048 .f32 := Memref.whole cc0_scratch0
abbrev VS0_0 : View sig .tc .vmem S1x2048 .f32 := scM0_0.view

/-- The core's other scoped buffers that this region stages nothing through (the second launch's staging buffers and
    scratch), each whole at some contents: they ride through the region untouched. -/
def otherScoped0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- The class invariant with the scratch as a memref owned at some contents, beside the other scoped buffers and the
    generator register. -/
theorem PhiA0_eq (c : Dev nD) :
    (Pipeline.ΦA spec0 c : sProp 𝕄)
      = iprop(iprop((∃ d, owns (c : Thread nD τ) scM0_0 fullShare d) ∗ otherScoped0 (F := F) c) ∗ (∃ r, prngReg c r)) := by
  unfold Pipeline.ΦA otherScoped0; rw [scopedRest0_eq]; simp only [scM0_0, owns_whole]; try rfl

end Cert.Kernel.Hand

end
-- ==== Proof.KB0RunA.lean ====
/-
  The kernel body of region 0 at the first tile of an image (the reset is taken, the output row is not stored): on whole staging memrefs holding the four input blocks, the body runs to the
  end, leaves the inputs as they were, and leaves in the scratch row the pieces its stores wrote, found by running it symbolically.
-/
import proofs.«417968_j21749714387505_1_alg».proof.Proof.KB0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave (the output row is untouched: no piece) and in the scratch row (`LS0`), with the proof that the body runs to its end
    from the inputs at `x0 … x3` and hands everything back. -/
noncomputable def kernelRun0_A (c : Dev nD) (i : grid0.Coords) (arg2 : Memref sig .tc .vmem S1x64x2048 .bf16) (harg2 : arg2.IsWhole) (arg3 : Memref sig .tc .vmem S1x64x512 .bf16) (harg3 : arg3.IsWhole) (arg4 : Memref sig .tc .vmem S1x2x2048 .f32) (harg4 : arg4.IsWhole) (arg5 : Memref sig .tc .vmem S2x512 .f32) (harg5 : arg5.IsWhole) (arg6 : Memref sig .tc .vmem S1x1x2048 .f32) (harg6 : arg6.IsWhole) (arg7 : Memref sig .tc .vmem S1x2048 .f32) (harg7 : arg7.IsWhole) (hc0 : cond0_0 i) (hc1 : ¬cond0_1 i)
    (x0 : Vec F S1x64x2048 .bf16) (x1 : Vec F S1x64x512 .bf16) (x2 : Vec F S1x2x2048 .f32) (x3 : Vec F S2x512 .f32) :
    Σ' (L4 : List (View.Piece (Elt F) S1x1x2048 .f32)), { LS0 : List (View.Piece (Elt F) S1x2048 .f32) //
      ∀ (xi4 : Vec F S1x1x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__masked_min_kernel i arg2 harg2 arg3 harg3 arg4 harg4 arg5 harg5 arg6 harg6 arg7 harg7) K } := by
  refine ⟨[], ?_, fun xi4 E K => ?run⟩
  case run =>
    simp only [cc0__masked_min_kernel_eq_skeleton]; unfold cc0__masked_min_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.KB0RunB.lean ====
/-
  The kernel body of region 0 at a middle tile (neither conditional is taken): on whole staging memrefs holding the four input blocks, the body runs to the
  end, leaves the inputs as they were, and leaves in the scratch row the pieces its stores wrote, found by running it symbolically.
-/
import proofs.«417968_j21749714387505_1_alg».proof.Proof.KB0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave (the output row is untouched: no piece) and in the scratch row (`LS0`), with the proof that the body runs to its end
    from the inputs at `x0 … x3`, the scratch at what the tile before left (`xs0`) and hands everything back. -/
noncomputable def kernelRun0_B (c : Dev nD) (i : grid0.Coords) (arg2 : Memref sig .tc .vmem S1x64x2048 .bf16) (harg2 : arg2.IsWhole) (arg3 : Memref sig .tc .vmem S1x64x512 .bf16) (harg3 : arg3.IsWhole) (arg4 : Memref sig .tc .vmem S1x2x2048 .f32) (harg4 : arg4.IsWhole) (arg5 : Memref sig .tc .vmem S2x512 .f32) (harg5 : arg5.IsWhole) (arg6 : Memref sig .tc .vmem S1x1x2048 .f32) (harg6 : arg6.IsWhole) (arg7 : Memref sig .tc .vmem S1x2048 .f32) (harg7 : arg7.IsWhole) (hc0 : ¬cond0_0 i) (hc1 : ¬cond0_1 i)
    (x0 : Vec F S1x64x2048 .bf16) (x1 : Vec F S1x64x512 .bf16) (x2 : Vec F S1x2x2048 .f32) (x3 : Vec F S2x512 .f32) (xs0 : Vec F S1x2048 .f32) :
    Σ' (L4 : List (View.Piece (Elt F) S1x1x2048 .f32)), { LS0 : List (View.Piece (Elt F) S1x2048 .f32) //
      ∀ (xi4 : Vec F S1x1x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__masked_min_kernel i arg2 harg2 arg3 harg3 arg4 harg4 arg5 harg5 arg6 harg6 arg7 harg7) K } := by
  refine ⟨[], ?_, fun xi4 E K => ?run⟩
  case run =>
    simp only [cc0__masked_min_kernel_eq_skeleton]; unfold cc0__masked_min_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.KB0RunC.lean ====
/-
  The kernel body of region 0 at the last tile of an image (the output row is stored): on whole staging memrefs holding the four input blocks, the body runs to the
  end, leaves the inputs as they were, and leaves in the scratch row and in the output row the pieces its stores wrote, found by running it symbolically.
-/
import proofs.«417968_j21749714387505_1_alg».proof.Proof.KB0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output row (`L4`) and in the scratch row (`LS0`), with the proof that the body runs to its end
    from the inputs at `x0 … x3`, the scratch at what the tile before left (`xs0`) and hands everything back. -/
noncomputable def kernelRun0_C (c : Dev nD) (i : grid0.Coords) (arg2 : Memref sig .tc .vmem S1x64x2048 .bf16) (harg2 : arg2.IsWhole) (arg3 : Memref sig .tc .vmem S1x64x512 .bf16) (harg3 : arg3.IsWhole) (arg4 : Memref sig .tc .vmem S1x2x2048 .f32) (harg4 : arg4.IsWhole) (arg5 : Memref sig .tc .vmem S2x512 .f32) (harg5 : arg5.IsWhole) (arg6 : Memref sig .tc .vmem S1x1x2048 .f32) (harg6 : arg6.IsWhole) (arg7 : Memref sig .tc .vmem S1x2048 .f32) (harg7 : arg7.IsWhole) (hc0 : ¬cond0_0 i) (hc1 : cond0_1 i)
    (x0 : Vec F S1x64x2048 .bf16) (x1 : Vec F S1x64x512 .bf16) (x2 : Vec F S1x2x2048 .f32) (x3 : Vec F S2x512 .f32) (xs0 : Vec F S1x2048 .f32) :
    Σ' (L4 : List (View.Piece (Elt F) S1x1x2048 .f32)), { LS0 : List (View.Piece (Elt F) S1x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__masked_min_kernel i arg2 harg2 arg3 harg3 arg4 harg4 arg5 harg5 arg6 harg6 arg7 harg7) K } := by
  refine ⟨?_, ?_, fun E K => ?run⟩
  case run =>
    simp only [cc0__masked_min_kernel_eq_skeleton]; unfold cc0__masked_min_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Hand

end
-- ==== Proof.KB0Defs.lean ====
/-
  Region 0: what every grid point leaves. The scratch row after point n (the running minimum of image n / 8 over the
  tiles up to n % 8) and the output row's staging buffer, by recursion on the point through the body's three cases;
  the region's invariant (the scratch row at what the point before left, beside the core's other scoped buffers and
  the generator register); the proof data of the pipeline at the contents `V` the region is entered with.
-/
import proofs.«417968_j21749714387505_1_alg».proof.Proof.KB0RunA
import proofs.«417968_j21749714387505_1_alg».proof.Proof.KB0RunB
import proofs.«417968_j21749714387505_1_alg».proof.Proof.KB0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: a parameter, which the run instantiates
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves -/

/-- Case A's pieces for the scratch row cover it. -/
theorem scover0_A_0 (c : Dev nD) (i : grid0.Coords) (arg2 : Memref sig .tc .vmem S1x64x2048 .bf16) (harg2 : arg2.IsWhole) (arg3 : Memref sig .tc .vmem S1x64x512 .bf16) (harg3 : arg3.IsWhole) (arg4 : Memref sig .tc .vmem S1x2x2048 .f32) (harg4 : arg4.IsWhole) (arg5 : Memref sig .tc .vmem S2x512 .f32) (harg5 : arg5.IsWhole) (arg6 : Memref sig .tc .vmem S1x1x2048 .f32) (harg6 : arg6.IsWhole) (arg7 : Memref sig .tc .vmem S1x2048 .f32) (harg7 : arg7.IsWhole) (hc0 : cond0_0 i) (hc1 : ¬cond0_1 i)
    (x0 : Vec F S1x64x2048 .bf16) (x1 : Vec F S1x64x512 .bf16) (x2 : Vec F S1x2x2048 .f32) (x3 : Vec F S2x512 .f32) (y : S1x2048.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S1x2048.size (by sl_kernel_rfl) y

/-- What case A leaves in the scratch row: its pieces read back. -/
def sout0_A_0 (c : Dev nD) (i : grid0.Coords) (arg2 : Memref sig .tc .vmem S1x64x2048 .bf16) (harg2 : arg2.IsWhole) (arg3 : Memref sig .tc .vmem S1x64x512 .bf16) (harg3 : arg3.IsWhole) (arg4 : Memref sig .tc .vmem S1x2x2048 .f32) (harg4 : arg4.IsWhole) (arg5 : Memref sig .tc .vmem S2x512 .f32) (harg5 : arg5.IsWhole) (arg6 : Memref sig .tc .vmem S1x1x2048 .f32) (harg6 : arg6.IsWhole) (arg7 : Memref sig .tc .vmem S1x2048 .f32) (harg7 : arg7.IsWhole) (hc0 : cond0_0 i) (hc1 : ¬cond0_1 i)
    (x0 : Vec F S1x64x2048 .bf16) (x1 : Vec F S1x64x512 .bf16) (x2 : Vec F S1x2x2048 .f32) (x3 : Vec F S2x512 .f32) : Vec F S1x2048 .f32 :=
  VS0_0.read (Elt F) (VS0_0.writes (Elt F) VS0_0.junk (kernelRun0_A c i arg2 harg2 arg3 harg3 arg4 harg4 arg5 harg5 arg6 harg6 arg7 harg7 hc0 hc1 x0 x1 x2 x3).2.1)

/-- What case A leaves in the output row's staging buffer (nothing is stored: a placeholder nothing consults): its pieces read back. -/
def out0_A_4 (c : Dev nD) (i : grid0.Coords) (arg2 : Memref sig .tc .vmem S1x64x2048 .bf16) (harg2 : arg2.IsWhole) (arg3 : Memref sig .tc .vmem S1x64x512 .bf16) (harg3 : arg3.IsWhole) (arg4 : Memref sig .tc .vmem S1x2x2048 .f32) (harg4 : arg4.IsWhole) (arg5 : Memref sig .tc .vmem S2x512 .f32) (harg5 : arg5.IsWhole) (arg6 : Memref sig .tc .vmem S1x1x2048 .f32) (harg6 : arg6.IsWhole) (arg7 : Memref sig .tc .vmem S1x2048 .f32) (harg7 : arg7.IsWhole) (hc0 : cond0_0 i) (hc1 : ¬cond0_1 i)
    (x0 : Vec F S1x64x2048 .bf16) (x1 : Vec F S1x64x512 .bf16) (x2 : Vec F S1x2x2048 .f32) (x3 : Vec F S2x512 .f32) : Vec F S1x1x2048 .f32 :=
  VO0_4.read (Elt F) (VO0_4.writes (Elt F) VO0_4.junk (kernelRun0_A c i arg2 harg2 arg3 harg3 arg4 harg4 arg5 harg5 arg6 harg6 arg7 harg7 hc0 hc1 x0 x1 x2 x3).1)

/-- Case B's pieces for the scratch row cover it. -/
theorem scover0_B_0 (c : Dev nD) (i : grid0.Coords) (arg2 : Memref sig .tc .vmem S1x64x2048 .bf16) (harg2 : arg2.IsWhole) (arg3 : Memref sig .tc .vmem S1x64x512 .bf16) (harg3 : arg3.IsWhole) (arg4 : Memref sig .tc .vmem S1x2x2048 .f32) (harg4 : arg4.IsWhole) (arg5 : Memref sig .tc .vmem S2x512 .f32) (harg5 : arg5.IsWhole) (arg6 : Memref sig .tc .vmem S1x1x2048 .f32) (harg6 : arg6.IsWhole) (arg7 : Memref sig .tc .vmem S1x2048 .f32) (harg7 : arg7.IsWhole) (hc0 : ¬cond0_0 i) (hc1 : ¬cond0_1 i)
    (x0 : Vec F S1x64x2048 .bf16) (x1 : Vec F S1x64x512 .bf16) (x2 : Vec F S1x2x2048 .f32) (x3 : Vec F S2x512 .f32) (xs0 : Vec F S1x2048 .f32) (y : S1x2048.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S1x2048.size (by sl_kernel_rfl) y

/-- What case B leaves in the scratch row: its pieces read back. -/
def sout0_B_0 (c : Dev nD) (i : grid0.Coords) (arg2 : Memref sig .tc .vmem S1x64x2048 .bf16) (harg2 : arg2.IsWhole) (arg3 : Memref sig .tc .vmem S1x64x512 .bf16) (harg3 : arg3.IsWhole) (arg4 : Memref sig .tc .vmem S1x2x2048 .f32) (harg4 : arg4.IsWhole) (arg5 : Memref sig .tc .vmem S2x512 .f32) (harg5 : arg5.IsWhole) (arg6 : Memref sig .tc .vmem S1x1x2048 .f32) (harg6 : arg6.IsWhole) (arg7 : Memref sig .tc .vmem S1x2048 .f32) (harg7 : arg7.IsWhole) (hc0 : ¬cond0_0 i) (hc1 : ¬cond0_1 i)
    (x0 : Vec F S1x64x2048 .bf16) (x1 : Vec F S1x64x512 .bf16) (x2 : Vec F S1x2x2048 .f32) (x3 : Vec F S2x512 .f32) (xs0 : Vec F S1x2048 .f32) : Vec F S1x2048 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).2.1)

/-- What case B leaves in the output row's staging buffer (nothing is stored: a placeholder nothing consults): its pieces read back. -/
def out0_B_4 (c : Dev nD) (i : grid0.Coords) (arg2 : Memref sig .tc .vmem S1x64x2048 .bf16) (harg2 : arg2.IsWhole) (arg3 : Memref sig .tc .vmem S1x64x512 .bf16) (harg3 : arg3.IsWhole) (arg4 : Memref sig .tc .vmem S1x2x2048 .f32) (harg4 : arg4.IsWhole) (arg5 : Memref sig .tc .vmem S2x512 .f32) (harg5 : arg5.IsWhole) (arg6 : Memref sig .tc .vmem S1x1x2048 .f32) (harg6 : arg6.IsWhole) (arg7 : Memref sig .tc .vmem S1x2048 .f32) (harg7 : arg7.IsWhole) (hc0 : ¬cond0_0 i) (hc1 : ¬cond0_1 i)
    (x0 : Vec F S1x64x2048 .bf16) (x1 : Vec F S1x64x512 .bf16) (x2 : Vec F S1x2x2048 .f32) (x3 : Vec F S2x512 .f32) (xs0 : Vec F S1x2048 .f32) : Vec F S1x1x2048 .f32 :=
  VO0_4.read (Elt F) (VO0_4.writes (Elt F) VO0_4.junk (kernelRun0_B c i arg2 harg2 arg3 harg3 arg4 harg4 arg5 harg5 arg6 harg6 arg7 harg7 hc0 hc1 x0 x1 x2 x3 xs0).1)

/-- Case C's pieces for the scratch row cover it. -/
theorem scover0_C_0 (c : Dev nD) (i : grid0.Coords) (arg2 : Memref sig .tc .vmem S1x64x2048 .bf16) (harg2 : arg2.IsWhole) (arg3 : Memref sig .tc .vmem S1x64x512 .bf16) (harg3 : arg3.IsWhole) (arg4 : Memref sig .tc .vmem S1x2x2048 .f32) (harg4 : arg4.IsWhole) (arg5 : Memref sig .tc .vmem S2x512 .f32) (harg5 : arg5.IsWhole) (arg6 : Memref sig .tc .vmem S1x1x2048 .f32) (harg6 : arg6.IsWhole) (arg7 : Memref sig .tc .vmem S1x2048 .f32) (harg7 : arg7.IsWhole) (hc0 : ¬cond0_0 i) (hc1 : cond0_1 i)
    (x0 : Vec F S1x64x2048 .bf16) (x1 : Vec F S1x64x512 .bf16) (x2 : Vec F S1x2x2048 .f32) (x3 : Vec F S2x512 .f32) (xs0 : Vec F S1x2048 .f32) (y : S1x2048.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S1x2048.size (by sl_kernel_rfl) y

/-- What case C leaves in the scratch row: its pieces read back. -/
def sout0_C_0 (c : Dev nD) (i : grid0.Coords) (arg2 : Memref sig .tc .vmem S1x64x2048 .bf16) (harg2 : arg2.IsWhole) (arg3 : Memref sig .tc .vmem S1x64x512 .bf16) (harg3 : arg3.IsWhole) (arg4 : Memref sig .tc .vmem S1x2x2048 .f32) (harg4 : arg4.IsWhole) (arg5 : Memref sig .tc .vmem S2x512 .f32) (harg5 : arg5.IsWhole) (arg6 : Memref sig .tc .vmem S1x1x2048 .f32) (harg6 : arg6.IsWhole) (arg7 : Memref sig .tc .vmem S1x2048 .f32) (harg7 : arg7.IsWhole) (hc0 : ¬cond0_0 i) (hc1 : cond0_1 i)
    (x0 : Vec F S1x64x2048 .bf16) (x1 : Vec F S1x64x512 .bf16) (x2 : Vec F S1x2x2048 .f32) (x3 : Vec F S2x512 .f32) (xs0 : Vec F S1x2048 .f32) : Vec F S1x2048 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

/-- What case C leaves in the output row's staging buffer: its pieces read back. -/
def out0_C_4 (c : Dev nD) (i : grid0.Coords) (arg2 : Memref sig .tc .vmem S1x64x2048 .bf16) (harg2 : arg2.IsWhole) (arg3 : Memref sig .tc .vmem S1x64x512 .bf16) (harg3 : arg3.IsWhole) (arg4 : Memref sig .tc .vmem S1x2x2048 .f32) (harg4 : arg4.IsWhole) (arg5 : Memref sig .tc .vmem S2x512 .f32) (harg5 : arg5.IsWhole) (arg6 : Memref sig .tc .vmem S1x1x2048 .f32) (harg6 : arg6.IsWhole) (arg7 : Memref sig .tc .vmem S1x2048 .f32) (harg7 : arg7.IsWhole) (hc0 : ¬cond0_0 i) (hc1 : cond0_1 i)
    (x0 : Vec F S1x64x2048 .bf16) (x1 : Vec F S1x64x512 .bf16) (x2 : Vec F S1x2x2048 .f32) (x3 : Vec F S2x512 .f32) (xs0 : Vec F S1x2048 .f32) : Vec F S1x1x2048 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

/-- Case C's pieces for the output row cover it. -/
theorem cover0_C_4 (c : Dev nD) (i : grid0.Coords) (arg2 : Memref sig .tc .vmem S1x64x2048 .bf16) (harg2 : arg2.IsWhole) (arg3 : Memref sig .tc .vmem S1x64x512 .bf16) (harg3 : arg3.IsWhole) (arg4 : Memref sig .tc .vmem S1x2x2048 .f32) (harg4 : arg4.IsWhole) (arg5 : Memref sig .tc .vmem S2x512 .f32) (harg5 : arg5.IsWhole) (arg6 : Memref sig .tc .vmem S1x1x2048 .f32) (harg6 : arg6.IsWhole) (arg7 : Memref sig .tc .vmem S1x2048 .f32) (harg7 : arg7.IsWhole) (hc0 : ¬cond0_0 i) (hc1 : cond0_1 i)
    (x0 : Vec F S1x64x2048 .bf16) (x1 : Vec F S1x64x512 .bf16) (x2 : Vec F S1x2x2048 .f32) (x3 : Vec F S2x512 .f32) (xs0 : Vec F S1x2048 .f32) (y : S1x1x2048.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S1x1x2048.size (by sl_kernel_rfl) y

/-! ## What the output row's buffer and the scratch row hold after each point -/

/-- After the body at position `n`: (the output row's staging buffer, the scratch row). At the first tile of an image the
    reset case, at the last the storing case, otherwise the middle case; the last two over what position `n - 1` left
    in the scratch row. -/
def outsAt0 (c : Dev nD) : (n : ℕ) → n < cfg0.N → Vec F S1x1x2048 .f32 × Vec F S1x2048 .f32
  | 0, hn =>
    (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩),
     sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 8 = 0 then
      (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => (fun h => by (try dsimp only at h); omega) ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩),
       sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => (fun h => by (try dsimp only at h); omega) ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : (n + 1) % 8 = 7 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2,
         sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2,
         sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)

/-- `outsAt0` at a first tile: the reset case's contents. -/
theorem outsAt0_A (c : Dev nD) (t : Fin cfg0.N) (h0 : t.val % 8 = 0) (h1 : ¬t.val % 8 = 7) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t) (iblk0 V c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans rfl

/-- `outsAt0` at a middle tile: the middle case's contents, over what the point before left. -/
theorem outsAt0_B (c : Dev nD) (t : Fin cfg0.N) (h0 : ¬t.val % 8 = 0) (h1 : ¬t.val % 8 = 7) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a last tile: the storing case's contents, over what the point before left. -/
theorem outsAt0_C (c : Dev nD) (t : Fin cfg0.N) (h0 : ¬t.val % 8 = 0) (h1 : t.val % 8 = 7) :
    outsAt0 V c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: at the region's entry the class's invariant (every scoped buffer no window stages at anything,
    the generator register at some state); afterwards the scratch row at what the point before left, the other scoped
    buffers at anything, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ otherScoped0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ otherScoped0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ otherScoped0 (F := F) c) ∗ (∃ r, prngReg c r)) := by
  cases n with
  | zero => exact absurd rfl hz
  | succ n => rfl

/-! ## The pipeline's proof data -/

/-- The arrays as the region finds them; after the body at point `t` each input's buffer at its block and the output
    row's at `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

end Cert.Kernel.Hand

end
-- ==== Proof.KB0Body.lean ====
/-
  Region 0: the body obligation. At every grid point the body, called on the current staging buffers holding the
  point's input blocks, under the region's invariant, runs to the end and leaves what the proof data say: the case is
  read off the point (first, middle or last tile of its image), the scratch row comes in at what the point before
  left (at anything when the region is entered) and goes back at this point's contents.
-/
import proofs.«417968_j21749714387505_1_alg».proof.Proof.KB0Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  rw [show (dat0 V c).leavesExact 2 t = owns (c : Thread nD τ) (ms0_2 t) fullShare ((dat0 V c).after 2 t) from by
      unfold Dat.leavesExact; rw [liveAt0_2 t], after0_2]
  rw [show (dat0 V c).leavesExact 3 t = owns (c : Thread nD τ) (ms0_3 t) fullShare ((dat0 V c).after 3 t) from by
      unfold Dat.leavesExact; rw [liveAt0_3 t], after0_3]
  by_cases h0 : t.val % 8 = 0
  · have h1 : ¬t.val % 8 = 7 := by omega
    rw [Dat.leavesExact_idle (dat0 V c) 4 t (idleAt0_4 t (fun h => h1 ((hcond0_1 t).mp h))) (noFlush0_4 t (fun h => h1 ((hcond0_1 t).mp h)))]
    rw [outsAt0_A V c t h0 h1]
    unfold sout0_A_0; (try dsimp only)
    by_cases hz : t.val = 0
    · rw [PhiS0_castSucc V c t, PhiS0_zero V c _ _ hz, PhiA0_eq]
      iintro ⟨⟨⟨HS0, Hoth⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A_0 c _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4
    · rw [PhiS0_castSucc V c t, PhiS0_pos V c _ _ hz]
      iintro ⟨⟨⟨HS0, Hoth⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A_0 c _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 8 = 7
    · rw [show (dat0 V c).leavesExact 4 t = owns (c : Thread nD τ) (ms0_4 t) fullShare ((dat0 V c).after 4 t) from by
        unfold Dat.leavesExact; rw [liveAt0_4 t ((hcond0_1 t).mpr h1)], after0_4]
      rw [outsAt0_C V c t h0 h1]
      unfold out0_C_4 sout0_C_0; (try dsimp only)
      rw [PhiS0_castSucc V c t, PhiS0_pos V c _ _ hz]
      iintro ⟨⟨⟨HS0, Hoth⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) (iblk0 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_C_0 c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _ _)
    · rw [Dat.leavesExact_idle (dat0 V c) 4 t (idleAt0_4 t (fun h => h1 ((hcond0_1 t).mp h))) (noFlush0_4 t (fun h => h1 ((hcond0_1 t).mp h)))]
      rw [outsAt0_B V c t h0 h1]
      unfold sout0_B_0; (try dsimp only)
      rw [PhiS0_castSucc V c t, PhiS0_pos V c _ _ hz]
      iintro ⟨⟨⟨HS0, Hoth⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B_0 c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the scratch row's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 64 := N_0; omega), PhiA0_eq]
  iintro ⟨⟨HS0, Hoth⟩, Hg⟩
  isplitl [HS0 Hoth]
  · isplitl [HS0]
    · iexists _; iexact HS0
    iexact Hoth
  iexact Hg

end Cert.Kernel.Hand

end
-- ==== Proof.KB1Base.lean ====
/-
  Region 1 of the kernel program (the second launch of the masked-minimum kernel, grid 8 × 8: image b, database tile k;
  point t = 8·b + k). What the body's two conditionals depend on, in closed form over the grid: the running minimum
  is reset at the first tile of an image (k = 0) and the output row is stored at the last (k = 7); the output window
  is idle, and not written back, at every other point.
-/
import proofs.«417968_j21749714387505_1_alg».proof.Proof.Gen.Kernel.Launch
import proofs.«417968_j21749714387505_1_alg».proof.Proof.Gen.Kernel.Skeleton
import proofs.«417968_j21749714387505_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The reset of the running minimum is taken: the tile coordinate is 0. -/
abbrev cond1_0 (i : grid1.Coords) : Prop := (Scalar.cmpi .ne (Scalar.extui (Scalar.cmpi .eq (BitVec.ofNat 32 (i 1).val) 0#32)) 0#32) = 1#1
/-- It holds exactly at the first tile of each image. -/
theorem hcond1_0 : ∀ t : Fin cfg1.N, cond1_0 (grid1.coords t) ↔ t.val % 8 = 0 :=
  (by decide +kernel : ∀ t : Fin grid1.N, cond1_0 (grid1.coords t) ↔ t.val % 8 = 0)

/-- The store of the output row is taken: the tile coordinate is 7. -/
abbrev cond1_1 (i : grid1.Coords) : Prop := k1_cond2 i = 1#1
/-- It holds exactly at the last tile of each image. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from the last tile the output window is idle … -/
theorem idleAt1_4 : ∀ t : Fin cfg1.N, ¬cond1_1 (grid1.coords t) → cfg1.idle 4 (grid1.coords t) = true := by decide +kernel
/-- … and not written back. -/
theorem noFlush1_4 : ∀ t : Fin cfg1.N, ¬cond1_1 (grid1.coords t) → (cfg1.win 4).flush t = false := by decide +kernel
/-- At the last tile it is live. -/
theorem liveAt1_4 : ∀ t : Fin cfg1.N, cond1_1 (grid1.coords t) → cfg1.idle 4 (grid1.coords t) = false := by decide +kernel

/-! ## The staging memrefs and the scratch -/

/-- One staging buffer of the output window, through which its contents are stated. -/
abbrev VO1_4 : View sig .tc .vmem S1x1x2048 .f32 := (Memref.whole cc1_stg4_0 : Memref sig .tc .vmem S1x1x2048 .f32).view
abbrev ms1_0 (t : Fin cfg1.N) : Memref sig .tc .vmem S1x64x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x64x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1x2048 .f32 := win1_4.stage (cfg1.slots t 4)
abbrev hs1_4 (t : Fin cfg1.N) : (ms1_4 t).IsWhole := hstage1_4 ((cfg1.slots t 4).cast nbuf1_4)
/-- The scratch row holding the running minimum: a whole scoped buffer of the kernel's own. -/
abbrev scM1_0 : Memref sig .tc .vmem S1x2048 .f32 := Memref.whole cc1_scratch0
abbrev VS1_0 : View sig .tc .vmem S1x2048 .f32 := scM1_0.view

/-- The core's other scoped buffers that this region stages nothing through (the first launch's staging buffers and
    scratch), each whole at some contents: they ride through the region untouched. -/
def otherScoped1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f))

/-- The class invariant gives the scratch as a memref owned at some contents, the other scoped buffers and the generator
    register, -/
theorem PhiA1_to (c : Dev nD) : (Pipeline.ΦA spec1 c : sProp 𝕄) ⊢ iprop(iprop((∃ d, owns (c : Thread nD τ) scM1_0 fullShare d) ∗ otherScoped1 (F := F) c) ∗ (∃ r, prngReg c r)) := by
  unfold Pipeline.ΦA otherScoped1; rw [scopedRest1_eq]; simp only [scM1_0, owns_whole]
  iintro ⟨⟨A0, A1, A2, A3, A4, A5, A6, A7, A8, A9, A10, AS⟩, Hg⟩
  isplitr [Hg]
  · isplitl [AS]; · iexact AS
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    iexact A10
  iexact Hg

/-- and is made of them. -/
theorem PhiA1_from (c : Dev nD) : iprop(iprop((∃ d, owns (c : Thread nD τ) scM1_0 fullShare d) ∗ otherScoped1 (F := F) c) ∗ (∃ r, prngReg c r)) ⊢ (Pipeline.ΦA spec1 c : sProp 𝕄) := by
  unfold Pipeline.ΦA otherScoped1; rw [scopedRest1_eq]; simp only [scM1_0, owns_whole]
  iintro ⟨⟨AS, A0, A1, A2, A3, A4, A5, A6, A7, A8, A9, A10⟩, Hg⟩
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    iexact AS
  iexact Hg

/-- The class invariant with the scratch as a memref owned at some contents, beside the other scoped buffers and the
    generator register. -/
theorem PhiA1_eq (c : Dev nD) :
    (Pipeline.ΦA spec1 c : sProp 𝕄)
      = iprop(iprop((∃ d, owns (c : Thread nD τ) scM1_0 fullShare d) ∗ otherScoped1 (F := F) c) ∗ (∃ r, prngReg c r)) :=
  equiv_iff.mp ⟨PhiA1_to c, PhiA1_from c⟩

end Cert.Kernel.Hand

end
-- ==== Proof.KB1RunA.lean ====
/-
  The kernel body of region 1 at the first tile of an image (the reset is taken, the output row is not stored): on whole staging memrefs holding the four input blocks, the body runs to the
  end, leaves the inputs as they were, and leaves in the scratch row the pieces its stores wrote, found by running it symbolically.
-/
import proofs.«417968_j21749714387505_1_alg».proof.Proof.KB1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave (the output row is untouched: no piece) and in the scratch row (`LS0`), with the proof that the body runs to its end
    from the inputs at `x0 … x3` and hands everything back. -/
noncomputable def kernelRun1_A (c : Dev nD) (i : grid1.Coords) (arg2 : Memref sig .tc .vmem S1x64x2048 .bf16) (harg2 : arg2.IsWhole) (arg3 : Memref sig .tc .vmem S1x64x512 .bf16) (harg3 : arg3.IsWhole) (arg4 : Memref sig .tc .vmem S1x2x2048 .f32) (harg4 : arg4.IsWhole) (arg5 : Memref sig .tc .vmem S2x512 .f32) (harg5 : arg5.IsWhole) (arg6 : Memref sig .tc .vmem S1x1x2048 .f32) (harg6 : arg6.IsWhole) (arg7 : Memref sig .tc .vmem S1x2048 .f32) (harg7 : arg7.IsWhole) (hc0 : cond1_0 i) (hc1 : ¬cond1_1 i)
    (x0 : Vec F S1x64x2048 .bf16) (x1 : Vec F S1x64x512 .bf16) (x2 : Vec F S1x2x2048 .f32) (x3 : Vec F S2x512 .f32) :
    Σ' (L4 : List (View.Piece (Elt F) S1x1x2048 .f32)), { LS0 : List (View.Piece (Elt F) S1x2048 .f32) //
      ∀ (xi4 : Vec F S1x1x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__masked_min_kernel i arg2 harg2 arg3 harg3 arg4 harg4 arg5 harg5 arg6 harg6 arg7 harg7) K } := by
  refine ⟨[], ?_, fun xi4 E K => ?run⟩
  case run =>
    simp only [cc1__masked_min_kernel_eq_skeleton]; unfold cc1__masked_min_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.KB1RunB.lean ====
/-
  The kernel body of region 1 at a middle tile (neither conditional is taken): on whole staging memrefs holding the four input blocks, the body runs to the
  end, leaves the inputs as they were, and leaves in the scratch row the pieces its stores wrote, found by running it symbolically.
-/
import proofs.«417968_j21749714387505_1_alg».proof.Proof.KB1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave (the output row is untouched: no piece) and in the scratch row (`LS0`), with the proof that the body runs to its end
    from the inputs at `x0 … x3`, the scratch at what the tile before left (`xs0`) and hands everything back. -/
noncomputable def kernelRun1_B (c : Dev nD) (i : grid1.Coords) (arg2 : Memref sig .tc .vmem S1x64x2048 .bf16) (harg2 : arg2.IsWhole) (arg3 : Memref sig .tc .vmem S1x64x512 .bf16) (harg3 : arg3.IsWhole) (arg4 : Memref sig .tc .vmem S1x2x2048 .f32) (harg4 : arg4.IsWhole) (arg5 : Memref sig .tc .vmem S2x512 .f32) (harg5 : arg5.IsWhole) (arg6 : Memref sig .tc .vmem S1x1x2048 .f32) (harg6 : arg6.IsWhole) (arg7 : Memref sig .tc .vmem S1x2048 .f32) (harg7 : arg7.IsWhole) (hc0 : ¬cond1_0 i) (hc1 : ¬cond1_1 i)
    (x0 : Vec F S1x64x2048 .bf16) (x1 : Vec F S1x64x512 .bf16) (x2 : Vec F S1x2x2048 .f32) (x3 : Vec F S2x512 .f32) (xs0 : Vec F S1x2048 .f32) :
    Σ' (L4 : List (View.Piece (Elt F) S1x1x2048 .f32)), { LS0 : List (View.Piece (Elt F) S1x2048 .f32) //
      ∀ (xi4 : Vec F S1x1x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__masked_min_kernel i arg2 harg2 arg3 harg3 arg4 harg4 arg5 harg5 arg6 harg6 arg7 harg7) K } := by
  refine ⟨[], ?_, fun xi4 E K => ?run⟩
  case run =>
    simp only [cc1__masked_min_kernel_eq_skeleton]; unfold cc1__masked_min_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.KB1RunC.lean ====
/-
  The kernel body of region 1 at the last tile of an image (the output row is stored): on whole staging memrefs holding the four input blocks, the body runs to the
  end, leaves the inputs as they were, and leaves in the scratch row and in the output row the pieces its stores wrote, found by running it symbolically.
-/
import proofs.«417968_j21749714387505_1_alg».proof.Proof.KB1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output row (`L4`) and in the scratch row (`LS0`), with the proof that the body runs to its end
    from the inputs at `x0 … x3`, the scratch at what the tile before left (`xs0`) and hands everything back. -/
noncomputable def kernelRun1_C (c : Dev nD) (i : grid1.Coords) (arg2 : Memref sig .tc .vmem S1x64x2048 .bf16) (harg2 : arg2.IsWhole) (arg3 : Memref sig .tc .vmem S1x64x512 .bf16) (harg3 : arg3.IsWhole) (arg4 : Memref sig .tc .vmem S1x2x2048 .f32) (harg4 : arg4.IsWhole) (arg5 : Memref sig .tc .vmem S2x512 .f32) (harg5 : arg5.IsWhole) (arg6 : Memref sig .tc .vmem S1x1x2048 .f32) (harg6 : arg6.IsWhole) (arg7 : Memref sig .tc .vmem S1x2048 .f32) (harg7 : arg7.IsWhole) (hc0 : ¬cond1_0 i) (hc1 : cond1_1 i)
    (x0 : Vec F S1x64x2048 .bf16) (x1 : Vec F S1x64x512 .bf16) (x2 : Vec F S1x2x2048 .f32) (x3 : Vec F S2x512 .f32) (xs0 : Vec F S1x2048 .f32) :
    Σ' (L4 : List (View.Piece (Elt F) S1x1x2048 .f32)), { LS0 : List (View.Piece (Elt F) S1x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__masked_min_kernel i arg2 harg2 arg3 harg3 arg4 harg4 arg5 harg5 arg6 harg6 arg7 harg7) K } := by
  refine ⟨?_, ?_, fun E K => ?run⟩
  case run =>
    simp only [cc1__masked_min_kernel_eq_skeleton]; unfold cc1__masked_min_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Hand

end
-- ==== Proof.KB1Defs.lean ====
/-
  Region 1: what every grid point leaves. The scratch row after point n (the running minimum of image n / 8 over the
  tiles up to n % 8) and the output row's staging buffer, by recursion on the point through the body's three cases;
  the region's invariant (the scratch row at what the point before left, beside the core's other scoped buffers and
  the generator register); the proof data of the pipeline at the contents `V` the region is entered with.
-/
import proofs.«417968_j21749714387505_1_alg».proof.Proof.KB1RunA
import proofs.«417968_j21749714387505_1_alg».proof.Proof.KB1RunB
import proofs.«417968_j21749714387505_1_alg».proof.Proof.KB1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: a parameter, which the run instantiates
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- Case A's pieces for the scratch row cover it. -/
theorem scover1_A_0 (c : Dev nD) (i : grid1.Coords) (arg2 : Memref sig .tc .vmem S1x64x2048 .bf16) (harg2 : arg2.IsWhole) (arg3 : Memref sig .tc .vmem S1x64x512 .bf16) (harg3 : arg3.IsWhole) (arg4 : Memref sig .tc .vmem S1x2x2048 .f32) (harg4 : arg4.IsWhole) (arg5 : Memref sig .tc .vmem S2x512 .f32) (harg5 : arg5.IsWhole) (arg6 : Memref sig .tc .vmem S1x1x2048 .f32) (harg6 : arg6.IsWhole) (arg7 : Memref sig .tc .vmem S1x2048 .f32) (harg7 : arg7.IsWhole) (hc0 : cond1_0 i) (hc1 : ¬cond1_1 i)
    (x0 : Vec F S1x64x2048 .bf16) (x1 : Vec F S1x64x512 .bf16) (x2 : Vec F S1x2x2048 .f32) (x3 : Vec F S2x512 .f32) (y : S1x2048.Idx) :
    ∃ pc ∈ (kernelRun1_A c i arg2 harg2 arg3 harg3 arg4 harg4 arg5 harg5 arg6 harg6 arg7 harg7 hc0 hc1 x0 x1 x2 x3).2.1, y ∈ pc.1.set :=
  View.cover_of_tiledL (kernelRun1_A c i arg2 harg2 arg3 harg3 arg4 harg4 arg5 harg5 arg6 harg6 arg7 harg7 hc0 hc1 x0 x1 x2 x3).2.1 S1x2048.size (by sl_kernel_rfl) y

/-- What case A leaves in the scratch row: its pieces read back. -/
def sout1_A_0 (c : Dev nD) (i : grid1.Coords) (arg2 : Memref sig .tc .vmem S1x64x2048 .bf16) (harg2 : arg2.IsWhole) (arg3 : Memref sig .tc .vmem S1x64x512 .bf16) (harg3 : arg3.IsWhole) (arg4 : Memref sig .tc .vmem S1x2x2048 .f32) (harg4 : arg4.IsWhole) (arg5 : Memref sig .tc .vmem S2x512 .f32) (harg5 : arg5.IsWhole) (arg6 : Memref sig .tc .vmem S1x1x2048 .f32) (harg6 : arg6.IsWhole) (arg7 : Memref sig .tc .vmem S1x2048 .f32) (harg7 : arg7.IsWhole) (hc0 : cond1_0 i) (hc1 : ¬cond1_1 i)
    (x0 : Vec F S1x64x2048 .bf16) (x1 : Vec F S1x64x512 .bf16) (x2 : Vec F S1x2x2048 .f32) (x3 : Vec F S2x512 .f32) : Vec F S1x2048 .f32 :=
  VS1_0.read (Elt F) (VS1_0.writes (Elt F) VS1_0.junk (kernelRun1_A c i arg2 harg2 arg3 harg3 arg4 harg4 arg5 harg5 arg6 harg6 arg7 harg7 hc0 hc1 x0 x1 x2 x3).2.1)

/-- What case A leaves in the output row's staging buffer (nothing is stored: a placeholder nothing consults): its pieces read back. -/
def out1_A_4 (c : Dev nD) (i : grid1.Coords) (arg2 : Memref sig .tc .vmem S1x64x2048 .bf16) (harg2 : arg2.IsWhole) (arg3 : Memref sig .tc .vmem S1x64x512 .bf16) (harg3 : arg3.IsWhole) (arg4 : Memref sig .tc .vmem S1x2x2048 .f32) (harg4 : arg4.IsWhole) (arg5 : Memref sig .tc .vmem S2x512 .f32) (harg5 : arg5.IsWhole) (arg6 : Memref sig .tc .vmem S1x1x2048 .f32) (harg6 : arg6.IsWhole) (arg7 : Memref sig .tc .vmem S1x2048 .f32) (harg7 : arg7.IsWhole) (hc0 : cond1_0 i) (hc1 : ¬cond1_1 i)
    (x0 : Vec F S1x64x2048 .bf16) (x1 : Vec F S1x64x512 .bf16) (x2 : Vec F S1x2x2048 .f32) (x3 : Vec F S2x512 .f32) : Vec F S1x1x2048 .f32 :=
  VO1_4.read (Elt F) (VO1_4.writes (Elt F) VO1_4.junk (kernelRun1_A c i arg2 harg2 arg3 harg3 arg4 harg4 arg5 harg5 arg6 harg6 arg7 harg7 hc0 hc1 x0 x1 x2 x3).1)

/-- Case B's pieces for the scratch row cover it. -/
theorem scover1_B_0 (c : Dev nD) (i : grid1.Coords) (arg2 : Memref sig .tc .vmem S1x64x2048 .bf16) (harg2 : arg2.IsWhole) (arg3 : Memref sig .tc .vmem S1x64x512 .bf16) (harg3 : arg3.IsWhole) (arg4 : Memref sig .tc .vmem S1x2x2048 .f32) (harg4 : arg4.IsWhole) (arg5 : Memref sig .tc .vmem S2x512 .f32) (harg5 : arg5.IsWhole) (arg6 : Memref sig .tc .vmem S1x1x2048 .f32) (harg6 : arg6.IsWhole) (arg7 : Memref sig .tc .vmem S1x2048 .f32) (harg7 : arg7.IsWhole) (hc0 : ¬cond1_0 i) (hc1 : ¬cond1_1 i)
    (x0 : Vec F S1x64x2048 .bf16) (x1 : Vec F S1x64x512 .bf16) (x2 : Vec F S1x2x2048 .f32) (x3 : Vec F S2x512 .f32) (xs0 : Vec F S1x2048 .f32) (y : S1x2048.Idx) :
    ∃ pc ∈ (kernelRun1_B c i arg2 harg2 arg3 harg3 arg4 harg4 arg5 harg5 arg6 harg6 arg7 harg7 hc0 hc1 x0 x1 x2 x3 xs0).2.1, y ∈ pc.1.set :=
  View.cover_of_tiledL (kernelRun1_B c i arg2 harg2 arg3 harg3 arg4 harg4 arg5 harg5 arg6 harg6 arg7 harg7 hc0 hc1 x0 x1 x2 x3 xs0).2.1 S1x2048.size (by sl_kernel_rfl) y

/-- What case B leaves in the scratch row: its pieces read back. -/
def sout1_B_0 (c : Dev nD) (i : grid1.Coords) (arg2 : Memref sig .tc .vmem S1x64x2048 .bf16) (harg2 : arg2.IsWhole) (arg3 : Memref sig .tc .vmem S1x64x512 .bf16) (harg3 : arg3.IsWhole) (arg4 : Memref sig .tc .vmem S1x2x2048 .f32) (harg4 : arg4.IsWhole) (arg5 : Memref sig .tc .vmem S2x512 .f32) (harg5 : arg5.IsWhole) (arg6 : Memref sig .tc .vmem S1x1x2048 .f32) (harg6 : arg6.IsWhole) (arg7 : Memref sig .tc .vmem S1x2048 .f32) (harg7 : arg7.IsWhole) (hc0 : ¬cond1_0 i) (hc1 : ¬cond1_1 i)
    (x0 : Vec F S1x64x2048 .bf16) (x1 : Vec F S1x64x512 .bf16) (x2 : Vec F S1x2x2048 .f32) (x3 : Vec F S2x512 .f32) (xs0 : Vec F S1x2048 .f32) : Vec F S1x2048 .f32 :=
  VS1_0.read (Elt F) (VS1_0.writes (Elt F) VS1_0.junk (kernelRun1_B c i arg2 harg2 arg3 harg3 arg4 harg4 arg5 harg5 arg6 harg6 arg7 harg7 hc0 hc1 x0 x1 x2 x3 xs0).2.1)

/-- What case B leaves in the output row's staging buffer (nothing is stored: a placeholder nothing consults): its pieces read back. -/
def out1_B_4 (c : Dev nD) (i : grid1.Coords) (arg2 : Memref sig .tc .vmem S1x64x2048 .bf16) (harg2 : arg2.IsWhole) (arg3 : Memref sig .tc .vmem S1x64x512 .bf16) (harg3 : arg3.IsWhole) (arg4 : Memref sig .tc .vmem S1x2x2048 .f32) (harg4 : arg4.IsWhole) (arg5 : Memref sig .tc .vmem S2x512 .f32) (harg5 : arg5.IsWhole) (arg6 : Memref sig .tc .vmem S1x1x2048 .f32) (harg6 : arg6.IsWhole) (arg7 : Memref sig .tc .vmem S1x2048 .f32) (harg7 : arg7.IsWhole) (hc0 : ¬cond1_0 i) (hc1 : ¬cond1_1 i)
    (x0 : Vec F S1x64x2048 .bf16) (x1 : Vec F S1x64x512 .bf16) (x2 : Vec F S1x2x2048 .f32) (x3 : Vec F S2x512 .f32) (xs0 : Vec F S1x2048 .f32) : Vec F S1x1x2048 .f32 :=
  VO1_4.read (Elt F) (VO1_4.writes (Elt F) VO1_4.junk (kernelRun1_B c i arg2 harg2 arg3 harg3 arg4 harg4 arg5 harg5 arg6 harg6 arg7 harg7 hc0 hc1 x0 x1 x2 x3 xs0).1)

/-- Case C's pieces for the scratch row cover it. -/
theorem scover1_C_0 (c : Dev nD) (i : grid1.Coords) (arg2 : Memref sig .tc .vmem S1x64x2048 .bf16) (harg2 : arg2.IsWhole) (arg3 : Memref sig .tc .vmem S1x64x512 .bf16) (harg3 : arg3.IsWhole) (arg4 : Memref sig .tc .vmem S1x2x2048 .f32) (harg4 : arg4.IsWhole) (arg5 : Memref sig .tc .vmem S2x512 .f32) (harg5 : arg5.IsWhole) (arg6 : Memref sig .tc .vmem S1x1x2048 .f32) (harg6 : arg6.IsWhole) (arg7 : Memref sig .tc .vmem S1x2048 .f32) (harg7 : arg7.IsWhole) (hc0 : ¬cond1_0 i) (hc1 : cond1_1 i)
    (x0 : Vec F S1x64x2048 .bf16) (x1 : Vec F S1x64x512 .bf16) (x2 : Vec F S1x2x2048 .f32) (x3 : Vec F S2x512 .f32) (xs0 : Vec F S1x2048 .f32) (y : S1x2048.Idx) :
    ∃ pc ∈ (kernelRun1_C c i arg2 harg2 arg3 harg3 arg4 harg4 arg5 harg5 arg6 harg6 arg7 harg7 hc0 hc1 x0 x1 x2 x3 xs0).2.1, y ∈ pc.1.set :=
  View.cover_of_tiledL (kernelRun1_C c i arg2 harg2 arg3 harg3 arg4 harg4 arg5 harg5 arg6 harg6 arg7 harg7 hc0 hc1 x0 x1 x2 x3 xs0).2.1 S1x2048.size (by sl_kernel_rfl) y

/-- What case C leaves in the scratch row: its pieces read back. -/
def sout1_C_0 (c : Dev nD) (i : grid1.Coords) (arg2 : Memref sig .tc .vmem S1x64x2048 .bf16) (harg2 : arg2.IsWhole) (arg3 : Memref sig .tc .vmem S1x64x512 .bf16) (harg3 : arg3.IsWhole) (arg4 : Memref sig .tc .vmem S1x2x2048 .f32) (harg4 : arg4.IsWhole) (arg5 : Memref sig .tc .vmem S2x512 .f32) (harg5 : arg5.IsWhole) (arg6 : Memref sig .tc .vmem S1x1x2048 .f32) (harg6 : arg6.IsWhole) (arg7 : Memref sig .tc .vmem S1x2048 .f32) (harg7 : arg7.IsWhole) (hc0 : ¬cond1_0 i) (hc1 : cond1_1 i)
    (x0 : Vec F S1x64x2048 .bf16) (x1 : Vec F S1x64x512 .bf16) (x2 : Vec F S1x2x2048 .f32) (x3 : Vec F S2x512 .f32) (xs0 : Vec F S1x2048 .f32) : Vec F S1x2048 .f32 :=
  VS1_0.read (Elt F) (VS1_0.writes (Elt F) VS1_0.junk (kernelRun1_C c i arg2 harg2 arg3 harg3 arg4 harg4 arg5 harg5 arg6 harg6 arg7 harg7 hc0 hc1 x0 x1 x2 x3 xs0).2.1)

/-- What case C leaves in the output row's staging buffer: its pieces read back. -/
def out1_C_4 (c : Dev nD) (i : grid1.Coords) (arg2 : Memref sig .tc .vmem S1x64x2048 .bf16) (harg2 : arg2.IsWhole) (arg3 : Memref sig .tc .vmem S1x64x512 .bf16) (harg3 : arg3.IsWhole) (arg4 : Memref sig .tc .vmem S1x2x2048 .f32) (harg4 : arg4.IsWhole) (arg5 : Memref sig .tc .vmem S2x512 .f32) (harg5 : arg5.IsWhole) (arg6 : Memref sig .tc .vmem S1x1x2048 .f32) (harg6 : arg6.IsWhole) (arg7 : Memref sig .tc .vmem S1x2048 .f32) (harg7 : arg7.IsWhole) (hc0 : ¬cond1_0 i) (hc1 : cond1_1 i)
    (x0 : Vec F S1x64x2048 .bf16) (x1 : Vec F S1x64x512 .bf16) (x2 : Vec F S1x2x2048 .f32) (x3 : Vec F S2x512 .f32) (xs0 : Vec F S1x2048 .f32) : Vec F S1x1x2048 .f32 :=
  VO1_4.read (Elt F) (VO1_4.writes (Elt F) VO1_4.junk (kernelRun1_C c i arg2 harg2 arg3 harg3 arg4 harg4 arg5 harg5 arg6 harg6 arg7 harg7 hc0 hc1 x0 x1 x2 x3 xs0).1)

/-- Case C's pieces for the output row cover it. -/
theorem cover1_C_4 (c : Dev nD) (i : grid1.Coords) (arg2 : Memref sig .tc .vmem S1x64x2048 .bf16) (harg2 : arg2.IsWhole) (arg3 : Memref sig .tc .vmem S1x64x512 .bf16) (harg3 : arg3.IsWhole) (arg4 : Memref sig .tc .vmem S1x2x2048 .f32) (harg4 : arg4.IsWhole) (arg5 : Memref sig .tc .vmem S2x512 .f32) (harg5 : arg5.IsWhole) (arg6 : Memref sig .tc .vmem S1x1x2048 .f32) (harg6 : arg6.IsWhole) (arg7 : Memref sig .tc .vmem S1x2048 .f32) (harg7 : arg7.IsWhole) (hc0 : ¬cond1_0 i) (hc1 : cond1_1 i)
    (x0 : Vec F S1x64x2048 .bf16) (x1 : Vec F S1x64x512 .bf16) (x2 : Vec F S1x2x2048 .f32) (x3 : Vec F S2x512 .f32) (xs0 : Vec F S1x2048 .f32) (y : S1x1x2048.Idx) :
    ∃ pc ∈ (kernelRun1_C c i arg2 harg2 arg3 harg3 arg4 harg4 arg5 harg5 arg6 harg6 arg7 harg7 hc0 hc1 x0 x1 x2 x3 xs0).1, y ∈ pc.1.set :=
  View.cover_of_tiledL (kernelRun1_C c i arg2 harg2 arg3 harg3 arg4 harg4 arg5 harg5 arg6 harg6 arg7 harg7 hc0 hc1 x0 x1 x2 x3 xs0).1 S1x1x2048.size (by sl_kernel_rfl) y

/-! ## What the output row's buffer and the scratch row hold after each point -/

/-- After the body at position `n`: (the output row's staging buffer, the scratch row). At the first tile of an image the
    reset case, at the last the storing case, otherwise the middle case; the last two over what position `n - 1` left
    in the scratch row. -/
def outsAt1 (c : Dev nD) : (n : ℕ) → n < cfg1.N → Vec F S1x1x2048 .f32 × Vec F S1x2048 .f32
  | 0, hn =>
    (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩),
     sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 8 = 0 then
      (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩),
       sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 8 = 7 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2,
         sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2,
         sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

/-- `outsAt1` at a first tile: the reset case's contents. -/
theorem outsAt1_A (c : Dev nD) (t : Fin cfg1.N) (h0 : t.val % 8 = 0) (h1 : ¬t.val % 8 = 7) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans rfl

/-- `outsAt1` at a middle tile: the middle case's contents, over what the point before left. -/
theorem outsAt1_B (c : Dev nD) (t : Fin cfg1.N) (h0 : ¬t.val % 8 = 0) (h1 : ¬t.val % 8 = 7) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a last tile: the storing case's contents, over what the point before left. -/
theorem outsAt1_C (c : Dev nD) (t : Fin cfg1.N) (h0 : ¬t.val % 8 = 0) (h1 : t.val % 8 = 7) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: at the region's entry the class's invariant (every scoped buffer no window stages at anything,
    the generator register at some state); afterwards the scratch row at what the point before left, the other scoped
    buffers at anything, the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ otherScoped1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ otherScoped1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ otherScoped1 (F := F) c) ∗ (∃ r, prngReg c r)) := by
  cases n with
  | zero => exact absurd rfl hz
  | succ n => rfl

/-! ## The pipeline's proof data -/

/-- The arrays as the region finds them; after the body at point `t` each input's buffer at its block and the output
    row's at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

end Cert.Kernel.Hand

end
-- ==== Proof.KB1Body.lean ====
/-
  Region 1: the body obligation. At every grid point the body, called on the current staging buffers holding the
  point's input blocks, under the region's invariant, runs to the end and leaves what the proof data say: the case is
  read off the point (first, middle or last tile of its image), the scratch row comes in at what the point before
  left (at anything when the region is entered) and goes back at this point's contents.
-/
import proofs.«417968_j21749714387505_1_alg».proof.Proof.KB1Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  rw [show (dat1 V c).leavesExact 3 t = owns (c : Thread nD τ) (ms1_3 t) fullShare ((dat1 V c).after 3 t) from by
      unfold Dat.leavesExact; rw [liveAt1_3 t], after1_3]
  by_cases h0 : t.val % 8 = 0
  · have h1 : ¬t.val % 8 = 7 := by omega
    rw [Dat.leavesExact_idle (dat1 V c) 4 t (idleAt1_4 t (fun h => h1 ((hcond1_1 t).mp h))) (noFlush1_4 t (fun h => h1 ((hcond1_1 t).mp h)))]
    rw [outsAt1_A V c t h0 h1]
    unfold sout1_A_0; (try dsimp only)
    by_cases hz : t.val = 0
    · rw [PhiS1_castSucc V c t, PhiS1_zero V c _ _ hz, PhiA1_eq]
      iintro ⟨⟨⟨HS0, Hoth⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_A_0 c _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_A_0 c _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 8 = 7
    · rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]
      unfold out1_C_4 sout1_C_0; (try dsimp only)
      rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_C_0 c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 c _ _ _ _ _ _ _ _ _ _ _ _ _ _ _ _ _ _ _ _)
    · rw [Dat.leavesExact_idle (dat1 V c) 4 t (idleAt1_4 t (fun h => h1 ((hcond1_1 t).mp h))) (noFlush1_4 t (fun h => h1 ((hcond1_1 t).mp h)))]
      rw [outsAt1_B V c t h0 h1]
      unfold sout1_B_0; (try dsimp only)
      rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_B_0 c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the scratch row's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨HS0, Hoth⟩, Hg⟩
  isplitl [HS0 Hoth]
  · isplitl [HS0]
    · iexists _; iexact HS0
    iexact Hoth
  iexact Hg

end Cert.Kernel.Hand

end
-- ==== Proof.KBRun.lean ====
/-
  The kernel program's run. What the two kernel regions leave in their result arrays (named through the proof data: the
  pipeline's write-backs folded), the proof data of both pipelines at their entry contents, each region as a segment
  of @main between the host stretches, and the launch: every weakly fair execution of @main terminates, and every
  unscoped buffer ends at the last valuation's contents — in particular the arguments as launched (the frame) and the
  result buffer at the host tail of the two regions' results.
-/
import proofs.«417968_j21749714387505_1_alg».proof.Proof.KB0Body
import proofs.«417968_j21749714387505_1_alg».proof.Proof.KB1Body
import proofs.«417968_j21749714387505_1_alg».proof.Proof.KBRunCond

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel.GenP

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A valuation read at the TensorCore's references. -/
abbrev VR (W : Dev nD → Valuation τ sig (Elt F)) : (c : Dev nD) → (b : Ref sig .tc) → Buf (Elt F) ((c : Thread nD τ).loc b) := fun c b => W c b

/-! ## What the regions leave -/

/-- Region 0's result array after the region: what its pipeline's write-backs leave. -/
def outs0 : Outs (F := F) := fun _ r c =>
  if h : r = main_v67 then h ▸ (show Buf (Elt F) ((c : Thread nD τ).loc main_v67) from (dat0 (VR (V9 m)) c).arrAt 4 cfg0.N) else V9 m c r

theorem outs0_67 (c : Dev nD) : outs0 m 10 main_v67 c = (dat0 (VR (V9 m)) c).arrAt 4 cfg0.N := by
  unfold outs0; rw [dif_pos rfl]

/-- Both regions' result arrays: region 1 is entered from the contents region 0's result gives. -/
def outsOf : Outs (F := F) := fun J r c =>
  if h : r = main_v69 then h ▸ (show Buf (Elt F) ((c : Thread nD τ).loc main_v69) from (dat1 (VR (V11 m (outs0 m))) c).arrAt 4 cfg1.N) else outs0 m J r c

theorem outsOf_eq_outs0 (c : Dev nD) : outsOf m 10 main_v67 c = outs0 m 10 main_v67 c := by
  unfold outsOf; rw [dif_neg (by decide)]

theorem outsOf_67 (c : Dev nD) : outsOf m 10 main_v67 c = (dat0 (VR (V9 m)) c).arrAt 4 cfg0.N :=
  (outsOf_eq_outs0 m c).trans (outs0_67 m c)

theorem V11_outsOf : V11 m (outsOf m) = V11 m (outs0 m) := by
  funext c
  show StableHlo.after hostOps1 (Function.update (V9 m c) _ (outsOf m 10 main_v67 c)) = StableHlo.after hostOps1 (Function.update (V9 m c) _ (outs0 m 10 main_v67 c))
  rw [outsOf_eq_outs0]

theorem outsOf_69 (c : Dev nD) : outsOf m 12 main_v69 c = (dat1 (VR (V11 m (outsOf m))) c).arrAt 4 cfg1.N := by
  rw [V11_outsOf]; unfold outsOf; rw [dif_pos rfl]

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => dat0 (VR (V9 m)) c
  | ⟨1, _⟩ => fun c => dat1 (VR (V11 m (outsOf m))) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

/-- At region 0's exit each of its arrays holds what the pipeline leaves: the inputs as entered, the result at what the
    last tile of each image stored. -/
theorem hF0 (c : Dev nD) (w : Fin cfg0.W) : (pdats m 0 c).arrAt w cfg0.N = VR (V10 m (outsOf m)) c (Pipeline.arrRef spec0 w) := by
  match w with
  | ⟨0, _⟩ => exact ((dat0 (VR (V9 m)) c).arrAt_in 0 rfl _).trans ((A_eq0 (VR (V9 m)) c 0).trans (V10_of m (outsOf m) c main_v63 (by decide)).symm)
  | ⟨1, _⟩ => exact ((dat0 (VR (V9 m)) c).arrAt_in 1 rfl _).trans ((A_eq0 (VR (V9 m)) c 1).trans (V10_of m (outsOf m) c main_v66 (by decide)).symm)
  | ⟨2, _⟩ => exact ((dat0 (VR (V9 m)) c).arrAt_in 2 rfl _).trans ((A_eq0 (VR (V9 m)) c 2).trans (V10_of m (outsOf m) c main_v45 (by decide)).symm)
  | ⟨3, _⟩ => exact ((dat0 (VR (V9 m)) c).arrAt_in 3 rfl _).trans ((A_eq0 (VR (V9 m)) c 3).trans (V10_of m (outsOf m) c main_v56 (by decide)).symm)
  | ⟨4, _⟩ =>
    refine (outsOf_67 m c).symm.trans ?_
    show outsOf m 10 main_v67 c = Function.update (V9 m c) (main_v67 : DevRef τ sig) (outsOf m 10 main_v67 c) (main_v67 : DevRef τ sig)
    rw [Function.update_self]

/-- Every other buffer holds what it held at the region's entry. -/
theorem hrest0 (c : Dev nD) : ∀ b, b ∉ Finset.univ.image (Pipeline.arrRef spec0) → VR (V10 m (outsOf m)) c b = VR (V9 m) c b :=
  fun b hb => V10_of m (outsOf m) c b (by
    intro h
    rcases List.mem_singleton.mp h with rfl
    exact hb (Finset.mem_image.mpr ⟨4, Finset.mem_univ _, rfl⟩))

set_option backward.isDefEq.respectTransparency.types false in
/-- REGION 0 over the thread state: entered from every unscoped buffer at the contents before it, left at the contents
    after it. Its arrays split out of the unscoped buffers and put back at the exit contents; the generator register
    into the invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VR (V9 m)) c).loose
  hwaits := Pipeline.hwaits_of_owed_zero _ _ _ _ L lv 0 fun _ _ => rfl
  pre c := iprop(StableHlo.held (c : Thread nD τ) (Pipeline.ucRefs τ sig) (V9 m c) ∗ R c)
  post c := iprop(StableHlo.held (c : Thread nD τ) (Pipeline.ucRefs τ sig) (V10 m (outsOf m) c) ∗ R c)
  X c := iprop(∃ r, prngReg c r)
  Y c := iprop(∃ r, prngReg c r)
  Z c := Pipeline.unscopedRest (Ix := Unit) (Name := ℕ) (U := UR sig nD τ) (Lvl := ℕ) spec0 c (VR (V9 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (VR (V9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (VR (V9 m)) c).Φ 0 from rfl]
    iintro ⟨Hp, -, Hr⟩
    iapply (hin0 (VR (V9 m)) c)
    unfold Pipeline.ΦA
    isplitl [Hr]; · iexact Hr
    iexact Hp
  hout c := by
    rw [Pipeline.ownSems0_none, show (pdats m 0 c).Φ (Fin.last _) = (dat0 (VR (V9 m)) c).Φ (Fin.last cfg0.N) from rfl]
    refine (hout0 (VR (V9 m)) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VR (V9 m) c) (VR (V10 m (outsOf m)) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 1's exit each of its arrays holds what the pipeline leaves: the inputs as entered, the result at what the
    last tile of each image stored. -/
theorem hF1 (c : Dev nD) (w : Fin cfg1.W) : (pdats m 1 c).arrAt w cfg1.N = VR (V12 m (outsOf m)) c (Pipeline.arrRef spec1 w) := by
  match w with
  | ⟨0, _⟩ => exact ((dat1 (VR (V11 m (outsOf m))) c).arrAt_in 0 rfl _).trans ((A_eq1 (VR (V11 m (outsOf m))) c 0).trans (V12_of m (outsOf m) c main_v64 (by decide)).symm)
  | ⟨1, _⟩ => exact ((dat1 (VR (V11 m (outsOf m))) c).arrAt_in 1 rfl _).trans ((A_eq1 (VR (V11 m (outsOf m))) c 1).trans (V12_of m (outsOf m) c main_v65 (by decide)).symm)
  | ⟨2, _⟩ => exact ((dat1 (VR (V11 m (outsOf m))) c).arrAt_in 2 rfl _).trans ((A_eq1 (VR (V11 m (outsOf m))) c 2).trans (V12_of m (outsOf m) c main_v44 (by decide)).symm)
  | ⟨3, _⟩ => exact ((dat1 (VR (V11 m (outsOf m))) c).arrAt_in 3 rfl _).trans ((A_eq1 (VR (V11 m (outsOf m))) c 3).trans (V12_of m (outsOf m) c main_v56 (by decide)).symm)
  | ⟨4, _⟩ =>
    refine (outsOf_69 m c).symm.trans ?_
    show outsOf m 12 main_v69 c = Function.update (V11 m (outsOf m) c) (main_v69 : DevRef τ sig) (outsOf m 12 main_v69 c) (main_v69 : DevRef τ sig)
    rw [Function.update_self]

/-- Every other buffer holds what it held at the region's entry. -/
theorem hrest1 (c : Dev nD) : ∀ b, b ∉ Finset.univ.image (Pipeline.arrRef spec1) → VR (V12 m (outsOf m)) c b = VR (V11 m (outsOf m)) c b :=
  fun b hb => V12_of m (outsOf m) c b (by
    intro h
    rcases List.mem_singleton.mp h with rfl
    exact hb (Finset.mem_image.mpr ⟨4, Finset.mem_univ _, rfl⟩))

set_option backward.isDefEq.respectTransparency.types false in
/-- REGION 1 over the thread state: entered from every unscoped buffer at the contents before it, left at the contents
    after it. Its arrays split out of the unscoped buffers and put back at the exit contents; the generator register
    into the invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VR (V11 m (outsOf m))) c).loose
  hwaits := Pipeline.hwaits_of_owed_zero _ _ _ _ L lv 1 fun _ _ => rfl
  pre c := iprop(StableHlo.held (c : Thread nD τ) (Pipeline.ucRefs τ sig) (V11 m (outsOf m) c) ∗ R c)
  post c := iprop(StableHlo.held (c : Thread nD τ) (Pipeline.ucRefs τ sig) (V12 m (outsOf m) c) ∗ R c)
  X c := iprop(∃ r, prngReg c r)
  Y c := iprop(∃ r, prngReg c r)
  Z c := Pipeline.unscopedRest (Ix := Unit) (Name := ℕ) (U := UR sig nD τ) (Lvl := ℕ) spec1 c (VR (V11 m (outsOf m)) c)
  hentry c := by
    rw [Pipeline.ownSems0_none]
    have hsplit := Pipeline.arrays_of_unscopedBufs (p := 1) (pcfgs (F := F)) adm (pdats m) launch1.win launch1.arr_whole c
      ((pdats m 1 c).share_full fun _ => rfl) (VR (V11 m (outsOf m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (VR (V11 m (outsOf m))) c).Φ 0 from rfl]
    iintro ⟨Hp, -, Hr⟩
    iapply (hin1 (VR (V11 m (outsOf m))) c)
    unfold Pipeline.ΦA
    isplitl [Hr]; · iexact Hr
    iexact Hp
  hout c := by
    rw [Pipeline.ownSems0_none, show (pdats m 1 c).Φ (Fin.last _) = (dat1 (VR (V11 m (outsOf m))) c).Φ (Fin.last cfg1.N) from rfl]
    refine (hout1 (VR (V11 m (outsOf m))) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VR (V11 m (outsOf m)) c) (VR (V12 m (outsOf m)) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

set_option backward.isDefEq.respectTransparency.types false in
/-- Every weakly fair execution of @main from memory `m` with zero counters terminates, nothing faulting, and every
    unscoped buffer ends at the last valuation's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V13 m (outsOf m) c b) :=
  run_cond m (EP := emb₁) (ι := ()) (𝒱₀ := 𝒱₀) (L := L) (lv := lv) (hL := fun _ _ => rfl) (ρ := ρ) (outs := outsOf m) (pdats := pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE2 := fun c => by iintro ⟨-, HO⟩; iexact HO)
    (R0 := reg0 m) (hpre0 := fun _ => .rfl) (hpost0 := fun _ => .rfl)
    (R1 := reg1 m) (hpre1 := fun _ => .rfl) (hpost1 := fun _ => .rfl)

/-- THE FRAME: every final state has the four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (V13_main_arg0 m (outsOf m) c),
     (h c _ (mem_uc main_arg1 (by decide))).trans (V13_main_arg1 m (outsOf m) c),
     (h c _ (mem_uc main_arg2 (by decide))).trans (V13_main_arg2 m (outsOf m) c),
     (h c _ (mem_uc main_arg3 (by decide))).trans (V13_main_arg3 m (outsOf m) c)⟩) (run_all m ρ)

/-- The result buffer ends at the last valuation's contents. -/
theorem run_result : θ_run defs (onTc (τ := τ) (main (F := F))) ⟨m, fun _ => 0, ρ⟩ (fun r => ∀ c : Dev nD,
      r.2.mem ((c.tc : Thread nD τ).loc main_v78) = V13 m (outsOf m) c main_v78
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨h c _ (mem_uc main_v78 (by decide)),
     (h c _ (mem_uc main_arg0 (by decide))).trans (V13_main_arg0 m (outsOf m) c),
     (h c _ (mem_uc main_arg1 (by decide))).trans (V13_main_arg1 m (outsOf m) c),
     (h c _ (mem_uc main_arg2 (by decide))).trans (V13_main_arg2 m (outsOf m) c),
     (h c _ (mem_uc main_arg3 (by decide))).trans (V13_main_arg3 m (outsOf m) c)⟩) (run_all m ρ)

end Cert.Kernel.Hand

end
-- ==== Proof.ClaimFrames.lean ====
import proofs.«417968_j21749714387505_1_alg».proof.Defs
import proofs.«417968_j21749714387505_1_alg».proof.Proof.Gen.Pre_finite_inputs
import proofs.«417968_j21749714387505_1_alg».proof.Proof.KIRun
import proofs.«417968_j21749714387505_1_alg».proof.Proof.KBRun

noncomputable section

namespace Cert.Proof.Frames

open Idealize.ShloMosaic Idealize.SL.Sem

theorem frame_k : Cert.frame_Kernel := fun m ρ _ => Cert.Kernel.Hand.frame m ρ
theorem frame_ki : Cert.frame_KernelIdeal := fun m ρ _ => Cert.KernelIdeal.Hand.frame m ρ
theorem preserves : Cert.preserves_Kernel_KernelIdeal := trivial

end Cert.Proof.Frames

end
-- ==== Proof.SpecDefs.lean ====
import Idealize.ShloMosaic.PureOps.Ideal

noncomputable section

namespace Cert.Spec

open Idealize.ShloMosaic

def two : EReal := Ideal.ofBits .f32 0x40000000#32

def radius : EReal := Ideal.ofBits .f32 0x40800000#32

def zero : EReal := Ideal.ofBits .f32 0x00000000#32

def penalty : EReal := Ideal.ofBits .f32 0x41200000#32

def big : EReal := Ideal.ofBits .f32 0x7149F2CA#32

def maskOf (pd : EReal) : EReal := if radius < pd then zero else penalty

def valOf (dot d0 d1 : EReal) : EReal := (two - two * dot) + maskOf (max d0 d1)

end Cert.Spec

end
-- ==== Proof.KI0Value.lean ====
import proofs.«417968_j21749714387505_1_alg».proof.Proof.KI0Defs
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open ValueIdx

variable {F : FTy → Type} [FloatOps F]

theorem zeros2 : (![0, 0] : Fin 2 → Nat) = fun _ => 0 := funext fun a => by fin_cases a <;> rfl

theorem zeros3 : (![0, 0, 0] : Fin 3 → Nat) = fun _ => 0 := funext fun a => by fin_cases a <;> rfl

theorem soutB_eq (c : Dev nD) (i : grid0.Coords) (arg2 : Memref sig .tc .vmem S1x64x2048 .bf16) (harg2 : arg2.IsWhole) (arg3 : Memref sig .tc .vmem S1x64x512 .bf16) (harg3 : arg3.IsWhole) (arg4 : Memref sig .tc .vmem S1x2x2048 .f32) (harg4 : arg4.IsWhole) (arg5 : Memref sig .tc .vmem S2x512 .f32) (harg5 : arg5.IsWhole) (arg6 : Memref sig .tc .vmem S1x1x2048 .f32) (harg6 : arg6.IsWhole) (arg7 : Memref sig .tc .vmem S1x2048 .f32) (harg7 : arg7.IsWhole) (hc0 : ¬cond0_0 i) (hc1 : ¬cond0_1 i) (x0 : Vec F S1x64x2048 .bf16) (x1 : Vec F S1x64x512 .bf16) (x2 : Vec F S1x2x2048 .f32) (x3 : Vec F S2x512 .f32) (xs0 : Vec F S1x2048 .f32) :
    sout0_B_0 c i arg2 harg2 arg3 harg3 arg4 harg4 arg5 harg5 arg6 harg6 arg7 harg7 hc0 hc1 x0 x1 x2 x3 xs0 = k0_pay2 (k0_pay4 x0 x1 x2 x3) xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero (S := S1x2048) zeros2]
  simp only [View.readAt_eq_ld, harg2.read_unread, harg3.read_unread, harg4.read_unread, harg5.read_unread, harg7.read_unread, View.ld_unit_zero (S := S1x64x2048) zeros3, View.ld_unit_zero (S := S1x64x512) zeros3, View.ld_unit_zero (S := S1x2x2048) zeros3, View.ld_unit_zero (S := S2x512) zeros2, View.ld_unit_zero (S := S1x2048) zeros2]

theorem soutA_eq (c : Dev nD) (i : grid0.Coords) (arg2 : Memref sig .tc .vmem S1x64x2048 .bf16) (harg2 : arg2.IsWhole) (arg3 : Memref sig .tc .vmem S1x64x512 .bf16) (harg3 : arg3.IsWhole) (arg4 : Memref sig .tc .vmem S1x2x2048 .f32) (harg4 : arg4.IsWhole) (arg5 : Memref sig .tc .vmem S2x512 .f32) (harg5 : arg5.IsWhole) (arg6 : Memref sig .tc .vmem S1x1x2048 .f32) (harg6 : arg6.IsWhole) (arg7 : Memref sig .tc .vmem S1x2048 .f32) (harg7 : arg7.IsWhole) (hc0 : cond0_0 i) (hc1 : ¬cond0_1 i) (x0 : Vec F S1x64x2048 .bf16) (x1 : Vec F S1x64x512 .bf16) (x2 : Vec F S1x2x2048 .f32) (x3 : Vec F S2x512 .f32) :
    sout0_A_0 c i arg2 harg2 arg3 harg3 arg4 harg4 arg5 harg5 arg6 harg6 arg7 harg7 hc0 hc1 x0 x1 x2 x3 = k0_pay2 (k0_pay4 x0 x1 x2 x3) (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S1x2048) zeros2, View.readCov_unit_zero (S := S1x2048) _ zeros2]
  simp only [View.readAt_eq_ld, harg2.read_unread, harg3.read_unread, harg4.read_unread, harg5.read_unread, View.ld_unit_zero (S := S1x64x2048) zeros3, View.ld_unit_zero (S := S1x64x512) zeros3, View.ld_unit_zero (S := S1x2x2048) zeros3, View.ld_unit_zero (S := S2x512) zeros2, View.ld_unit_zero (S := S1x2048) zeros2]

theorem soutC_eq (c : Dev nD) (i : grid0.Coords) (arg2 : Memref sig .tc .vmem S1x64x2048 .bf16) (harg2 : arg2.IsWhole) (arg3 : Memref sig .tc .vmem S1x64x512 .bf16) (harg3 : arg3.IsWhole) (arg4 : Memref sig .tc .vmem S1x2x2048 .f32) (harg4 : arg4.IsWhole) (arg5 : Memref sig .tc .vmem S2x512 .f32) (harg5 : arg5.IsWhole) (arg6 : Memref sig .tc .vmem S1x1x2048 .f32) (harg6 : arg6.IsWhole) (arg7 : Memref sig .tc .vmem S1x2048 .f32) (harg7 : arg7.IsWhole) (hc0 : ¬cond0_0 i) (hc1 : cond0_1 i) (x0 : Vec F S1x64x2048 .bf16) (x1 : Vec F S1x64x512 .bf16) (x2 : Vec F S1x2x2048 .f32) (x3 : Vec F S2x512 .f32) (xs0 : Vec F S1x2048 .f32) :
    sout0_C_0 c i arg2 harg2 arg3 harg3 arg4 harg4 arg5 harg5 arg6 harg6 arg7 harg7 hc0 hc1 x0 x1 x2 x3 xs0 = k0_pay2 (k0_pay4 x0 x1 x2 x3) xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero (S := S1x2048) zeros2]
  simp only [View.readAt_eq_ld, harg2.read_unread, harg3.read_unread, harg4.read_unread, harg5.read_unread, harg7.read_unread, View.ld_unit_zero (S := S1x64x2048) zeros3, View.ld_unit_zero (S := S1x64x512) zeros3, View.ld_unit_zero (S := S1x2x2048) zeros3, View.ld_unit_zero (S := S2x512) zeros2, View.ld_unit_zero (S := S1x2048) zeros2]

theorem outC_eq (c : Dev nD) (i : grid0.Coords) (arg2 : Memref sig .tc .vmem S1x64x2048 .bf16) (harg2 : arg2.IsWhole) (arg3 : Memref sig .tc .vmem S1x64x512 .bf16) (harg3 : arg3.IsWhole) (arg4 : Memref sig .tc .vmem S1x2x2048 .f32) (harg4 : arg4.IsWhole) (arg5 : Memref sig .tc .vmem S2x512 .f32) (harg5 : arg5.IsWhole) (arg6 : Memref sig .tc .vmem S1x1x2048 .f32) (harg6 : arg6.IsWhole) (arg7 : Memref sig .tc .vmem S1x2048 .f32) (harg7 : arg7.IsWhole) (hc0 : ¬cond0_0 i) (hc1 : cond0_1 i) (x0 : Vec F S1x64x2048 .bf16) (x1 : Vec F S1x64x512 .bf16) (x2 : Vec F S1x2x2048 .f32) (x3 : Vec F S2x512 .f32) (xs0 : Vec F S1x2048 .f32) :
    out0_C_4 c i arg2 harg2 arg3 harg3 arg4 harg4 arg5 harg5 arg6 harg6 arg7 harg7 hc0 hc1 x0 x1 x2 x3 xs0 = k0_pay3 (k0_pay2 (k0_pay4 x0 x1 x2 x3) xs0) := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero (S := S1x1x2048) zeros3, View.readCov_unit_zero (S := S1x2048) _ zeros2]
  simp only [View.readAt_eq_ld, harg2.read_unread, harg3.read_unread, harg4.read_unread, harg5.read_unread, harg7.read_unread, View.ld_unit_zero (S := S1x64x2048) zeros3, View.ld_unit_zero (S := S1x64x512) zeros3, View.ld_unit_zero (S := S1x2x2048) zeros3, View.ld_unit_zero (S := S2x512) zeros2, View.ld_unit_zero (S := S1x2048) zeros2]

variable (V : (c : Dev nD) → (b : Ref sig .tc) → Buf (Elt F) ((c : Thread nD τ).loc b))

def tile0 (c : Dev nD) (t : Fin cfg0.N) : FVec F S512x2048 .f32 :=
  k0_pay4 (iblk0 V c 0 t) (iblk0 V c 1 t) (iblk0 V c 2 t) (iblk0 V c 3 t)

theorem scratch0_first (c : Dev nD) (t : Fin cfg0.N) (h0 : t.val % 8 = 0) :
    (outsAt0 V c t.val t.isLt).2 = k0_pay2 (tile0 V c t) (k0_pay1 (F := F)) := by
  have h1 : ¬t.val % 8 = 7 := by omega
  unfold tile0
  rw [outsAt0_A V c t h0 h1]
  dsimp only
  exact soutA_eq c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t) (iblk0 V c 3 t)

theorem scratch0_next (c : Dev nD) (t : Fin cfg0.N) (h0 : ¬ t.val % 8 = 0) :
    (outsAt0 V c t.val t.isLt).2 = k0_pay2 (tile0 V c t) (outsAt0 V c (t.val - 1) (Nat.lt_of_le_of_lt (Nat.sub_le _ _) t.isLt)).2 := by
  unfold tile0
  by_cases h1 : t.val % 8 = 7
  · rw [outsAt0_C V c t h0 h1]
    dsimp only
    exact soutC_eq c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2
  · rw [outsAt0_B V c t h0 h1]
    dsimp only
    exact soutB_eq c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2

theorem out0_last (c : Dev nD) (t : Fin cfg0.N) (h1 : t.val % 8 = 7) :
    (outsAt0 V c t.val t.isLt).1 = k0_pay3 (outsAt0 V c t.val t.isLt).2 := by
  have h0 : ¬t.val % 8 = 0 := by omega
  rw [outsAt0_C V c t h0 h1]
  dsimp only
  exact (outC_eq c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2).trans
    (congrArg k0_pay3 (soutC_eq c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2).symm)

theorem idx_out4 : ∀ t : Fin cfg0.N, win0_4.index t (0 : Fin 3) = t.val / 8 ∧ win0_4.index t (1 : Fin 3) = 0
    ∧ win0_4.index t (2 : Fin 3) = 0 :=
  (by decide +kernel : ∀ t : Fin grid0.N, _)

theorem outsAt0_congr (c : Dev nD) {n n' : ℕ} (h : n = n') (hn : n < cfg0.N) (hn' : n' < cfg0.N) :
    outsAt0 V c n hn = outsAt0 V c n' hn' := by
  subst h; rfl

def arrOut0 (c : Dev nD) : Vec F S8x1x2048 .f32 := fun i =>
  (outsAt0 V c (8 * (i 0).val + 7) (by have := (i 0).isLt; have : (i 0).val < 8 := this; have : cfg0.N = 64 := N_0; omega)).1 (ix3 0 0 (i 2))

theorem arrOut0_apply (c : Dev nD) (b : Fin 8) (n : Fin 2048) :
    arrOut0 V c (ix3 b 0 n) = (outsAt0 V c (8 * b.val + 7) (by have := b.isLt; have : cfg0.N = 64 := N_0; omega)).1 (ix3 0 0 n) := rfl

theorem flushed4_eq (c : Dev nD) (t : Fin cfg0.N) (hf : (cfg0.win 4).flush t = true) :
    (dat0 V c).flushed 4 t = ((cfg0.win 4).blk t).view.read (Elt F) (arrOut0 V c) := by
  have h7 : t.val % 8 = 7 := (flush0_4 t).mp hf
  have hN : cfg0.N = 64 := N_0
  have ht := t.isLt
  show (cfg0.win 4).cut (grid0.coords t) ((dat0 V c).after 4 t) = _
  rw [after0_4]
  obtain ⟨e0, e1, e2⟩ := idx_out4 t
  funext y
  obtain ⟨p, q, r, rfl⟩ : ∃ (p : Fin 1) (q : Fin 1) (r : Fin 2048), y = ix3 p q r := ⟨y 0, y 1, y 2, eq_ix3 y⟩
  obtain rfl : p = 0 := Fin.ext (by omega)
  obtain rfl : q = 0 := Fin.ext (by omega)
  show (outsAt0 V c t.val t.isLt).1 (ix3 0 0 r) = arrOut0 V c (((cfg0.win 4).blk t).view.emb (ix3 0 0 r))
  have hemb : ((cfg0.win 4).blk t).view.emb (ix3 0 0 r) = (ix3 (⟨t.val / 8, by omega⟩ : Fin 8) (0 : Fin 1) r : S8x1x2048.Idx) := by
    funext a; apply Fin.ext
    match a with
    | ⟨0, _⟩ => show win0_4.index t (0 : Fin 3) * 1 + 1 * 0 = t.val / 8; omega
    | ⟨1, _⟩ => show win0_4.index t (1 : Fin 3) * 1 + 1 * 0 = 0; omega
    | ⟨2, _⟩ => show win0_4.index t (2 : Fin 3) * 2048 + 1 * r.val = r.val; omega
  refine Eq.trans ?_ (congrArg (arrOut0 V c) hemb).symm
  refine Eq.trans ?_ (arrOut0_apply V c ⟨t.val / 8, by omega⟩ r).symm
  exact congrFun (congrArg Prod.fst (outsAt0_congr V c (show t.val = 8 * (t.val / 8) + 7 by omega) _ _)) _

theorem mem_blk4 (t : Fin cfg0.N) (i : S8x1x2048.Idx) :
    i ∈ ((cfg0.win 4).blk t).view.set ↔ ∀ a : Fin 3, win0_4.index t a * S1x1x2048.size a ≤ (i a).val ∧ (i a).val < win0_4.index t a * S1x1x2048.size a + S1x1x2048.size a := by
  show i ∈ ((View.whole main_v67).slice (win0_4.rect t)).set ↔ _
  rw [View.set_slice_whole, Rect.mem_set_unit]
  exact Iff.rfl

theorem arrAt0_apply (c : Dev nD) (b : Fin 8) (n : Fin 2048) :
    (dat0 V c).arrAt 4 cfg0.N (ix3 b 0 n) = (outsAt0 V c (8 * b.val + 7) (by have := b.isLt; have : cfg0.N = 64 := N_0; omega)).1 (ix3 0 0 n) := by
  have hN : cfg0.N = 64 := N_0
  have hb := b.isLt
  obtain ⟨t, ht⟩ : ∃ t : Fin cfg0.N, t.val = 8 * b.val + 7 := ⟨⟨8 * b.val + 7, by omega⟩, rfl⟩
  have h7 : t.val % 8 = 7 := by omega
  have hf : (cfg0.win 4).flush t = true := (flush0_4 t).mpr h7
  obtain ⟨e0, e1, e2⟩ := idx_out4 t
  have hmem : (ix3 b 0 n : S8x1x2048.Idx) ∈ ((cfg0.win 4).blk t).view.set := by
    rw [mem_blk4]
    intro a
    match a with
    | ⟨0, _⟩ => show win0_4.index t (0 : Fin 3) * 1 ≤ b.val ∧ b.val < win0_4.index t (0 : Fin 3) * 1 + 1; omega
    | ⟨1, _⟩ => show win0_4.index t (1 : Fin 3) * 1 ≤ 0 ∧ 0 < win0_4.index t (1 : Fin 3) * 1 + 1; omega
    | ⟨2, _⟩ => show win0_4.index t (2 : Fin 3) * 2048 ≤ n.val ∧ n.val < win0_4.index t (2 : Fin 3) * 2048 + 2048; have := n.isLt; omega
  exact ((dat0 V c).arrAt_apply_of_mem 4 (arrOut0 V c) (flushed4_eq V c) cfg0.N t (ix3 b 0 n) t.isLt hf hmem).trans
    (arrOut0_apply V c b n)

end Cert.KernelIdeal.Hand

end
-- ==== Proof.LibMatmulTAt.lean ====
import Idealize.ShloMosaic.PureOps.Ideal.Laws
import Idealize.ShloMosaic.Lib.ValueIdx

noncomputable section

namespace Idealize.ShloMosaic.MatmulTAt

open Idealize.ShloMosaic Idealize.ShloMosaic.ValueIdx

theorem matmulT_at {M K N : Nat} {φ₁ φ₂ : FTy} (d : DotDims ⟨2, ![K, M]⟩ ⟨2, ![K, N]⟩ ⟨2, ![M, N]⟩)
    (hr : d.contr.rank = 1) (hs : d.contr.size ⟨0, by omega⟩ = K)
    (l0 : ∀ (j : (⟨2, ![M, N]⟩ : Shape).Idx) (q : d.contr.Idx), (d.lhsIdx j q 0).val = (q ⟨0, by omega⟩).val)
    (l1 : ∀ (j : (⟨2, ![M, N]⟩ : Shape).Idx) (q : d.contr.Idx), (d.lhsIdx j q 1).val = (j 0).val)
    (r0 : ∀ (j : (⟨2, ![M, N]⟩ : Shape).Idx) (q : d.contr.Idx), (d.rhsIdx j q 0).val = (q ⟨0, by omega⟩).val)
    (r1 : ∀ (j : (⟨2, ![M, N]⟩ : Shape).Idx) (q : d.contr.Idx), (d.rhsIdx j q 1).val = (j 1).val)
    (prec : Option ContractPrecision) (l : FVec Ideal ⟨2, ![K, M]⟩ φ₁) (r : FVec Ideal ⟨2, ![K, N]⟩ φ₂)
    (p : Fin M) (q : Fin N) :
    matmul d prec l r (constant ⟨2, ![M, N]⟩ .f32 0x00000000#32) (ix2 p q) = ∑ k : Fin K, l (ix2 k p) * r (ix2 k q) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 k p := funext fun a => Fin.ext (by
    match a with
    | ⟨0, _⟩ => exact (l0 _ _).trans hk
    | ⟨1, _⟩ => exact l1 _ _)
  have er : d.rhsIdx (ix2 p q) ((contrEquiv1 d K hr hs).symm k) = ix2 k q := funext fun a => Fin.ext (by
    match a with
    | ⟨0, _⟩ => exact (r0 _ _).trans hk
    | ⟨1, _⟩ => exact r1 _ _)
  rw [el, er]

variable {M K N : Nat} (d : DotDims ⟨2, ![K, M]⟩ ⟨2, ![K, N]⟩ ⟨2, ![M, N]⟩)

private theorem coord_congr (j : (⟨2, ![M, N]⟩ : Shape).Idx) (p q : Nat) (hp : p < 2) (hq : q < 2) (h : p = q) :
    (j ⟨p, hp⟩).val = (j ⟨q, hq⟩).val := by subst h; rfl

theorem rows_l1 (hlb : d.lhsBatch = []) (hln : d.lhsNonContracting = [1])
    (j : (⟨2, ![M, N]⟩ : Shape).Idx) (k : d.contr.Idx) : (d.lhsIdx j k 1).val = (j 0).val := by
  unfold DotDims.lhsIdx
  rw [dif_neg (by rw [hlb]; exact List.not_mem_nil), dif_pos (by rw [hln]; exact List.mem_singleton.mpr rfl)]
  simp only [Fin.val_cast]
  exact coord_congr j _ _ _ _ (by simp [hlb, hln])

theorem rows_r1 (hlb : d.lhsBatch = []) (hrb : d.rhsBatch = []) (hln : d.lhsNonContracting = [1]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact coord_congr j _ _ _ _ (by simp [hlb, hln, hrn])

theorem matmulT_plain {φ₁ φ₂ : FTy} (hr : d.contr.rank = 1) (hs : d.contr.size ⟨0, by omega⟩ = K)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (l : FVec Ideal ⟨2, ![K, M]⟩ φ₁) (r : FVec Ideal ⟨2, ![K, N]⟩ φ₂) (p : Fin M) (q : Fin N) :
    matmul d prec l r (constant ⟨2, ![M, N]⟩ .f32 0x00000000#32) (ix2 p q) = ∑ k : Fin K, l (ix2 k p) * r (ix2 k q) :=
  matmulT_at d hr hs (fun j q => d.lhsIdx_val_of_single hlc j q) (rows_l1 d hlb hln)
    (fun j q => d.rhsIdx_val_of_single hrc j q) (rows_r1 d hlb hrb hln hrn) prec l r p q

end Idealize.ShloMosaic.MatmulTAt

end
-- ==== Proof.TileMath.lean ====
import proofs.«417968_j21749714387505_1_alg».proof.Proof.Gen.KernelIdeal.Skeleton
import proofs.«417968_j21749714387505_1_alg».proof.Proof.SpecDefs
import proofs.«417968_j21749714387505_1_alg».proof.Proof.LibMatmulTAt
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.TileMath

open Idealize.ShloMosaic Idealize.ShloMosaic.ValueIdx Cert.Spec Cert.KernelIdeal Cert.KernelIdeal.Gen

theorem absf_at {s : Shape} {φ : FTy} (x : FVec Ideal s φ) (i : s.Idx) : absf x i = max (x i) (-(x i)) := rfl

theorem ofBits_inf : Ideal.ofBits .f32 0x7F800000#32 = ⊤ := by simp [Ideal.ofBits, Ideal.ieee]

theorem mask_select (pd : EReal) :
    Scalar.select (FloatOps.cmpf (F := Ideal) (φ := .f32) .ogt pd (FloatOps.ofBits .f32 0x40800000#32))
      (FloatOps.ofBits (F := Ideal) .f32 0x00000000#32) (FloatOps.ofBits (F := Ideal) .f32 0x41200000#32) = maskOf pd := by
  show Scalar.select (BitVec.ofBool (decide (radius < pd))) zero penalty = maskOf pd
  unfold maskOf
  by_cases h : radius < pd
  · rw [if_pos h, decide_eq_true h]; exact select_one _ _
  · rw [if_neg h, decide_eq_false h]; exact select_zero _ _

theorem fold_min_top {ι : Type} [Fintype ι] (f : ι → EReal) :
    (Finset.univ : Finset ι).fold min ⊤ f = ⨅ i, f i := by
  rw [← Finset.inf_univ_eq_iInf]; rfl

theorem laneMin_apply (v : FVec Ideal S512x2048 .f32) (h : S512x2048.Reduces [0] S2048) (hφ : FKind.Formats .f32)
    (hacc : (0x7F800000#32 : BitVec 32) = FKind.minimumf.neutral .f32 hφ) (n : Fin 2048) :
    multiReduction .minimumf [0] S2048 v 0x7F800000#32 h hφ hacc (ix1 n) = ⨅ mm : Fin 512, v (ix2 mm n) := by
  refine (multiReduction_minimumf_eq_fold v _ h hφ hacc (ix1 n)).trans ?_
  refine (h.fold_filter_drop_single _ _ v (ix1 n)).trans ?_
  have hl : ∀ k : Fin 512, h.lift (ix1 n) k = ix2 k n := fun k => funext fun c => Fin.ext (by
    match c with
    | ⟨0, _⟩ => rfl
    | ⟨1, _⟩ => rfl)
  show (Finset.univ : Finset (Fin 512)).fold min (Ideal.ofBits .f32 0x7F800000#32) (fun k => v (h.lift (ix1 n) k)) = _
  rw [ofBits_inf]
  exact (fold_min_top (ι := Fin 512) _).trans (iInf_congr fun k => congrArg v (hl k))

theorem pay1_apply (n : Fin 2048) : k0_pay1 (F := Ideal) (ix2 (0 : Fin 1) n) = big := by
  unfold k0_pay1
  exact congrFun (shapeCast_self _ _) _

theorem pay3_apply (v53 : Vec Ideal S1x2048 .f32) (n : Fin 2048) :
    k0_pay3 (F := Ideal) v53 (ix3 (0 : Fin 1) (0 : Fin 1) n) = v53 (ix2 (0 : Fin 1) n) := by
  unfold k0_pay3
  exact shapeCast_ab_1ab_apply v53 _ 0 0 n

theorem pay2_apply (v39 : FVec Ideal S512x2048 .f32) (v45 : Vec Ideal S1x2048 .f32) (n : Fin 2048) :
    k0_pay2 (F := Ideal) v39 v45 (ix2 (0 : Fin 1) n)
      = min (v45 (ix2 (0 : Fin 1) n)) (⨅ mm : Fin 512, v39 (ix2 mm n)) := by
  unfold k0_pay2
  refine (congrFun (shapeCast_self _ _) _).trans ?_
  refine (minimumf_apply _ _ _).trans ?_
  refine congrArg (min _) ?_
  refine (shapeCast_a_1a_apply _ _ 0 n).trans ?_
  exact laneMin_apply v39 _ _ _ n

theorem dot_apply (a : FVec Ideal S1x64x2048 .bf16) (d : FVec Ideal S1x64x512 .bf16) (mm : Fin 512) (n : Fin 2048) :
    matmul dot_S64x512_S64x2048_S512x2048_0_0_1_1_n_n none
        (shapeCast S64x512 d shapeCasts_S1x64x512_S64x512) (shapeCast S64x2048 a shapeCasts_S1x64x2048_S64x2048)
        (constant S512x2048 .f32 0x00000000#32) (ix2 mm n)
      = ∑ c : Fin 64, d (ix3 (0 : Fin 1) c mm) * a (ix3 (0 : Fin 1) c n) := by
  refine (MatmulTAt.matmulT_plain dot_S64x512_S64x2048_S512x2048_0_0_1_1_n_n rfl rfl rfl rfl rfl rfl rfl rfl none
    _ _ mm n).trans ?_
  refine Finset.sum_congr rfl fun c _ => ?_
  rw [shapeCast_1ab_ab_apply, shapeCast_1ab_ab_apply]

theorem posRow_apply (p : FVec Ideal S1x2x2048 .f32) (o : Nat) (r : Fin 2) (hr : r.val = o + (0 : Fin 1).val)
    (hs : S2x2048.Slices ![o, 0] S1x2048) (mm : Fin 512) (n : Fin 2048) :
    broadcastTo S512x2048 (shapeCast S1x2048 (shapeCast S2048
        (extractStridedSlice S1x2048 ![o, 0] (shapeCast S2x2048 p shapeCasts_S1x2x2048_S2x2048) hs)
        shapeCasts_S1x2048_S2048) shapeCasts_S2048_S1x2048) broadcasts_S1x2048_S512x2048 (ix2 mm n)
      = p (ix3 (0 : Fin 1) r n) := by
  refine (broadcastTo_1b_ab_apply _ _ mm n).trans ?_
  refine (shapeCast_a_1a_apply _ _ 0 n).trans ?_
  refine (shapeCast_1a_a_apply _ _ n).trans ?_
  refine (slice2_axis0_apply o _ hs 0 n r hr).trans ?_
  exact shapeCast_1ab_ab_apply p _ r n

theorem gridCol_apply (g : FVec Ideal S2x512 .f32) (o : Nat) (r : Fin 2) (hr : r.val = o + (0 : Fin 1).val)
    (hs : S2x512.Slices ![o, 0] S1x512) (mm : Fin 512) (n : Fin 2048) :
    broadcastTo S512x2048 (shapeCast S512x1 (shapeCast S512
        (extractStridedSlice S1x512 ![o, 0] (shapeCast S2x512 g shapeCasts_S2x512_S2x512) hs)
        shapeCasts_S1x512_S512) shapeCasts_S512_S512x1) broadcasts_S512x1_S512x2048 (ix2 mm n)
      = g (ix2 r mm) := by
  refine (broadcastTo_apply _ _ (ix2 mm n) (ix2 mm (0 : Fin 1)) fun ax => ?_).trans ?_
  · match ax with
    | ⟨0, _⟩ => rfl
    | ⟨1, _⟩ => rfl
  refine (shapeCast_apply _ _ (ix2 mm (0 : Fin 1)) (ix1 mm) ?_).trans ?_
  · rw [Shape.rowMajor_val_two, Shape.rowMajor_val_one]
    show mm.val = mm.val * 1 + 0
    omega
  refine (shapeCast_1a_a_apply _ _ mm).trans ?_
  refine (slice2_axis0_apply o _ hs 0 mm r hr).trans ?_
  exact congrFun (shapeCast_self g _) _

-- One entry of a tile: 2 − 2·(the two descriptor columns' dot product), plus the penalty when the positions are within the radius in both coordinates.
theorem pay4_apply (a : Vec Ideal S1x64x2048 .bf16) (d : Vec Ideal S1x64x512 .bf16) (p : Vec Ideal S1x2x2048 .f32)
    (g : Vec Ideal S2x512 .f32) (mm : Fin 512) (n : Fin 2048) :
    k0_pay4 (F := Ideal) a d p g (ix2 mm n)
      = valOf (∑ c : Fin 64, d (ix3 (0 : Fin 1) c mm) * a (ix3 (0 : Fin 1) c n))
          (max (g (ix2 (0 : Fin 2) mm) - p (ix3 (0 : Fin 1) (0 : Fin 2) n))
            (-(g (ix2 (0 : Fin 2) mm) - p (ix3 (0 : Fin 1) (0 : Fin 2) n))))
          (max (g (ix2 (1 : Fin 2) mm) - p (ix3 (0 : Fin 1) (1 : Fin 2) n))
            (-(g (ix2 (1 : Fin 2) mm) - p (ix3 (0 : Fin 1) (1 : Fin 2) n)))) := by
  unfold k0_pay4
  simp only [addf_apply, subf_apply, mulf_apply, broadcast_apply, select_apply, cmpf_apply, maximumf_apply, absf_at]
  rw [dot_apply a d mm n, gridCol_apply g 0 0 rfl, posRow_apply p 0 0 rfl, gridCol_apply g 1 1 rfl,
    posRow_apply p 1 1 rfl, mask_select]
  rfl

theorem k1_pay1_apply (n : Fin 2048) : k1_pay1 (F := Ideal) (ix2 (0 : Fin 1) n) = big := by
  unfold k1_pay1
  exact congrFun (shapeCast_self _ _) _

theorem k1_pay3_apply (v53 : Vec Ideal S1x2048 .f32) (n : Fin 2048) :
    k1_pay3 (F := Ideal) v53 (ix3 (0 : Fin 1) (0 : Fin 1) n) = v53 (ix2 (0 : Fin 1) n) := by
  unfold k1_pay3
  exact shapeCast_ab_1ab_apply v53 _ 0 0 n

theorem k1_pay2_apply (v39 : FVec Ideal S512x2048 .f32) (v45 : Vec Ideal S1x2048 .f32) (n : Fin 2048) :
    k1_pay2 (F := Ideal) v39 v45 (ix2 (0 : Fin 1) n)
      = min (v45 (ix2 (0 : Fin 1) n)) (⨅ mm : Fin 512, v39 (ix2 mm n)) := by
  unfold k1_pay2
  refine (congrFun (shapeCast_self _ _) _).trans ?_
  refine (minimumf_apply _ _ _).trans ?_
  refine congrArg (min _) ?_
  refine (shapeCast_a_1a_apply _ _ 0 n).trans ?_
  exact laneMin_apply v39 _ _ _ n

theorem k1_pay4_apply (a : Vec Ideal S1x64x2048 .bf16) (d : Vec Ideal S1x64x512 .bf16) (p : Vec Ideal S1x2x2048 .f32)
    (g : Vec Ideal S2x512 .f32) (mm : Fin 512) (n : Fin 2048) :
    k1_pay4 (F := Ideal) a d p g (ix2 mm n)
      = valOf (∑ c : Fin 64, d (ix3 (0 : Fin 1) c mm) * a (ix3 (0 : Fin 1) c n))
          (max (g (ix2 (0 : Fin 2) mm) - p (ix3 (0 : Fin 1) (0 : Fin 2) n))
            (-(g (ix2 (0 : Fin 2) mm) - p (ix3 (0 : Fin 1) (0 : Fin 2) n))))
          (max (g (ix2 (1 : Fin 2) mm) - p (ix3 (0 : Fin 1) (1 : Fin 2) n))
            (-(g (ix2 (1 : Fin 2) mm) - p (ix3 (0 : Fin 1) (1 : Fin 2) n)))) := by
  unfold k1_pay4
  simp only [addf_apply, subf_apply, mulf_apply, broadcast_apply, select_apply, cmpf_apply, maximumf_apply, absf_at]
  rw [dot_apply a d mm n, gridCol_apply g 0 0 rfl, posRow_apply p 0 0 rfl, gridCol_apply g 1 1 rfl,
    posRow_apply p 1 1 rfl, mask_select]
  rfl

end Cert.KernelIdeal.TileMath

end
-- ==== Proof.KI0Formula.lean ====
import proofs.«417968_j21749714387505_1_alg».proof.Proof.KI0Defs
import proofs.«417968_j21749714387505_1_alg».proof.Proof.SpecDefs
import proofs.«417968_j21749714387505_1_alg».proof.Proof.KI0Value
import proofs.«417968_j21749714387505_1_alg».proof.Proof.TileMath
import Idealize.ShloMosaic.Lib.ValueIdx
import Idealize.ShloMosaic.Lib.Pipeline.Value
import Mathlib.Order.CompleteLattice.Basic
import Mathlib.Algebra.BigOperators.Group.Finset.Basic
import Mathlib.Data.EReal.Basic

noncomputable section

namespace Cert.KernelIdeal.Hand

open Cert.KernelIdeal Cert.KernelIdeal.Gen Idealize.ShloMosaic Idealize.ShloMosaic.TcCoe Idealize.ShloMosaic.ValueIdx Cert.Spec
open Idealize.SL.Sem

section Blocks

variable {F : FTy → Type} [FloatOps F]
variable (V : (c : Dev nD) → (b : Ref sig .tc) → Buf (Elt F) ((c : Thread nD τ).loc b))

theorem iblk0_index : ∀ t : Fin cfg0.N,
    win0_0.index t (0 : Fin 3) = t.val / 8 ∧ win0_0.index t (1 : Fin 3) = 0 ∧ win0_0.index t (2 : Fin 3) = 0
    ∧ win0_1.index t (0 : Fin 3) = t.val / 8 ∧ win0_1.index t (1 : Fin 3) = 0 ∧ win0_1.index t (2 : Fin 3) = t.val % 8
    ∧ win0_2.index t (0 : Fin 3) = t.val / 8 ∧ win0_2.index t (1 : Fin 3) = 0 ∧ win0_2.index t (2 : Fin 3) = 0
    ∧ win0_3.index t (0 : Fin 2) = 0 ∧ win0_3.index t (1 : Fin 2) = t.val % 8 :=
  (by decide +kernel : ∀ t : Fin grid0.N, _)

theorem iblk0_0_apply (c : Dev nD) (t : Fin cfg0.N) (b : Fin 8) (hb : t.val / 8 = b.val) (cc : Fin 64) (n : Fin 2048) :
    (iblk0 V c 0 t : Vec F S1x64x2048 .bf16) (ix3 (0 : Fin 1) cc n)
      = (V c main_v63 : S8x64x2048.Idx → Elt F .bf16) (ix3 b cc n) := by
  obtain ⟨e0, e1, e2, -⟩ := iblk0_index t
  unfold iblk0
  rw [View.read_apply]
  show V c main_v63 _ = V c main_v63 _
  refine congrArg (V c main_v63) ?_
  funext a
  apply Fin.ext
  match a with
  | ⟨0, _⟩ => show win0_0.index t (0 : Fin 3) * 1 + 1 * (0 : Fin 1).val = b.val; rw [e0, hb]; simp
  | ⟨1, _⟩ => show win0_0.index t (1 : Fin 3) * 64 + 1 * cc.val = cc.val; rw [e1]; omega
  | ⟨2, _⟩ => show win0_0.index t (2 : Fin 3) * 2048 + 1 * n.val = n.val; rw [e2]; omega

theorem iblk0_1_apply (c : Dev nD) (t : Fin cfg0.N) (b : Fin 8) (hb : t.val / 8 = b.val) (cc : Fin 64) (mm : Fin 512)
    (m : Fin 4096) (hm : m.val = 512 * (t.val % 8) + mm.val) :
    (iblk0 V c 1 t : Vec F S1x64x512 .bf16) (ix3 (0 : Fin 1) cc mm)
      = (V c main_v66 : S8x64x4096.Idx → Elt F .bf16) (ix3 b cc m) := by
  obtain ⟨-, -, -, e0, e1, e2, -⟩ := iblk0_index t
  unfold iblk0
  rw [View.read_apply]
  show V c main_v66 _ = V c main_v66 _
  refine congrArg (V c main_v66) ?_
  funext a
  apply Fin.ext
  match a with
  | ⟨0, _⟩ => show win0_1.index t (0 : Fin 3) * 1 + 1 * (0 : Fin 1).val = b.val; rw [e0, hb]; simp
  | ⟨1, _⟩ => show win0_1.index t (1 : Fin 3) * 64 + 1 * cc.val = cc.val; rw [e1]; omega
  | ⟨2, _⟩ => show win0_1.index t (2 : Fin 3) * 512 + 1 * mm.val = m.val; rw [e2, hm]; omega

theorem iblk0_2_apply (c : Dev nD) (t : Fin cfg0.N) (b : Fin 8) (hb : t.val / 8 = b.val) (j : Fin 2) (n : Fin 2048) :
    (iblk0 V c 2 t : Vec F S1x2x2048 .f32) (ix3 (0 : Fin 1) j n)
      = (V c main_v45 : S8x2x2048.Idx → Elt F .f32) (ix3 b j n) := by
  obtain ⟨-, -, -, -, -, -, e0, e1, e2, -⟩ := iblk0_index t
  unfold iblk0
  rw [View.read_apply]
  show V c main_v45 _ = V c main_v45 _
  refine congrArg (V c main_v45) ?_
  funext a
  apply Fin.ext
  match a with
  | ⟨0, _⟩ => show win0_2.index t (0 : Fin 3) * 1 + 1 * (0 : Fin 1).val = b.val; rw [e0, hb]; simp
  | ⟨1, _⟩ => show win0_2.index t (1 : Fin 3) * 2 + 1 * j.val = j.val; rw [e1]; omega
  | ⟨2, _⟩ => show win0_2.index t (2 : Fin 3) * 2048 + 1 * n.val = n.val; rw [e2]; omega

theorem iblk0_3_apply (c : Dev nD) (t : Fin cfg0.N) (j : Fin 2) (mm : Fin 512)
    (m : Fin 4096) (hm : m.val = 512 * (t.val % 8) + mm.val) :
    (iblk0 V c 3 t : Vec F S2x512 .f32) (ix2 j mm)
      = (V c main_v56 : S2x4096.Idx → Elt F .f32) (ix2 j m) := by
  obtain ⟨-, -, -, -, -, -, -, -, -, e0, e1⟩ := iblk0_index t
  unfold iblk0
  rw [View.read_apply]
  show V c main_v56 _ = V c main_v56 _
  refine congrArg (V c main_v56) ?_
  funext a
  apply Fin.ext
  match a with
  | ⟨0, _⟩ => show win0_3.index t (0 : Fin 2) * 2 + 1 * j.val = j.val; rw [e0]; omega
  | ⟨1, _⟩ => show win0_3.index t (1 : Fin 2) * 512 + 1 * mm.val = m.val; rw [e1, hm]; omega

end Blocks

section Lattice

theorem tile0_iInf_succ (X : Fin 4096 → EReal) (k : ℕ) (hk : k < 8) :
    (⨅ m : Fin 4096, if m.val < 512 * (k + 1) then X m else ⊤)
      = min (⨅ m : Fin 4096, if m.val < 512 * k then X m else ⊤)
          (⨅ mm : Fin 512, X ⟨512 * k + mm.val, by have := mm.isLt; omega⟩) := by
  apply le_antisymm
  · refine le_min (le_iInf fun m => ?_) (le_iInf fun mm => ?_)
    · by_cases h : m.val < 512 * k
      · rw [if_pos h]
        exact iInf_le_of_le m (by rw [if_pos (by omega)])
      · rw [if_neg h]; exact le_top
    · have := mm.isLt
      exact iInf_le_of_le ⟨512 * k + mm.val, by omega⟩ (by rw [if_pos (show 512 * k + mm.val < 512 * (k + 1) by omega)])
  · refine le_iInf fun m => ?_
    by_cases h : m.val < 512 * (k + 1)
    · rw [if_pos h]
      by_cases h' : m.val < 512 * k
      · exact (min_le_left _ _).trans (iInf_le_of_le m (by rw [if_pos h']))
      · exact (min_le_right _ _).trans (iInf_le_of_le ⟨m.val - 512 * k, by omega⟩
          (le_of_eq (congrArg X (Fin.ext (by show 512 * k + (m.val - 512 * k) = m.val; omega)))))
    · rw [if_neg h]; exact le_top

theorem tile0_iInf_zero (X : Fin 4096 → EReal) :
    (⨅ m : Fin 4096, if m.val < 512 * 0 then X m else ⊤) = ⊤ :=
  le_antisymm le_top (le_iInf fun m => by rw [if_neg (by omega)])

theorem tile0_iInf_all (X : Fin 4096 → EReal) :
    (⨅ m : Fin 4096, if m.val < 512 * 8 then X m else ⊤) = ⨅ m : Fin 4096, X m :=
  iInf_congr fun m => if_pos (by have := m.isLt; omega)

def scratch0_acc (s : EReal) (X : Fin 4096 → EReal) (k : ℕ) : EReal :=
  min s (⨅ m : Fin 4096, if m.val < 512 * k then X m else ⊤)

theorem scratch0_acc_zero (s : EReal) (X : Fin 4096 → EReal) : scratch0_acc s X 0 = s := by
  unfold scratch0_acc; rw [tile0_iInf_zero]; exact min_eq_left le_top

theorem scratch0_acc_succ (s : EReal) (X : Fin 4096 → EReal) (k : ℕ) (hk : k < 8) :
    scratch0_acc s X (k + 1)
      = min (scratch0_acc s X k) (⨅ mm : Fin 512, X ⟨512 * k + mm.val, by have := mm.isLt; omega⟩) := by
  unfold scratch0_acc; rw [tile0_iInf_succ X k hk, min_assoc]

theorem scratch0_acc_eight (s : EReal) (X : Fin 4096 → EReal) : scratch0_acc s X 8 = min s (⨅ m : Fin 4096, X m) := by
  unfold scratch0_acc; rw [tile0_iInf_all]

end Lattice

section Assembly

open Cert.KernelIdeal.TileMath

def region0_dist (d : S8x64x4096.Idx → EReal) (a : S8x64x2048.Idx → EReal) (p : S8x2x2048.Idx → EReal) (g : S2x4096.Idx → EReal)
    (b : Fin 8) (n : Fin 2048) (m : Fin 4096) : EReal :=
  valOf (∑ cc : Fin 64, d (ix3 b cc m) * a (ix3 b cc n))
    (max (g (ix2 (0 : Fin 2) m) - p (ix3 b (0 : Fin 2) n)) (-(g (ix2 (0 : Fin 2) m) - p (ix3 b (0 : Fin 2) n))))
    (max (g (ix2 (1 : Fin 2) m) - p (ix3 b (1 : Fin 2) n)) (-(g (ix2 (1 : Fin 2) m) - p (ix3 b (1 : Fin 2) n))))

variable (V : (c : Dev nD) → (b : Ref sig .tc) → Buf (Elt Ideal) ((c : Thread nD τ).loc b))

def tile0_dist (c : Dev nD) (b : Fin 8) (n : Fin 2048) (m : Fin 4096) : EReal :=
  region0_dist (V c main_v66) (V c main_v63) (V c main_v45) (V c main_v56) b n m

theorem scratch0_lt (b : Fin 8) (k : ℕ) (hk : k < 8) : 8 * b.val + k < cfg0.N := by
  have : cfg0.N = 64 := N_0
  have := b.isLt
  omega

theorem tile0_apply (c : Dev nD) (t : Fin cfg0.N) (b : Fin 8) (hb : t.val / 8 = b.val) (mm : Fin 512) (n : Fin 2048)
    (m : Fin 4096) (hm : m.val = 512 * (t.val % 8) + mm.val) :
    tile0 V c t (ix2 mm n) = tile0_dist V c b n m := by
  unfold tile0 tile0_dist region0_dist
  refine (pay4_apply _ _ _ _ mm n).trans ?_
  refine congr (congr (congrArg valOf (Finset.sum_congr rfl fun cc _ => ?_)) ?_) ?_
  · rw [iblk0_1_apply V c t b hb cc mm m hm, iblk0_0_apply V c t b hb cc n]
  · rw [iblk0_3_apply V c t 0 mm m hm, iblk0_2_apply V c t b hb 0 n]
  · rw [iblk0_3_apply V c t 1 mm m hm, iblk0_2_apply V c t b hb 1 n]

theorem scratch0_closed (c : Dev nD) (b : Fin 8) (n : Fin 2048) : ∀ (k : ℕ) (hk : k < 8),
    (outsAt0 V c (8 * b.val + k) (scratch0_lt b k hk)).2 (ix2 (0 : Fin 1) n) = scratch0_acc big (tile0_dist V c b n) (k + 1) := by
  have hb := b.isLt
  intro k
  induction k with
  | zero =>
    intro hk
    have h := scratch0_first V c ⟨8 * b.val + 0, scratch0_lt b 0 hk⟩ (by show (8 * b.val + 0) % 8 = 0; omega)
    refine (congrFun h _).trans ?_
    refine (pay2_apply _ _ n).trans ?_
    rw [pay1_apply, scratch0_acc_succ _ _ 0 hk, scratch0_acc_zero]
    refine congrArg (min big) (iInf_congr fun mm => ?_)
    exact tile0_apply V c ⟨8 * b.val + 0, scratch0_lt b 0 hk⟩ b (by show (8 * b.val + 0) / 8 = b.val; omega) mm n
      ⟨512 * 0 + mm.val, by have := mm.isLt; omega⟩ (by show 512 * 0 + mm.val = 512 * ((8 * b.val + 0) % 8) + mm.val; omega)
  | succ k ih =>
    intro hk
    have h := scratch0_next V c ⟨8 * b.val + (k + 1), scratch0_lt b (k + 1) hk⟩ (by show ¬ (8 * b.val + (k + 1)) % 8 = 0; omega)
    refine (congrFun h _).trans ?_
    refine (pay2_apply _ _ n).trans ?_
    rw [scratch0_acc_succ _ _ (k + 1) hk]
    have hprev : (outsAt0 V c (8 * b.val + (k + 1) - 1) (Nat.lt_of_le_of_lt (Nat.sub_le _ _) (scratch0_lt b (k + 1) hk))).2 (ix2 (0 : Fin 1) n)
        = scratch0_acc big (tile0_dist V c b n) (k + 1) := by
      rw [outsAt0_congr V c (show 8 * b.val + (k + 1) - 1 = 8 * b.val + k by omega) _ (scratch0_lt b k (by omega))]
      exact ih (by omega)
    refine congr (congrArg min hprev) (iInf_congr fun mm => ?_)
    exact tile0_apply V c ⟨8 * b.val + (k + 1), scratch0_lt b (k + 1) hk⟩ b (by show (8 * b.val + (k + 1)) / 8 = b.val; omega) mm n
      ⟨512 * (k + 1) + mm.val, by have := mm.isLt; omega⟩ (by show 512 * (k + 1) + mm.val = 512 * ((8 * b.val + (k + 1)) % 8) + mm.val; omega)

-- After the eight tiles of image b, entry n of the output row is the minimum, capped at `big`, of the masked distance over all 4096 database columns.
theorem region0_value (c : Dev nD) (b : Fin 8) (n : Fin 2048) :
    (dat0 (F := Ideal) V c).arrAt 4 cfg0.N (ix3 b (0 : Fin 1) n)
      = min big (⨅ m : Fin 4096, region0_dist (V c main_v66) (V c main_v63) (V c main_v45) (V c main_v56) b n m) := by
  have hb := b.isLt
  refine (arrAt0_apply V c b n).trans ?_
  have hl := out0_last V c ⟨8 * b.val + 7, scratch0_lt b 7 (by omega)⟩ (by show (8 * b.val + 7) % 8 = 7; omega)
  refine (congrFun hl _).trans ?_
  refine (pay3_apply _ n).trans ?_
  refine (scratch0_closed V c b n 7 (by omega)).trans ?_
  exact scratch0_acc_eight _ _

end Assembly

end Cert.KernelIdeal.Hand

end
-- ==== Proof.KI1Value.lean ====
/-
  Region 1 of the kernel program, read as values. What each of the body's three cases leaves in the scratch row and
  in the output row, as the body's own arithmetic applied to the point's four input blocks and to the row the point
  before left; from these, the running minimum after each grid point by recursion, the output row stored at the
  last tile of an image, and the result array after the run read row by row.
-/
import proofs.«417968_j21749714387505_1_alg».proof.Proof.KI1Defs
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open ValueIdx

variable {F : FTy → Type} [FloatOps F]

/-- The zero offsets of a rank-2 unit rectangle, as a constant function. -/
theorem zeros2_r1 : (![0, 0] : Fin 2 → Nat) = fun _ => 0 := funext fun a => by fin_cases a <;> rfl
/-- The zero offsets of a rank-3 unit rectangle, as a constant function. -/
theorem zeros3_r1 : (![0, 0, 0] : Fin 3 → Nat) = fun _ => 0 := funext fun a => by fin_cases a <;> rfl

/-! ## What each case's stores leave, as the body's arithmetic -/

/-- At a middle tile the scratch row is left at the lane minimum of the tile's masked distances, taken against the
    row the tile before left. -/
theorem soutB_eq_r1 (c : Dev nD) (i : grid1.Coords) (arg2 : Memref sig .tc .vmem S1x64x2048 .bf16) (harg2 : arg2.IsWhole) (arg3 : Memref sig .tc .vmem S1x64x512 .bf16) (harg3 : arg3.IsWhole) (arg4 : Memref sig .tc .vmem S1x2x2048 .f32) (harg4 : arg4.IsWhole) (arg5 : Memref sig .tc .vmem S2x512 .f32) (harg5 : arg5.IsWhole) (arg6 : Memref sig .tc .vmem S1x1x2048 .f32) (harg6 : arg6.IsWhole) (arg7 : Memref sig .tc .vmem S1x2048 .f32) (harg7 : arg7.IsWhole) (hc0 : ¬cond1_0 i) (hc1 : ¬cond1_1 i) (x0 : Vec F S1x64x2048 .bf16) (x1 : Vec F S1x64x512 .bf16) (x2 : Vec F S1x2x2048 .f32) (x3 : Vec F S2x512 .f32) (xs0 : Vec F S1x2048 .f32) :
    sout1_B_0 c i arg2 harg2 arg3 harg3 arg4 harg4 arg5 harg5 arg6 harg6 arg7 harg7 hc0 hc1 x0 x1 x2 x3 xs0 = k1_pay2 (k1_pay4 x0 x1 x2 x3) xs0 := by
  unfold sout1_B_0
  rw [View.read_writes_eq_canon _ _ _ (scover1_B_0 c i arg2 harg2 arg3 harg3 arg4 harg4 arg5 harg5 arg6 harg6 arg7 harg7 hc0 hc1 x0 x1 x2 x3 xs0)]
  unfold kernelRun1_B
  dsimp only
  sl_unfold_words
  rw [View.canon_unit_zero (S := S1x2048) zeros2_r1]
  simp only [View.readAt_eq_ld, harg2.read_unread, harg3.read_unread, harg4.read_unread, harg5.read_unread, harg7.read_unread, View.ld_unit_zero (S := S1x64x2048) zeros3_r1, View.ld_unit_zero (S := S1x64x512) zeros3_r1, View.ld_unit_zero (S := S1x2x2048) zeros3_r1, View.ld_unit_zero (S := S2x512) zeros2_r1, View.ld_unit_zero (S := S1x2048) zeros2_r1]

/-- At the first tile of an image the row is first reset to the large constant and then updated: the later store
    covers the earlier, and its operand is the reset row read back. -/
theorem soutA_eq_r1 (c : Dev nD) (i : grid1.Coords) (arg2 : Memref sig .tc .vmem S1x64x2048 .bf16) (harg2 : arg2.IsWhole) (arg3 : Memref sig .tc .vmem S1x64x512 .bf16) (harg3 : arg3.IsWhole) (arg4 : Memref sig .tc .vmem S1x2x2048 .f32) (harg4 : arg4.IsWhole) (arg5 : Memref sig .tc .vmem S2x512 .f32) (harg5 : arg5.IsWhole) (arg6 : Memref sig .tc .vmem S1x1x2048 .f32) (harg6 : arg6.IsWhole) (arg7 : Memref sig .tc .vmem S1x2048 .f32) (harg7 : arg7.IsWhole) (hc0 : cond1_0 i) (hc1 : ¬cond1_1 i) (x0 : Vec F S1x64x2048 .bf16) (x1 : Vec F S1x64x512 .bf16) (x2 : Vec F S1x2x2048 .f32) (x3 : Vec F S2x512 .f32) :
    sout1_A_0 c i arg2 harg2 arg3 harg3 arg4 harg4 arg5 harg5 arg6 harg6 arg7 harg7 hc0 hc1 x0 x1 x2 x3 = k1_pay2 (k1_pay4 x0 x1 x2 x3) (k1_pay1 (F := F)) := by
  unfold sout1_A_0
  rw [View.read_writes_eq_canon _ _ _ (scover1_A_0 c i arg2 harg2 arg3 harg3 arg4 harg4 arg5 harg5 arg6 harg6 arg7 harg7 hc0 hc1 x0 x1 x2 x3)]
  unfold kernelRun1_A
  dsimp only
  sl_unfold_words
  rw [View.canon_cons_unit_zero (S := S1x2048) zeros2_r1, View.readCov_unit_zero (S := S1x2048) _ zeros2_r1]
  simp only [View.readAt_eq_ld, harg2.read_unread, harg3.read_unread, harg4.read_unread, harg5.read_unread, View.ld_unit_zero (S := S1x64x2048) zeros3_r1, View.ld_unit_zero (S := S1x64x512) zeros3_r1, View.ld_unit_zero (S := S1x2x2048) zeros3_r1, View.ld_unit_zero (S := S2x512) zeros2_r1, View.ld_unit_zero (S := S1x2048) zeros2_r1]

/-- At the last tile of an image the scratch row is updated as at a middle tile. -/
theorem soutC_eq_r1 (c : Dev nD) (i : grid1.Coords) (arg2 : Memref sig .tc .vmem S1x64x2048 .bf16) (harg2 : arg2.IsWhole) (arg3 : Memref sig .tc .vmem S1x64x512 .bf16) (harg3 : arg3.IsWhole) (arg4 : Memref sig .tc .vmem S1x2x2048 .f32) (harg4 : arg4.IsWhole) (arg5 : Memref sig .tc .vmem S2x512 .f32) (harg5 : arg5.IsWhole) (arg6 : Memref sig .tc .vmem S1x1x2048 .f32) (harg6 : arg6.IsWhole) (arg7 : Memref sig .tc .vmem S1x2048 .f32) (harg7 : arg7.IsWhole) (hc0 : ¬cond1_0 i) (hc1 : cond1_1 i) (x0 : Vec F S1x64x2048 .bf16) (x1 : Vec F S1x64x512 .bf16) (x2 : Vec F S1x2x2048 .f32) (x3 : Vec F S2x512 .f32) (xs0 : Vec F S1x2048 .f32) :
    sout1_C_0 c i arg2 harg2 arg3 harg3 arg4 harg4 arg5 harg5 arg6 harg6 arg7 harg7 hc0 hc1 x0 x1 x2 x3 xs0 = k1_pay2 (k1_pay4 x0 x1 x2 x3) xs0 := by
  unfold sout1_C_0
  rw [View.read_writes_eq_canon _ _ _ (scover1_C_0 c i arg2 harg2 arg3 harg3 arg4 harg4 arg5 harg5 arg6 harg6 arg7 harg7 hc0 hc1 x0 x1 x2 x3 xs0)]
  unfold kernelRun1_C
  dsimp only
  sl_unfold_words
  rw [View.canon_unit_zero (S := S1x2048) zeros2_r1]
  simp only [View.readAt_eq_ld, harg2.read_unread, harg3.read_unread, harg4.read_unread, harg5.read_unread, harg7.read_unread, View.ld_unit_zero (S := S1x64x2048) zeros3_r1, View.ld_unit_zero (S := S1x64x512) zeros3_r1, View.ld_unit_zero (S := S1x2x2048) zeros3_r1, View.ld_unit_zero (S := S2x512) zeros2_r1, View.ld_unit_zero (S := S1x2048) zeros2_r1]

/-- At the last tile the output row is stored: the updated scratch row, read back and reshaped. -/
theorem outC_eq_r1 (c : Dev nD) (i : grid1.Coords) (arg2 : Memref sig .tc .vmem S1x64x2048 .bf16) (harg2 : arg2.IsWhole) (arg3 : Memref sig .tc .vmem S1x64x512 .bf16) (harg3 : arg3.IsWhole) (arg4 : Memref sig .tc .vmem S1x2x2048 .f32) (harg4 : arg4.IsWhole) (arg5 : Memref sig .tc .vmem S2x512 .f32) (harg5 : arg5.IsWhole) (arg6 : Memref sig .tc .vmem S1x1x2048 .f32) (harg6 : arg6.IsWhole) (arg7 : Memref sig .tc .vmem S1x2048 .f32) (harg7 : arg7.IsWhole) (hc0 : ¬cond1_0 i) (hc1 : cond1_1 i) (x0 : Vec F S1x64x2048 .bf16) (x1 : Vec F S1x64x512 .bf16) (x2 : Vec F S1x2x2048 .f32) (x3 : Vec F S2x512 .f32) (xs0 : Vec F S1x2048 .f32) :
    out1_C_4 c i arg2 harg2 arg3 harg3 arg4 harg4 arg5 harg5 arg6 harg6 arg7 harg7 hc0 hc1 x0 x1 x2 x3 xs0 = k1_pay3 (k1_pay2 (k1_pay4 x0 x1 x2 x3) xs0) := by
  unfold out1_C_4
  rw [View.read_writes_eq_canon _ _ _ (cover1_C_4 c i arg2 harg2 arg3 harg3 arg4 harg4 arg5 harg5 arg6 harg6 arg7 harg7 hc0 hc1 x0 x1 x2 x3 xs0)]
  unfold kernelRun1_C
  dsimp only
  sl_unfold_words
  rw [View.canon_unit_zero (S := S1x1x2048) zeros3_r1, View.readCov_unit_zero (S := S1x2048) _ zeros2_r1]
  simp only [View.readAt_eq_ld, harg2.read_unread, harg3.read_unread, harg4.read_unread, harg5.read_unread, harg7.read_unread, View.ld_unit_zero (S := S1x64x2048) zeros3_r1, View.ld_unit_zero (S := S1x64x512) zeros3_r1, View.ld_unit_zero (S := S1x2x2048) zeros3_r1, View.ld_unit_zero (S := S2x512) zeros2_r1, View.ld_unit_zero (S := S1x2048) zeros2_r1]

/-! ## The running minimum after each grid point, and the output row -/

-- the buffer contents when the region is entered
variable (V : (c : Dev nD) → (b : Ref sig .tc) → Buf (Elt F) ((c : Thread nD τ).loc b))

/-- The masked distances of the tile at point `t`: the body's arithmetic on the four input blocks there. -/
def tile1 (c : Dev nD) (t : Fin cfg1.N) : FVec F S512x2048 .f32 :=
  k1_pay4 (iblk1 V c 0 t) (iblk1 V c 1 t) (iblk1 V c 2 t) (iblk1 V c 3 t)

/-- After the first tile of an image the scratch row is the tile's lane minimum against the large constant. -/
theorem scratch1_first (c : Dev nD) (t : Fin cfg1.N) (h0 : t.val % 8 = 0) :
    (outsAt1 V c t.val t.isLt).2 = k1_pay2 (tile1 V c t) (k1_pay1 (F := F)) := by
  have h1 : ¬t.val % 8 = 7 := by omega
  unfold tile1
  rw [outsAt1_A V c t h0 h1]
  dsimp only
  exact soutA_eq_r1 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t)

/-- After any later tile it is the tile's lane minimum against the row the tile before left. -/
theorem scratch1_next (c : Dev nD) (t : Fin cfg1.N) (h0 : ¬ t.val % 8 = 0) :
    (outsAt1 V c t.val t.isLt).2 = k1_pay2 (tile1 V c t) (outsAt1 V c (t.val - 1) (Nat.lt_of_le_of_lt (Nat.sub_le _ _) t.isLt)).2 := by
  unfold tile1
  by_cases h1 : t.val % 8 = 7
  · rw [outsAt1_C V c t h0 h1]
    dsimp only
    exact soutC_eq_r1 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2
  · rw [outsAt1_B V c t h0 h1]
    dsimp only
    exact soutB_eq_r1 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2

/-- At the last tile of an image the output row is the scratch row just left, reshaped. -/
theorem out1_last (c : Dev nD) (t : Fin cfg1.N) (h1 : t.val % 8 = 7) :
    (outsAt1 V c t.val t.isLt).1 = k1_pay3 (outsAt1 V c t.val t.isLt).2 := by
  have h0 : ¬t.val % 8 = 0 := by omega
  rw [outsAt1_C V c t h0 h1]
  dsimp only
  exact (outC_eq_r1 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2).trans
    (congrArg k1_pay3 (soutC_eq_r1 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2).symm)

/-! ## The result array after the run -/

/-- The output window's block index, decided over the grid: the image on the first axis, zero on the others. -/
theorem idx_out4_r1 : ∀ t : Fin cfg1.N, win1_4.index t (0 : Fin 3) = t.val / 8 ∧ win1_4.index t (1 : Fin 3) = 0
    ∧ win1_4.index t (2 : Fin 3) = 0 :=
  (by decide +kernel : ∀ t : Fin grid1.N, _)

/-- The recursion's value depends on the position only. -/
theorem outsAt1_congr (c : Dev nD) {n n' : ℕ} (h : n = n') (hn : n < cfg1.N) (hn' : n' < cfg1.N) :
    outsAt1 V c n hn = outsAt1 V c n' hn' := by
  subst h; rfl

/-- The whole result array the write-backs assemble: row `b` is the output row stored at the last tile of image `b`. -/
def arrOut1 (c : Dev nD) : Vec F S8x1x2048 .f32 := fun i =>
  (outsAt1 V c (8 * (i 0).val + 7) (by have := (i 0).isLt; have : (i 0).val < 8 := this; have : cfg1.N = 64 := N_1; omega)).1 (ix3 0 0 (i 2))

/-- That array at row `b`, lane `n`. -/
theorem arrOut1_apply (c : Dev nD) (b : Fin 8) (n : Fin 2048) :
    arrOut1 V c (ix3 b 0 n) = (outsAt1 V c (8 * b.val + 7) (by have := b.isLt; have : cfg1.N = 64 := N_1; omega)).1 (ix3 0 0 n) := rfl

/-- What a writing point writes back is its block of that array: the block of point `t` is row `t / 8`. -/
theorem flushed4_eq_r1 (c : Dev nD) (t : Fin cfg1.N) (hf : (cfg1.win 4).flush t = true) :
    (dat1 V c).flushed 4 t = ((cfg1.win 4).blk t).view.read (Elt F) (arrOut1 V c) := by
  have h7 : t.val % 8 = 7 := (flush0_4 t).mp hf
  have hN : cfg1.N = 64 := N_1
  have ht := t.isLt
  show (cfg1.win 4).cut (grid1.coords t) ((dat1 V c).after 4 t) = _
  rw [after1_4]
  obtain ⟨e0, e1, e2⟩ := idx_out4_r1 t
  funext y
  obtain ⟨p, q, r, rfl⟩ : ∃ (p : Fin 1) (q : Fin 1) (r : Fin 2048), y = ix3 p q r := ⟨y 0, y 1, y 2, eq_ix3 y⟩
  obtain rfl : p = 0 := Fin.ext (by omega)
  obtain rfl : q = 0 := Fin.ext (by omega)
  show (outsAt1 V c t.val t.isLt).1 (ix3 0 0 r) = arrOut1 V c (((cfg1.win 4).blk t).view.emb (ix3 0 0 r))
  have hemb : ((cfg1.win 4).blk t).view.emb (ix3 0 0 r) = (ix3 (⟨t.val / 8, by omega⟩ : Fin 8) (0 : Fin 1) r : S8x1x2048.Idx) := by
    funext a; apply Fin.ext
    match a with
    | ⟨0, _⟩ => show win1_4.index t (0 : Fin 3) * 1 + 1 * 0 = t.val / 8; omega
    | ⟨1, _⟩ => show win1_4.index t (1 : Fin 3) * 1 + 1 * 0 = 0; omega
    | ⟨2, _⟩ => show win1_4.index t (2 : Fin 3) * 2048 + 1 * r.val = r.val; omega
  refine Eq.trans ?_ (congrArg (arrOut1 V c) hemb).symm
  refine Eq.trans ?_ (arrOut1_apply V c ⟨t.val / 8, by omega⟩ r).symm
  exact congrFun (congrArg Prod.fst (outsAt1_congr V c (show t.val = 8 * (t.val / 8) + 7 by omega) _ _)) _

/-- An index of the array is in point `t`'s block iff each coordinate is in the block's range on its axis. -/
theorem mem_blk4_r1 (t : Fin cfg1.N) (i : S8x1x2048.Idx) :
    i ∈ ((cfg1.win 4).blk t).view.set ↔ ∀ a : Fin 3, win1_4.index t a * S1x1x2048.size a ≤ (i a).val ∧ (i a).val < win1_4.index t a * S1x1x2048.size a + S1x1x2048.size a := by
  show i ∈ ((View.whole main_v67).slice (win1_4.rect t)).set ↔ _
  rw [View.set_slice_whole, Rect.mem_set_unit]
  exact Iff.rfl

/-- After the run, row `b` of the result array is the output row stored at the last tile of image `b`: that point
    writes the row back, and whatever writes it later writes the same. -/
theorem arrAt1_apply (c : Dev nD) (b : Fin 8) (n : Fin 2048) :
    (dat1 V c).arrAt 4 cfg1.N (ix3 b 0 n) = (outsAt1 V c (8 * b.val + 7) (by have := b.isLt; have : cfg1.N = 64 := N_1; omega)).1 (ix3 0 0 n) := by
  have hN : cfg1.N = 64 := N_1
  have hb := b.isLt
  obtain ⟨t, ht⟩ : ∃ t : Fin cfg1.N, t.val = 8 * b.val + 7 := ⟨⟨8 * b.val + 7, by omega⟩, rfl⟩
  have h7 : t.val % 8 = 7 := by omega
  have hf : (cfg1.win 4).flush t = true := (flush0_4 t).mpr h7
  obtain ⟨e0, e1, e2⟩ := idx_out4_r1 t
  have hmem : (ix3 b 0 n : S8x1x2048.Idx) ∈ ((cfg1.win 4).blk t).view.set := by
    rw [mem_blk4_r1]
    intro a
    match a with
    | ⟨0, _⟩ => show win1_4.index t (0 : Fin 3) * 1 ≤ b.val ∧ b.val < win1_4.index t (0 : Fin 3) * 1 + 1; omega
    | ⟨1, _⟩ => show win1_4.index t (1 : Fin 3) * 1 ≤ 0 ∧ 0 < win1_4.index t (1 : Fin 3) * 1 + 1; omega
    | ⟨2, _⟩ => show win1_4.index t (2 : Fin 3) * 2048 ≤ n.val ∧ n.val < win1_4.index t (2 : Fin 3) * 2048 + 2048; have := n.isLt; omega
  exact ((dat1 V c).arrAt_apply_of_mem 4 (arrOut1 V c) (flushed4_eq_r1 V c) cfg1.N t (ix3 b 0 n) t.isLt hf hmem).trans
    (arrOut1_apply V c b n)

end Cert.KernelIdeal.Hand

end
-- ==== Proof.KI1Formula.lean ====
/-
  Region 1's result array as a formula of its four operand arrays, on the extended reals.

  The region runs over the grid 8 × 8: image b, database tile k, point 8 b + k. At a point it sees the anchors' descriptors of
  image b, positions 512 k … 512 k + 511 of image b's database descriptors, the anchors' two position rows of image b and
  the same 512 columns of the two grid-position rows; it forms the 512 × 2048 tile of masked distances and folds its
  column minima into a running row, which starts at 1e30 at the first tile of an image and is stored as the image's
  result row at the last. Hence the result at (b, n) is the smaller of 1e30 and the infimum, over all 4096 database positions m, of the masked
  distance between anchor n and position m of image b.

  The steps: each input block read off its array (the block's coordinate is block index × block size + the coordinate
  inside the block); the infimum below position 512 (k + 1) split into the infimum below 512 k and tile k's; the tile's
  entries as masked distances of the arrays; the running row after tile k, by induction on k; the stored row.
-/
import proofs.«417968_j21749714387505_1_alg».proof.Proof.KI1Defs
import proofs.«417968_j21749714387505_1_alg».proof.Proof.SpecDefs
import proofs.«417968_j21749714387505_1_alg».proof.Proof.KI1Value
import proofs.«417968_j21749714387505_1_alg».proof.Proof.TileMath
import Idealize.ShloMosaic.Lib.ValueIdx
import Idealize.ShloMosaic.Lib.Pipeline.Value
import Mathlib.Order.CompleteLattice.Basic
import Mathlib.Algebra.BigOperators.Group.Finset.Basic
import Mathlib.Data.EReal.Basic

noncomputable section

namespace Cert.KernelIdeal.Hand

open Cert.KernelIdeal Cert.KernelIdeal.Gen Idealize.ShloMosaic Idealize.ShloMosaic.TcCoe Idealize.ShloMosaic.ValueIdx Cert.Spec
open Idealize.SL.Sem

/-! ## The input blocks, read off their arrays -/

section Blocks

variable {F : FTy → Type} [FloatOps F]
variable (V : (c : Dev nD) → (b : Ref sig .tc) → Buf (Elt F) ((c : Thread nD τ).loc b))

/-- The printed index maps over the grid: the image is point / 8, the tile is point % 8. -/
theorem iblk1_index : ∀ t : Fin cfg1.N,
    win1_0.index t (0 : Fin 3) = t.val / 8 ∧ win1_0.index t (1 : Fin 3) = 0 ∧ win1_0.index t (2 : Fin 3) = 0
    ∧ win1_1.index t (0 : Fin 3) = t.val / 8 ∧ win1_1.index t (1 : Fin 3) = 0 ∧ win1_1.index t (2 : Fin 3) = t.val % 8
    ∧ win1_2.index t (0 : Fin 3) = t.val / 8 ∧ win1_2.index t (1 : Fin 3) = 0 ∧ win1_2.index t (2 : Fin 3) = 0
    ∧ win1_3.index t (0 : Fin 2) = 0 ∧ win1_3.index t (1 : Fin 2) = t.val % 8 :=
  (by decide +kernel : ∀ t : Fin grid1.N, _)

/-- The anchors' descriptor block at a point of image b is image b's descriptors. -/
theorem iblk1_0_apply (c : Dev nD) (t : Fin cfg1.N) (b : Fin 8) (hb : t.val / 8 = b.val) (cc : Fin 64) (n : Fin 2048) :
    (iblk1 V c 0 t : Vec F S1x64x2048 .bf16) (ix3 (0 : Fin 1) cc n)
      = (V c main_v64 : S8x64x2048.Idx → Elt F .bf16) (ix3 b cc n) := by
  obtain ⟨e0, e1, e2, -⟩ := iblk1_index t
  unfold iblk1
  rw [View.read_apply]
  show V c main_v64 _ = V c main_v64 _
  refine congrArg (V c main_v64) ?_
  funext a
  apply Fin.ext
  match a with
  | ⟨0, _⟩ => show win1_0.index t (0 : Fin 3) * 1 + 1 * (0 : Fin 1).val = b.val; rw [e0, hb]; simp
  | ⟨1, _⟩ => show win1_0.index t (1 : Fin 3) * 64 + 1 * cc.val = cc.val; rw [e1]; omega
  | ⟨2, _⟩ => show win1_0.index t (2 : Fin 3) * 2048 + 1 * n.val = n.val; rw [e2]; omega

/-- The database tile at point (b, k) is positions 512 k … 512 k + 511 of image b's database descriptors. -/
theorem iblk1_1_apply (c : Dev nD) (t : Fin cfg1.N) (b : Fin 8) (hb : t.val / 8 = b.val) (cc : Fin 64) (mm : Fin 512)
    (m : Fin 4096) (hm : m.val = 512 * (t.val % 8) + mm.val) :
    (iblk1 V c 1 t : Vec F S1x64x512 .bf16) (ix3 (0 : Fin 1) cc mm)
      = (V c main_v65 : S8x64x4096.Idx → Elt F .bf16) (ix3 b cc m) := by
  obtain ⟨-, -, -, e0, e1, e2, -⟩ := iblk1_index t
  unfold iblk1
  rw [View.read_apply]
  show V c main_v65 _ = V c main_v65 _
  refine congrArg (V c main_v65) ?_
  funext a
  apply Fin.ext
  match a with
  | ⟨0, _⟩ => show win1_1.index t (0 : Fin 3) * 1 + 1 * (0 : Fin 1).val = b.val; rw [e0, hb]; simp
  | ⟨1, _⟩ => show win1_1.index t (1 : Fin 3) * 64 + 1 * cc.val = cc.val; rw [e1]; omega
  | ⟨2, _⟩ => show win1_1.index t (2 : Fin 3) * 512 + 1 * mm.val = m.val; rw [e2, hm]; omega

/-- The anchors' position block at a point of image b is image b's two position rows. -/
theorem iblk1_2_apply (c : Dev nD) (t : Fin cfg1.N) (b : Fin 8) (hb : t.val / 8 = b.val) (j : Fin 2) (n : Fin 2048) :
    (iblk1 V c 2 t : Vec F S1x2x2048 .f32) (ix3 (0 : Fin 1) j n)
      = (V c main_v44 : S8x2x2048.Idx → Elt F .f32) (ix3 b j n) := by
  obtain ⟨-, -, -, -, -, -, e0, e1, e2, -⟩ := iblk1_index t
  unfold iblk1
  rw [View.read_apply]
  show V c main_v44 _ = V c main_v44 _
  refine congrArg (V c main_v44) ?_
  funext a
  apply Fin.ext
  match a with
  | ⟨0, _⟩ => show win1_2.index t (0 : Fin 3) * 1 + 1 * (0 : Fin 1).val = b.val; rw [e0, hb]; simp
  | ⟨1, _⟩ => show win1_2.index t (1 : Fin 3) * 2 + 1 * j.val = j.val; rw [e1]; omega
  | ⟨2, _⟩ => show win1_2.index t (2 : Fin 3) * 2048 + 1 * n.val = n.val; rw [e2]; omega

/-- The grid-position tile at tile k is columns 512 k … 512 k + 511 of the two grid rows. -/
theorem iblk1_3_apply (c : Dev nD) (t : Fin cfg1.N) (j : Fin 2) (mm : Fin 512)
    (m : Fin 4096) (hm : m.val = 512 * (t.val % 8) + mm.val) :
    (iblk1 V c 3 t : Vec F S2x512 .f32) (ix2 j mm)
      = (V c main_v56 : S2x4096.Idx → Elt F .f32) (ix2 j m) := by
  obtain ⟨-, -, -, -, -, -, -, -, -, e0, e1⟩ := iblk1_index t
  unfold iblk1
  rw [View.read_apply]
  show V c main_v56 _ = V c main_v56 _
  refine congrArg (V c main_v56) ?_
  funext a
  apply Fin.ext
  match a with
  | ⟨0, _⟩ => show win1_3.index t (0 : Fin 2) * 2 + 1 * j.val = j.val; rw [e0]; omega
  | ⟨1, _⟩ => show win1_3.index t (1 : Fin 2) * 512 + 1 * mm.val = m.val; rw [e1, hm]; omega

end Blocks

/-! ## The running minimum over the tiles, on the extended reals -/

section Lattice

/-- The infimum over the positions below 512 (k + 1) is the smaller of the infimum below 512 k and tile k's infimum. -/
theorem tile1_iInf_succ (X : Fin 4096 → EReal) (k : ℕ) (hk : k < 8) :
    (⨅ m : Fin 4096, if m.val < 512 * (k + 1) then X m else ⊤)
      = min (⨅ m : Fin 4096, if m.val < 512 * k then X m else ⊤)
          (⨅ mm : Fin 512, X ⟨512 * k + mm.val, by have := mm.isLt; omega⟩) := by
  apply le_antisymm
  · refine le_min (le_iInf fun m => ?_) (le_iInf fun mm => ?_)
    · by_cases h : m.val < 512 * k
      · rw [if_pos h]
        exact iInf_le_of_le m (by rw [if_pos (by omega)])
      · rw [if_neg h]; exact le_top
    · have := mm.isLt
      exact iInf_le_of_le ⟨512 * k + mm.val, by omega⟩ (by rw [if_pos (show 512 * k + mm.val < 512 * (k + 1) by omega)])
  · refine le_iInf fun m => ?_
    by_cases h : m.val < 512 * (k + 1)
    · rw [if_pos h]
      by_cases h' : m.val < 512 * k
      · exact (min_le_left _ _).trans (iInf_le_of_le m (by rw [if_pos h']))
      · exact (min_le_right _ _).trans (iInf_le_of_le ⟨m.val - 512 * k, by omega⟩
          (le_of_eq (congrArg X (Fin.ext (by show 512 * k + (m.val - 512 * k) = m.val; omega)))))
    · rw [if_neg h]; exact le_top

/-- Below position 0 there is nothing: the top element. -/
theorem tile1_iInf_zero (X : Fin 4096 → EReal) :
    (⨅ m : Fin 4096, if m.val < 512 * 0 then X m else ⊤) = ⊤ :=
  le_antisymm le_top (le_iInf fun m => by rw [if_neg (by omega)])

/-- Below position 4096 is everything. -/
theorem tile1_iInf_all (X : Fin 4096 → EReal) :
    (⨅ m : Fin 4096, if m.val < 512 * 8 then X m else ⊤) = ⨅ m : Fin 4096, X m :=
  iInf_congr fun m => if_pos (by have := m.isLt; omega)

/-- The running minimum before tile k: the starting value capped by everything below position 512 k. -/
def scratch1_acc (s : EReal) (X : Fin 4096 → EReal) (k : ℕ) : EReal :=
  min s (⨅ m : Fin 4096, if m.val < 512 * k then X m else ⊤)

/-- Before the first tile it is the starting value. -/
theorem scratch1_acc_zero (s : EReal) (X : Fin 4096 → EReal) : scratch1_acc s X 0 = s := by
  unfold scratch1_acc; rw [tile1_iInf_zero]; exact min_eq_left le_top

/-- A tile folds its infimum in. -/
theorem scratch1_acc_succ (s : EReal) (X : Fin 4096 → EReal) (k : ℕ) (hk : k < 8) :
    scratch1_acc s X (k + 1)
      = min (scratch1_acc s X k) (⨅ mm : Fin 512, X ⟨512 * k + mm.val, by have := mm.isLt; omega⟩) := by
  unfold scratch1_acc; rw [tile1_iInf_succ X k hk, min_assoc]

/-- After the eighth tile it is the starting value capped by the infimum over all positions. -/
theorem scratch1_acc_eight (s : EReal) (X : Fin 4096 → EReal) : scratch1_acc s X 8 = min s (⨅ m : Fin 4096, X m) := by
  unfold scratch1_acc; rw [tile1_iInf_all]

end Lattice

/-! ## The region's result -/

section Assembly

open Cert.KernelIdeal.TileMath

/-- The masked distance between anchor n and database position m of image b, as a function of the database descriptors d,
    the anchors' descriptors a, the anchors' positions p and the grid positions g. -/
def region1_dist (d : S8x64x4096.Idx → EReal) (a : S8x64x2048.Idx → EReal) (p : S8x2x2048.Idx → EReal) (g : S2x4096.Idx → EReal)
    (b : Fin 8) (n : Fin 2048) (m : Fin 4096) : EReal :=
  valOf (∑ cc : Fin 64, d (ix3 b cc m) * a (ix3 b cc n))
    (max (g (ix2 (0 : Fin 2) m) - p (ix3 b (0 : Fin 2) n)) (-(g (ix2 (0 : Fin 2) m) - p (ix3 b (0 : Fin 2) n))))
    (max (g (ix2 (1 : Fin 2) m) - p (ix3 b (1 : Fin 2) n)) (-(g (ix2 (1 : Fin 2) m) - p (ix3 b (1 : Fin 2) n))))

variable (V : (c : Dev nD) → (b : Ref sig .tc) → Buf (Elt Ideal) ((c : Thread nD τ).loc b))

/-- The same off the region's operand arrays as it finds them. -/
def tile1_dist (c : Dev nD) (b : Fin 8) (n : Fin 2048) (m : Fin 4096) : EReal :=
  region1_dist (V c main_v65) (V c main_v64) (V c main_v44) (V c main_v56) b n m

/-- Tile k of image b is a point of the grid. -/
theorem scratch1_lt (b : Fin 8) (k : ℕ) (hk : k < 8) : 8 * b.val + k < cfg1.N := by
  have : cfg1.N = 64 := N_1
  have := b.isLt
  omega

/-- The tile of masked distances a point of image b computes, entry by entry. -/
theorem tile1_apply (c : Dev nD) (t : Fin cfg1.N) (b : Fin 8) (hb : t.val / 8 = b.val) (mm : Fin 512) (n : Fin 2048)
    (m : Fin 4096) (hm : m.val = 512 * (t.val % 8) + mm.val) :
    tile1 V c t (ix2 mm n) = tile1_dist V c b n m := by
  unfold tile1 tile1_dist region1_dist
  refine (k1_pay4_apply _ _ _ _ mm n).trans ?_
  refine congr (congr (congrArg valOf (Finset.sum_congr rfl fun cc _ => ?_)) ?_) ?_
  · rw [iblk1_1_apply V c t b hb cc mm m hm, iblk1_0_apply V c t b hb cc n]
  · rw [iblk1_3_apply V c t 0 mm m hm, iblk1_2_apply V c t b hb 0 n]
  · rw [iblk1_3_apply V c t 1 mm m hm, iblk1_2_apply V c t b hb 1 n]

/-- After tile k of image b the scratch row holds, at anchor n, the starting value capped by the masked distances to
    the positions below 512 (k + 1). -/
theorem scratch1_closed (c : Dev nD) (b : Fin 8) (n : Fin 2048) : ∀ (k : ℕ) (hk : k < 8),
    (outsAt1 V c (8 * b.val + k) (scratch1_lt b k hk)).2 (ix2 (0 : Fin 1) n) = scratch1_acc big (tile1_dist V c b n) (k + 1) := by
  have hb := b.isLt
  intro k
  induction k with
  | zero =>
    intro hk
    have h := scratch1_first V c ⟨8 * b.val + 0, scratch1_lt b 0 hk⟩ (by show (8 * b.val + 0) % 8 = 0; omega)
    refine (congrFun h _).trans ?_
    refine (k1_pay2_apply _ _ n).trans ?_
    rw [k1_pay1_apply, scratch1_acc_succ _ _ 0 hk, scratch1_acc_zero]
    refine congrArg (min big) (iInf_congr fun mm => ?_)
    exact tile1_apply V c ⟨8 * b.val + 0, scratch1_lt b 0 hk⟩ b (by show (8 * b.val + 0) / 8 = b.val; omega) mm n
      ⟨512 * 0 + mm.val, by have := mm.isLt; omega⟩ (by show 512 * 0 + mm.val = 512 * ((8 * b.val + 0) % 8) + mm.val; omega)
  | succ k ih =>
    intro hk
    have h := scratch1_next V c ⟨8 * b.val + (k + 1), scratch1_lt b (k + 1) hk⟩ (by show ¬ (8 * b.val + (k + 1)) % 8 = 0; omega)
    refine (congrFun h _).trans ?_
    refine (k1_pay2_apply _ _ n).trans ?_
    rw [scratch1_acc_succ _ _ (k + 1) hk]
    have hprev : (outsAt1 V c (8 * b.val + (k + 1) - 1) (Nat.lt_of_le_of_lt (Nat.sub_le _ _) (scratch1_lt b (k + 1) hk))).2 (ix2 (0 : Fin 1) n)
        = scratch1_acc big (tile1_dist V c b n) (k + 1) := by
      rw [outsAt1_congr V c (show 8 * b.val + (k + 1) - 1 = 8 * b.val + k by omega) _ (scratch1_lt b k (by omega))]
      exact ih (by omega)
    refine congr (congrArg min hprev) (iInf_congr fun mm => ?_)
    exact tile1_apply V c ⟨8 * b.val + (k + 1), scratch1_lt b (k + 1) hk⟩ b (by show (8 * b.val + (k + 1)) / 8 = b.val; omega) mm n
      ⟨512 * (k + 1) + mm.val, by have := mm.isLt; omega⟩ (by show 512 * (k + 1) + mm.val = 512 * ((8 * b.val + (k + 1)) % 8) + mm.val; omega)

/-- Region 1's result: at image b, anchor n, the starting value 1e30 capped by the masked distances to all 4096 positions. -/
theorem region1_value (c : Dev nD) (b : Fin 8) (n : Fin 2048) :
    (dat1 (F := Ideal) V c).arrAt 4 cfg1.N (ix3 b (0 : Fin 1) n)
      = min big (⨅ m : Fin 4096, region1_dist (V c main_v65) (V c main_v64) (V c main_v44) (V c main_v56) b n m) := by
  have hb := b.isLt
  refine (arrAt1_apply V c b n).trans ?_
  have hl := out1_last V c ⟨8 * b.val + 7, scratch1_lt b 7 (by omega)⟩ (by show (8 * b.val + 7) % 8 = 7; omega)
  refine (congrFun hl _).trans ?_
  refine (k1_pay3_apply _ n).trans ?_
  refine (scratch1_closed V c b n 7 (by omega)).trans ?_
  exact scratch1_acc_eight _ _

end Assembly

end Cert.KernelIdeal.Hand

end
-- ==== Proof.KStages.lean ====
import proofs.«417968_j21749714387505_1_alg».proof.KernelIdeal

noncomputable section

namespace Cert.KernelIdeal.Stages

open Idealize.ShloMosaic Idealize.ShloMosaic.TcCoe Cert.KernelIdeal

variable {F : FTy → Type} [FloatOps F] [Facts]
open Facts₀ Facts

/-- The whole contents of a buffer of shape `S` and element type `e`. -/
abbrev Arr (F : FTy → Type) (S : Shape) (e : EltTy) : Type := (⟨S, e⟩ : BufTy).Contents (Elt F)

def k_main_v0 (a0 a1 : Arr F S8x64x64x64 .f32) (a2 : Arr F S8x2048 .i32) (a3 : Arr F S8x2x2048 .i32) : Arr F S8x64x4096 .f32 :=
  shapeCast S8x64x4096 a0 shapeCasts_S8x64x64x64_S8x64x4096
def k_main_v1 (a0 a1 : Arr F S8x64x64x64 .f32) (a2 : Arr F S8x2048 .i32) (a3 : Arr F S8x2x2048 .i32) : Arr F S8x64x4096 .f32 :=
  shapeCast S8x64x4096 a1 shapeCasts_S8x64x64x64_S8x64x4096
def k_main_v2 (a0 a1 : Arr F S8x64x64x64 .f32) (a2 : Arr F S8x2048 .i32) (a3 : Arr F S8x2x2048 .i32) : Arr F S8x64x4096 .f32 :=
  mulf (k_main_v0 a0 a1 a2 a3) (k_main_v0 a0 a1 a2 a3)
def k_main_cst (a0 a1 : Arr F S8x64x64x64 .f32) (a2 : Arr F S8x2048 .i32) (a3 : Arr F S8x2x2048 .i32) : Arr F S_ .f32 :=
  constant S_ .f32 0x00000000#32
def k_main_v3 (a0 a1 : Arr F S8x64x64x64 .f32) (a2 : Arr F S8x2048 .i32) (a3 : Arr F S8x2x2048 .i32) : Arr F S8x4096 .f32 :=
  (fun x v => Host.reduceAdd x v reducesTo_S8x64x4096_S8x4096_d1 h_S_) (k_main_v2 a0 a1 a2 a3) (k_main_cst a0 a1 a2 a3)
def k_main_v4 (a0 a1 : Arr F S8x64x64x64 .f32) (a2 : Arr F S8x2048 .i32) (a3 : Arr F S8x2x2048 .i32) : Arr F S8x1x4096 .f32 :=
  (broadcastInDim S8x1x4096 ![0, 2] bcast_S8x4096_S8x1x4096_0_2) (k_main_v3 a0 a1 a2 a3)
def k_main_v5 (a0 a1 : Arr F S8x64x64x64 .f32) (a2 : Arr F S8x2048 .i32) (a3 : Arr F S8x2x2048 .i32) : Arr F S8x1x4096 .f32 :=
  Host.sqrt (k_main_v4 a0 a1 a2 a3)
def k_main_cst_0 (a0 a1 : Arr F S8x64x64x64 .f32) (a2 : Arr F S8x2048 .i32) (a3 : Arr F S8x2x2048 .i32) : Arr F S_ .f32 :=
  constant S_ .f32 0x2B8CBCCC#32
def k_main_v6 (a0 a1 : Arr F S8x64x64x64 .f32) (a2 : Arr F S8x2048 .i32) (a3 : Arr F S8x2x2048 .i32) : Arr F S8x1x4096 .f32 :=
  (broadcastInDim S8x1x4096 ![] bcast_S_S8x1x4096) (k_main_cst_0 a0 a1 a2 a3)
def k_main_v7 (a0 a1 : Arr F S8x64x64x64 .f32) (a2 : Arr F S8x2048 .i32) (a3 : Arr F S8x2x2048 .i32) : Arr F S8x1x4096 .f32 :=
  maximumf (k_main_v5 a0 a1 a2 a3) (k_main_v6 a0 a1 a2 a3)
def k_main_v8 (a0 a1 : Arr F S8x64x64x64 .f32) (a2 : Arr F S8x2048 .i32) (a3 : Arr F S8x2x2048 .i32) : Arr F S8x64x4096 .f32 :=
  (broadcastInDim S8x64x4096 ![0, 1, 2] bcast_S8x1x4096_S8x64x4096_0_1_2) (k_main_v7 a0 a1 a2 a3)
def k_main_v9 (a0 a1 : Arr F S8x64x64x64 .f32) (a2 : Arr F S8x2048 .i32) (a3 : Arr F S8x2x2048 .i32) : Arr F S8x64x4096 .f32 :=
  Host.divf (k_main_v0 a0 a1 a2 a3) (k_main_v8 a0 a1 a2 a3)
def k_main_v10 (a0 a1 : Arr F S8x64x64x64 .f32) (a2 : Arr F S8x2048 .i32) (a3 : Arr F S8x2x2048 .i32) : Arr F S8x64x4096 .f32 :=
  mulf (k_main_v1 a0 a1 a2 a3) (k_main_v1 a0 a1 a2 a3)
def k_main_cst_1 (a0 a1 : Arr F S8x64x64x64 .f32) (a2 : Arr F S8x2048 .i32) (a3 : Arr F S8x2x2048 .i32) : Arr F S_ .f32 :=
  constant S_ .f32 0x00000000#32
def k_main_v11 (a0 a1 : Arr F S8x64x64x64 .f32) (a2 : Arr F S8x2048 .i32) (a3 : Arr F S8x2x2048 .i32) : Arr F S8x4096 .f32 :=
  (fun x v => Host.reduceAdd x v reducesTo_S8x64x4096_S8x4096_d1 h_S_) (k_main_v10 a0 a1 a2 a3) (k_main_cst_1 a0 a1 a2 a3)
def k_main_v12 (a0 a1 : Arr F S8x64x64x64 .f32) (a2 : Arr F S8x2048 .i32) (a3 : Arr F S8x2x2048 .i32) : Arr F S8x1x4096 .f32 :=
  (broadcastInDim S8x1x4096 ![0, 2] bcast_S8x4096_S8x1x4096_0_2) (k_main_v11 a0 a1 a2 a3)
def k_main_v13 (a0 a1 : Arr F S8x64x64x64 .f32) (a2 : Arr F S8x2048 .i32) (a3 : Arr F S8x2x2048 .i32) : Arr F S8x1x4096 .f32 :=
  Host.sqrt (k_main_v12 a0 a1 a2 a3)
def k_main_cst_2 (a0 a1 : Arr F S8x64x64x64 .f32) (a2 : Arr F S8x2048 .i32) (a3 : Arr F S8x2x2048 .i32) : Arr F S_ .f32 :=
  constant S_ .f32 0x2B8CBCCC#32
def k_main_v14 (a0 a1 : Arr F S8x64x64x64 .f32) (a2 : Arr F S8x2048 .i32) (a3 : Arr F S8x2x2048 .i32) : Arr F S8x1x4096 .f32 :=
  (broadcastInDim S8x1x4096 ![] bcast_S_S8x1x4096) (k_main_cst_2 a0 a1 a2 a3)
def k_main_v15 (a0 a1 : Arr F S8x64x64x64 .f32) (a2 : Arr F S8x2048 .i32) (a3 : Arr F S8x2x2048 .i32) : Arr F S8x1x4096 .f32 :=
  maximumf (k_main_v13 a0 a1 a2 a3) (k_main_v14 a0 a1 a2 a3)
def k_main_v16 (a0 a1 : Arr F S8x64x64x64 .f32) (a2 : Arr F S8x2048 .i32) (a3 : Arr F S8x2x2048 .i32) : Arr F S8x64x4096 .f32 :=
  (broadcastInDim S8x64x4096 ![0, 1, 2] bcast_S8x1x4096_S8x64x4096_0_1_2) (k_main_v15 a0 a1 a2 a3)
def k_main_v17 (a0 a1 : Arr F S8x64x64x64 .f32) (a2 : Arr F S8x2048 .i32) (a3 : Arr F S8x2x2048 .i32) : Arr F S8x64x4096 .f32 :=
  Host.divf (k_main_v1 a0 a1 a2 a3) (k_main_v16 a0 a1 a2 a3)
def k_main_v18 (a0 a1 : Arr F S8x64x64x64 .f32) (a2 : Arr F S8x2048 .i32) (a3 : Arr F S8x2x2048 .i32) : Arr F S8x1x2048 .i32 :=
  (broadcastInDim S8x1x2048 ![0, 2] bcast_S8x2048_S8x1x2048_0_2) a2
def k_main_v19 (a0 a1 : Arr F S8x64x64x64 .f32) (a2 : Arr F S8x2048 .i32) (a3 : Arr F S8x2x2048 .i32) : Arr F S8x64x2048 .i32 :=
  (broadcastInDim S8x64x2048 ![0, 1, 2] bcast_S8x1x2048_S8x64x2048_0_1_2) (k_main_v18 a0 a1 a2 a3)
def k_main_call0_c (a0 a1 : Arr F S8x64x64x64 .f32) (a2 : Arr F S8x2048 .i32) (a3 : Arr F S8x2x2048 .i32) : Arr F S_ .i32 :=
  constantI S_ 32 0#32
def k_main_call0_v0 (a0 a1 : Arr F S8x64x64x64 .f32) (a2 : Arr F S8x2048 .i32) (a3 : Arr F S8x2x2048 .i32) : Arr F S8x64x2048 .i32 :=
  (broadcastInDim S8x64x2048 ![] bcast_S_S8x64x2048) (k_main_call0_c a0 a1 a2 a3)
def k_main_call0_v1 (a0 a1 : Arr F S8x64x64x64 .f32) (a2 : Arr F S8x2048 .i32) (a3 : Arr F S8x2x2048 .i32) : Arr F S8x64x2048 .i1 :=
  (cmpi .slt) (k_main_v19 a0 a1 a2 a3) (k_main_call0_v0 a0 a1 a2 a3)
def k_main_call0_c_0 (a0 a1 : Arr F S8x64x64x64 .f32) (a2 : Arr F S8x2048 .i32) (a3 : Arr F S8x2x2048 .i32) : Arr F S_ .i32 :=
  constantI S_ 32 4096#32
def k_main_call0_v2 (a0 a1 : Arr F S8x64x64x64 .f32) (a2 : Arr F S8x2048 .i32) (a3 : Arr F S8x2x2048 .i32) : Arr F S8x64x2048 .i32 :=
  (broadcastInDim S8x64x2048 ![] bcast_S_S8x64x2048) (k_main_call0_c_0 a0 a1 a2 a3)
def k_main_call0_v3 (a0 a1 : Arr F S8x64x64x64 .f32) (a2 : Arr F S8x2048 .i32) (a3 : Arr F S8x2x2048 .i32) : Arr F S8x64x2048 .i32 :=
  addi (k_main_v19 a0 a1 a2 a3) (k_main_call0_v2 a0 a1 a2 a3)
def k_main_call0_v4 (a0 a1 : Arr F S8x64x64x64 .f32) (a2 : Arr F S8x2048 .i32) (a3 : Arr F S8x2x2048 .i32) : Arr F S8x64x2048 .i32 :=
  select (k_main_call0_v1 a0 a1 a2 a3) (k_main_call0_v3 a0 a1 a2 a3) (k_main_v19 a0 a1 a2 a3)
def k_main_call0_v5 (a0 a1 : Arr F S8x64x64x64 .f32) (a2 : Arr F S8x2048 .i32) (a3 : Arr F S8x2x2048 .i32) : Arr F S8x64x2048x1 .i32 :=
  shapeCast S8x64x2048x1 (k_main_call0_v4 a0 a1 a2 a3) shapeCasts_S8x64x2048_S8x64x2048x1
def k_main_call0_c_1 (a0 a1 : Arr F S8x64x64x64 .f32) (a2 : Arr F S8x2048 .i32) (a3 : Arr F S8x2x2048 .i32) : Arr F S1 .i32 :=
  constantI S1 32 4095#32
def k_main_call0_c_2 (a0 a1 : Arr F S8x64x64x64 .f32) (a2 : Arr F S8x2048 .i32) (a3 : Arr F S8x2x2048 .i32) : Arr F S_ .i32 :=
  constantI S_ 32 0#32
def k_main_call0_v6 (a0 a1 : Arr F S8x64x64x64 .f32) (a2 : Arr F S8x2048 .i32) (a3 : Arr F S8x2x2048 .i32) : Arr F S8x64x2048x1 .i32 :=
  (broadcastInDim S8x64x2048x1 ![] bcast_S_S8x64x2048x1) (k_main_call0_c_2 a0 a1 a2 a3)
def k_main_call0_v7 (a0 a1 : Arr F S8x64x64x64 .f32) (a2 : Arr F S8x2048 .i32) (a3 : Arr F S8x2x2048 .i32) : Arr F S8x64x2048x1 .i1 :=
  (cmpi .sge) (k_main_call0_v5 a0 a1 a2 a3) (k_main_call0_v6 a0 a1 a2 a3)
def k_main_call0_v8 (a0 a1 : Arr F S8x64x64x64 .f32) (a2 : Arr F S8x2048 .i32) (a3 : Arr F S8x2x2048 .i32) : Arr F S1x1x1x1 .i32 :=
  (broadcastInDim S1x1x1x1 ![3] bcast_S1_S1x1x1x1_3) (k_main_call0_c_1 a0 a1 a2 a3)
def k_main_call0_v9 (a0 a1 : Arr F S8x64x64x64 .f32) (a2 : Arr F S8x2048 .i32) (a3 : Arr F S8x2x2048 .i32) : Arr F S8x64x2048x1 .i32 :=
  (broadcastInDim S8x64x2048x1 ![0, 1, 2, 3] bcast_S1x1x1x1_S8x64x2048x1_0_1_2_3) (k_main_call0_v8 a0 a1 a2 a3)
def k_main_call0_v10 (a0 a1 : Arr F S8x64x64x64 .f32) (a2 : Arr F S8x2048 .i32) (a3 : Arr F S8x2x2048 .i32) : Arr F S8x64x2048x1 .i1 :=
  (cmpi .sle) (k_main_call0_v5 a0 a1 a2 a3) (k_main_call0_v9 a0 a1 a2 a3)
def k_main_call0_v11 (a0 a1 : Arr F S8x64x64x64 .f32) (a2 : Arr F S8x2048 .i32) (a3 : Arr F S8x2x2048 .i32) : Arr F S8x64x2048x1 .i1 :=
  andi (k_main_call0_v7 a0 a1 a2 a3) (k_main_call0_v10 a0 a1 a2 a3)
def k_main_call0_c_3 (a0 a1 : Arr F S8x64x64x64 .f32) (a2 : Arr F S8x2048 .i32) (a3 : Arr F S8x2x2048 .i32) : Arr F S_ .i1 :=
  constantI S_ 1 1#1
def k_main_call0_v12 (a0 a1 : Arr F S8x64x64x64 .f32) (a2 : Arr F S8x2048 .i32) (a3 : Arr F S8x2x2048 .i32) : Arr F S8x64x2048 .i1 :=
  (fun x v => Host.reduce IntOp.andi x v reducesTo_S8x64x2048x1_S8x64x2048_d3 h_S_) (k_main_call0_v11 a0 a1 a2 a3) (k_main_call0_c_3 a0 a1 a2 a3)
def k_main_call0_v13 (a0 a1 : Arr F S8x64x64x64 .f32) (a2 : Arr F S8x2048 .i32) (a3 : Arr F S8x2x2048 .i32) : Arr F S8x64x2048 .f32 :=
  (fun x i => Host.gather gather_S8x64x4096_S8x64x2048x1_S8x64x2048_n_2_01_01_2_3_111 x i) (k_main_v9 a0 a1 a2 a3) (k_main_call0_v5 a0 a1 a2 a3)
def k_main_call0_cst (a0 a1 : Arr F S8x64x64x64 .f32) (a2 : Arr F S8x2048 .i32) (a3 : Arr F S8x2x2048 .i32) : Arr F S_ .f32 :=
  constant S_ .f32 0x7FC00000#32
def k_main_call0_v14 (a0 a1 : Arr F S8x64x64x64 .f32) (a2 : Arr F S8x2048 .i32) (a3 : Arr F S8x2x2048 .i32) : Arr F S8x64x2048 .f32 :=
  (broadcastInDim S8x64x2048 ![] bcast_S_S8x64x2048) (k_main_call0_cst a0 a1 a2 a3)
def k_main_v20 (a0 a1 : Arr F S8x64x64x64 .f32) (a2 : Arr F S8x2048 .i32) (a3 : Arr F S8x2x2048 .i32) : Arr F S8x64x2048 .f32 :=
  select (k_main_call0_v12 a0 a1 a2 a3) (k_main_call0_v13 a0 a1 a2 a3) (k_main_call0_v14 a0 a1 a2 a3)
def k_main_v21 (a0 a1 : Arr F S8x64x64x64 .f32) (a2 : Arr F S8x2048 .i32) (a3 : Arr F S8x2x2048 .i32) : Arr F S8x1x2048 .i32 :=
  (extractStridedSlice S8x1x2048 ![0, 0, 0] · slices_S8x2x2048_S8x1x2048_0_0_0) a3
def k_main_v22 (a0 a1 : Arr F S8x64x64x64 .f32) (a2 : Arr F S8x2048 .i32) (a3 : Arr F S8x2x2048 .i32) : Arr F S8x2048 .i32 :=
  shapeCast S8x2048 (k_main_v21 a0 a1 a2 a3) shapeCasts_S8x1x2048_S8x2048
def k_main_v23 (a0 a1 : Arr F S8x64x64x64 .f32) (a2 : Arr F S8x2048 .i32) (a3 : Arr F S8x2x2048 .i32) : Arr F S8x1x2048 .i32 :=
  (extractStridedSlice S8x1x2048 ![0, 1, 0] · slices_S8x2x2048_S8x1x2048_0_1_0) a3
def k_main_v24 (a0 a1 : Arr F S8x64x64x64 .f32) (a2 : Arr F S8x2048 .i32) (a3 : Arr F S8x2x2048 .i32) : Arr F S8x2048 .i32 :=
  shapeCast S8x2048 (k_main_v23 a0 a1 a2 a3) shapeCasts_S8x1x2048_S8x2048
def k_main_c (a0 a1 : Arr F S8x64x64x64 .f32) (a2 : Arr F S8x2048 .i32) (a3 : Arr F S8x2x2048 .i32) : Arr F S_ .i32 :=
  constantI S_ 32 64#32
def k_main_v25 (a0 a1 : Arr F S8x64x64x64 .f32) (a2 : Arr F S8x2048 .i32) (a3 : Arr F S8x2x2048 .i32) : Arr F S8x2048 .i32 :=
  (broadcastInDim S8x2048 ![] bcast_S_S8x2048) (k_main_c a0 a1 a2 a3)
def k_main_v26 (a0 a1 : Arr F S8x64x64x64 .f32) (a2 : Arr F S8x2048 .i32) (a3 : Arr F S8x2x2048 .i32) : Arr F S8x2048 .i32 :=
  muli (k_main_v22 a0 a1 a2 a3) (k_main_v25 a0 a1 a2 a3)
def k_main_v27 (a0 a1 : Arr F S8x64x64x64 .f32) (a2 : Arr F S8x2048 .i32) (a3 : Arr F S8x2x2048 .i32) : Arr F S8x2048 .i32 :=
  addi (k_main_v26 a0 a1 a2 a3) (k_main_v24 a0 a1 a2 a3)
def k_main_v28 (a0 a1 : Arr F S8x64x64x64 .f32) (a2 : Arr F S8x2048 .i32) (a3 : Arr F S8x2x2048 .i32) : Arr F S8x1x2048 .i32 :=
  (broadcastInDim S8x1x2048 ![0, 2] bcast_S8x2048_S8x1x2048_0_2) (k_main_v27 a0 a1 a2 a3)
def k_main_v29 (a0 a1 : Arr F S8x64x64x64 .f32) (a2 : Arr F S8x2048 .i32) (a3 : Arr F S8x2x2048 .i32) : Arr F S8x64x2048 .i32 :=
  (broadcastInDim S8x64x2048 ![0, 1, 2] bcast_S8x1x2048_S8x64x2048_0_1_2) (k_main_v28 a0 a1 a2 a3)
def k_main_call1_c (a0 a1 : Arr F S8x64x64x64 .f32) (a2 : Arr F S8x2048 .i32) (a3 : Arr F S8x2x2048 .i32) : Arr F S_ .i32 :=
  constantI S_ 32 0#32
def k_main_call1_v0 (a0 a1 : Arr F S8x64x64x64 .f32) (a2 : Arr F S8x2048 .i32) (a3 : Arr F S8x2x2048 .i32) : Arr F S8x64x2048 .i32 :=
  (broadcastInDim S8x64x2048 ![] bcast_S_S8x64x2048) (k_main_call1_c a0 a1 a2 a3)
def k_main_call1_v1 (a0 a1 : Arr F S8x64x64x64 .f32) (a2 : Arr F S8x2048 .i32) (a3 : Arr F S8x2x2048 .i32) : Arr F S8x64x2048 .i1 :=
  (cmpi .slt) (k_main_v29 a0 a1 a2 a3) (k_main_call1_v0 a0 a1 a2 a3)
def k_main_call1_c_0 (a0 a1 : Arr F S8x64x64x64 .f32) (a2 : Arr F S8x2048 .i32) (a3 : Arr F S8x2x2048 .i32) : Arr F S_ .i32 :=
  constantI S_ 32 4096#32
def k_main_call1_v2 (a0 a1 : Arr F S8x64x64x64 .f32) (a2 : Arr F S8x2048 .i32) (a3 : Arr F S8x2x2048 .i32) : Arr F S8x64x2048 .i32 :=
  (broadcastInDim S8x64x2048 ![] bcast_S_S8x64x2048) (k_main_call1_c_0 a0 a1 a2 a3)
def k_main_call1_v3 (a0 a1 : Arr F S8x64x64x64 .f32) (a2 : Arr F S8x2048 .i32) (a3 : Arr F S8x2x2048 .i32) : Arr F S8x64x2048 .i32 :=
  addi (k_main_v29 a0 a1 a2 a3) (k_main_call1_v2 a0 a1 a2 a3)
def k_main_call1_v4 (a0 a1 : Arr F S8x64x64x64 .f32) (a2 : Arr F S8x2048 .i32) (a3 : Arr F S8x2x2048 .i32) : Arr F S8x64x2048 .i32 :=
  select (k_main_call1_v1 a0 a1 a2 a3) (k_main_call1_v3 a0 a1 a2 a3) (k_main_v29 a0 a1 a2 a3)
def k_main_call1_v5 (a0 a1 : Arr F S8x64x64x64 .f32) (a2 : Arr F S8x2048 .i32) (a3 : Arr F S8x2x2048 .i32) : Arr F S8x64x2048x1 .i32 :=
  shapeCast S8x64x2048x1 (k_main_call1_v4 a0 a1 a2 a3) shapeCasts_S8x64x2048_S8x64x2048x1
def k_main_call1_c_1 (a0 a1 : Arr F S8x64x64x64 .f32) (a2 : Arr F S8x2048 .i32) (a3 : Arr F S8x2x2048 .i32) : Arr F S1 .i32 :=
  constantI S1 32 4095#32
def k_main_call1_c_2 (a0 a1 : Arr F S8x64x64x64 .f32) (a2 : Arr F S8x2048 .i32) (a3 : Arr F S8x2x2048 .i32) : Arr F S_ .i32 :=
  constantI S_ 32 0#32
def k_main_call1_v6 (a0 a1 : Arr F S8x64x64x64 .f32) (a2 : Arr F S8x2048 .i32) (a3 : Arr F S8x2x2048 .i32) : Arr F S8x64x2048x1 .i32 :=
  (broadcastInDim S8x64x2048x1 ![] bcast_S_S8x64x2048x1) (k_main_call1_c_2 a0 a1 a2 a3)
def k_main_call1_v7 (a0 a1 : Arr F S8x64x64x64 .f32) (a2 : Arr F S8x2048 .i32) (a3 : Arr F S8x2x2048 .i32) : Arr F S8x64x2048x1 .i1 :=
  (cmpi .sge) (k_main_call1_v5 a0 a1 a2 a3) (k_main_call1_v6 a0 a1 a2 a3)
def k_main_call1_v8 (a0 a1 : Arr F S8x64x64x64 .f32) (a2 : Arr F S8x2048 .i32) (a3 : Arr F S8x2x2048 .i32) : Arr F S1x1x1x1 .i32 :=
  (broadcastInDim S1x1x1x1 ![3] bcast_S1_S1x1x1x1_3) (k_main_call1_c_1 a0 a1 a2 a3)
def k_main_call1_v9 (a0 a1 : Arr F S8x64x64x64 .f32) (a2 : Arr F S8x2048 .i32) (a3 : Arr F S8x2x2048 .i32) : Arr F S8x64x2048x1 .i32 :=
  (broadcastInDim S8x64x2048x1 ![0, 1, 2, 3] bcast_S1x1x1x1_S8x64x2048x1_0_1_2_3) (k_main_call1_v8 a0 a1 a2 a3)
def k_main_call1_v10 (a0 a1 : Arr F S8x64x64x64 .f32) (a2 : Arr F S8x2048 .i32) (a3 : Arr F S8x2x2048 .i32) : Arr F S8x64x2048x1 .i1 :=
  (cmpi .sle) (k_main_call1_v5 a0 a1 a2 a3) (k_main_call1_v9 a0 a1 a2 a3)
def k_main_call1_v11 (a0 a1 : Arr F S8x64x64x64 .f32) (a2 : Arr F S8x2048 .i32) (a3 : Arr F S8x2x2048 .i32) : Arr F S8x64x2048x1 .i1 :=
  andi (k_main_call1_v7 a0 a1 a2 a3) (k_main_call1_v10 a0 a1 a2 a3)
def k_main_call1_c_3 (a0 a1 : Arr F S8x64x64x64 .f32) (a2 : Arr F S8x2048 .i32) (a3 : Arr F S8x2x2048 .i32) : Arr F S_ .i1 :=
  constantI S_ 1 1#1
def k_main_call1_v12 (a0 a1 : Arr F S8x64x64x64 .f32) (a2 : Arr F S8x2048 .i32) (a3 : Arr F S8x2x2048 .i32) : Arr F S8x64x2048 .i1 :=
  (fun x v => Host.reduce IntOp.andi x v reducesTo_S8x64x2048x1_S8x64x2048_d3 h_S_) (k_main_call1_v11 a0 a1 a2 a3) (k_main_call1_c_3 a0 a1 a2 a3)
def k_main_call1_v13 (a0 a1 : Arr F S8x64x64x64 .f32) (a2 : Arr F S8x2048 .i32) (a3 : Arr F S8x2x2048 .i32) : Arr F S8x64x2048 .f32 :=
  (fun x i => Host.gather gather_S8x64x4096_S8x64x2048x1_S8x64x2048_n_2_01_01_2_3_111 x i) (k_main_v1 a0 a1 a2 a3) (k_main_call1_v5 a0 a1 a2 a3)
def k_main_call1_cst (a0 a1 : Arr F S8x64x64x64 .f32) (a2 : Arr F S8x2048 .i32) (a3 : Arr F S8x2x2048 .i32) : Arr F S_ .f32 :=
  constant S_ .f32 0x7FC00000#32
def k_main_call1_v14 (a0 a1 : Arr F S8x64x64x64 .f32) (a2 : Arr F S8x2048 .i32) (a3 : Arr F S8x2x2048 .i32) : Arr F S8x64x2048 .f32 :=
  (broadcastInDim S8x64x2048 ![] bcast_S_S8x64x2048) (k_main_call1_cst a0 a1 a2 a3)
def k_main_v30 (a0 a1 : Arr F S8x64x64x64 .f32) (a2 : Arr F S8x2048 .i32) (a3 : Arr F S8x2x2048 .i32) : Arr F S8x64x2048 .f32 :=
  select (k_main_call1_v12 a0 a1 a2 a3) (k_main_call1_v13 a0 a1 a2 a3) (k_main_call1_v14 a0 a1 a2 a3)
def k_main_v31 (a0 a1 : Arr F S8x64x64x64 .f32) (a2 : Arr F S8x2048 .i32) (a3 : Arr F S8x2x2048 .i32) : Arr F S8x64x2048 .f32 :=
  mulf (k_main_v30 a0 a1 a2 a3) (k_main_v30 a0 a1 a2 a3)
def k_main_cst_3 (a0 a1 : Arr F S8x64x64x64 .f32) (a2 : Arr F S8x2048 .i32) (a3 : Arr F S8x2x2048 .i32) : Arr F S_ .f32 :=
  constant S_ .f32 0x00000000#32
def k_main_v32 (a0 a1 : Arr F S8x64x64x64 .f32) (a2 : Arr F S8x2048 .i32) (a3 : Arr F S8x2x2048 .i32) : Arr F S8x2048 .f32 :=
  (fun x v => Host.reduceAdd x v reducesTo_S8x64x2048_S8x2048_d1 h_S_) (k_main_v31 a0 a1 a2 a3) (k_main_cst_3 a0 a1 a2 a3)
def k_main_v33 (a0 a1 : Arr F S8x64x64x64 .f32) (a2 : Arr F S8x2048 .i32) (a3 : Arr F S8x2x2048 .i32) : Arr F S8x1x2048 .f32 :=
  (broadcastInDim S8x1x2048 ![0, 2] bcast_S8x2048_S8x1x2048_0_2) (k_main_v32 a0 a1 a2 a3)
def k_main_v34 (a0 a1 : Arr F S8x64x64x64 .f32) (a2 : Arr F S8x2048 .i32) (a3 : Arr F S8x2x2048 .i32) : Arr F S8x1x2048 .f32 :=
  Host.sqrt (k_main_v33 a0 a1 a2 a3)
def k_main_cst_4 (a0 a1 : Arr F S8x64x64x64 .f32) (a2 : Arr F S8x2048 .i32) (a3 : Arr F S8x2x2048 .i32) : Arr F S_ .f32 :=
  constant S_ .f32 0x2B8CBCCC#32
def k_main_v35 (a0 a1 : Arr F S8x64x64x64 .f32) (a2 : Arr F S8x2048 .i32) (a3 : Arr F S8x2x2048 .i32) : Arr F S8x1x2048 .f32 :=
  (broadcastInDim S8x1x2048 ![] bcast_S_S8x1x2048) (k_main_cst_4 a0 a1 a2 a3)
def k_main_v36 (a0 a1 : Arr F S8x64x64x64 .f32) (a2 : Arr F S8x2048 .i32) (a3 : Arr F S8x2x2048 .i32) : Arr F S8x1x2048 .f32 :=
  maximumf (k_main_v34 a0 a1 a2 a3) (k_main_v35 a0 a1 a2 a3)
def k_main_v37 (a0 a1 : Arr F S8x64x64x64 .f32) (a2 : Arr F S8x2048 .i32) (a3 : Arr F S8x2x2048 .i32) : Arr F S8x64x2048 .f32 :=
  (broadcastInDim S8x64x2048 ![0, 1, 2] bcast_S8x1x2048_S8x64x2048_0_1_2) (k_main_v36 a0 a1 a2 a3)
def k_main_v38 (a0 a1 : Arr F S8x64x64x64 .f32) (a2 : Arr F S8x2048 .i32) (a3 : Arr F S8x2x2048 .i32) : Arr F S8x64x2048 .f32 :=
  Host.divf (k_main_v30 a0 a1 a2 a3) (k_main_v37 a0 a1 a2 a3)
def k_main_c_5 (a0 a1 : Arr F S8x64x64x64 .f32) (a2 : Arr F S8x2048 .i32) (a3 : Arr F S8x2x2048 .i32) : Arr F S_ .i32 :=
  constantI S_ 32 64#32
def k_main_call2_v0 (a0 a1 : Arr F S8x64x64x64 .f32) (a2 : Arr F S8x2048 .i32) (a3 : Arr F S8x2x2048 .i32) : Arr F S_ .i32 :=
  id (k_main_c_5 a0 a1 a2 a3)
def k_main_call2_v1 (a0 a1 : Arr F S8x64x64x64 .f32) (a2 : Arr F S8x2048 .i32) (a3 : Arr F S8x2x2048 .i32) : Arr F S8x2048 .i32 :=
  (broadcastInDim S8x2048 ![] bcast_S_S8x2048) (k_main_call2_v0 a0 a1 a2 a3)
def k_main_call2_v2 (a0 a1 : Arr F S8x64x64x64 .f32) (a2 : Arr F S8x2048 .i32) (a3 : Arr F S8x2x2048 .i32) : Arr F S8x2048 .i32 :=
  Host.divsi a2 (k_main_call2_v1 a0 a1 a2 a3)
def k_main_call2_v3 (a0 a1 : Arr F S8x64x64x64 .f32) (a2 : Arr F S8x2048 .i32) (a3 : Arr F S8x2x2048 .i32) : Arr F S8x2048 .i32 :=
  signi a2
def k_main_call2_v4 (a0 a1 : Arr F S8x64x64x64 .f32) (a2 : Arr F S8x2048 .i32) (a3 : Arr F S8x2x2048 .i32) : Arr F S_ .i32 :=
  signi (k_main_call2_v0 a0 a1 a2 a3)
def k_main_call2_v5 (a0 a1 : Arr F S8x64x64x64 .f32) (a2 : Arr F S8x2048 .i32) (a3 : Arr F S8x2x2048 .i32) : Arr F S8x2048 .i32 :=
  (broadcastInDim S8x2048 ![] bcast_S_S8x2048) (k_main_call2_v4 a0 a1 a2 a3)
def k_main_call2_v6 (a0 a1 : Arr F S8x64x64x64 .f32) (a2 : Arr F S8x2048 .i32) (a3 : Arr F S8x2x2048 .i32) : Arr F S8x2048 .i1 :=
  (cmpi .ne) (k_main_call2_v3 a0 a1 a2 a3) (k_main_call2_v5 a0 a1 a2 a3)
def k_main_call2_v7 (a0 a1 : Arr F S8x64x64x64 .f32) (a2 : Arr F S8x2048 .i32) (a3 : Arr F S8x2x2048 .i32) : Arr F S8x2048 .i32 :=
  (broadcastInDim S8x2048 ![] bcast_S_S8x2048) (k_main_call2_v0 a0 a1 a2 a3)
def k_main_call2_v8 (a0 a1 : Arr F S8x64x64x64 .f32) (a2 : Arr F S8x2048 .i32) (a3 : Arr F S8x2x2048 .i32) : Arr F S8x2048 .i32 :=
  Host.remsi a2 (k_main_call2_v7 a0 a1 a2 a3)
def k_main_call2_c (a0 a1 : Arr F S8x64x64x64 .f32) (a2 : Arr F S8x2048 .i32) (a3 : Arr F S8x2x2048 .i32) : Arr F S_ .i32 :=
  constantI S_ 32 0#32
def k_main_call2_v9 (a0 a1 : Arr F S8x64x64x64 .f32) (a2 : Arr F S8x2048 .i32) (a3 : Arr F S8x2x2048 .i32) : Arr F S8x2048 .i32 :=
  (broadcastInDim S8x2048 ![] bcast_S_S8x2048) (k_main_call2_c a0 a1 a2 a3)
def k_main_call2_v10 (a0 a1 : Arr F S8x64x64x64 .f32) (a2 : Arr F S8x2048 .i32) (a3 : Arr F S8x2x2048 .i32) : Arr F S8x2048 .i1 :=
  (cmpi .ne) (k_main_call2_v8 a0 a1 a2 a3) (k_main_call2_v9 a0 a1 a2 a3)
def k_main_call2_v11 (a0 a1 : Arr F S8x64x64x64 .f32) (a2 : Arr F S8x2048 .i32) (a3 : Arr F S8x2x2048 .i32) : Arr F S8x2048 .i1 :=
  andi (k_main_call2_v6 a0 a1 a2 a3) (k_main_call2_v10 a0 a1 a2 a3)
def k_main_call2_c_0 (a0 a1 : Arr F S8x64x64x64 .f32) (a2 : Arr F S8x2048 .i32) (a3 : Arr F S8x2x2048 .i32) : Arr F S_ .i32 :=
  constantI S_ 32 1#32
def k_main_call2_v12 (a0 a1 : Arr F S8x64x64x64 .f32) (a2 : Arr F S8x2048 .i32) (a3 : Arr F S8x2x2048 .i32) : Arr F S8x2048 .i32 :=
  (broadcastInDim S8x2048 ![] bcast_S_S8x2048) (k_main_call2_c_0 a0 a1 a2 a3)
def k_main_call2_v13 (a0 a1 : Arr F S8x64x64x64 .f32) (a2 : Arr F S8x2048 .i32) (a3 : Arr F S8x2x2048 .i32) : Arr F S8x2048 .i32 :=
  subi (k_main_call2_v2 a0 a1 a2 a3) (k_main_call2_v12 a0 a1 a2 a3)
def k_main_v39 (a0 a1 : Arr F S8x64x64x64 .f32) (a2 : Arr F S8x2048 .i32) (a3 : Arr F S8x2x2048 .i32) : Arr F S8x2048 .i32 :=
  select (k_main_call2_v11 a0 a1 a2 a3) (k_main_call2_v13 a0 a1 a2 a3) (k_main_call2_v2 a0 a1 a2 a3)
def k_main_c_6 (a0 a1 : Arr F S8x64x64x64 .f32) (a2 : Arr F S8x2048 .i32) (a3 : Arr F S8x2x2048 .i32) : Arr F S_ .i32 :=
  constantI S_ 32 64#32
def k_main_call3_v0 (a0 a1 : Arr F S8x64x64x64 .f32) (a2 : Arr F S8x2048 .i32) (a3 : Arr F S8x2x2048 .i32) : Arr F S_ .i32 :=
  id (k_main_c_6 a0 a1 a2 a3)
def k_main_call3_c (a0 a1 : Arr F S8x64x64x64 .f32) (a2 : Arr F S8x2048 .i32) (a3 : Arr F S8x2x2048 .i32) : Arr F S_ .i32 :=
  constantI S_ 32 0#32
def k_main_call3_v1 (a0 a1 : Arr F S8x64x64x64 .f32) (a2 : Arr F S8x2048 .i32) (a3 : Arr F S8x2x2048 .i32) : Arr F S_ .i1 :=
  (cmpi .eq) (k_main_call3_v0 a0 a1 a2 a3) (k_main_call3_c a0 a1 a2 a3)
def k_main_call3_c_0 (a0 a1 : Arr F S8x64x64x64 .f32) (a2 : Arr F S8x2048 .i32) (a3 : Arr F S8x2x2048 .i32) : Arr F S_ .i32 :=
  constantI S_ 32 1#32
def k_main_call3_v2 (a0 a1 : Arr F S8x64x64x64 .f32) (a2 : Arr F S8x2048 .i32) (a3 : Arr F S8x2x2048 .i32) : Arr F S_ .i32 :=
  select (k_main_call3_v1 a0 a1 a2 a3) (k_main_call3_c_0 a0 a1 a2 a3) (k_main_call3_v0 a0 a1 a2 a3)
def k_main_call3_v3 (a0 a1 : Arr F S8x64x64x64 .f32) (a2 : Arr F S8x2048 .i32) (a3 : Arr F S8x2x2048 .i32) : Arr F S8x2048 .i32 :=
  (broadcastInDim S8x2048 ![] bcast_S_S8x2048) (k_main_call3_v2 a0 a1 a2 a3)
def k_main_call3_v4 (a0 a1 : Arr F S8x64x64x64 .f32) (a2 : Arr F S8x2048 .i32) (a3 : Arr F S8x2x2048 .i32) : Arr F S8x2048 .i32 :=
  Host.remsi a2 (k_main_call3_v3 a0 a1 a2 a3)
def k_main_call3_c_1 (a0 a1 : Arr F S8x64x64x64 .f32) (a2 : Arr F S8x2048 .i32) (a3 : Arr F S8x2x2048 .i32) : Arr F S_ .i32 :=
  constantI S_ 32 0#32
def k_main_call3_v5 (a0 a1 : Arr F S8x64x64x64 .f32) (a2 : Arr F S8x2048 .i32) (a3 : Arr F S8x2x2048 .i32) : Arr F S8x2048 .i32 :=
  (broadcastInDim S8x2048 ![] bcast_S_S8x2048) (k_main_call3_c_1 a0 a1 a2 a3)
def k_main_call3_v6 (a0 a1 : Arr F S8x64x64x64 .f32) (a2 : Arr F S8x2048 .i32) (a3 : Arr F S8x2x2048 .i32) : Arr F S8x2048 .i1 :=
  (cmpi .ne) (k_main_call3_v4 a0 a1 a2 a3) (k_main_call3_v5 a0 a1 a2 a3)
def k_main_call3_c_2 (a0 a1 : Arr F S8x64x64x64 .f32) (a2 : Arr F S8x2048 .i32) (a3 : Arr F S8x2x2048 .i32) : Arr F S_ .i32 :=
  constantI S_ 32 0#32
def k_main_call3_v7 (a0 a1 : Arr F S8x64x64x64 .f32) (a2 : Arr F S8x2048 .i32) (a3 : Arr F S8x2x2048 .i32) : Arr F S8x2048 .i32 :=
  (broadcastInDim S8x2048 ![] bcast_S_S8x2048) (k_main_call3_c_2 a0 a1 a2 a3)
def k_main_call3_v8 (a0 a1 : Arr F S8x64x64x64 .f32) (a2 : Arr F S8x2048 .i32) (a3 : Arr F S8x2x2048 .i32) : Arr F S8x2048 .i1 :=
  (cmpi .slt) (k_main_call3_v4 a0 a1 a2 a3) (k_main_call3_v7 a0 a1 a2 a3)
def k_main_call3_c_3 (a0 a1 : Arr F S8x64x64x64 .f32) (a2 : Arr F S8x2048 .i32) (a3 : Arr F S8x2x2048 .i32) : Arr F S_ .i32 :=
  constantI S_ 32 0#32
def k_main_call3_v9 (a0 a1 : Arr F S8x64x64x64 .f32) (a2 : Arr F S8x2048 .i32) (a3 : Arr F S8x2x2048 .i32) : Arr F S_ .i1 :=
  (cmpi .slt) (k_main_call3_v2 a0 a1 a2 a3) (k_main_call3_c_3 a0 a1 a2 a3)
def k_main_call3_v10 (a0 a1 : Arr F S8x64x64x64 .f32) (a2 : Arr F S8x2048 .i32) (a3 : Arr F S8x2x2048 .i32) : Arr F S8x2048 .i1 :=
  (broadcastInDim S8x2048 ![] bcast_S_S8x2048) (k_main_call3_v9 a0 a1 a2 a3)
def k_main_call3_v11 (a0 a1 : Arr F S8x64x64x64 .f32) (a2 : Arr F S8x2048 .i32) (a3 : Arr F S8x2x2048 .i32) : Arr F S8x2048 .i1 :=
  (cmpi .ne) (k_main_call3_v8 a0 a1 a2 a3) (k_main_call3_v10 a0 a1 a2 a3)
def k_main_call3_v12 (a0 a1 : Arr F S8x64x64x64 .f32) (a2 : Arr F S8x2048 .i32) (a3 : Arr F S8x2x2048 .i32) : Arr F S8x2048 .i1 :=
  andi (k_main_call3_v11 a0 a1 a2 a3) (k_main_call3_v6 a0 a1 a2 a3)
def k_main_call3_v13 (a0 a1 : Arr F S8x64x64x64 .f32) (a2 : Arr F S8x2048 .i32) (a3 : Arr F S8x2x2048 .i32) : Arr F S8x2048 .i32 :=
  (broadcastInDim S8x2048 ![] bcast_S_S8x2048) (k_main_call3_v2 a0 a1 a2 a3)
def k_main_call3_v14 (a0 a1 : Arr F S8x64x64x64 .f32) (a2 : Arr F S8x2048 .i32) (a3 : Arr F S8x2x2048 .i32) : Arr F S8x2048 .i32 :=
  addi (k_main_call3_v4 a0 a1 a2 a3) (k_main_call3_v13 a0 a1 a2 a3)
def k_main_v40 (a0 a1 : Arr F S8x64x64x64 .f32) (a2 : Arr F S8x2048 .i32) (a3 : Arr F S8x2x2048 .i32) : Arr F S8x2048 .i32 :=
  select (k_main_call3_v12 a0 a1 a2 a3) (k_main_call3_v14 a0 a1 a2 a3) (k_main_call3_v4 a0 a1 a2 a3)
def k_main_v41 (a0 a1 : Arr F S8x64x64x64 .f32) (a2 : Arr F S8x2048 .i32) (a3 : Arr F S8x2x2048 .i32) : Arr F S8x1x2048 .i32 :=
  (broadcastInDim S8x1x2048 ![0, 2] bcast_S8x2048_S8x1x2048_0_2) (k_main_v39 a0 a1 a2 a3)
def k_main_v42 (a0 a1 : Arr F S8x64x64x64 .f32) (a2 : Arr F S8x2048 .i32) (a3 : Arr F S8x2x2048 .i32) : Arr F S8x1x2048 .i32 :=
  (broadcastInDim S8x1x2048 ![0, 2] bcast_S8x2048_S8x1x2048_0_2) (k_main_v40 a0 a1 a2 a3)
def k_main_v43 (a0 a1 : Arr F S8x64x64x64 .f32) (a2 : Arr F S8x2048 .i32) (a3 : Arr F S8x2x2048 .i32) : Arr F S8x2x2048 .i32 :=
  (fun a b => concatenate S8x2x2048 1 [⟨S8x1x2048, a⟩, ⟨S8x1x2048, b⟩] concatenates_S8x1x2048_S8x1x2048_S8x2x2048_d1) (k_main_v41 a0 a1 a2 a3) (k_main_v42 a0 a1 a2 a3)
def k_main_v44 (a0 a1 : Arr F S8x64x64x64 .f32) (a2 : Arr F S8x2048 .i32) (a3 : Arr F S8x2x2048 .i32) : Arr F S8x2x2048 .f32 :=
  (sitofp .f32) (k_main_v43 a0 a1 a2 a3)
def k_main_v45 (a0 a1 : Arr F S8x64x64x64 .f32) (a2 : Arr F S8x2048 .i32) (a3 : Arr F S8x2x2048 .i32) : Arr F S8x2x2048 .f32 :=
  (sitofp .f32) a3
def k_main_v46 (a0 a1 : Arr F S8x64x64x64 .f32) (a2 : Arr F S8x2048 .i32) (a3 : Arr F S8x2x2048 .i32) : Arr F S64 .i32 :=
  iotaInDim S64 32 0
def k_main_v47 (a0 a1 : Arr F S8x64x64x64 .f32) (a2 : Arr F S8x2048 .i32) (a3 : Arr F S8x2x2048 .i32) : Arr F S64x64 .i32 :=
  (broadcastInDim S64x64 ![0] bcast_S64_S64x64_0) (k_main_v46 a0 a1 a2 a3)
def k_main_v48 (a0 a1 : Arr F S8x64x64x64 .f32) (a2 : Arr F S8x2048 .i32) (a3 : Arr F S8x2x2048 .i32) : Arr F S4096 .i32 :=
  shapeCast S4096 (k_main_v47 a0 a1 a2 a3) shapeCasts_S64x64_S4096
def k_main_v49 (a0 a1 : Arr F S8x64x64x64 .f32) (a2 : Arr F S8x2048 .i32) (a3 : Arr F S8x2x2048 .i32) : Arr F S64 .i32 :=
  iotaInDim S64 32 0
def k_main_v50 (a0 a1 : Arr F S8x64x64x64 .f32) (a2 : Arr F S8x2048 .i32) (a3 : Arr F S8x2x2048 .i32) : Arr F S1x64 .i32 :=
  shapeCast S1x64 (k_main_v49 a0 a1 a2 a3) shapeCasts_S64_S1x64
def k_main_v51 (a0 a1 : Arr F S8x64x64x64 .f32) (a2 : Arr F S8x2048 .i32) (a3 : Arr F S8x2x2048 .i32) : Arr F S64x64 .i32 :=
  (broadcastInDim S64x64 ![0, 1] bcast_S1x64_S64x64_0_1) (k_main_v50 a0 a1 a2 a3)
def k_main_v52 (a0 a1 : Arr F S8x64x64x64 .f32) (a2 : Arr F S8x2048 .i32) (a3 : Arr F S8x2x2048 .i32) : Arr F S4096 .i32 :=
  shapeCast S4096 (k_main_v51 a0 a1 a2 a3) shapeCasts_S64x64_S4096
def k_main_v53 (a0 a1 : Arr F S8x64x64x64 .f32) (a2 : Arr F S8x2048 .i32) (a3 : Arr F S8x2x2048 .i32) : Arr F S1x4096 .i32 :=
  (broadcastInDim S1x4096 ![1] bcast_S4096_S1x4096_1) (k_main_v48 a0 a1 a2 a3)
def k_main_v54 (a0 a1 : Arr F S8x64x64x64 .f32) (a2 : Arr F S8x2048 .i32) (a3 : Arr F S8x2x2048 .i32) : Arr F S1x4096 .i32 :=
  (broadcastInDim S1x4096 ![1] bcast_S4096_S1x4096_1) (k_main_v52 a0 a1 a2 a3)
def k_main_v55 (a0 a1 : Arr F S8x64x64x64 .f32) (a2 : Arr F S8x2048 .i32) (a3 : Arr F S8x2x2048 .i32) : Arr F S2x4096 .i32 :=
  (fun a b => concatenate S2x4096 0 [⟨S1x4096, a⟩, ⟨S1x4096, b⟩] concatenates_S1x4096_S1x4096_S2x4096_d0) (k_main_v53 a0 a1 a2 a3) (k_main_v54 a0 a1 a2 a3)
def k_main_v56 (a0 a1 : Arr F S8x64x64x64 .f32) (a2 : Arr F S8x2048 .i32) (a3 : Arr F S8x2x2048 .i32) : Arr F S2x4096 .f32 :=
  (sitofp .f32) (k_main_v55 a0 a1 a2 a3)
def k_main_v57 (a0 a1 : Arr F S8x64x64x64 .f32) (a2 : Arr F S8x2048 .i32) (a3 : Arr F S8x2x2048 .i32) : Arr F S8x64x2048 .f32 :=
  mulf (k_main_v20 a0 a1 a2 a3) (k_main_v38 a0 a1 a2 a3)
def k_main_cst_7 (a0 a1 : Arr F S8x64x64x64 .f32) (a2 : Arr F S8x2048 .i32) (a3 : Arr F S8x2x2048 .i32) : Arr F S_ .f32 :=
  constant S_ .f32 0x00000000#32
def k_main_v58 (a0 a1 : Arr F S8x64x64x64 .f32) (a2 : Arr F S8x2048 .i32) (a3 : Arr F S8x2x2048 .i32) : Arr F S8x2048 .f32 :=
  (fun x v => Host.reduceAdd x v reducesTo_S8x64x2048_S8x2048_d1 h_S_) (k_main_v57 a0 a1 a2 a3) (k_main_cst_7 a0 a1 a2 a3)
def k_main_cst_8 (a0 a1 : Arr F S8x64x64x64 .f32) (a2 : Arr F S8x2048 .i32) (a3 : Arr F S8x2x2048 .i32) : Arr F S_ .f32 :=
  constant S_ .f32 0x40000000#32
def k_main_v59 (a0 a1 : Arr F S8x64x64x64 .f32) (a2 : Arr F S8x2048 .i32) (a3 : Arr F S8x2x2048 .i32) : Arr F S8x2048 .f32 :=
  (broadcastInDim S8x2048 ![] bcast_S_S8x2048) (k_main_cst_8 a0 a1 a2 a3)
def k_main_v60 (a0 a1 : Arr F S8x64x64x64 .f32) (a2 : Arr F S8x2048 .i32) (a3 : Arr F S8x2x2048 .i32) : Arr F S8x2048 .f32 :=
  mulf (k_main_v59 a0 a1 a2 a3) (k_main_v58 a0 a1 a2 a3)
def k_main_cst_9 (a0 a1 : Arr F S8x64x64x64 .f32) (a2 : Arr F S8x2048 .i32) (a3 : Arr F S8x2x2048 .i32) : Arr F S_ .f32 :=
  constant S_ .f32 0x40000000#32
def k_main_v61 (a0 a1 : Arr F S8x64x64x64 .f32) (a2 : Arr F S8x2048 .i32) (a3 : Arr F S8x2x2048 .i32) : Arr F S8x2048 .f32 :=
  (broadcastInDim S8x2048 ![] bcast_S_S8x2048) (k_main_cst_9 a0 a1 a2 a3)
def k_main_v62 (a0 a1 : Arr F S8x64x64x64 .f32) (a2 : Arr F S8x2048 .i32) (a3 : Arr F S8x2x2048 .i32) : Arr F S8x2048 .f32 :=
  subf (k_main_v61 a0 a1 a2 a3) (k_main_v60 a0 a1 a2 a3)
def k_main_v63 (a0 a1 : Arr F S8x64x64x64 .f32) (a2 : Arr F S8x2048 .i32) (a3 : Arr F S8x2x2048 .i32) : Arr F S8x64x2048 .bf16 :=
  (truncf .bf16 · bitsLt_bf16_f32) (k_main_v20 a0 a1 a2 a3)
def k_main_v64 (a0 a1 : Arr F S8x64x64x64 .f32) (a2 : Arr F S8x2048 .i32) (a3 : Arr F S8x2x2048 .i32) : Arr F S8x64x2048 .bf16 :=
  (truncf .bf16 · bitsLt_bf16_f32) (k_main_v38 a0 a1 a2 a3)
def k_main_v65 (a0 a1 : Arr F S8x64x64x64 .f32) (a2 : Arr F S8x2048 .i32) (a3 : Arr F S8x2x2048 .i32) : Arr F S8x64x4096 .bf16 :=
  (truncf .bf16 · bitsLt_bf16_f32) (k_main_v9 a0 a1 a2 a3)
def k_main_v66 (a0 a1 : Arr F S8x64x64x64 .f32) (a2 : Arr F S8x2048 .i32) (a3 : Arr F S8x2x2048 .i32) : Arr F S8x64x4096 .bf16 :=
  (truncf .bf16 · bitsLt_bf16_f32) (k_main_v17 a0 a1 a2 a3)
def k_main_v68 (a0 a1 : Arr F S8x64x64x64 .f32) (a2 : Arr F S8x2048 .i32) (a3 : Arr F S8x2x2048 .i32) (o67 o69 : Arr F S8x1x2048 .f32) : Arr F S8x2048 .f32 :=
  shapeCast S8x2048 o67 shapeCasts_S8x1x2048_S8x2048
def k_main_v70 (a0 a1 : Arr F S8x64x64x64 .f32) (a2 : Arr F S8x2048 .i32) (a3 : Arr F S8x2x2048 .i32) (o67 o69 : Arr F S8x1x2048 .f32) : Arr F S8x2048 .f32 :=
  shapeCast S8x2048 o69 shapeCasts_S8x1x2048_S8x2048
def k_main_v71 (a0 a1 : Arr F S8x64x64x64 .f32) (a2 : Arr F S8x2048 .i32) (a3 : Arr F S8x2x2048 .i32) (o67 o69 : Arr F S8x1x2048 .f32) : Arr F S8x2048 .f32 :=
  minimumf (k_main_v70 a0 a1 a2 a3 o67 o69) (k_main_v68 a0 a1 a2 a3 o67 o69)
def k_main_v72 (a0 a1 : Arr F S8x64x64x64 .f32) (a2 : Arr F S8x2048 .i32) (a3 : Arr F S8x2x2048 .i32) (o67 o69 : Arr F S8x1x2048 .f32) : Arr F S8x2048 .f32 :=
  subf (k_main_v62 a0 a1 a2 a3) (k_main_v71 a0 a1 a2 a3 o67 o69)
def k_main_cst_10 (a0 a1 : Arr F S8x64x64x64 .f32) (a2 : Arr F S8x2048 .i32) (a3 : Arr F S8x2x2048 .i32) : Arr F S_ .f32 :=
  constant S_ .f32 0x3F800000#32
def k_main_v73 (a0 a1 : Arr F S8x64x64x64 .f32) (a2 : Arr F S8x2048 .i32) (a3 : Arr F S8x2x2048 .i32) : Arr F S8x2048 .f32 :=
  (broadcastInDim S8x2048 ![] bcast_S_S8x2048) (k_main_cst_10 a0 a1 a2 a3)
def k_main_v74 (a0 a1 : Arr F S8x64x64x64 .f32) (a2 : Arr F S8x2048 .i32) (a3 : Arr F S8x2x2048 .i32) (o67 o69 : Arr F S8x1x2048 .f32) : Arr F S8x2048 .f32 :=
  addf (k_main_v73 a0 a1 a2 a3) (k_main_v72 a0 a1 a2 a3 o67 o69)
def k_main_cst_11 (a0 a1 : Arr F S8x64x64x64 .f32) (a2 : Arr F S8x2048 .i32) (a3 : Arr F S8x2x2048 .i32) : Arr F S_ .f32 :=
  constant S_ .f32 0x00000000#32
def k_main_v75 (a0 a1 : Arr F S8x64x64x64 .f32) (a2 : Arr F S8x2048 .i32) (a3 : Arr F S8x2x2048 .i32) : Arr F S8x2048 .f32 :=
  (broadcastInDim S8x2048 ![] bcast_S_S8x2048) (k_main_cst_11 a0 a1 a2 a3)
def k_main_v76 (a0 a1 : Arr F S8x64x64x64 .f32) (a2 : Arr F S8x2048 .i32) (a3 : Arr F S8x2x2048 .i32) (o67 o69 : Arr F S8x1x2048 .f32) : Arr F S8x2048 .f32 :=
  maximumf (k_main_v74 a0 a1 a2 a3 o67 o69) (k_main_v75 a0 a1 a2 a3)
def k_main_cst_12 (a0 a1 : Arr F S8x64x64x64 .f32) (a2 : Arr F S8x2048 .i32) (a3 : Arr F S8x2x2048 .i32) : Arr F S_ .f32 :=
  constant S_ .f32 0x00000000#32
def k_main_v77 (a0 a1 : Arr F S8x64x64x64 .f32) (a2 : Arr F S8x2048 .i32) (a3 : Arr F S8x2x2048 .i32) (o67 o69 : Arr F S8x1x2048 .f32) : Arr F S_ .f32 :=
  (fun x v => Host.reduceAdd x v reducesTo_S8x2048_S_d0_1 h_S_) (k_main_v76 a0 a1 a2 a3 o67 o69) (k_main_cst_12 a0 a1 a2 a3)
def k_main_cst_13 (a0 a1 : Arr F S8x64x64x64 .f32) (a2 : Arr F S8x2048 .i32) (a3 : Arr F S8x2x2048 .i32) : Arr F S_ .f32 :=
  constant S_ .f32 0x46800000#32
def k_main_v78 (a0 a1 : Arr F S8x64x64x64 .f32) (a2 : Arr F S8x2048 .i32) (a3 : Arr F S8x2x2048 .i32) (o67 o69 : Arr F S8x1x2048 .f32) : Arr F S_ .f32 :=
  Host.divf (k_main_v77 a0 a1 a2 a3 o67 o69) (k_main_cst_13 a0 a1 a2 a3)

end Cert.KernelIdeal.Stages

end
-- ==== Proof.KHostRead.lean ====
import proofs.«417968_j21749714387505_1_alg».proof.Proof.Gen.KernelIdeal.Regions
import proofs.«417968_j21749714387505_1_alg».proof.Proof.KStages
import Idealize.ShloMosaic.Lib.StableHlo.Run

noncomputable section

namespace Cert.KernelIdeal.Hand

open Idealize.ShloMosaic Idealize.ShloMosaic.TcCoe
open Idealize.SL.Sem
open Cert.KernelIdeal Cert.KernelIdeal.Gen Cert.KernelIdeal.Stages

variable {F : FTy → Type} [FloatOps F]
variable (m : (ℓ : Loc nD τ sig) → Buf (Elt F) ℓ) (outs : Outs (F := F)) (c : Dev nD)

/-- A buffer's contents after host operations are the fold of their results over the launch contents; the stage term unfolds to the same expression. -/
macro "read_host" : tactic =>
  `(tactic| (
    dsimp only [V13, V12, V11, V10, V9, V8, V7, V6, V5, V4, V3, V2, V1, V0, hostOps0, hostOps0_1, hostOps0_2, hostOps0_3, hostOps0_4, hostOps0_5, hostOps0_6, hostOps0_7, hostOps0_8, hostOps1, hostOps2]
    simp (disch := decide) only [StableHlo.after_cons, StableHlo.after_nil, StableHlo.nullary_result', StableHlo.unary_result', StableHlo.binary_result',
      StableHlo.ternary_result', StableHlo.quaternary_result', StableHlo.reshape_result', StableHlo.nary4_result', StableHlo.nary_result',
      StableHlo.unaryIndexed_result', StableHlo.binaryIndexed_result', StableHlo.nullary_result_ne', StableHlo.unary_result_ne',
      StableHlo.binary_result_ne', StableHlo.ternary_result_ne', StableHlo.quaternary_result_ne', StableHlo.reshape_result_ne',
      StableHlo.nary_result_ne', StableHlo.unaryIndexed_result_ne', StableHlo.binaryIndexed_result_ne',
      StableHlo.TRef.toBuf, StableHlo.TRef.ofBuf, cast_eq, Function.update_self, Function.update_of_ne]
    rfl))

set_option maxHeartbeats 4000000 in
theorem V9_v44 : V9 m c main_v44 = k_main_v44 (m ((c : Thread nD τ).loc main_arg0)) (m ((c : Thread nD τ).loc main_arg1)) (m ((c : Thread nD τ).loc main_arg2)) (m ((c : Thread nD τ).loc main_arg3)) := by read_host

set_option maxHeartbeats 4000000 in
theorem V9_v45 : V9 m c main_v45 = k_main_v45 (m ((c : Thread nD τ).loc main_arg0)) (m ((c : Thread nD τ).loc main_arg1)) (m ((c : Thread nD τ).loc main_arg2)) (m ((c : Thread nD τ).loc main_arg3)) := by read_host

set_option maxHeartbeats 4000000 in
theorem V9_v56 : V9 m c main_v56 = k_main_v56 (m ((c : Thread nD τ).loc main_arg0)) (m ((c : Thread nD τ).loc main_arg1)) (m ((c : Thread nD τ).loc main_arg2)) (m ((c : Thread nD τ).loc main_arg3)) := by read_host

set_option maxHeartbeats 4000000 in
theorem V9_v63 : V9 m c main_v63 = k_main_v63 (m ((c : Thread nD τ).loc main_arg0)) (m ((c : Thread nD τ).loc main_arg1)) (m ((c : Thread nD τ).loc main_arg2)) (m ((c : Thread nD τ).loc main_arg3)) := by read_host

set_option maxHeartbeats 4000000 in
theorem V9_v64 : V9 m c main_v64 = k_main_v64 (m ((c : Thread nD τ).loc main_arg0)) (m ((c : Thread nD τ).loc main_arg1)) (m ((c : Thread nD τ).loc main_arg2)) (m ((c : Thread nD τ).loc main_arg3)) := by read_host

set_option maxHeartbeats 4000000 in
theorem V9_v65 : V9 m c main_v65 = k_main_v65 (m ((c : Thread nD τ).loc main_arg0)) (m ((c : Thread nD τ).loc main_arg1)) (m ((c : Thread nD τ).loc main_arg2)) (m ((c : Thread nD τ).loc main_arg3)) := by read_host

set_option maxHeartbeats 4000000 in
theorem V9_v66 : V9 m c main_v66 = k_main_v66 (m ((c : Thread nD τ).loc main_arg0)) (m ((c : Thread nD τ).loc main_arg1)) (m ((c : Thread nD τ).loc main_arg2)) (m ((c : Thread nD τ).loc main_arg3)) := by read_host

theorem V11_v64 : V11 m outs c main_v64 = k_main_v64 (m ((c : Thread nD τ).loc main_arg0)) (m ((c : Thread nD τ).loc main_arg1)) (m ((c : Thread nD τ).loc main_arg2)) (m ((c : Thread nD τ).loc main_arg3)) :=
  (V11_of m outs c main_v64 (by decide)).trans ((V10_of m outs c main_v64 (by decide)).trans (V9_v64 m c))

theorem V11_v65 : V11 m outs c main_v65 = k_main_v65 (m ((c : Thread nD τ).loc main_arg0)) (m ((c : Thread nD τ).loc main_arg1)) (m ((c : Thread nD τ).loc main_arg2)) (m ((c : Thread nD τ).loc main_arg3)) :=
  (V11_of m outs c main_v65 (by decide)).trans ((V10_of m outs c main_v65 (by decide)).trans (V9_v65 m c))

theorem V11_v44 : V11 m outs c main_v44 = k_main_v44 (m ((c : Thread nD τ).loc main_arg0)) (m ((c : Thread nD τ).loc main_arg1)) (m ((c : Thread nD τ).loc main_arg2)) (m ((c : Thread nD τ).loc main_arg3)) :=
  (V11_of m outs c main_v44 (by decide)).trans ((V10_of m outs c main_v44 (by decide)).trans (V9_v44 m c))

theorem V11_v56 : V11 m outs c main_v56 = k_main_v56 (m ((c : Thread nD τ).loc main_arg0)) (m ((c : Thread nD τ).loc main_arg1)) (m ((c : Thread nD τ).loc main_arg2)) (m ((c : Thread nD τ).loc main_arg3)) :=
  (V11_of m outs c main_v56 (by decide)).trans ((V10_of m outs c main_v56 (by decide)).trans (V9_v56 m c))

set_option maxHeartbeats 4000000 in
theorem V13_v78 : V13 m outs c main_v78 = k_main_v78 (m ((c : Thread nD τ).loc main_arg0)) (m ((c : Thread nD τ).loc main_arg1)) (m ((c : Thread nD τ).loc main_arg2)) (m ((c : Thread nD τ).loc main_arg3)) (outs 10 main_v67 c) (outs 12 main_v69 c) := by read_host

end Cert.KernelIdeal.Hand

end
-- ==== Proof.RStages.lean ====
import proofs.«417968_j21749714387505_1_alg».proof.ReferenceIdeal

noncomputable section

namespace Cert.ReferenceIdeal.Stages

open Idealize.ShloMosaic Idealize.ShloMosaic.TcCoe Cert.ReferenceIdeal

variable {F : FTy → Type} [FloatOps F] [Facts]
open Facts₀ Facts

/-- The whole contents of a buffer of shape `S` and element type `e`. -/
abbrev Arr (F : FTy → Type) (S : Shape) (e : EltTy) : Type := (⟨S, e⟩ : BufTy).Contents (Elt F)

def r_main_v0 (a0 a1 : Arr F S8x64x64x64 .f32) (a2 : Arr F S8x2048 .i32) (a3 : Arr F S8x2x2048 .i32) : Arr F S8x64x4096 .f32 :=
  shapeCast S8x64x4096 a0 shapeCasts_S8x64x64x64_S8x64x4096
def r_main_v1 (a0 a1 : Arr F S8x64x64x64 .f32) (a2 : Arr F S8x2048 .i32) (a3 : Arr F S8x2x2048 .i32) : Arr F S8x64x4096 .f32 :=
  mulf (r_main_v0 a0 a1 a2 a3) (r_main_v0 a0 a1 a2 a3)
def r_main_cst (a0 a1 : Arr F S8x64x64x64 .f32) (a2 : Arr F S8x2048 .i32) (a3 : Arr F S8x2x2048 .i32) : Arr F S_ .f32 :=
  constant S_ .f32 0x00000000#32
def r_main_v2 (a0 a1 : Arr F S8x64x64x64 .f32) (a2 : Arr F S8x2048 .i32) (a3 : Arr F S8x2x2048 .i32) : Arr F S8x4096 .f32 :=
  (fun x v => Host.reduceAdd x v reducesTo_S8x64x4096_S8x4096_d1 h_S_) (r_main_v1 a0 a1 a2 a3) (r_main_cst a0 a1 a2 a3)
def r_main_v3 (a0 a1 : Arr F S8x64x64x64 .f32) (a2 : Arr F S8x2048 .i32) (a3 : Arr F S8x2x2048 .i32) : Arr F S8x1x4096 .f32 :=
  (broadcastInDim S8x1x4096 ![0, 2] bcast_S8x4096_S8x1x4096_0_2) (r_main_v2 a0 a1 a2 a3)
def r_main_v4 (a0 a1 : Arr F S8x64x64x64 .f32) (a2 : Arr F S8x2048 .i32) (a3 : Arr F S8x2x2048 .i32) : Arr F S8x1x4096 .f32 :=
  Host.sqrt (r_main_v3 a0 a1 a2 a3)
def r_main_cst_0 (a0 a1 : Arr F S8x64x64x64 .f32) (a2 : Arr F S8x2048 .i32) (a3 : Arr F S8x2x2048 .i32) : Arr F S_ .f32 :=
  constant S_ .f32 0x2B8CBCCC#32
def r_main_v5 (a0 a1 : Arr F S8x64x64x64 .f32) (a2 : Arr F S8x2048 .i32) (a3 : Arr F S8x2x2048 .i32) : Arr F S8x1x4096 .f32 :=
  (broadcastInDim S8x1x4096 ![] bcast_S_S8x1x4096) (r_main_cst_0 a0 a1 a2 a3)
def r_main_v6 (a0 a1 : Arr F S8x64x64x64 .f32) (a2 : Arr F S8x2048 .i32) (a3 : Arr F S8x2x2048 .i32) : Arr F S8x1x4096 .f32 :=
  maximumf (r_main_v4 a0 a1 a2 a3) (r_main_v5 a0 a1 a2 a3)
def r_main_v7 (a0 a1 : Arr F S8x64x64x64 .f32) (a2 : Arr F S8x2048 .i32) (a3 : Arr F S8x2x2048 .i32) : Arr F S8x64x4096 .f32 :=
  (broadcastInDim S8x64x4096 ![0, 1, 2] bcast_S8x1x4096_S8x64x4096_0_1_2) (r_main_v6 a0 a1 a2 a3)
def r_main_v8 (a0 a1 : Arr F S8x64x64x64 .f32) (a2 : Arr F S8x2048 .i32) (a3 : Arr F S8x2x2048 .i32) : Arr F S8x64x4096 .f32 :=
  Host.divf (r_main_v0 a0 a1 a2 a3) (r_main_v7 a0 a1 a2 a3)
def r_main_v9 (a0 a1 : Arr F S8x64x64x64 .f32) (a2 : Arr F S8x2048 .i32) (a3 : Arr F S8x2x2048 .i32) : Arr F S8x64x4096 .f32 :=
  shapeCast S8x64x4096 a1 shapeCasts_S8x64x64x64_S8x64x4096
def r_main_v10 (a0 a1 : Arr F S8x64x64x64 .f32) (a2 : Arr F S8x2048 .i32) (a3 : Arr F S8x2x2048 .i32) : Arr F S8x64x4096 .f32 :=
  mulf (r_main_v9 a0 a1 a2 a3) (r_main_v9 a0 a1 a2 a3)
def r_main_cst_1 (a0 a1 : Arr F S8x64x64x64 .f32) (a2 : Arr F S8x2048 .i32) (a3 : Arr F S8x2x2048 .i32) : Arr F S_ .f32 :=
  constant S_ .f32 0x00000000#32
def r_main_v11 (a0 a1 : Arr F S8x64x64x64 .f32) (a2 : Arr F S8x2048 .i32) (a3 : Arr F S8x2x2048 .i32) : Arr F S8x4096 .f32 :=
  (fun x v => Host.reduceAdd x v reducesTo_S8x64x4096_S8x4096_d1 h_S_) (r_main_v10 a0 a1 a2 a3) (r_main_cst_1 a0 a1 a2 a3)
def r_main_v12 (a0 a1 : Arr F S8x64x64x64 .f32) (a2 : Arr F S8x2048 .i32) (a3 : Arr F S8x2x2048 .i32) : Arr F S8x1x4096 .f32 :=
  (broadcastInDim S8x1x4096 ![0, 2] bcast_S8x4096_S8x1x4096_0_2) (r_main_v11 a0 a1 a2 a3)
def r_main_v13 (a0 a1 : Arr F S8x64x64x64 .f32) (a2 : Arr F S8x2048 .i32) (a3 : Arr F S8x2x2048 .i32) : Arr F S8x1x4096 .f32 :=
  Host.sqrt (r_main_v12 a0 a1 a2 a3)
def r_main_cst_2 (a0 a1 : Arr F S8x64x64x64 .f32) (a2 : Arr F S8x2048 .i32) (a3 : Arr F S8x2x2048 .i32) : Arr F S_ .f32 :=
  constant S_ .f32 0x2B8CBCCC#32
def r_main_v14 (a0 a1 : Arr F S8x64x64x64 .f32) (a2 : Arr F S8x2048 .i32) (a3 : Arr F S8x2x2048 .i32) : Arr F S8x1x4096 .f32 :=
  (broadcastInDim S8x1x4096 ![] bcast_S_S8x1x4096) (r_main_cst_2 a0 a1 a2 a3)
def r_main_v15 (a0 a1 : Arr F S8x64x64x64 .f32) (a2 : Arr F S8x2048 .i32) (a3 : Arr F S8x2x2048 .i32) : Arr F S8x1x4096 .f32 :=
  maximumf (r_main_v13 a0 a1 a2 a3) (r_main_v14 a0 a1 a2 a3)
def r_main_v16 (a0 a1 : Arr F S8x64x64x64 .f32) (a2 : Arr F S8x2048 .i32) (a3 : Arr F S8x2x2048 .i32) : Arr F S8x64x4096 .f32 :=
  (broadcastInDim S8x64x4096 ![0, 1, 2] bcast_S8x1x4096_S8x64x4096_0_1_2) (r_main_v15 a0 a1 a2 a3)
def r_main_v17 (a0 a1 : Arr F S8x64x64x64 .f32) (a2 : Arr F S8x2048 .i32) (a3 : Arr F S8x2x2048 .i32) : Arr F S8x64x4096 .f32 :=
  Host.divf (r_main_v9 a0 a1 a2 a3) (r_main_v16 a0 a1 a2 a3)
def r_main_c (a0 a1 : Arr F S8x64x64x64 .f32) (a2 : Arr F S8x2048 .i32) (a3 : Arr F S8x2x2048 .i32) : Arr F S_ .i32 :=
  constantI S_ 32 0#32
def r_main_v18 (a0 a1 : Arr F S8x64x64x64 .f32) (a2 : Arr F S8x2048 .i32) (a3 : Arr F S8x2x2048 .i32) : Arr F S8x2048 .i32 :=
  (broadcastInDim S8x2048 ![] bcast_S_S8x2048) (r_main_c a0 a1 a2 a3)
def r_main_v19 (a0 a1 : Arr F S8x64x64x64 .f32) (a2 : Arr F S8x2048 .i32) (a3 : Arr F S8x2x2048 .i32) : Arr F S8x2048 .i1 :=
  (cmpi .slt) a2 (r_main_v18 a0 a1 a2 a3)
def r_main_c_3 (a0 a1 : Arr F S8x64x64x64 .f32) (a2 : Arr F S8x2048 .i32) (a3 : Arr F S8x2x2048 .i32) : Arr F S_ .i32 :=
  constantI S_ 32 4096#32
def r_main_v20 (a0 a1 : Arr F S8x64x64x64 .f32) (a2 : Arr F S8x2048 .i32) (a3 : Arr F S8x2x2048 .i32) : Arr F S8x2048 .i32 :=
  (broadcastInDim S8x2048 ![] bcast_S_S8x2048) (r_main_c_3 a0 a1 a2 a3)
def r_main_v21 (a0 a1 : Arr F S8x64x64x64 .f32) (a2 : Arr F S8x2048 .i32) (a3 : Arr F S8x2x2048 .i32) : Arr F S8x2048 .i32 :=
  addi a2 (r_main_v20 a0 a1 a2 a3)
def r_main_v22 (a0 a1 : Arr F S8x64x64x64 .f32) (a2 : Arr F S8x2048 .i32) (a3 : Arr F S8x2x2048 .i32) : Arr F S8x2048 .i32 :=
  select (r_main_v19 a0 a1 a2 a3) (r_main_v21 a0 a1 a2 a3) a2
def r_main_v23 (a0 a1 : Arr F S8x64x64x64 .f32) (a2 : Arr F S8x2048 .i32) (a3 : Arr F S8x2x2048 .i32) : Arr F S8x2048x1 .i32 :=
  (broadcastInDim S8x2048x1 ![0, 1] bcast_S8x2048_S8x2048x1_0_1) (r_main_v22 a0 a1 a2 a3)
def r_main_v24 (a0 a1 : Arr F S8x64x64x64 .f32) (a2 : Arr F S8x2048 .i32) (a3 : Arr F S8x2x2048 .i32) : Arr F S8x64x2048 .f32 :=
  (fun x i => Host.gather gather_S8x64x4096_S8x2048x1_S8x64x2048_1_2_0_0_2_2_1641 x i) (r_main_v8 a0 a1 a2 a3) (r_main_v23 a0 a1 a2 a3)
def r_main_v25 (a0 a1 : Arr F S8x64x64x64 .f32) (a2 : Arr F S8x2048 .i32) (a3 : Arr F S8x2x2048 .i32) : Arr F S8x1x2048 .i32 :=
  (extractStridedSlice S8x1x2048 ![0, 0, 0] · slices_S8x2x2048_S8x1x2048_0_0_0) a3
def r_main_v26 (a0 a1 : Arr F S8x64x64x64 .f32) (a2 : Arr F S8x2048 .i32) (a3 : Arr F S8x2x2048 .i32) : Arr F S8x2048 .i32 :=
  shapeCast S8x2048 (r_main_v25 a0 a1 a2 a3) shapeCasts_S8x1x2048_S8x2048
def r_main_v27 (a0 a1 : Arr F S8x64x64x64 .f32) (a2 : Arr F S8x2048 .i32) (a3 : Arr F S8x2x2048 .i32) : Arr F S8x1x2048 .i32 :=
  (extractStridedSlice S8x1x2048 ![0, 1, 0] · slices_S8x2x2048_S8x1x2048_0_1_0) a3
def r_main_v28 (a0 a1 : Arr F S8x64x64x64 .f32) (a2 : Arr F S8x2048 .i32) (a3 : Arr F S8x2x2048 .i32) : Arr F S8x2048 .i32 :=
  shapeCast S8x2048 (r_main_v27 a0 a1 a2 a3) shapeCasts_S8x1x2048_S8x2048
def r_main_c_4 (a0 a1 : Arr F S8x64x64x64 .f32) (a2 : Arr F S8x2048 .i32) (a3 : Arr F S8x2x2048 .i32) : Arr F S_ .i32 :=
  constantI S_ 32 0#32
def r_main_v29 (a0 a1 : Arr F S8x64x64x64 .f32) (a2 : Arr F S8x2048 .i32) (a3 : Arr F S8x2x2048 .i32) : Arr F S8x2048 .i32 :=
  (broadcastInDim S8x2048 ![] bcast_S_S8x2048) (r_main_c_4 a0 a1 a2 a3)
def r_main_v30 (a0 a1 : Arr F S8x64x64x64 .f32) (a2 : Arr F S8x2048 .i32) (a3 : Arr F S8x2x2048 .i32) : Arr F S8x2048 .i1 :=
  (cmpi .slt) (r_main_v26 a0 a1 a2 a3) (r_main_v29 a0 a1 a2 a3)
def r_main_c_5 (a0 a1 : Arr F S8x64x64x64 .f32) (a2 : Arr F S8x2048 .i32) (a3 : Arr F S8x2x2048 .i32) : Arr F S_ .i32 :=
  constantI S_ 32 64#32
def r_main_v31 (a0 a1 : Arr F S8x64x64x64 .f32) (a2 : Arr F S8x2048 .i32) (a3 : Arr F S8x2x2048 .i32) : Arr F S8x2048 .i32 :=
  (broadcastInDim S8x2048 ![] bcast_S_S8x2048) (r_main_c_5 a0 a1 a2 a3)
def r_main_v32 (a0 a1 : Arr F S8x64x64x64 .f32) (a2 : Arr F S8x2048 .i32) (a3 : Arr F S8x2x2048 .i32) : Arr F S8x2048 .i32 :=
  addi (r_main_v26 a0 a1 a2 a3) (r_main_v31 a0 a1 a2 a3)
def r_main_v33 (a0 a1 : Arr F S8x64x64x64 .f32) (a2 : Arr F S8x2048 .i32) (a3 : Arr F S8x2x2048 .i32) : Arr F S8x2048 .i32 :=
  select (r_main_v30 a0 a1 a2 a3) (r_main_v32 a0 a1 a2 a3) (r_main_v26 a0 a1 a2 a3)
def r_main_c_6 (a0 a1 : Arr F S8x64x64x64 .f32) (a2 : Arr F S8x2048 .i32) (a3 : Arr F S8x2x2048 .i32) : Arr F S_ .i32 :=
  constantI S_ 32 0#32
def r_main_v34 (a0 a1 : Arr F S8x64x64x64 .f32) (a2 : Arr F S8x2048 .i32) (a3 : Arr F S8x2x2048 .i32) : Arr F S8x2048 .i32 :=
  (broadcastInDim S8x2048 ![] bcast_S_S8x2048) (r_main_c_6 a0 a1 a2 a3)
def r_main_v35 (a0 a1 : Arr F S8x64x64x64 .f32) (a2 : Arr F S8x2048 .i32) (a3 : Arr F S8x2x2048 .i32) : Arr F S8x2048 .i1 :=
  (cmpi .slt) (r_main_v28 a0 a1 a2 a3) (r_main_v34 a0 a1 a2 a3)
def r_main_c_7 (a0 a1 : Arr F S8x64x64x64 .f32) (a2 : Arr F S8x2048 .i32) (a3 : Arr F S8x2x2048 .i32) : Arr F S_ .i32 :=
  constantI S_ 32 64#32
def r_main_v36 (a0 a1 : Arr F S8x64x64x64 .f32) (a2 : Arr F S8x2048 .i32) (a3 : Arr F S8x2x2048 .i32) : Arr F S8x2048 .i32 :=
  (broadcastInDim S8x2048 ![] bcast_S_S8x2048) (r_main_c_7 a0 a1 a2 a3)
def r_main_v37 (a0 a1 : Arr F S8x64x64x64 .f32) (a2 : Arr F S8x2048 .i32) (a3 : Arr F S8x2x2048 .i32) : Arr F S8x2048 .i32 :=
  addi (r_main_v28 a0 a1 a2 a3) (r_main_v36 a0 a1 a2 a3)
def r_main_v38 (a0 a1 : Arr F S8x64x64x64 .f32) (a2 : Arr F S8x2048 .i32) (a3 : Arr F S8x2x2048 .i32) : Arr F S8x2048 .i32 :=
  select (r_main_v35 a0 a1 a2 a3) (r_main_v37 a0 a1 a2 a3) (r_main_v28 a0 a1 a2 a3)
def r_main_v39 (a0 a1 : Arr F S8x64x64x64 .f32) (a2 : Arr F S8x2048 .i32) (a3 : Arr F S8x2x2048 .i32) : Arr F S8x2048x1 .i32 :=
  (broadcastInDim S8x2048x1 ![0, 1] bcast_S8x2048_S8x2048x1_0_1) (r_main_v33 a0 a1 a2 a3)
def r_main_v40 (a0 a1 : Arr F S8x64x64x64 .f32) (a2 : Arr F S8x2048 .i32) (a3 : Arr F S8x2x2048 .i32) : Arr F S8x2048x1 .i32 :=
  (broadcastInDim S8x2048x1 ![0, 1] bcast_S8x2048_S8x2048x1_0_1) (r_main_v38 a0 a1 a2 a3)
def r_main_v41 (a0 a1 : Arr F S8x64x64x64 .f32) (a2 : Arr F S8x2048 .i32) (a3 : Arr F S8x2x2048 .i32) : Arr F S8x2048x2 .i32 :=
  (fun a b => concatenate S8x2048x2 2 [⟨S8x2048x1, a⟩, ⟨S8x2048x1, b⟩] concatenates_S8x2048x1_S8x2048x1_S8x2048x2_d2) (r_main_v39 a0 a1 a2 a3) (r_main_v40 a0 a1 a2 a3)
def r_main_v42 (a0 a1 : Arr F S8x64x64x64 .f32) (a2 : Arr F S8x2048 .i32) (a3 : Arr F S8x2x2048 .i32) : Arr F S8x64x2048 .f32 :=
  (fun x i => Host.gather gather_S8x64x64x64_S8x2048x2_S8x64x2048_1_23_0_0_23_2_16411 x i) a1 (r_main_v41 a0 a1 a2 a3)
def r_main_v43 (a0 a1 : Arr F S8x64x64x64 .f32) (a2 : Arr F S8x2048 .i32) (a3 : Arr F S8x2x2048 .i32) : Arr F S8x64x2048 .f32 :=
  mulf (r_main_v42 a0 a1 a2 a3) (r_main_v42 a0 a1 a2 a3)
def r_main_cst_8 (a0 a1 : Arr F S8x64x64x64 .f32) (a2 : Arr F S8x2048 .i32) (a3 : Arr F S8x2x2048 .i32) : Arr F S_ .f32 :=
  constant S_ .f32 0x00000000#32
def r_main_v44 (a0 a1 : Arr F S8x64x64x64 .f32) (a2 : Arr F S8x2048 .i32) (a3 : Arr F S8x2x2048 .i32) : Arr F S8x2048 .f32 :=
  (fun x v => Host.reduceAdd x v reducesTo_S8x64x2048_S8x2048_d1 h_S_) (r_main_v43 a0 a1 a2 a3) (r_main_cst_8 a0 a1 a2 a3)
def r_main_v45 (a0 a1 : Arr F S8x64x64x64 .f32) (a2 : Arr F S8x2048 .i32) (a3 : Arr F S8x2x2048 .i32) : Arr F S8x1x2048 .f32 :=
  (broadcastInDim S8x1x2048 ![0, 2] bcast_S8x2048_S8x1x2048_0_2) (r_main_v44 a0 a1 a2 a3)
def r_main_v46 (a0 a1 : Arr F S8x64x64x64 .f32) (a2 : Arr F S8x2048 .i32) (a3 : Arr F S8x2x2048 .i32) : Arr F S8x1x2048 .f32 :=
  Host.sqrt (r_main_v45 a0 a1 a2 a3)
def r_main_cst_9 (a0 a1 : Arr F S8x64x64x64 .f32) (a2 : Arr F S8x2048 .i32) (a3 : Arr F S8x2x2048 .i32) : Arr F S_ .f32 :=
  constant S_ .f32 0x2B8CBCCC#32
def r_main_v47 (a0 a1 : Arr F S8x64x64x64 .f32) (a2 : Arr F S8x2048 .i32) (a3 : Arr F S8x2x2048 .i32) : Arr F S8x1x2048 .f32 :=
  (broadcastInDim S8x1x2048 ![] bcast_S_S8x1x2048) (r_main_cst_9 a0 a1 a2 a3)
def r_main_v48 (a0 a1 : Arr F S8x64x64x64 .f32) (a2 : Arr F S8x2048 .i32) (a3 : Arr F S8x2x2048 .i32) : Arr F S8x1x2048 .f32 :=
  maximumf (r_main_v46 a0 a1 a2 a3) (r_main_v47 a0 a1 a2 a3)
def r_main_v49 (a0 a1 : Arr F S8x64x64x64 .f32) (a2 : Arr F S8x2048 .i32) (a3 : Arr F S8x2x2048 .i32) : Arr F S8x64x2048 .f32 :=
  (broadcastInDim S8x64x2048 ![0, 1, 2] bcast_S8x1x2048_S8x64x2048_0_1_2) (r_main_v48 a0 a1 a2 a3)
def r_main_v50 (a0 a1 : Arr F S8x64x64x64 .f32) (a2 : Arr F S8x2048 .i32) (a3 : Arr F S8x2x2048 .i32) : Arr F S8x64x2048 .f32 :=
  Host.divf (r_main_v42 a0 a1 a2 a3) (r_main_v49 a0 a1 a2 a3)
def r_main_v51 (a0 a1 : Arr F S8x64x64x64 .f32) (a2 : Arr F S8x2048 .i32) (a3 : Arr F S8x2x2048 .i32) : Arr F S8x64x2048 .f32 :=
  mulf (r_main_v24 a0 a1 a2 a3) (r_main_v50 a0 a1 a2 a3)
def r_main_cst_10 (a0 a1 : Arr F S8x64x64x64 .f32) (a2 : Arr F S8x2048 .i32) (a3 : Arr F S8x2x2048 .i32) : Arr F S_ .f32 :=
  constant S_ .f32 0x00000000#32
def r_main_v52 (a0 a1 : Arr F S8x64x64x64 .f32) (a2 : Arr F S8x2048 .i32) (a3 : Arr F S8x2x2048 .i32) : Arr F S8x2048 .f32 :=
  (fun x v => Host.reduceAdd x v reducesTo_S8x64x2048_S8x2048_d1 h_S_) (r_main_v51 a0 a1 a2 a3) (r_main_cst_10 a0 a1 a2 a3)
def r_main_cst_11 (a0 a1 : Arr F S8x64x64x64 .f32) (a2 : Arr F S8x2048 .i32) (a3 : Arr F S8x2x2048 .i32) : Arr F S_ .f32 :=
  constant S_ .f32 0x40000000#32
def r_main_v53 (a0 a1 : Arr F S8x64x64x64 .f32) (a2 : Arr F S8x2048 .i32) (a3 : Arr F S8x2x2048 .i32) : Arr F S8x2048 .f32 :=
  (broadcastInDim S8x2048 ![] bcast_S_S8x2048) (r_main_cst_11 a0 a1 a2 a3)
def r_main_v54 (a0 a1 : Arr F S8x64x64x64 .f32) (a2 : Arr F S8x2048 .i32) (a3 : Arr F S8x2x2048 .i32) : Arr F S8x2048 .f32 :=
  mulf (r_main_v53 a0 a1 a2 a3) (r_main_v52 a0 a1 a2 a3)
def r_main_cst_12 (a0 a1 : Arr F S8x64x64x64 .f32) (a2 : Arr F S8x2048 .i32) (a3 : Arr F S8x2x2048 .i32) : Arr F S_ .f32 :=
  constant S_ .f32 0x40000000#32
def r_main_v55 (a0 a1 : Arr F S8x64x64x64 .f32) (a2 : Arr F S8x2048 .i32) (a3 : Arr F S8x2x2048 .i32) : Arr F S8x2048 .f32 :=
  (broadcastInDim S8x2048 ![] bcast_S_S8x2048) (r_main_cst_12 a0 a1 a2 a3)
def r_main_v56 (a0 a1 : Arr F S8x64x64x64 .f32) (a2 : Arr F S8x2048 .i32) (a3 : Arr F S8x2x2048 .i32) : Arr F S8x2048 .f32 :=
  subf (r_main_v55 a0 a1 a2 a3) (r_main_v54 a0 a1 a2 a3)
def r_main_v57 (a0 a1 : Arr F S8x64x64x64 .f32) (a2 : Arr F S8x2048 .i32) (a3 : Arr F S8x2x2048 .i32) : Arr F S64 .i32 :=
  iotaInDim S64 32 0
def r_main_v58 (a0 a1 : Arr F S8x64x64x64 .f32) (a2 : Arr F S8x2048 .i32) (a3 : Arr F S8x2x2048 .i32) : Arr F S64x64 .i32 :=
  (broadcastInDim S64x64 ![0] bcast_S64_S64x64_0) (r_main_v57 a0 a1 a2 a3)
def r_main_v59 (a0 a1 : Arr F S8x64x64x64 .f32) (a2 : Arr F S8x2048 .i32) (a3 : Arr F S8x2x2048 .i32) : Arr F S4096 .i32 :=
  shapeCast S4096 (r_main_v58 a0 a1 a2 a3) shapeCasts_S64x64_S4096
def r_main_v60 (a0 a1 : Arr F S8x64x64x64 .f32) (a2 : Arr F S8x2048 .i32) (a3 : Arr F S8x2x2048 .i32) : Arr F S64 .i32 :=
  iotaInDim S64 32 0
def r_main_v61 (a0 a1 : Arr F S8x64x64x64 .f32) (a2 : Arr F S8x2048 .i32) (a3 : Arr F S8x2x2048 .i32) : Arr F S1x64 .i32 :=
  shapeCast S1x64 (r_main_v60 a0 a1 a2 a3) shapeCasts_S64_S1x64
def r_main_v62 (a0 a1 : Arr F S8x64x64x64 .f32) (a2 : Arr F S8x2048 .i32) (a3 : Arr F S8x2x2048 .i32) : Arr F S64x64 .i32 :=
  (broadcastInDim S64x64 ![0, 1] bcast_S1x64_S64x64_0_1) (r_main_v61 a0 a1 a2 a3)
def r_main_v63 (a0 a1 : Arr F S8x64x64x64 .f32) (a2 : Arr F S8x2048 .i32) (a3 : Arr F S8x2x2048 .i32) : Arr F S4096 .i32 :=
  shapeCast S4096 (r_main_v62 a0 a1 a2 a3) shapeCasts_S64x64_S4096
def r_main_v64 (a0 a1 : Arr F S8x64x64x64 .f32) (a2 : Arr F S8x2048 .i32) (a3 : Arr F S8x2x2048 .i32) : Arr F S1x4096 .i32 :=
  (broadcastInDim S1x4096 ![1] bcast_S4096_S1x4096_1) (r_main_v59 a0 a1 a2 a3)
def r_main_v65 (a0 a1 : Arr F S8x64x64x64 .f32) (a2 : Arr F S8x2048 .i32) (a3 : Arr F S8x2x2048 .i32) : Arr F S1x4096 .i32 :=
  (broadcastInDim S1x4096 ![1] bcast_S4096_S1x4096_1) (r_main_v63 a0 a1 a2 a3)
def r_main_v66 (a0 a1 : Arr F S8x64x64x64 .f32) (a2 : Arr F S8x2048 .i32) (a3 : Arr F S8x2x2048 .i32) : Arr F S2x4096 .i32 :=
  (fun a b => concatenate S2x4096 0 [⟨S1x4096, a⟩, ⟨S1x4096, b⟩] concatenates_S1x4096_S1x4096_S2x4096_d0) (r_main_v64 a0 a1 a2 a3) (r_main_v65 a0 a1 a2 a3)
def r_main_v67 (a0 a1 : Arr F S8x64x64x64 .f32) (a2 : Arr F S8x2048 .i32) (a3 : Arr F S8x2x2048 .i32) : Arr F S2x4096 .f32 :=
  (sitofp .f32) (r_main_v66 a0 a1 a2 a3)
def r_main_v68 (a0 a1 : Arr F S8x64x64x64 .f32) (a2 : Arr F S8x2048 .i32) (a3 : Arr F S8x2x2048 .i32) : Arr F S8x2x2048x1 .i32 :=
  (broadcastInDim S8x2x2048x1 ![0, 1, 2] bcast_S8x2x2048_S8x2x2048x1_0_1_2) a3
def r_main_v69 (a0 a1 : Arr F S8x64x64x64 .f32) (a2 : Arr F S8x2048 .i32) (a3 : Arr F S8x2x2048 .i32) : Arr F S8x2x2048x1 .f32 :=
  (sitofp .f32) (r_main_v68 a0 a1 a2 a3)
def r_main_v70 (a0 a1 : Arr F S8x64x64x64 .f32) (a2 : Arr F S8x2048 .i32) (a3 : Arr F S8x2x2048 .i32) : Arr F S2x1x4096 .f32 :=
  (broadcastInDim S2x1x4096 ![0, 2] bcast_S2x4096_S2x1x4096_0_2) (r_main_v67 a0 a1 a2 a3)
def r_main_v71 (a0 a1 : Arr F S8x64x64x64 .f32) (a2 : Arr F S8x2048 .i32) (a3 : Arr F S8x2x2048 .i32) : Arr F S1x2x1x4096 .f32 :=
  (broadcastInDim S1x2x1x4096 ![1, 2, 3] bcast_S2x1x4096_S1x2x1x4096_1_2_3) (r_main_v70 a0 a1 a2 a3)
def r_main_v72 (a0 a1 : Arr F S8x64x64x64 .f32) (a2 : Arr F S8x2048 .i32) (a3 : Arr F S8x2x2048 .i32) : Arr F S8x2x2048x4096 .f32 :=
  (broadcastInDim S8x2x2048x4096 ![0, 1, 2, 3] bcast_S8x2x2048x1_S8x2x2048x4096_0_1_2_3) (r_main_v69 a0 a1 a2 a3)
def r_main_v73 (a0 a1 : Arr F S8x64x64x64 .f32) (a2 : Arr F S8x2048 .i32) (a3 : Arr F S8x2x2048 .i32) : Arr F S8x2x2048x4096 .f32 :=
  (broadcastInDim S8x2x2048x4096 ![0, 1, 2, 3] bcast_S1x2x1x4096_S8x2x2048x4096_0_1_2_3) (r_main_v71 a0 a1 a2 a3)
def r_main_v74 (a0 a1 : Arr F S8x64x64x64 .f32) (a2 : Arr F S8x2048 .i32) (a3 : Arr F S8x2x2048 .i32) : Arr F S8x2x2048x4096 .f32 :=
  subf (r_main_v72 a0 a1 a2 a3) (r_main_v73 a0 a1 a2 a3)
def r_main_v75 (a0 a1 : Arr F S8x64x64x64 .f32) (a2 : Arr F S8x2048 .i32) (a3 : Arr F S8x2x2048 .i32) : Arr F S8x2x2048x4096 .f32 :=
  Host.absf (r_main_v74 a0 a1 a2 a3)
def r_main_cst_13 (a0 a1 : Arr F S8x64x64x64 .f32) (a2 : Arr F S8x2048 .i32) (a3 : Arr F S8x2x2048 .i32) : Arr F S_ .f32 :=
  constant S_ .f32 0xFF800000#32
def r_main_v76 (a0 a1 : Arr F S8x64x64x64 .f32) (a2 : Arr F S8x2048 .i32) (a3 : Arr F S8x2x2048 .i32) : Arr F S8x2048x4096 .f32 :=
  (fun x v => Host.reduce FloatOps.maximumf x v reducesTo_S8x2x2048x4096_S8x2048x4096_d1 h_S_) (r_main_v75 a0 a1 a2 a3) (r_main_cst_13 a0 a1 a2 a3)
def r_main_v77 (a0 a1 : Arr F S8x64x64x64 .f32) (a2 : Arr F S8x2048 .i32) (a3 : Arr F S8x2x2048 .i32) : Arr F S8x2048x4096 .f32 :=
  (fun l r => Host.dotGeneral dot_S8x64x2048_S8x64x4096_S8x2048x4096_1_1_2_2_0_0 none l r) (r_main_v24 a0 a1 a2 a3) (r_main_v17 a0 a1 a2 a3)
def r_main_cst_14 (a0 a1 : Arr F S8x64x64x64 .f32) (a2 : Arr F S8x2048 .i32) (a3 : Arr F S8x2x2048 .i32) : Arr F S_ .f32 :=
  constant S_ .f32 0x40000000#32
def r_main_v78 (a0 a1 : Arr F S8x64x64x64 .f32) (a2 : Arr F S8x2048 .i32) (a3 : Arr F S8x2x2048 .i32) : Arr F S8x2048x4096 .f32 :=
  (broadcastInDim S8x2048x4096 ![] bcast_S_S8x2048x4096) (r_main_cst_14 a0 a1 a2 a3)
def r_main_v79 (a0 a1 : Arr F S8x64x64x64 .f32) (a2 : Arr F S8x2048 .i32) (a3 : Arr F S8x2x2048 .i32) : Arr F S8x2048x4096 .f32 :=
  mulf (r_main_v78 a0 a1 a2 a3) (r_main_v77 a0 a1 a2 a3)
def r_main_cst_15 (a0 a1 : Arr F S8x64x64x64 .f32) (a2 : Arr F S8x2048 .i32) (a3 : Arr F S8x2x2048 .i32) : Arr F S_ .f32 :=
  constant S_ .f32 0x40000000#32
def r_main_v80 (a0 a1 : Arr F S8x64x64x64 .f32) (a2 : Arr F S8x2048 .i32) (a3 : Arr F S8x2x2048 .i32) : Arr F S8x2048x4096 .f32 :=
  (broadcastInDim S8x2048x4096 ![] bcast_S_S8x2048x4096) (r_main_cst_15 a0 a1 a2 a3)
def r_main_v81 (a0 a1 : Arr F S8x64x64x64 .f32) (a2 : Arr F S8x2048 .i32) (a3 : Arr F S8x2x2048 .i32) : Arr F S8x2048x4096 .f32 :=
  subf (r_main_v80 a0 a1 a2 a3) (r_main_v79 a0 a1 a2 a3)
def r_main_cst_16 (a0 a1 : Arr F S8x64x64x64 .f32) (a2 : Arr F S8x2048 .i32) (a3 : Arr F S8x2x2048 .i32) : Arr F S_ .f32 :=
  constant S_ .f32 0x40800000#32
def r_main_v82 (a0 a1 : Arr F S8x64x64x64 .f32) (a2 : Arr F S8x2048 .i32) (a3 : Arr F S8x2x2048 .i32) : Arr F S8x2048x4096 .f32 :=
  (broadcastInDim S8x2048x4096 ![] bcast_S_S8x2048x4096) (r_main_cst_16 a0 a1 a2 a3)
def r_main_v83 (a0 a1 : Arr F S8x64x64x64 .f32) (a2 : Arr F S8x2048 .i32) (a3 : Arr F S8x2x2048 .i32) : Arr F S8x2048x4096 .i1 :=
  (cmpf .ogt) (r_main_v76 a0 a1 a2 a3) (r_main_v82 a0 a1 a2 a3)
def r_main_cst_17 (a0 a1 : Arr F S8x64x64x64 .f32) (a2 : Arr F S8x2048 .i32) (a3 : Arr F S8x2x2048 .i32) : Arr F S_ .f32 :=
  constant S_ .f32 0x00000000#32
def r_main_cst_18 (a0 a1 : Arr F S8x64x64x64 .f32) (a2 : Arr F S8x2048 .i32) (a3 : Arr F S8x2x2048 .i32) : Arr F S_ .f32 :=
  constant S_ .f32 0x41200000#32
def r_main_call0_v0 (a0 a1 : Arr F S8x64x64x64 .f32) (a2 : Arr F S8x2048 .i32) (a3 : Arr F S8x2x2048 .i32) : Arr F S2048x4096 .f32 :=
  (broadcastInDim S2048x4096 ![] bcast_S_S2048x4096) (r_main_cst_17 a0 a1 a2 a3)
def r_main_call0_v1 (a0 a1 : Arr F S8x64x64x64 .f32) (a2 : Arr F S8x2048 .i32) (a3 : Arr F S8x2x2048 .i32) : Arr F S2048x4096 .f32 :=
  (broadcastInDim S2048x4096 ![] bcast_S_S2048x4096) (r_main_cst_18 a0 a1 a2 a3)
def r_main_call0_v2 (a0 a1 : Arr F S8x64x64x64 .f32) (a2 : Arr F S8x2048 .i32) (a3 : Arr F S8x2x2048 .i32) : Arr F S8x2048x4096 .f32 :=
  (broadcastInDim S8x2048x4096 ![1, 2] bcast_S2048x4096_S8x2048x4096_1_2) (r_main_call0_v1 a0 a1 a2 a3)
def r_main_call0_v3 (a0 a1 : Arr F S8x64x64x64 .f32) (a2 : Arr F S8x2048 .i32) (a3 : Arr F S8x2x2048 .i32) : Arr F S8x2048x4096 .f32 :=
  (broadcastInDim S8x2048x4096 ![1, 2] bcast_S2048x4096_S8x2048x4096_1_2) (r_main_call0_v0 a0 a1 a2 a3)
def r_main_v84 (a0 a1 : Arr F S8x64x64x64 .f32) (a2 : Arr F S8x2048 .i32) (a3 : Arr F S8x2x2048 .i32) : Arr F S8x2048x4096 .f32 :=
  select (r_main_v83 a0 a1 a2 a3) (r_main_call0_v3 a0 a1 a2 a3) (r_main_call0_v2 a0 a1 a2 a3)
def r_main_v85 (a0 a1 : Arr F S8x64x64x64 .f32) (a2 : Arr F S8x2048 .i32) (a3 : Arr F S8x2x2048 .i32) : Arr F S8x2048x4096 .f32 :=
  id (r_main_v84 a0 a1 a2 a3)
def r_main_v86 (a0 a1 : Arr F S8x64x64x64 .f32) (a2 : Arr F S8x2048 .i32) (a3 : Arr F S8x2x2048 .i32) : Arr F S8x2048x4096 .f32 :=
  addf (r_main_v81 a0 a1 a2 a3) (r_main_v85 a0 a1 a2 a3)
def r_main_cst_19 (a0 a1 : Arr F S8x64x64x64 .f32) (a2 : Arr F S8x2048 .i32) (a3 : Arr F S8x2x2048 .i32) : Arr F S_ .f32 :=
  constant S_ .f32 0x7F800000#32
def r_main_v87 (a0 a1 : Arr F S8x64x64x64 .f32) (a2 : Arr F S8x2048 .i32) (a3 : Arr F S8x2x2048 .i32) : Arr F S8x2048 .f32 :=
  (fun x v => Host.reduce FloatOps.minimumf x v reducesTo_S8x2048x4096_S8x2048_d2 h_S_) (r_main_v86 a0 a1 a2 a3) (r_main_cst_19 a0 a1 a2 a3)
def r_main_c_20 (a0 a1 : Arr F S8x64x64x64 .f32) (a2 : Arr F S8x2048 .i32) (a3 : Arr F S8x2x2048 .i32) : Arr F S_ .i32 :=
  constantI S_ 32 64#32
def r_main_call1_v0 (a0 a1 : Arr F S8x64x64x64 .f32) (a2 : Arr F S8x2048 .i32) (a3 : Arr F S8x2x2048 .i32) : Arr F S_ .i32 :=
  id (r_main_c_20 a0 a1 a2 a3)
def r_main_call1_v1 (a0 a1 : Arr F S8x64x64x64 .f32) (a2 : Arr F S8x2048 .i32) (a3 : Arr F S8x2x2048 .i32) : Arr F S8x2048 .i32 :=
  (broadcastInDim S8x2048 ![] bcast_S_S8x2048) (r_main_call1_v0 a0 a1 a2 a3)
def r_main_call1_v2 (a0 a1 : Arr F S8x64x64x64 .f32) (a2 : Arr F S8x2048 .i32) (a3 : Arr F S8x2x2048 .i32) : Arr F S8x2048 .i32 :=
  Host.divsi a2 (r_main_call1_v1 a0 a1 a2 a3)
def r_main_call1_v3 (a0 a1 : Arr F S8x64x64x64 .f32) (a2 : Arr F S8x2048 .i32) (a3 : Arr F S8x2x2048 .i32) : Arr F S8x2048 .i32 :=
  signi a2
def r_main_call1_v4 (a0 a1 : Arr F S8x64x64x64 .f32) (a2 : Arr F S8x2048 .i32) (a3 : Arr F S8x2x2048 .i32) : Arr F S_ .i32 :=
  signi (r_main_call1_v0 a0 a1 a2 a3)
def r_main_call1_v5 (a0 a1 : Arr F S8x64x64x64 .f32) (a2 : Arr F S8x2048 .i32) (a3 : Arr F S8x2x2048 .i32) : Arr F S8x2048 .i32 :=
  (broadcastInDim S8x2048 ![] bcast_S_S8x2048) (r_main_call1_v4 a0 a1 a2 a3)
def r_main_call1_v6 (a0 a1 : Arr F S8x64x64x64 .f32) (a2 : Arr F S8x2048 .i32) (a3 : Arr F S8x2x2048 .i32) : Arr F S8x2048 .i1 :=
  (cmpi .ne) (r_main_call1_v3 a0 a1 a2 a3) (r_main_call1_v5 a0 a1 a2 a3)
def r_main_call1_v7 (a0 a1 : Arr F S8x64x64x64 .f32) (a2 : Arr F S8x2048 .i32) (a3 : Arr F S8x2x2048 .i32) : Arr F S8x2048 .i32 :=
  (broadcastInDim S8x2048 ![] bcast_S_S8x2048) (r_main_call1_v0 a0 a1 a2 a3)
def r_main_call1_v8 (a0 a1 : Arr F S8x64x64x64 .f32) (a2 : Arr F S8x2048 .i32) (a3 : Arr F S8x2x2048 .i32) : Arr F S8x2048 .i32 :=
  Host.remsi a2 (r_main_call1_v7 a0 a1 a2 a3)
def r_main_call1_c (a0 a1 : Arr F S8x64x64x64 .f32) (a2 : Arr F S8x2048 .i32) (a3 : Arr F S8x2x2048 .i32) : Arr F S_ .i32 :=
  constantI S_ 32 0#32
def r_main_call1_v9 (a0 a1 : Arr F S8x64x64x64 .f32) (a2 : Arr F S8x2048 .i32) (a3 : Arr F S8x2x2048 .i32) : Arr F S8x2048 .i32 :=
  (broadcastInDim S8x2048 ![] bcast_S_S8x2048) (r_main_call1_c a0 a1 a2 a3)
def r_main_call1_v10 (a0 a1 : Arr F S8x64x64x64 .f32) (a2 : Arr F S8x2048 .i32) (a3 : Arr F S8x2x2048 .i32) : Arr F S8x2048 .i1 :=
  (cmpi .ne) (r_main_call1_v8 a0 a1 a2 a3) (r_main_call1_v9 a0 a1 a2 a3)
def r_main_call1_v11 (a0 a1 : Arr F S8x64x64x64 .f32) (a2 : Arr F S8x2048 .i32) (a3 : Arr F S8x2x2048 .i32) : Arr F S8x2048 .i1 :=
  andi (r_main_call1_v6 a0 a1 a2 a3) (r_main_call1_v10 a0 a1 a2 a3)
def r_main_call1_c_0 (a0 a1 : Arr F S8x64x64x64 .f32) (a2 : Arr F S8x2048 .i32) (a3 : Arr F S8x2x2048 .i32) : Arr F S_ .i32 :=
  constantI S_ 32 1#32
def r_main_call1_v12 (a0 a1 : Arr F S8x64x64x64 .f32) (a2 : Arr F S8x2048 .i32) (a3 : Arr F S8x2x2048 .i32) : Arr F S8x2048 .i32 :=
  (broadcastInDim S8x2048 ![] bcast_S_S8x2048) (r_main_call1_c_0 a0 a1 a2 a3)
def r_main_call1_v13 (a0 a1 : Arr F S8x64x64x64 .f32) (a2 : Arr F S8x2048 .i32) (a3 : Arr F S8x2x2048 .i32) : Arr F S8x2048 .i32 :=
  subi (r_main_call1_v2 a0 a1 a2 a3) (r_main_call1_v12 a0 a1 a2 a3)
def r_main_v88 (a0 a1 : Arr F S8x64x64x64 .f32) (a2 : Arr F S8x2048 .i32) (a3 : Arr F S8x2x2048 .i32) : Arr F S8x2048 .i32 :=
  select (r_main_call1_v11 a0 a1 a2 a3) (r_main_call1_v13 a0 a1 a2 a3) (r_main_call1_v2 a0 a1 a2 a3)
def r_main_c_21 (a0 a1 : Arr F S8x64x64x64 .f32) (a2 : Arr F S8x2048 .i32) (a3 : Arr F S8x2x2048 .i32) : Arr F S_ .i32 :=
  constantI S_ 32 64#32
def r_main_call2_v0 (a0 a1 : Arr F S8x64x64x64 .f32) (a2 : Arr F S8x2048 .i32) (a3 : Arr F S8x2x2048 .i32) : Arr F S_ .i32 :=
  id (r_main_c_21 a0 a1 a2 a3)
def r_main_call2_c (a0 a1 : Arr F S8x64x64x64 .f32) (a2 : Arr F S8x2048 .i32) (a3 : Arr F S8x2x2048 .i32) : Arr F S_ .i32 :=
  constantI S_ 32 0#32
def r_main_call2_v1 (a0 a1 : Arr F S8x64x64x64 .f32) (a2 : Arr F S8x2048 .i32) (a3 : Arr F S8x2x2048 .i32) : Arr F S_ .i1 :=
  (cmpi .eq) (r_main_call2_v0 a0 a1 a2 a3) (r_main_call2_c a0 a1 a2 a3)
def r_main_call2_c_0 (a0 a1 : Arr F S8x64x64x64 .f32) (a2 : Arr F S8x2048 .i32) (a3 : Arr F S8x2x2048 .i32) : Arr F S_ .i32 :=
  constantI S_ 32 1#32
def r_main_call2_v2 (a0 a1 : Arr F S8x64x64x64 .f32) (a2 : Arr F S8x2048 .i32) (a3 : Arr F S8x2x2048 .i32) : Arr F S_ .i32 :=
  select (r_main_call2_v1 a0 a1 a2 a3) (r_main_call2_c_0 a0 a1 a2 a3) (r_main_call2_v0 a0 a1 a2 a3)
def r_main_call2_v3 (a0 a1 : Arr F S8x64x64x64 .f32) (a2 : Arr F S8x2048 .i32) (a3 : Arr F S8x2x2048 .i32) : Arr F S8x2048 .i32 :=
  (broadcastInDim S8x2048 ![] bcast_S_S8x2048) (r_main_call2_v2 a0 a1 a2 a3)
def r_main_call2_v4 (a0 a1 : Arr F S8x64x64x64 .f32) (a2 : Arr F S8x2048 .i32) (a3 : Arr F S8x2x2048 .i32) : Arr F S8x2048 .i32 :=
  Host.remsi a2 (r_main_call2_v3 a0 a1 a2 a3)
def r_main_call2_c_1 (a0 a1 : Arr F S8x64x64x64 .f32) (a2 : Arr F S8x2048 .i32) (a3 : Arr F S8x2x2048 .i32) : Arr F S_ .i32 :=
  constantI S_ 32 0#32
def r_main_call2_v5 (a0 a1 : Arr F S8x64x64x64 .f32) (a2 : Arr F S8x2048 .i32) (a3 : Arr F S8x2x2048 .i32) : Arr F S8x2048 .i32 :=
  (broadcastInDim S8x2048 ![] bcast_S_S8x2048) (r_main_call2_c_1 a0 a1 a2 a3)
def r_main_call2_v6 (a0 a1 : Arr F S8x64x64x64 .f32) (a2 : Arr F S8x2048 .i32) (a3 : Arr F S8x2x2048 .i32) : Arr F S8x2048 .i1 :=
  (cmpi .ne) (r_main_call2_v4 a0 a1 a2 a3) (r_main_call2_v5 a0 a1 a2 a3)
def r_main_call2_c_2 (a0 a1 : Arr F S8x64x64x64 .f32) (a2 : Arr F S8x2048 .i32) (a3 : Arr F S8x2x2048 .i32) : Arr F S_ .i32 :=
  constantI S_ 32 0#32
def r_main_call2_v7 (a0 a1 : Arr F S8x64x64x64 .f32) (a2 : Arr F S8x2048 .i32) (a3 : Arr F S8x2x2048 .i32) : Arr F S8x2048 .i32 :=
  (broadcastInDim S8x2048 ![] bcast_S_S8x2048) (r_main_call2_c_2 a0 a1 a2 a3)
def r_main_call2_v8 (a0 a1 : Arr F S8x64x64x64 .f32) (a2 : Arr F S8x2048 .i32) (a3 : Arr F S8x2x2048 .i32) : Arr F S8x2048 .i1 :=
  (cmpi .slt) (r_main_call2_v4 a0 a1 a2 a3) (r_main_call2_v7 a0 a1 a2 a3)
def r_main_call2_c_3 (a0 a1 : Arr F S8x64x64x64 .f32) (a2 : Arr F S8x2048 .i32) (a3 : Arr F S8x2x2048 .i32) : Arr F S_ .i32 :=
  constantI S_ 32 0#32
def r_main_call2_v9 (a0 a1 : Arr F S8x64x64x64 .f32) (a2 : Arr F S8x2048 .i32) (a3 : Arr F S8x2x2048 .i32) : Arr F S_ .i1 :=
  (cmpi .slt) (r_main_call2_v2 a0 a1 a2 a3) (r_main_call2_c_3 a0 a1 a2 a3)
def r_main_call2_v10 (a0 a1 : Arr F S8x64x64x64 .f32) (a2 : Arr F S8x2048 .i32) (a3 : Arr F S8x2x2048 .i32) : Arr F S8x2048 .i1 :=
  (broadcastInDim S8x2048 ![] bcast_S_S8x2048) (r_main_call2_v9 a0 a1 a2 a3)
def r_main_call2_v11 (a0 a1 : Arr F S8x64x64x64 .f32) (a2 : Arr F S8x2048 .i32) (a3 : Arr F S8x2x2048 .i32) : Arr F S8x2048 .i1 :=
  (cmpi .ne) (r_main_call2_v8 a0 a1 a2 a3) (r_main_call2_v10 a0 a1 a2 a3)
def r_main_call2_v12 (a0 a1 : Arr F S8x64x64x64 .f32) (a2 : Arr F S8x2048 .i32) (a3 : Arr F S8x2x2048 .i32) : Arr F S8x2048 .i1 :=
  andi (r_main_call2_v11 a0 a1 a2 a3) (r_main_call2_v6 a0 a1 a2 a3)
def r_main_call2_v13 (a0 a1 : Arr F S8x64x64x64 .f32) (a2 : Arr F S8x2048 .i32) (a3 : Arr F S8x2x2048 .i32) : Arr F S8x2048 .i32 :=
  (broadcastInDim S8x2048 ![] bcast_S_S8x2048) (r_main_call2_v2 a0 a1 a2 a3)
def r_main_call2_v14 (a0 a1 : Arr F S8x64x64x64 .f32) (a2 : Arr F S8x2048 .i32) (a3 : Arr F S8x2x2048 .i32) : Arr F S8x2048 .i32 :=
  addi (r_main_call2_v4 a0 a1 a2 a3) (r_main_call2_v13 a0 a1 a2 a3)
def r_main_v89 (a0 a1 : Arr F S8x64x64x64 .f32) (a2 : Arr F S8x2048 .i32) (a3 : Arr F S8x2x2048 .i32) : Arr F S8x2048 .i32 :=
  select (r_main_call2_v12 a0 a1 a2 a3) (r_main_call2_v14 a0 a1 a2 a3) (r_main_call2_v4 a0 a1 a2 a3)
def r_main_v90 (a0 a1 : Arr F S8x64x64x64 .f32) (a2 : Arr F S8x2048 .i32) (a3 : Arr F S8x2x2048 .i32) : Arr F S1x8x2048 .i32 :=
  (broadcastInDim S1x8x2048 ![1, 2] bcast_S8x2048_S1x8x2048_1_2) (r_main_v88 a0 a1 a2 a3)
def r_main_v91 (a0 a1 : Arr F S8x64x64x64 .f32) (a2 : Arr F S8x2048 .i32) (a3 : Arr F S8x2x2048 .i32) : Arr F S1x8x2048 .i32 :=
  (broadcastInDim S1x8x2048 ![1, 2] bcast_S8x2048_S1x8x2048_1_2) (r_main_v89 a0 a1 a2 a3)
def r_main_v92 (a0 a1 : Arr F S8x64x64x64 .f32) (a2 : Arr F S8x2048 .i32) (a3 : Arr F S8x2x2048 .i32) : Arr F S2x8x2048 .i32 :=
  (fun a b => concatenate S2x8x2048 0 [⟨S1x8x2048, a⟩, ⟨S1x8x2048, b⟩] concatenates_S1x8x2048_S1x8x2048_S2x8x2048_d0) (r_main_v90 a0 a1 a2 a3) (r_main_v91 a0 a1 a2 a3)
def r_main_v93 (a0 a1 : Arr F S8x64x64x64 .f32) (a2 : Arr F S8x2048 .i32) (a3 : Arr F S8x2x2048 .i32) : Arr F S2x8x2048 .f32 :=
  (sitofp .f32) (r_main_v92 a0 a1 a2 a3)
def r_main_v94 (a0 a1 : Arr F S8x64x64x64 .f32) (a2 : Arr F S8x2048 .i32) (a3 : Arr F S8x2x2048 .i32) : Arr F S64 .i32 :=
  iotaInDim S64 32 0
def r_main_v95 (a0 a1 : Arr F S8x64x64x64 .f32) (a2 : Arr F S8x2048 .i32) (a3 : Arr F S8x2x2048 .i32) : Arr F S64x64 .i32 :=
  (broadcastInDim S64x64 ![0] bcast_S64_S64x64_0) (r_main_v94 a0 a1 a2 a3)
def r_main_v96 (a0 a1 : Arr F S8x64x64x64 .f32) (a2 : Arr F S8x2048 .i32) (a3 : Arr F S8x2x2048 .i32) : Arr F S4096 .i32 :=
  shapeCast S4096 (r_main_v95 a0 a1 a2 a3) shapeCasts_S64x64_S4096
def r_main_v97 (a0 a1 : Arr F S8x64x64x64 .f32) (a2 : Arr F S8x2048 .i32) (a3 : Arr F S8x2x2048 .i32) : Arr F S64 .i32 :=
  iotaInDim S64 32 0
def r_main_v98 (a0 a1 : Arr F S8x64x64x64 .f32) (a2 : Arr F S8x2048 .i32) (a3 : Arr F S8x2x2048 .i32) : Arr F S1x64 .i32 :=
  shapeCast S1x64 (r_main_v97 a0 a1 a2 a3) shapeCasts_S64_S1x64
def r_main_v99 (a0 a1 : Arr F S8x64x64x64 .f32) (a2 : Arr F S8x2048 .i32) (a3 : Arr F S8x2x2048 .i32) : Arr F S64x64 .i32 :=
  (broadcastInDim S64x64 ![0, 1] bcast_S1x64_S64x64_0_1) (r_main_v98 a0 a1 a2 a3)
def r_main_v100 (a0 a1 : Arr F S8x64x64x64 .f32) (a2 : Arr F S8x2048 .i32) (a3 : Arr F S8x2x2048 .i32) : Arr F S4096 .i32 :=
  shapeCast S4096 (r_main_v99 a0 a1 a2 a3) shapeCasts_S64x64_S4096
def r_main_v101 (a0 a1 : Arr F S8x64x64x64 .f32) (a2 : Arr F S8x2048 .i32) (a3 : Arr F S8x2x2048 .i32) : Arr F S1x4096 .i32 :=
  (broadcastInDim S1x4096 ![1] bcast_S4096_S1x4096_1) (r_main_v96 a0 a1 a2 a3)
def r_main_v102 (a0 a1 : Arr F S8x64x64x64 .f32) (a2 : Arr F S8x2048 .i32) (a3 : Arr F S8x2x2048 .i32) : Arr F S1x4096 .i32 :=
  (broadcastInDim S1x4096 ![1] bcast_S4096_S1x4096_1) (r_main_v100 a0 a1 a2 a3)
def r_main_v103 (a0 a1 : Arr F S8x64x64x64 .f32) (a2 : Arr F S8x2048 .i32) (a3 : Arr F S8x2x2048 .i32) : Arr F S2x4096 .i32 :=
  (fun a b => concatenate S2x4096 0 [⟨S1x4096, a⟩, ⟨S1x4096, b⟩] concatenates_S1x4096_S1x4096_S2x4096_d0) (r_main_v101 a0 a1 a2 a3) (r_main_v102 a0 a1 a2 a3)
def r_main_v104 (a0 a1 : Arr F S8x64x64x64 .f32) (a2 : Arr F S8x2048 .i32) (a3 : Arr F S8x2x2048 .i32) : Arr F S2x4096 .f32 :=
  (sitofp .f32) (r_main_v103 a0 a1 a2 a3)
def r_main_v105 (a0 a1 : Arr F S8x64x64x64 .f32) (a2 : Arr F S8x2048 .i32) (a3 : Arr F S8x2x2048 .i32) : Arr F S8x2x2048 .f32 :=
  (transpose S8x2x2048 [1, 0, 2] · transposes_S2x8x2048_S8x2x2048_1_0_2) (r_main_v93 a0 a1 a2 a3)
def r_main_v106 (a0 a1 : Arr F S8x64x64x64 .f32) (a2 : Arr F S8x2048 .i32) (a3 : Arr F S8x2x2048 .i32) : Arr F S8x2x2048x1 .f32 :=
  (broadcastInDim S8x2x2048x1 ![0, 1, 2] bcast_S8x2x2048_S8x2x2048x1_0_1_2) (r_main_v105 a0 a1 a2 a3)
def r_main_v107 (a0 a1 : Arr F S8x64x64x64 .f32) (a2 : Arr F S8x2048 .i32) (a3 : Arr F S8x2x2048 .i32) : Arr F S2x1x4096 .f32 :=
  (broadcastInDim S2x1x4096 ![0, 2] bcast_S2x4096_S2x1x4096_0_2) (r_main_v104 a0 a1 a2 a3)
def r_main_v108 (a0 a1 : Arr F S8x64x64x64 .f32) (a2 : Arr F S8x2048 .i32) (a3 : Arr F S8x2x2048 .i32) : Arr F S1x2x1x4096 .f32 :=
  (broadcastInDim S1x2x1x4096 ![1, 2, 3] bcast_S2x1x4096_S1x2x1x4096_1_2_3) (r_main_v107 a0 a1 a2 a3)
def r_main_v109 (a0 a1 : Arr F S8x64x64x64 .f32) (a2 : Arr F S8x2048 .i32) (a3 : Arr F S8x2x2048 .i32) : Arr F S8x2x2048x4096 .f32 :=
  (broadcastInDim S8x2x2048x4096 ![0, 1, 2, 3] bcast_S8x2x2048x1_S8x2x2048x4096_0_1_2_3) (r_main_v106 a0 a1 a2 a3)
def r_main_v110 (a0 a1 : Arr F S8x64x64x64 .f32) (a2 : Arr F S8x2048 .i32) (a3 : Arr F S8x2x2048 .i32) : Arr F S8x2x2048x4096 .f32 :=
  (broadcastInDim S8x2x2048x4096 ![0, 1, 2, 3] bcast_S1x2x1x4096_S8x2x2048x4096_0_1_2_3) (r_main_v108 a0 a1 a2 a3)
def r_main_v111 (a0 a1 : Arr F S8x64x64x64 .f32) (a2 : Arr F S8x2048 .i32) (a3 : Arr F S8x2x2048 .i32) : Arr F S8x2x2048x4096 .f32 :=
  subf (r_main_v109 a0 a1 a2 a3) (r_main_v110 a0 a1 a2 a3)
def r_main_v112 (a0 a1 : Arr F S8x64x64x64 .f32) (a2 : Arr F S8x2048 .i32) (a3 : Arr F S8x2x2048 .i32) : Arr F S8x2x2048x4096 .f32 :=
  Host.absf (r_main_v111 a0 a1 a2 a3)
def r_main_cst_22 (a0 a1 : Arr F S8x64x64x64 .f32) (a2 : Arr F S8x2048 .i32) (a3 : Arr F S8x2x2048 .i32) : Arr F S_ .f32 :=
  constant S_ .f32 0xFF800000#32
def r_main_v113 (a0 a1 : Arr F S8x64x64x64 .f32) (a2 : Arr F S8x2048 .i32) (a3 : Arr F S8x2x2048 .i32) : Arr F S8x2048x4096 .f32 :=
  (fun x v => Host.reduce FloatOps.maximumf x v reducesTo_S8x2x2048x4096_S8x2048x4096_d1 h_S_) (r_main_v112 a0 a1 a2 a3) (r_main_cst_22 a0 a1 a2 a3)
def r_main_v114 (a0 a1 : Arr F S8x64x64x64 .f32) (a2 : Arr F S8x2048 .i32) (a3 : Arr F S8x2x2048 .i32) : Arr F S8x2048x4096 .f32 :=
  (fun l r => Host.dotGeneral dot_S8x64x2048_S8x64x4096_S8x2048x4096_1_1_2_2_0_0 none l r) (r_main_v50 a0 a1 a2 a3) (r_main_v8 a0 a1 a2 a3)
def r_main_cst_23 (a0 a1 : Arr F S8x64x64x64 .f32) (a2 : Arr F S8x2048 .i32) (a3 : Arr F S8x2x2048 .i32) : Arr F S_ .f32 :=
  constant S_ .f32 0x40000000#32
def r_main_v115 (a0 a1 : Arr F S8x64x64x64 .f32) (a2 : Arr F S8x2048 .i32) (a3 : Arr F S8x2x2048 .i32) : Arr F S8x2048x4096 .f32 :=
  (broadcastInDim S8x2048x4096 ![] bcast_S_S8x2048x4096) (r_main_cst_23 a0 a1 a2 a3)
def r_main_v116 (a0 a1 : Arr F S8x64x64x64 .f32) (a2 : Arr F S8x2048 .i32) (a3 : Arr F S8x2x2048 .i32) : Arr F S8x2048x4096 .f32 :=
  mulf (r_main_v115 a0 a1 a2 a3) (r_main_v114 a0 a1 a2 a3)
def r_main_cst_24 (a0 a1 : Arr F S8x64x64x64 .f32) (a2 : Arr F S8x2048 .i32) (a3 : Arr F S8x2x2048 .i32) : Arr F S_ .f32 :=
  constant S_ .f32 0x40000000#32
def r_main_v117 (a0 a1 : Arr F S8x64x64x64 .f32) (a2 : Arr F S8x2048 .i32) (a3 : Arr F S8x2x2048 .i32) : Arr F S8x2048x4096 .f32 :=
  (broadcastInDim S8x2048x4096 ![] bcast_S_S8x2048x4096) (r_main_cst_24 a0 a1 a2 a3)
def r_main_v118 (a0 a1 : Arr F S8x64x64x64 .f32) (a2 : Arr F S8x2048 .i32) (a3 : Arr F S8x2x2048 .i32) : Arr F S8x2048x4096 .f32 :=
  subf (r_main_v117 a0 a1 a2 a3) (r_main_v116 a0 a1 a2 a3)
def r_main_cst_25 (a0 a1 : Arr F S8x64x64x64 .f32) (a2 : Arr F S8x2048 .i32) (a3 : Arr F S8x2x2048 .i32) : Arr F S_ .f32 :=
  constant S_ .f32 0x40800000#32
def r_main_v119 (a0 a1 : Arr F S8x64x64x64 .f32) (a2 : Arr F S8x2048 .i32) (a3 : Arr F S8x2x2048 .i32) : Arr F S8x2048x4096 .f32 :=
  (broadcastInDim S8x2048x4096 ![] bcast_S_S8x2048x4096) (r_main_cst_25 a0 a1 a2 a3)
def r_main_v120 (a0 a1 : Arr F S8x64x64x64 .f32) (a2 : Arr F S8x2048 .i32) (a3 : Arr F S8x2x2048 .i32) : Arr F S8x2048x4096 .i1 :=
  (cmpf .ogt) (r_main_v113 a0 a1 a2 a3) (r_main_v119 a0 a1 a2 a3)
def r_main_cst_26 (a0 a1 : Arr F S8x64x64x64 .f32) (a2 : Arr F S8x2048 .i32) (a3 : Arr F S8x2x2048 .i32) : Arr F S_ .f32 :=
  constant S_ .f32 0x00000000#32
def r_main_cst_27 (a0 a1 : Arr F S8x64x64x64 .f32) (a2 : Arr F S8x2048 .i32) (a3 : Arr F S8x2x2048 .i32) : Arr F S_ .f32 :=
  constant S_ .f32 0x41200000#32
def r_main_call3_v0 (a0 a1 : Arr F S8x64x64x64 .f32) (a2 : Arr F S8x2048 .i32) (a3 : Arr F S8x2x2048 .i32) : Arr F S2048x4096 .f32 :=
  (broadcastInDim S2048x4096 ![] bcast_S_S2048x4096) (r_main_cst_26 a0 a1 a2 a3)
def r_main_call3_v1 (a0 a1 : Arr F S8x64x64x64 .f32) (a2 : Arr F S8x2048 .i32) (a3 : Arr F S8x2x2048 .i32) : Arr F S2048x4096 .f32 :=
  (broadcastInDim S2048x4096 ![] bcast_S_S2048x4096) (r_main_cst_27 a0 a1 a2 a3)
def r_main_call3_v2 (a0 a1 : Arr F S8x64x64x64 .f32) (a2 : Arr F S8x2048 .i32) (a3 : Arr F S8x2x2048 .i32) : Arr F S8x2048x4096 .f32 :=
  (broadcastInDim S8x2048x4096 ![1, 2] bcast_S2048x4096_S8x2048x4096_1_2) (r_main_call3_v1 a0 a1 a2 a3)
def r_main_call3_v3 (a0 a1 : Arr F S8x64x64x64 .f32) (a2 : Arr F S8x2048 .i32) (a3 : Arr F S8x2x2048 .i32) : Arr F S8x2048x4096 .f32 :=
  (broadcastInDim S8x2048x4096 ![1, 2] bcast_S2048x4096_S8x2048x4096_1_2) (r_main_call3_v0 a0 a1 a2 a3)
def r_main_v121 (a0 a1 : Arr F S8x64x64x64 .f32) (a2 : Arr F S8x2048 .i32) (a3 : Arr F S8x2x2048 .i32) : Arr F S8x2048x4096 .f32 :=
  select (r_main_v120 a0 a1 a2 a3) (r_main_call3_v3 a0 a1 a2 a3) (r_main_call3_v2 a0 a1 a2 a3)
def r_main_v122 (a0 a1 : Arr F S8x64x64x64 .f32) (a2 : Arr F S8x2048 .i32) (a3 : Arr F S8x2x2048 .i32) : Arr F S8x2048x4096 .f32 :=
  id (r_main_v121 a0 a1 a2 a3)
def r_main_v123 (a0 a1 : Arr F S8x64x64x64 .f32) (a2 : Arr F S8x2048 .i32) (a3 : Arr F S8x2x2048 .i32) : Arr F S8x2048x4096 .f32 :=
  addf (r_main_v118 a0 a1 a2 a3) (r_main_v122 a0 a1 a2 a3)
def r_main_cst_28 (a0 a1 : Arr F S8x64x64x64 .f32) (a2 : Arr F S8x2048 .i32) (a3 : Arr F S8x2x2048 .i32) : Arr F S_ .f32 :=
  constant S_ .f32 0x7F800000#32
def r_main_v124 (a0 a1 : Arr F S8x64x64x64 .f32) (a2 : Arr F S8x2048 .i32) (a3 : Arr F S8x2x2048 .i32) : Arr F S8x2048 .f32 :=
  (fun x v => Host.reduce FloatOps.minimumf x v reducesTo_S8x2048x4096_S8x2048_d2 h_S_) (r_main_v123 a0 a1 a2 a3) (r_main_cst_28 a0 a1 a2 a3)
def r_main_v125 (a0 a1 : Arr F S8x64x64x64 .f32) (a2 : Arr F S8x2048 .i32) (a3 : Arr F S8x2x2048 .i32) : Arr F S8x2048 .f32 :=
  minimumf (r_main_v124 a0 a1 a2 a3) (r_main_v87 a0 a1 a2 a3)
def r_main_v126 (a0 a1 : Arr F S8x64x64x64 .f32) (a2 : Arr F S8x2048 .i32) (a3 : Arr F S8x2x2048 .i32) : Arr F S8x2048 .f32 :=
  subf (r_main_v56 a0 a1 a2 a3) (r_main_v125 a0 a1 a2 a3)
def r_main_cst_29 (a0 a1 : Arr F S8x64x64x64 .f32) (a2 : Arr F S8x2048 .i32) (a3 : Arr F S8x2x2048 .i32) : Arr F S_ .f32 :=
  constant S_ .f32 0x3F800000#32
def r_main_v127 (a0 a1 : Arr F S8x64x64x64 .f32) (a2 : Arr F S8x2048 .i32) (a3 : Arr F S8x2x2048 .i32) : Arr F S8x2048 .f32 :=
  (broadcastInDim S8x2048 ![] bcast_S_S8x2048) (r_main_cst_29 a0 a1 a2 a3)
def r_main_v128 (a0 a1 : Arr F S8x64x64x64 .f32) (a2 : Arr F S8x2048 .i32) (a3 : Arr F S8x2x2048 .i32) : Arr F S8x2048 .f32 :=
  addf (r_main_v127 a0 a1 a2 a3) (r_main_v126 a0 a1 a2 a3)
def r_main_call4_cst (a0 a1 : Arr F S8x64x64x64 .f32) (a2 : Arr F S8x2048 .i32) (a3 : Arr F S8x2x2048 .i32) : Arr F S_ .f32 :=
  constant S_ .f32 0x00000000#32
def r_main_call4_v0 (a0 a1 : Arr F S8x64x64x64 .f32) (a2 : Arr F S8x2048 .i32) (a3 : Arr F S8x2x2048 .i32) : Arr F S8x2048 .f32 :=
  (broadcastInDim S8x2048 ![] bcast_S_S8x2048) (r_main_call4_cst a0 a1 a2 a3)
def r_main_v129 (a0 a1 : Arr F S8x64x64x64 .f32) (a2 : Arr F S8x2048 .i32) (a3 : Arr F S8x2x2048 .i32) : Arr F S8x2048 .f32 :=
  maximumf (r_main_v128 a0 a1 a2 a3) (r_main_call4_v0 a0 a1 a2 a3)
def r_main_cst_30 (a0 a1 : Arr F S8x64x64x64 .f32) (a2 : Arr F S8x2048 .i32) (a3 : Arr F S8x2x2048 .i32) : Arr F S_ .f32 :=
  constant S_ .f32 0x00000000#32
def r_main_v130 (a0 a1 : Arr F S8x64x64x64 .f32) (a2 : Arr F S8x2048 .i32) (a3 : Arr F S8x2x2048 .i32) : Arr F S8 .f32 :=
  (fun x v => Host.reduceAdd x v reducesTo_S8x2048_S8_d1 h_S_) (r_main_v129 a0 a1 a2 a3) (r_main_cst_30 a0 a1 a2 a3)
def r_main_cst_31 (a0 a1 : Arr F S8x64x64x64 .f32) (a2 : Arr F S8x2048 .i32) (a3 : Arr F S8x2x2048 .i32) : Arr F S_ .f32 :=
  constant S_ .f32 0x45000000#32
def r_main_v131 (a0 a1 : Arr F S8x64x64x64 .f32) (a2 : Arr F S8x2048 .i32) (a3 : Arr F S8x2x2048 .i32) : Arr F S8 .f32 :=
  (broadcastInDim S8 ![] bcast_S_S8) (r_main_cst_31 a0 a1 a2 a3)
def r_main_v132 (a0 a1 : Arr F S8x64x64x64 .f32) (a2 : Arr F S8x2048 .i32) (a3 : Arr F S8x2x2048 .i32) : Arr F S8 .f32 :=
  Host.divf (r_main_v130 a0 a1 a2 a3) (r_main_v131 a0 a1 a2 a3)
def r_main_cst_32 (a0 a1 : Arr F S8x64x64x64 .f32) (a2 : Arr F S8x2048 .i32) (a3 : Arr F S8x2x2048 .i32) : Arr F S_ .f32 :=
  constant S_ .f32 0x00000000#32
def r_main_v133 (a0 a1 : Arr F S8x64x64x64 .f32) (a2 : Arr F S8x2048 .i32) (a3 : Arr F S8x2x2048 .i32) : Arr F S_ .f32 :=
  (fun x v => Host.reduceAdd x v reducesTo_S8_S_d0 h_S_) (r_main_v132 a0 a1 a2 a3) (r_main_cst_32 a0 a1 a2 a3)
def r_main_cst_33 (a0 a1 : Arr F S8x64x64x64 .f32) (a2 : Arr F S8x2048 .i32) (a3 : Arr F S8x2x2048 .i32) : Arr F S_ .f32 :=
  constant S_ .f32 0x41000000#32
def r_main_v134 (a0 a1 : Arr F S8x64x64x64 .f32) (a2 : Arr F S8x2048 .i32) (a3 : Arr F S8x2x2048 .i32) : Arr F S_ .f32 :=
  Host.divf (r_main_v133 a0 a1 a2 a3) (r_main_cst_33 a0 a1 a2 a3)

end Cert.ReferenceIdeal.Stages

end
-- ==== Proof.RefNegMath.lean ====
import proofs.«417968_j21749714387505_1_alg».proof.Proof.Gen.ReferenceIdeal
import proofs.«417968_j21749714387505_1_alg».proof.Proof.RStages
import proofs.«417968_j21749714387505_1_alg».proof.Proof.SpecDefs
import Idealize.ShloMosaic.Lib.ValueIdx
import Idealize.ShloMosaic.Lib.Pipeline.Value
import Idealize.ShloMosaic.Lib.IdealHost
import Idealize.ShloMosaic.PureOps.Ideal.Laws
import Mathlib.Order.CompleteLattice.Finset

noncomputable section

namespace Cert.ReferenceIdeal.NegMath

open Idealize.ShloMosaic Idealize.ShloMosaic.TcCoe Idealize.ShloMosaic.ValueIdx Cert.Spec Cert.ReferenceIdeal Cert.ReferenceIdeal.Stages
open Facts₀ Facts

section Generic
variable {F : FTy → Type} [FloatOps F] [Facts]

def chebOf (P : FVec F S8x2x2048x1 .f32) (G : FVec F S2x4096 .f32) : FVec F S8x2048x4096 .f32 :=
  (fun x v => Host.reduce FloatOps.maximumf x v reducesTo_S8x2x2048x4096_S8x2048x4096_d1 h_S_)
    (Host.absf (subf
      ((broadcastInDim S8x2x2048x4096 ![0, 1, 2, 3] bcast_S8x2x2048x1_S8x2x2048x4096_0_1_2_3) P)
      ((broadcastInDim S8x2x2048x4096 ![0, 1, 2, 3] bcast_S1x2x1x4096_S8x2x2048x4096_0_1_2_3)
        ((broadcastInDim S1x2x1x4096 ![1, 2, 3] bcast_S2x1x4096_S1x2x1x4096_1_2_3)
          ((broadcastInDim S2x1x4096 ![0, 2] bcast_S2x4096_S2x1x4096_0_2) G)))))
    (constant S_ .f32 0xFF800000#32)

def maskArr (pd : FVec F S8x2048x4096 .f32) : FVec F S8x2048x4096 .f32 :=
  select ((cmpf .ogt) pd ((broadcastInDim S8x2048x4096 ![] bcast_S_S8x2048x4096) (constant S_ .f32 0x40800000#32)))
    ((broadcastInDim S8x2048x4096 ![1, 2] bcast_S2048x4096_S8x2048x4096_1_2)
      ((broadcastInDim S2048x4096 ![] bcast_S_S2048x4096) (constant S_ .f32 0x00000000#32)))
    ((broadcastInDim S8x2048x4096 ![1, 2] bcast_S2048x4096_S8x2048x4096_1_2)
      ((broadcastInDim S2048x4096 ![] bcast_S_S2048x4096) (constant S_ .f32 0x41200000#32)))

def distArr (A : FVec F S8x64x2048 .f32) (D : FVec F S8x64x4096 .f32) : FVec F S8x2048x4096 .f32 :=
  subf ((broadcastInDim S8x2048x4096 ![] bcast_S_S8x2048x4096) (constant S_ .f32 0x40000000#32))
    (mulf ((broadcastInDim S8x2048x4096 ![] bcast_S_S8x2048x4096) (constant S_ .f32 0x40000000#32))
      ((fun l r => Host.dotGeneral dot_S8x64x2048_S8x64x4096_S8x2048x4096_1_1_2_2_0_0 none l r) A D))

def negOf (A : FVec F S8x64x2048 .f32) (D : FVec F S8x64x4096 .f32) (P : FVec F S8x2x2048x1 .f32)
    (G : FVec F S2x4096 .f32) : FVec F S8x2048 .f32 :=
  (fun x v => Host.reduce FloatOps.minimumf x v reducesTo_S8x2048x4096_S8x2048_d2 h_S_)
    (addf (distArr A D) (maskArr (chebOf P G)))
    (constant S_ .f32 0x7F800000#32)

theorem v87_eq_negOf (a0 : (⟨S8x64x64x64, .f32⟩ : BufTy).Contents (Elt F)) (a1 : (⟨S8x64x64x64, .f32⟩ : BufTy).Contents (Elt F))
    (a2 : (⟨S8x2048, .i32⟩ : BufTy).Contents (Elt F)) (a3 : (⟨S8x2x2048, .i32⟩ : BufTy).Contents (Elt F)) :
    r_main_v87 a0 a1 a2 a3
      = negOf (r_main_v24 a0 a1 a2 a3) (r_main_v17 a0 a1 a2 a3) (r_main_v69 a0 a1 a2 a3) (r_main_v67 a0 a1 a2 a3) := rfl

theorem v124_eq_negOf (a0 : (⟨S8x64x64x64, .f32⟩ : BufTy).Contents (Elt F)) (a1 : (⟨S8x64x64x64, .f32⟩ : BufTy).Contents (Elt F))
    (a2 : (⟨S8x2048, .i32⟩ : BufTy).Contents (Elt F)) (a3 : (⟨S8x2x2048, .i32⟩ : BufTy).Contents (Elt F)) :
    r_main_v124 a0 a1 a2 a3
      = negOf (r_main_v50 a0 a1 a2 a3) (r_main_v8 a0 a1 a2 a3) (r_main_v106 a0 a1 a2 a3) (r_main_v104 a0 a1 a2 a3) := rfl

end Generic

section AtIdeal
variable [Facts]

def eabs (x : EReal) : EReal := max x (-x)

theorem eabs_def (x : EReal) : eabs x = max x (-x) := rfl

theorem ofBits_neg_inf : Ideal.ofBits .f32 0xFF800000#32 = (⊥ : EReal) := by simp [Ideal.ofBits, Ideal.ieee]
theorem ofBits_pos_inf : Ideal.ofBits .f32 0x7F800000#32 = (⊤ : EReal) := by simp [Ideal.ofBits, Ideal.ieee]

theorem fold_min_top_eq_iInf {ι : Type} [Fintype ι] (f : ι → EReal) :
    (Finset.univ : Finset ι).fold min ⊤ f = ⨅ i, f i :=
  eq_of_forall_le_iff fun c => by
    rw [Finset.le_fold_min, le_iInf_iff]
    simp

theorem fold_max_bot_two (f : Fin 2 → EReal) : (Finset.univ : Finset (Fin 2)).fold max ⊥ f = max (f 0) (f 1) :=
  eq_of_forall_ge_iff fun c => by
    rw [Finset.fold_max_le, max_le_iff]
    simp [Fin.forall_fin_two]

theorem bcP_apply {α : Type} (P : S8x2x2048x1.Idx → α) (b : Fin 8) (j : Fin 2) (n : Fin 2048) (m : Fin 4096) :
    (broadcastInDim S8x2x2048x4096 ![0, 1, 2, 3] bcast_S8x2x2048x1_S8x2x2048x4096_0_1_2_3) P (ix4 b j n m)
      = P (ix4 b j n 0) :=
  broadcastInDim_apply _ _ P _ (ix4 b j n (0 : Fin 1)) (fun a => by
    match a with
    | ⟨0, _⟩ => rfl
    | ⟨1, _⟩ => rfl
    | ⟨2, _⟩ => rfl
    | ⟨3, _⟩ => rfl)

theorem bcG_apply {α : Type} (G : S2x4096.Idx → α) (b : Fin 8) (j : Fin 2) (n : Fin 2048) (m : Fin 4096) :
    (broadcastInDim S8x2x2048x4096 ![0, 1, 2, 3] bcast_S1x2x1x4096_S8x2x2048x4096_0_1_2_3)
      ((broadcastInDim S1x2x1x4096 ![1, 2, 3] bcast_S2x1x4096_S1x2x1x4096_1_2_3)
        ((broadcastInDim S2x1x4096 ![0, 2] bcast_S2x4096_S2x1x4096_0_2) G)) (ix4 b j n m)
      = G (ix2 j m) := by
  refine (broadcastInDim_apply _ _ _ _ (ix4 (0 : Fin 1) j (0 : Fin 1) m) (fun a => by
    match a with
    | ⟨0, _⟩ => rfl
    | ⟨1, _⟩ => rfl
    | ⟨2, _⟩ => rfl
    | ⟨3, _⟩ => rfl)).trans ?_
  refine (broadcastInDim_apply _ _ _ _ (ix3 j (0 : Fin 1) m) (fun a => by
    match a with
    | ⟨0, _⟩ => rfl
    | ⟨1, _⟩ => rfl
    | ⟨2, _⟩ => rfl)).trans ?_
  exact broadcastInDim_apply _ _ _ _ (ix2 j m) (fun a => by
    match a with
    | ⟨0, _⟩ => rfl
    | ⟨1, _⟩ => rfl)

theorem reduce_max_coord (X : FVec Ideal S8x2x2048x4096 .f32) (b : Fin 8) (n : Fin 2048) (m : Fin 4096) :
    Host.reduce FloatOps.maximumf X (constant (F := Ideal) S_ .f32 0xFF800000#32)
        reducesTo_S8x2x2048x4096_S8x2048x4096_d1 h_S_ (ix3 b n m)
      = max (X (ix4 b 0 n m)) (X (ix4 b 1 n m)) := by
  have hr : S8x2x2048x4096.Reduces [1] S8x2048x4096 := by decide
  refine (Host.reduce_eq_fold_single FloatOps.maximumf X _ reducesTo_S8x2x2048x4096_S8x2048x4096_d1 hr h_S_ (ix3 b n m)).trans ?_
  have hl : ∀ k : Fin 2, hr.lift (ix3 b n m) k = ix4 b k n m := fun k => funext fun c => Fin.ext (by
    match c with
    | ⟨0, _⟩ => rfl
    | ⟨1, _⟩ => rfl
    | ⟨2, _⟩ => rfl
    | ⟨3, _⟩ => rfl)
  have hf : (X ∘ hr.lift (ix3 b n m)) = fun k : Fin 2 => X (ix4 b k n m) := funext fun k => congrArg X (hl k)
  show (Finset.univ : Finset (Fin 2)).fold max (Ideal.ofBits .f32 0xFF800000#32) (X ∘ hr.lift (ix3 b n m)) = _
  rw [hf, ofBits_neg_inf]
  exact fold_max_bot_two _

theorem reduce_min_pos (X : FVec Ideal S8x2048x4096 .f32) (b : Fin 8) (n : Fin 2048) :
    Host.reduce FloatOps.minimumf X (constant (F := Ideal) S_ .f32 0x7F800000#32)
        reducesTo_S8x2048x4096_S8x2048_d2 h_S_ (ix2 b n)
      = ⨅ m : Fin 4096, X (ix3 b n m) := by
  have hr : S8x2048x4096.Reduces [2] S8x2048 := by decide
  refine (Host.reduce_eq_fold_single FloatOps.minimumf X _ reducesTo_S8x2048x4096_S8x2048_d2 hr h_S_ (ix2 b n)).trans ?_
  have hl : ∀ k : Fin 4096, hr.lift (ix2 b n) k = ix3 b n k := fun k => funext fun c => Fin.ext (by
    match c with
    | ⟨0, _⟩ => rfl
    | ⟨1, _⟩ => rfl
    | ⟨2, _⟩ => rfl)
  have hf : (X ∘ hr.lift (ix2 b n)) = fun k : Fin 4096 => X (ix3 b n k) := funext fun k => congrArg X (hl k)
  show (Finset.univ : Finset (Fin 4096)).fold min (Ideal.ofBits .f32 0x7F800000#32) (X ∘ hr.lift (ix2 b n)) = _
  rw [hf, ofBits_pos_inf]
  exact fold_min_top_eq_iInf _

theorem dot_apply (A : FVec Ideal S8x64x2048 .f32) (D : FVec Ideal S8x64x4096 .f32) (b : Fin 8) (n : Fin 2048) (m : Fin 4096) :
    Host.dotGeneral dot_S8x64x2048_S8x64x4096_S8x2048x4096_1_1_2_2_0_0 none A D (ix3 b n m) = ∑ c : Fin 64, A (ix3 b c n) * D (ix3 b c m) := by
  show FloatOps.dotGeneral _ none _ A D (ix3 b n m) = _
  rw [Ideal.dotGeneral_apply, ← Equiv.sum_comp (contrEquiv1 dot_S8x64x2048_S8x64x4096_S8x2048x4096_1_1_2_2_0_0 64 rfl rfl).symm]
  refine Finset.sum_congr rfl fun c _ => ?_
  have c3 := contrEquiv1_symm_val dot_S8x64x2048_S8x64x4096_S8x2048x4096_1_1_2_2_0_0 64 rfl rfl c
  have l3 : (dot_S8x64x2048_S8x64x4096_S8x2048x4096_1_1_2_2_0_0).lhsIdx (ix3 b n m) ((contrEquiv1 _ 64 rfl rfl).symm c) = ix3 b c n := by
    funext ax; apply Fin.ext
    match ax with
    | ⟨0, _⟩ => simp [DotDims.lhsIdx, dot_S8x64x2048_S8x64x4096_S8x2048x4096_1_1_2_2_0_0]; rfl
    | ⟨1, _⟩ => simp [DotDims.lhsIdx, dot_S8x64x2048_S8x64x4096_S8x2048x4096_1_1_2_2_0_0]; exact c3
    | ⟨2, _⟩ => simp [DotDims.lhsIdx, dot_S8x64x2048_S8x64x4096_S8x2048x4096_1_1_2_2_0_0]; rfl
  have r3 : (dot_S8x64x2048_S8x64x4096_S8x2048x4096_1_1_2_2_0_0).rhsIdx (ix3 b n m) ((contrEquiv1 _ 64 rfl rfl).symm c) = ix3 b c m := by
    funext ax; apply Fin.ext
    match ax with
    | ⟨0, _⟩ => simp [DotDims.rhsIdx, dot_S8x64x2048_S8x64x4096_S8x2048x4096_1_1_2_2_0_0]; rfl
    | ⟨1, _⟩ => simp [DotDims.rhsIdx, dot_S8x64x2048_S8x64x4096_S8x2048x4096_1_1_2_2_0_0]; exact c3
    | ⟨2, _⟩ => simp [DotDims.rhsIdx, dot_S8x64x2048_S8x64x4096_S8x2048x4096_1_1_2_2_0_0]; rfl
  rw [l3, r3]

end AtIdeal

section Reading
variable [Facts]

theorem chebOf_apply (P : FVec Ideal S8x2x2048x1 .f32) (G : FVec Ideal S2x4096 .f32) (b : Fin 8) (n : Fin 2048) (m : Fin 4096) :
    chebOf P G (ix3 b n m)
      = max (eabs (P (ix4 b 0 n 0) - G (ix2 0 m))) (eabs (P (ix4 b 1 n 0) - G (ix2 1 m))) := by
  unfold chebOf
  refine (reduce_max_coord _ b n m).trans ?_
  have e : ∀ j : Fin 2,
      Host.absf (subf
        ((broadcastInDim S8x2x2048x4096 ![0, 1, 2, 3] bcast_S8x2x2048x1_S8x2x2048x4096_0_1_2_3) P)
        ((broadcastInDim S8x2x2048x4096 ![0, 1, 2, 3] bcast_S1x2x1x4096_S8x2x2048x4096_0_1_2_3)
          ((broadcastInDim S1x2x1x4096 ![1, 2, 3] bcast_S2x1x4096_S1x2x1x4096_1_2_3)
            ((broadcastInDim S2x1x4096 ![0, 2] bcast_S2x4096_S2x1x4096_0_2) G)))) (ix4 b j n m)
        = eabs (P (ix4 b j n 0) - G (ix2 j m)) := fun j => by
    show eabs (_ - _) = _
    rw [bcP_apply P b j n m, bcG_apply G b j n m]
  rw [e 0, e 1]

theorem maskArr_apply (pd : FVec Ideal S8x2048x4096 .f32) (j : S8x2048x4096.Idx) : maskArr pd j = maskOf (pd j) := by
  show Scalar.select (Ideal.cmp .ogt (pd j) radius) zero penalty = _
  unfold Scalar.select Ideal.cmp maskOf
  by_cases h : radius < pd j
  · simp [h]
  · simp [h]

theorem distArr_apply (A : FVec Ideal S8x64x2048 .f32) (D : FVec Ideal S8x64x4096 .f32) (b : Fin 8) (n : Fin 2048) (m : Fin 4096) :
    distArr A D (ix3 b n m) = two - two * ∑ c : Fin 64, A (ix3 b c n) * D (ix3 b c m) := by
  show two - two * Host.dotGeneral dot_S8x64x2048_S8x64x4096_S8x2048x4096_1_1_2_2_0_0 none A D (ix3 b n m) = _
  rw [dot_apply]

-- The reference's hardest negative of anchor n: the infimum over the database columns of distance plus radius mask.
theorem negOf_apply (A : FVec Ideal S8x64x2048 .f32) (D : FVec Ideal S8x64x4096 .f32) (P : FVec Ideal S8x2x2048x1 .f32)
    (G : FVec Ideal S2x4096 .f32) (b : Fin 8) (n : Fin 2048) :
    negOf A D P G (ix2 b n)
      = ⨅ m : Fin 4096, valOf (∑ c : Fin 64, A (ix3 b c n) * D (ix3 b c m))
          (eabs (P (ix4 b 0 n 0) - G (ix2 0 m))) (eabs (P (ix4 b 1 n 0) - G (ix2 1 m))) := by
  unfold negOf
  refine (reduce_min_pos _ b n).trans ?_
  refine iInf_congr fun m => ?_
  refine (addf_apply _ _ _).trans ?_
  refine congrArg₂ (· + ·) (distArr_apply A D b n m) ?_
  exact (maskArr_apply (chebOf P G) (ix3 b n m)).trans (congrArg maskOf (chebOf_apply P G b n m))

theorem v87_apply (a0 : (⟨S8x64x64x64, .f32⟩ : BufTy).Contents (Elt Ideal)) (a1 : (⟨S8x64x64x64, .f32⟩ : BufTy).Contents (Elt Ideal))
    (a2 : (⟨S8x2048, .i32⟩ : BufTy).Contents (Elt Ideal)) (a3 : (⟨S8x2x2048, .i32⟩ : BufTy).Contents (Elt Ideal))
    (b : Fin 8) (n : Fin 2048) :
    r_main_v87 (F := Ideal) a0 a1 a2 a3 (ix2 b n)
      = ⨅ m : Fin 4096, valOf
          (∑ c : Fin 64, r_main_v24 (F := Ideal) a0 a1 a2 a3 (ix3 b c n) * r_main_v17 (F := Ideal) a0 a1 a2 a3 (ix3 b c m))
          (eabs (r_main_v69 (F := Ideal) a0 a1 a2 a3 (ix4 b 0 n 0) - r_main_v67 (F := Ideal) a0 a1 a2 a3 (ix2 0 m)))
          (eabs (r_main_v69 (F := Ideal) a0 a1 a2 a3 (ix4 b 1 n 0) - r_main_v67 (F := Ideal) a0 a1 a2 a3 (ix2 1 m))) :=
  (congrFun (v87_eq_negOf a0 a1 a2 a3) (ix2 b n)).trans (negOf_apply _ _ _ _ b n)

theorem v124_apply (a0 : (⟨S8x64x64x64, .f32⟩ : BufTy).Contents (Elt Ideal)) (a1 : (⟨S8x64x64x64, .f32⟩ : BufTy).Contents (Elt Ideal))
    (a2 : (⟨S8x2048, .i32⟩ : BufTy).Contents (Elt Ideal)) (a3 : (⟨S8x2x2048, .i32⟩ : BufTy).Contents (Elt Ideal))
    (b : Fin 8) (n : Fin 2048) :
    r_main_v124 (F := Ideal) a0 a1 a2 a3 (ix2 b n)
      = ⨅ m : Fin 4096, valOf
          (∑ c : Fin 64, r_main_v50 (F := Ideal) a0 a1 a2 a3 (ix3 b c n) * r_main_v8 (F := Ideal) a0 a1 a2 a3 (ix3 b c m))
          (eabs (r_main_v106 (F := Ideal) a0 a1 a2 a3 (ix4 b 0 n 0) - r_main_v104 (F := Ideal) a0 a1 a2 a3 (ix2 0 m)))
          (eabs (r_main_v106 (F := Ideal) a0 a1 a2 a3 (ix4 b 1 n 0) - r_main_v104 (F := Ideal) a0 a1 a2 a3 (ix2 1 m))) :=
  (congrFun (v124_eq_negOf a0 a1 a2 a3) (ix2 b n)).trans (negOf_apply _ _ _ _ b n)

end Reading

end Cert.ReferenceIdeal.NegMath

end
-- ==== Proof.LibAllOnes.lean ====
import Idealize.ShloMosaic.Lib.ReduceAll
import Idealize.ShloMosaic.PureOps.Reduce

namespace Idealize.ShloMosaic.AllOnes

open Idealize.ShloMosaic

theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a]
    have : IntOp.andi 1#1 1#1 = 1#1 := by decide
    rw [this]
    exact foldl_andi_ones f hf l

theorem reduce_andi_of_all {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl, hinit]
  exact foldl_andi_ones x hx _

end Idealize.ShloMosaic.AllOnes
-- ==== Proof.LibIndexWrap.lean ====
import Idealize.ShloMosaic.PureOps.Ideal
import Idealize.ShloMosaic.Lib.ValueIdx
import Idealize.ShloMosaic.Lib.Pipeline.Value
import Idealize.ShloMosaic.Lib.StableHlo.Predicate

noncomputable section

namespace Idealize.ShloMosaic.IndexWrap

open Idealize.ShloMosaic Idealize.ShloMosaic.ValueIdx

def wrapWord (N v : BitVec 32) : BitVec 32 := if v.slt 0#32 then v + N else v

theorem wrapWord_range (N v : BitVec 32) (hN : N.toNat < 2 ^ 31)
    (h : -(N.toNat : ℤ) ≤ v.toInt ∧ v.toInt < (N.toNat : ℤ)) :
    0 ≤ (wrapWord N v).toInt ∧ (wrapWord N v).toInt < (N.toNat : ℤ) := by
  unfold wrapWord
  by_cases hn : v.slt 0#32
  · rw [if_pos hn]
    have hneg : v.toInt < 0 := by simpa [BitVec.slt] using hn
    have e1 := BitVec.toInt_eq_toNat_cond v
    have e2 := BitVec.toInt_eq_toNat_cond (v + N)
    have e3 : (v + N).toNat = (v.toNat + N.toNat) % 2 ^ 32 := by simp [BitVec.toNat_add]
    have hv := v.isLt
    split_ifs at e1 e2 <;> omega
  · rw [if_neg hn]
    have hneg : ¬ v.toInt < 0 := by simpa [BitVec.slt] using hn
    omega

theorem wrapped_apply {S : Shape} (h : (⟨0, ![]⟩ : Shape).BroadcastsInDim S ![]) (N : BitVec 32) (v : IVec S 32)
    (i : S.Idx) :
    select (cmpi .slt v (broadcastInDim S ![] h (constantI ⟨0, ![]⟩ 32 0#32)))
      (addi v (broadcastInDim S ![] h (constantI ⟨0, ![]⟩ 32 N))) v i = wrapWord N (v i) := by
  show Scalar.select (IntOp.cmpi .slt (v i) 0#32) (IntOp.addi (v i) N) (v i) = _
  unfold Scalar.select IntOp.cmpi IntOp.addi wrapWord
  cases hs : (v i).slt 0#32 <;> simp

theorem column_apply {α : Type} {n : Nat} (hb : (⟨1, ![n]⟩ : Shape).BroadcastsInDim ⟨2, ![n, 1]⟩ ![0])
    (v : (⟨1, ![n]⟩ : Shape).Idx → α) (e : Fin n) :
    broadcastInDim ⟨2, ![n, 1]⟩ ![0] hb v (ix2 e (0 : Fin 1)) = v (ix1 e) := by
  refine broadcastInDim_apply _ hb v _ (ix1 e) fun a => ?_
  match a with
  | ⟨0, _⟩ =>
    show e.val = if n = 1 then 0 else e.val
    have := e.isLt
    split_ifs <;> omega

theorem row_bcast_apply {α : Type} {B n : Nat} (h₁ : (⟨1, ![n]⟩ : Shape).BroadcastsInDim ⟨2, ![1, n]⟩ ![1])
    (h₂ : (⟨2, ![1, n]⟩ : Shape).BroadcastsInDim ⟨2, ![B, n]⟩ ![0, 1]) (v : (⟨1, ![n]⟩ : Shape).Idx → α)
    (p : Fin B) (e : Fin n) :
    broadcastInDim ⟨2, ![B, n]⟩ ![0, 1] h₂ (broadcastInDim ⟨2, ![1, n]⟩ ![1] h₁ v) (ix2 p e) = v (ix1 e) := by
  refine (broadcastInDim_apply _ h₂ _ _ (ix2 (0 : Fin 1) e) fun a => ?_).trans
    (broadcastInDim_apply _ h₁ v _ (ix1 e) fun a => ?_)
  · match a with
    | ⟨0, _⟩ => rfl
    | ⟨1, _⟩ =>
      show e.val = if n = 1 then 0 else e.val
      have := e.isLt
      split_ifs <;> omega
  · match a with
    | ⟨0, _⟩ =>
      show e.val = if n = 1 then 0 else e.val
      have := e.isLt
      split_ifs <;> omega

theorem pair_fst {α : Type} {n : Nat} (x₁ x₂ : (⟨2, ![n, 1]⟩ : Shape).Idx → α)
    (h : Shape.Concatenates [(⟨2, ![n, 1]⟩ : Shape), ⟨2, ![n, 1]⟩] ⟨2, ![n, 2]⟩ 1) (e : Fin n) :
    concatenate ⟨2, ![n, 2]⟩ 1 [⟨⟨2, ![n, 1]⟩, x₁⟩, ⟨⟨2, ![n, 1]⟩, x₂⟩] h (ix2 e (0 : Fin 2)) = x₁ (ix2 e (0 : Fin 1)) := by
  refine concatenate_pair_apply_left 1 x₁ x₂ h _ rfl _ fun b => ?_
  match b with
  | ⟨0, _⟩ => rfl
  | ⟨1, _⟩ => rfl

theorem pair_snd {α : Type} {n : Nat} (x₁ x₂ : (⟨2, ![n, 1]⟩ : Shape).Idx → α)
    (h : Shape.Concatenates [(⟨2, ![n, 1]⟩ : Shape), ⟨2, ![n, 1]⟩] ⟨2, ![n, 2]⟩ 1) (e : Fin n) :
    concatenate ⟨2, ![n, 2]⟩ 1 [⟨⟨2, ![n, 1]⟩, x₁⟩, ⟨⟨2, ![n, 1]⟩, x₂⟩] h (ix2 e (1 : Fin 2)) = x₂ (ix2 e (0 : Fin 1)) := by
  refine concatenate_pair_apply_right 1 x₁ x₂ h _ rfl rfl _ (fun b hb => ?_) rfl
  match b with
  | ⟨0, _⟩ => rfl
  | ⟨1, _⟩ => exact absurd rfl hb

theorem sge_decode (v k : BitVec 32) (h : IntOp.cmpi .sge v k = 1#1) : k.toInt ≤ v.toInt := by
  unfold IntOp.cmpi at h
  have h' := (StableHlo.Predicate.ofBool_eq_one_iff _).mp h
  simpa [BitVec.sle] using h'

theorem slt_decode (v k : BitVec 32) (h : IntOp.cmpi .slt v k = 1#1) : v.toInt < k.toInt := by
  unfold IntOp.cmpi at h
  have h' := (StableHlo.Predicate.ofBool_eq_one_iff _).mp h
  simpa [BitVec.slt] using h'

end Idealize.ShloMosaic.IndexWrap

end
-- ==== Proof.GatherBridge.lean ====
import proofs.«417968_j21749714387505_1_alg».proof.Proof.Gen.KernelIdeal
import proofs.«417968_j21749714387505_1_alg».proof.Proof.Gen.ReferenceIdeal
import proofs.«417968_j21749714387505_1_alg».proof.Proof.KStages
import proofs.«417968_j21749714387505_1_alg».proof.Proof.RStages
import proofs.«417968_j21749714387505_1_alg».proof.Proof.LibAllOnes
import proofs.«417968_j21749714387505_1_alg».proof.Proof.LibIndexWrap
import Idealize.ShloMosaic.Lib.ValueIdx
import Idealize.ShloMosaic.Lib.Pipeline.Value
import Idealize.ShloMosaic.Lib.StableHlo.Predicate
import Idealize.ShloMosaic.PureOps.Ideal

noncomputable section

namespace Cert.Bridge

open Cert.KernelIdeal.Stages Cert.ReferenceIdeal.Stages Idealize.ShloMosaic ValueIdx

section Gathers
variable {α : Type}

theorem kgather_apply (x : Cert.KernelIdeal.S8x64x4096.Idx → α) (w : IVec Cert.KernelIdeal.S8x64x2048x1 32)
    (b : Fin 8) (c : Fin 64) (n : Fin 2048) :
    Host.gather Cert.KernelIdeal.gather_S8x64x4096_S8x64x2048x1_S8x64x2048_n_2_01_01_2_3_111 x w (ix3 b c n)
      = x (ix3 b c ⟨min (w (ix4 b c n (0 : Fin 1))).toInt.toNat 4095, by omega⟩) := by
  unfold Host.gather
  refine congrArg x (funext fun a => Fin.ext ?_)
  match a with
  | ⟨0, _⟩ =>
    show GatherDims.start _ _ _ _ + GatherDims.batchCoord _ _ _ + GatherDims.offCoord _ _ _ = b.val
    have h1 : GatherDims.start Cert.KernelIdeal.gather_S8x64x4096_S8x64x2048x1_S8x64x2048_n_2_01_01_2_3_111 (ix3 b c n) w ⟨0, by decide⟩ = 0 := rfl
    have h2 : GatherDims.batchCoord Cert.KernelIdeal.gather_S8x64x4096_S8x64x2048x1_S8x64x2048_n_2_01_01_2_3_111 (ix3 b c n) ⟨0, by decide⟩ = b.val := rfl
    have h3 : GatherDims.offCoord Cert.KernelIdeal.gather_S8x64x4096_S8x64x2048x1_S8x64x2048_n_2_01_01_2_3_111 (ix3 b c n) ⟨0, by decide⟩ = 0 := rfl
    omega
  | ⟨1, _⟩ =>
    show GatherDims.start _ _ _ _ + GatherDims.batchCoord _ _ _ + GatherDims.offCoord _ _ _ = c.val
    have h1 : GatherDims.start Cert.KernelIdeal.gather_S8x64x4096_S8x64x2048x1_S8x64x2048_n_2_01_01_2_3_111 (ix3 b c n) w ⟨1, by decide⟩ = 0 := rfl
    have h2 : GatherDims.batchCoord Cert.KernelIdeal.gather_S8x64x4096_S8x64x2048x1_S8x64x2048_n_2_01_01_2_3_111 (ix3 b c n) ⟨1, by decide⟩ = c.val := rfl
    have h3 : GatherDims.offCoord Cert.KernelIdeal.gather_S8x64x4096_S8x64x2048x1_S8x64x2048_n_2_01_01_2_3_111 (ix3 b c n) ⟨1, by decide⟩ = 0 := rfl
    omega
  | ⟨2, _⟩ =>
    show GatherDims.start _ _ _ _ + GatherDims.batchCoord _ _ _ + GatherDims.offCoord _ _ _ = min (w (ix4 b c n (0 : Fin 1))).toInt.toNat 4095
    have hsi : GatherDims.siIdx Cert.KernelIdeal.gather_S8x64x4096_S8x64x2048x1_S8x64x2048_n_2_01_01_2_3_111 (ix3 b c n) ⟨0, by decide⟩ = ix4 b c n (0 : Fin 1) := by
      funext e; refine Fin.ext ?_
      match e with
      | ⟨0, _⟩ => rfl
      | ⟨1, _⟩ => rfl
      | ⟨2, _⟩ => rfl
      | ⟨3, _⟩ => rfl
    have h1 : GatherDims.start Cert.KernelIdeal.gather_S8x64x4096_S8x64x2048x1_S8x64x2048_n_2_01_01_2_3_111 (ix3 b c n) w ⟨2, by decide⟩
        = min (w (GatherDims.siIdx Cert.KernelIdeal.gather_S8x64x4096_S8x64x2048x1_S8x64x2048_n_2_01_01_2_3_111 (ix3 b c n) ⟨0, by decide⟩)).toInt.toNat 4095 := rfl
    have h2 : GatherDims.batchCoord Cert.KernelIdeal.gather_S8x64x4096_S8x64x2048x1_S8x64x2048_n_2_01_01_2_3_111 (ix3 b c n) ⟨2, by decide⟩ = 0 := rfl
    have h3 : GatherDims.offCoord Cert.KernelIdeal.gather_S8x64x4096_S8x64x2048x1_S8x64x2048_n_2_01_01_2_3_111 (ix3 b c n) ⟨2, by decide⟩ = 0 := rfl
    rw [hsi] at h1
    omega

end Gathers

theorem rgather_apply {α : Type} (x : Cert.ReferenceIdeal.S8x64x4096.Idx → α) (w : IVec Cert.ReferenceIdeal.S8x2048x1 32)
    (b : Fin 8) (c : Fin 64) (n : Fin 2048) :
    Host.gather Cert.ReferenceIdeal.gather_S8x64x4096_S8x2048x1_S8x64x2048_1_2_0_0_2_2_1641 x w (ix3 b c n)
      = x (ix3 b c ⟨min (w (ix3 b n (0 : Fin 1))).toInt.toNat 4095, by omega⟩) := by
  unfold Host.gather
  refine congrArg x (funext fun a => Fin.ext ?_)
  match a with
  | ⟨0, _⟩ =>
    show GatherDims.start _ _ _ _ + GatherDims.batchCoord _ _ _ + GatherDims.offCoord _ _ _ = b.val
    have h1 : GatherDims.start Cert.ReferenceIdeal.gather_S8x64x4096_S8x2048x1_S8x64x2048_1_2_0_0_2_2_1641 (ix3 b c n) w ⟨0, by decide⟩ = 0 := rfl
    have h2 : GatherDims.batchCoord Cert.ReferenceIdeal.gather_S8x64x4096_S8x2048x1_S8x64x2048_1_2_0_0_2_2_1641 (ix3 b c n) ⟨0, by decide⟩ = b.val := rfl
    have h3 : GatherDims.offCoord Cert.ReferenceIdeal.gather_S8x64x4096_S8x2048x1_S8x64x2048_1_2_0_0_2_2_1641 (ix3 b c n) ⟨0, by decide⟩ = 0 := rfl
    omega
  | ⟨1, _⟩ =>
    show GatherDims.start _ _ _ _ + GatherDims.batchCoord _ _ _ + GatherDims.offCoord _ _ _ = c.val
    have h1 : GatherDims.start Cert.ReferenceIdeal.gather_S8x64x4096_S8x2048x1_S8x64x2048_1_2_0_0_2_2_1641 (ix3 b c n) w ⟨1, by decide⟩ = 0 := rfl
    have h2 : GatherDims.batchCoord Cert.ReferenceIdeal.gather_S8x64x4096_S8x2048x1_S8x64x2048_1_2_0_0_2_2_1641 (ix3 b c n) ⟨1, by decide⟩ = 0 := rfl
    have h3 : GatherDims.offCoord Cert.ReferenceIdeal.gather_S8x64x4096_S8x2048x1_S8x64x2048_1_2_0_0_2_2_1641 (ix3 b c n) ⟨1, by decide⟩ = c.val := rfl
    omega
  | ⟨2, _⟩ =>
    show GatherDims.start _ _ _ _ + GatherDims.batchCoord _ _ _ + GatherDims.offCoord _ _ _ = min (w (ix3 b n (0 : Fin 1))).toInt.toNat 4095
    have hsi : GatherDims.siIdx Cert.ReferenceIdeal.gather_S8x64x4096_S8x2048x1_S8x64x2048_1_2_0_0_2_2_1641 (ix3 b c n) ⟨0, by decide⟩ = ix3 b n (0 : Fin 1) := by
      funext e; refine Fin.ext ?_
      match e with
      | ⟨0, _⟩ => rfl
      | ⟨1, _⟩ => rfl
      | ⟨2, _⟩ => rfl
    have h1 : GatherDims.start Cert.ReferenceIdeal.gather_S8x64x4096_S8x2048x1_S8x64x2048_1_2_0_0_2_2_1641 (ix3 b c n) w ⟨2, by decide⟩
        = min (w (GatherDims.siIdx Cert.ReferenceIdeal.gather_S8x64x4096_S8x2048x1_S8x64x2048_1_2_0_0_2_2_1641 (ix3 b c n) ⟨0, by decide⟩)).toInt.toNat 4095 := rfl
    have h2 : GatherDims.batchCoord Cert.ReferenceIdeal.gather_S8x64x4096_S8x2048x1_S8x64x2048_1_2_0_0_2_2_1641 (ix3 b c n) ⟨2, by decide⟩ = 0 := rfl
    have h3 : GatherDims.offCoord Cert.ReferenceIdeal.gather_S8x64x4096_S8x2048x1_S8x64x2048_1_2_0_0_2_2_1641 (ix3 b c n) ⟨2, by decide⟩ = 0 := rfl
    rw [hsi] at h1
    omega

theorem rgather2_apply {α : Type} (x : Cert.ReferenceIdeal.S8x64x64x64.Idx → α) (w : IVec Cert.ReferenceIdeal.S8x2048x2 32)
    (b : Fin 8) (c : Fin 64) (n : Fin 2048) :
    Host.gather Cert.ReferenceIdeal.gather_S8x64x64x64_S8x2048x2_S8x64x2048_1_23_0_0_23_2_16411 x w (ix3 b c n)
      = x (ix4 b c ⟨min (w (ix3 b n (0 : Fin 2))).toInt.toNat 63, by omega⟩
            ⟨min (w (ix3 b n (1 : Fin 2))).toInt.toNat 63, by omega⟩) := by
  unfold Host.gather
  refine congrArg x (funext fun a => Fin.ext ?_)
  match a with
  | ⟨0, _⟩ =>
    show GatherDims.start _ _ _ _ + GatherDims.batchCoord _ _ _ + GatherDims.offCoord _ _ _ = b.val
    have h1 : GatherDims.start Cert.ReferenceIdeal.gather_S8x64x64x64_S8x2048x2_S8x64x2048_1_23_0_0_23_2_16411 (ix3 b c n) w ⟨0, by decide⟩ = 0 := rfl
    have h2 : GatherDims.batchCoord Cert.ReferenceIdeal.gather_S8x64x64x64_S8x2048x2_S8x64x2048_1_23_0_0_23_2_16411 (ix3 b c n) ⟨0, by decide⟩ = b.val := rfl
    have h3 : GatherDims.offCoord Cert.ReferenceIdeal.gather_S8x64x64x64_S8x2048x2_S8x64x2048_1_23_0_0_23_2_16411 (ix3 b c n) ⟨0, by decide⟩ = 0 := rfl
    omega
  | ⟨1, _⟩ =>
    show GatherDims.start _ _ _ _ + GatherDims.batchCoord _ _ _ + GatherDims.offCoord _ _ _ = c.val
    have h1 : GatherDims.start Cert.ReferenceIdeal.gather_S8x64x64x64_S8x2048x2_S8x64x2048_1_23_0_0_23_2_16411 (ix3 b c n) w ⟨1, by decide⟩ = 0 := rfl
    have h2 : GatherDims.batchCoord Cert.ReferenceIdeal.gather_S8x64x64x64_S8x2048x2_S8x64x2048_1_23_0_0_23_2_16411 (ix3 b c n) ⟨1, by decide⟩ = 0 := rfl
    have h3 : GatherDims.offCoord Cert.ReferenceIdeal.gather_S8x64x64x64_S8x2048x2_S8x64x2048_1_23_0_0_23_2_16411 (ix3 b c n) ⟨1, by decide⟩ = c.val := rfl
    omega
  | ⟨2, _⟩ =>
    show GatherDims.start _ _ _ _ + GatherDims.batchCoord _ _ _ + GatherDims.offCoord _ _ _ = min (w (ix3 b n (0 : Fin 2))).toInt.toNat 63
    have hsi : GatherDims.siIdx Cert.ReferenceIdeal.gather_S8x64x64x64_S8x2048x2_S8x64x2048_1_23_0_0_23_2_16411 (ix3 b c n) ⟨0, by decide⟩ = ix3 b n (0 : Fin 2) := by
      funext e; refine Fin.ext ?_
      match e with
      | ⟨0, _⟩ => rfl
      | ⟨1, _⟩ => rfl
      | ⟨2, _⟩ => rfl
    have h1 : GatherDims.start Cert.ReferenceIdeal.gather_S8x64x64x64_S8x2048x2_S8x64x2048_1_23_0_0_23_2_16411 (ix3 b c n) w ⟨2, by decide⟩
        = min (w (GatherDims.siIdx Cert.ReferenceIdeal.gather_S8x64x64x64_S8x2048x2_S8x64x2048_1_23_0_0_23_2_16411 (ix3 b c n) ⟨0, by decide⟩)).toInt.toNat 63 := rfl
    have h2 : GatherDims.batchCoord Cert.ReferenceIdeal.gather_S8x64x64x64_S8x2048x2_S8x64x2048_1_23_0_0_23_2_16411 (ix3 b c n) ⟨2, by decide⟩ = 0 := rfl
    have h3 : GatherDims.offCoord Cert.ReferenceIdeal.gather_S8x64x64x64_S8x2048x2_S8x64x2048_1_23_0_0_23_2_16411 (ix3 b c n) ⟨2, by decide⟩ = 0 := rfl
    rw [hsi] at h1
    omega
  | ⟨3, _⟩ =>
    show GatherDims.start _ _ _ _ + GatherDims.batchCoord _ _ _ + GatherDims.offCoord _ _ _ = min (w (ix3 b n (1 : Fin 2))).toInt.toNat 63
    have hsi : GatherDims.siIdx Cert.ReferenceIdeal.gather_S8x64x64x64_S8x2048x2_S8x64x2048_1_23_0_0_23_2_16411 (ix3 b c n) ⟨1, by decide⟩ = ix3 b n (1 : Fin 2) := by
      funext e; refine Fin.ext ?_
      match e with
      | ⟨0, _⟩ => rfl
      | ⟨1, _⟩ => rfl
      | ⟨2, _⟩ => rfl
    have h1 : GatherDims.start Cert.ReferenceIdeal.gather_S8x64x64x64_S8x2048x2_S8x64x2048_1_23_0_0_23_2_16411 (ix3 b c n) w ⟨3, by decide⟩
        = min (w (GatherDims.siIdx Cert.ReferenceIdeal.gather_S8x64x64x64_S8x2048x2_S8x64x2048_1_23_0_0_23_2_16411 (ix3 b c n) ⟨1, by decide⟩)).toInt.toNat 63 := rfl
    have h2 : GatherDims.batchCoord Cert.ReferenceIdeal.gather_S8x64x64x64_S8x2048x2_S8x64x2048_1_23_0_0_23_2_16411 (ix3 b c n) ⟨3, by decide⟩ = 0 := rfl
    have h3 : GatherDims.offCoord Cert.ReferenceIdeal.gather_S8x64x64x64_S8x2048x2_S8x64x2048_1_23_0_0_23_2_16411 (ix3 b c n) ⟨3, by decide⟩ = 0 := rfl
    rw [hsi] at h1
    omega

theorem wrapWord_nonneg (N v : BitVec 32) (h : 0 ≤ v.toInt) : IndexWrap.wrapWord N v = v := by
  unfold IndexWrap.wrapWord
  have hn : ¬ (v.slt 0#32 = true) := by
    simp only [BitVec.slt, BitVec.toInt_zero, decide_eq_true_eq]; omega
  rw [if_neg hn]

theorem inb_bit (v : BitVec 32) (h : 0 ≤ v.toInt ∧ v.toInt < 4096) :
    IntOp.andi (IntOp.cmpi .sge v 0#32) (IntOp.cmpi .sle v 4095#32) = 1#1 := by
  have e : (4095#32 : BitVec 32).toInt = 4095 := by decide
  have h1 : (0#32 : BitVec 32).sle v = true := by
    simp only [BitVec.sle, BitVec.toInt_zero, decide_eq_true_eq]; omega
  have h2 : v.sle 4095#32 = true := by
    simp only [BitVec.sle, e, decide_eq_true_eq]; omega
  unfold IntOp.cmpi IntOp.andi
  simp only [h1, h2]
  decide

theorem flat_word (r c : BitVec 32) (hr : 0 ≤ r.toInt ∧ r.toInt < 64) (hc : 0 ≤ c.toInt ∧ c.toInt < 64) :
    (IntOp.addi (IntOp.muli r 64#32) c).toInt = r.toInt * 64 + c.toInt := by
  unfold IntOp.addi IntOp.muli
  have er := BitVec.toInt_eq_toNat_cond r
  have ec := BitVec.toInt_eq_toNat_cond c
  have e := BitVec.toInt_eq_toNat_cond (r * 64#32 + c)
  have hn : (r * 64#32 + c).toNat = (r.toNat * 64 % 2 ^ 32 + c.toNat) % 2 ^ 32 := by
    simp [BitVec.toNat_add, BitVec.toNat_mul]
  have := r.isLt
  have := c.isLt
  split_ifs at er ec e <;> omega

section Layout
variable {α : Type}

theorem chan_bcast_apply (h₁ : (⟨2, ![8, 2048]⟩ : Shape).BroadcastsInDim ⟨3, ![8, 1, 2048]⟩ ![0, 2])
    (h₂ : (⟨3, ![8, 1, 2048]⟩ : Shape).BroadcastsInDim ⟨3, ![8, 64, 2048]⟩ ![0, 1, 2])
    (v : (⟨2, ![8, 2048]⟩ : Shape).Idx → α) (b : Fin 8) (c : Fin 64) (n : Fin 2048) :
    broadcastInDim ⟨3, ![8, 64, 2048]⟩ ![0, 1, 2] h₂ (broadcastInDim ⟨3, ![8, 1, 2048]⟩ ![0, 2] h₁ v) (ix3 b c n)
      = v (ix2 b n) := by
  refine (broadcastInDim_apply _ h₂ _ _ (ix3 b (0 : Fin 1) n) fun a => ?_).trans
    (broadcastInDim_apply _ h₁ v _ (ix2 b n) fun a => ?_)
  · match a with
    | ⟨0, _⟩ => rfl
    | ⟨1, _⟩ => rfl
    | ⟨2, _⟩ => rfl
  · match a with
    | ⟨0, _⟩ => rfl
    | ⟨1, _⟩ => rfl

theorem col3_apply (h : (⟨2, ![8, 2048]⟩ : Shape).BroadcastsInDim ⟨3, ![8, 2048, 1]⟩ ![0, 1])
    (v : (⟨2, ![8, 2048]⟩ : Shape).Idx → α) (b : Fin 8) (n : Fin 2048) :
    broadcastInDim ⟨3, ![8, 2048, 1]⟩ ![0, 1] h v (ix3 b n (0 : Fin 1)) = v (ix2 b n) := by
  refine broadcastInDim_apply _ h v _ (ix2 b n) fun a => ?_
  match a with
  | ⟨0, _⟩ => rfl
  | ⟨1, _⟩ => rfl

theorem slice_row_apply (h₁ : (⟨3, ![8, 2, 2048]⟩ : Shape).Slices ![0, 0, 0] ⟨3, ![8, 1, 2048]⟩)
    (h₂ : (⟨3, ![8, 1, 2048]⟩ : Shape).ShapeCasts ⟨2, ![8, 2048]⟩)
    (x : (⟨3, ![8, 2, 2048]⟩ : Shape).Idx → α) (b : Fin 8) (n : Fin 2048) :
    shapeCast ⟨2, ![8, 2048]⟩ (extractStridedSlice ⟨3, ![8, 1, 2048]⟩ ![0, 0, 0] x h₁) h₂ (ix2 b n)
      = x (ix3 b (0 : Fin 2) n) := by
  refine (shapeCast_apply _ h₂ (ix2 b n) (ix3 b (0 : Fin 1) n) ?_).trans
    (extractStridedSlice_apply _ x h₁ (ix3 b (0 : Fin 1) n) (ix3 b (0 : Fin 2) n) fun a => ?_)
  · rw [Shape.rowMajor_val_three, Shape.rowMajor_val_two]
    show (b.val * 1 + 0) * 2048 + n.val = b.val * 2048 + n.val
    omega
  · match a with
    | ⟨0, _⟩ => show b.val = 0 + b.val; omega
    | ⟨1, _⟩ => rfl
    | ⟨2, _⟩ => show n.val = 0 + n.val; omega

theorem slice_col_apply (h₁ : (⟨3, ![8, 2, 2048]⟩ : Shape).Slices ![0, 1, 0] ⟨3, ![8, 1, 2048]⟩)
    (h₂ : (⟨3, ![8, 1, 2048]⟩ : Shape).ShapeCasts ⟨2, ![8, 2048]⟩)
    (x : (⟨3, ![8, 2, 2048]⟩ : Shape).Idx → α) (b : Fin 8) (n : Fin 2048) :
    shapeCast ⟨2, ![8, 2048]⟩ (extractStridedSlice ⟨3, ![8, 1, 2048]⟩ ![0, 1, 0] x h₁) h₂ (ix2 b n)
      = x (ix3 b (1 : Fin 2) n) := by
  refine (shapeCast_apply _ h₂ (ix2 b n) (ix3 b (0 : Fin 1) n) ?_).trans
    (extractStridedSlice_apply _ x h₁ (ix3 b (0 : Fin 1) n) (ix3 b (1 : Fin 2) n) fun a => ?_)
  · rw [Shape.rowMajor_val_three, Shape.rowMajor_val_two]
    show (b.val * 1 + 0) * 2048 + n.val = b.val * 2048 + n.val
    omega
  · match a with
    | ⟨0, _⟩ => show b.val = 0 + b.val; omega
    | ⟨1, _⟩ => rfl
    | ⟨2, _⟩ => show n.val = 0 + n.val; omega

theorem pair3_fst (x₁ x₂ : (⟨3, ![8, 2048, 1]⟩ : Shape).Idx → α)
    (h : Shape.Concatenates [(⟨3, ![8, 2048, 1]⟩ : Shape), ⟨3, ![8, 2048, 1]⟩] ⟨3, ![8, 2048, 2]⟩ 2)
    (b : Fin 8) (n : Fin 2048) :
    concatenate ⟨3, ![8, 2048, 2]⟩ 2 [⟨⟨3, ![8, 2048, 1]⟩, x₁⟩, ⟨⟨3, ![8, 2048, 1]⟩, x₂⟩] h (ix3 b n (0 : Fin 2))
      = x₁ (ix3 b n (0 : Fin 1)) := by
  refine concatenate_pair_apply_left 2 x₁ x₂ h _ rfl _ fun e => ?_
  match e with
  | ⟨0, _⟩ => rfl
  | ⟨1, _⟩ => rfl
  | ⟨2, _⟩ => rfl

theorem pair3_snd (x₁ x₂ : (⟨3, ![8, 2048, 1]⟩ : Shape).Idx → α)
    (h : Shape.Concatenates [(⟨3, ![8, 2048, 1]⟩ : Shape), ⟨3, ![8, 2048, 1]⟩] ⟨3, ![8, 2048, 2]⟩ 2)
    (b : Fin 8) (n : Fin 2048) :
    concatenate ⟨3, ![8, 2048, 2]⟩ 2 [⟨⟨3, ![8, 2048, 1]⟩, x₁⟩, ⟨⟨3, ![8, 2048, 1]⟩, x₂⟩] h (ix3 b n (1 : Fin 2))
      = x₂ (ix3 b n (0 : Fin 1)) := by
  refine concatenate_pair_apply_right 2 x₁ x₂ h _ rfl rfl _ (fun e he => ?_) rfl
  match e with
  | ⟨0, _⟩ => rfl
  | ⟨1, _⟩ => rfl
  | ⟨2, _⟩ => exact absurd rfl he

theorem flatten_apply (h : (⟨4, ![8, 64, 64, 64]⟩ : Shape).ShapeCasts ⟨3, ![8, 64, 4096]⟩)
    (x : (⟨4, ![8, 64, 64, 64]⟩ : Shape).Idx → α) (b : Fin 8) (c : Fin 64) (f : Fin 4096) :
    shapeCast ⟨3, ![8, 64, 4096]⟩ x h (ix3 b c f)
      = x (ix4 b c ⟨f.val / 64, by have := f.isLt; omega⟩ ⟨f.val % 64, by omega⟩) := by
  refine shapeCast_apply x h _ _ ?_
  rw [Shape.rowMajor_val_three, Shape.rowMajor_val_four]
  show ((b.val * 64 + c.val) * 64 + f.val / 64) * 64 + f.val % 64 = (b.val * 64 + c.val) * 4096 + f.val
  omega

end Layout

def kwrap (idx : IVec Cert.KernelIdeal.S8x64x2048 32) : IVec Cert.KernelIdeal.S8x64x2048 32 :=
  select (cmpi .slt idx (broadcastInDim Cert.KernelIdeal.S8x64x2048 ![] Cert.KernelIdeal.Facts₀.bcast_S_S8x64x2048 (constantI Cert.KernelIdeal.S_ 32 0#32)))
    (addi idx (broadcastInDim Cert.KernelIdeal.S8x64x2048 ![] Cert.KernelIdeal.Facts₀.bcast_S_S8x64x2048 (constantI Cert.KernelIdeal.S_ 32 4096#32))) idx

def takeIdx4 (idx : IVec Cert.KernelIdeal.S8x64x2048 32) : IVec Cert.KernelIdeal.S8x64x2048x1 32 :=
  shapeCast Cert.KernelIdeal.S8x64x2048x1 (kwrap idx) Cert.KernelIdeal.Facts₀.shapeCasts_S8x64x2048_S8x64x2048x1

def inbMask (idx : IVec Cert.KernelIdeal.S8x64x2048 32) : IVec Cert.KernelIdeal.S8x64x2048 1 :=
  Host.reduce IntOp.andi
    (andi (cmpi .sge (takeIdx4 idx) (broadcastInDim Cert.KernelIdeal.S8x64x2048x1 ![] Cert.KernelIdeal.Facts₀.bcast_S_S8x64x2048x1 (constantI Cert.KernelIdeal.S_ 32 0#32)))
      (cmpi .sle (takeIdx4 idx) (broadcastInDim Cert.KernelIdeal.S8x64x2048x1 ![0, 1, 2, 3] Cert.KernelIdeal.Facts₀.bcast_S1x1x1x1_S8x64x2048x1_0_1_2_3
        (broadcastInDim Cert.KernelIdeal.S1x1x1x1 ![3] Cert.KernelIdeal.Facts₀.bcast_S1_S1x1x1x1_3 (constantI Cert.KernelIdeal.S1 32 4095#32)))))
    (constantI Cert.KernelIdeal.S_ 1 1#1) Cert.KernelIdeal.Facts₀.reducesTo_S8x64x2048x1_S8x64x2048_d3 Cert.KernelIdeal.Facts₀.h_S_

def fillTake (x : FVec Ideal Cert.KernelIdeal.S8x64x4096 .f32) (idx : IVec Cert.KernelIdeal.S8x64x2048 32) : FVec Ideal Cert.KernelIdeal.S8x64x2048 .f32 :=
  select (inbMask idx) (Host.gather Cert.KernelIdeal.gather_S8x64x4096_S8x64x2048x1_S8x64x2048_n_2_01_01_2_3_111 x (takeIdx4 idx))
    (broadcastInDim Cert.KernelIdeal.S8x64x2048 ![] Cert.KernelIdeal.Facts₀.bcast_S_S8x64x2048 (constant (F := Ideal) Cert.KernelIdeal.S_ .f32 0x7FC00000#32))

theorem takeIdx4_apply (idx : IVec Cert.KernelIdeal.S8x64x2048 32) (b : Fin 8) (c : Fin 64) (n : Fin 2048) (z : Fin 1) :
    takeIdx4 idx (ix4 b c n z) = IndexWrap.wrapWord 4096#32 (idx (ix3 b c n)) := by
  unfold takeIdx4
  refine (shapeCast_apply (kwrap idx) _ (ix4 b c n z) (ix3 b c n) ?_).trans ?_
  · rw [Shape.rowMajor_val_three, Shape.rowMajor_val_four]
    show (b.val * 64 + c.val) * 2048 + n.val = ((b.val * 64 + c.val) * 2048 + n.val) * 1 + z.val
    have := z.isLt
    omega
  · exact IndexWrap.wrapped_apply _ 4096#32 idx (ix3 b c n)

theorem fillTake_apply (x : FVec Ideal Cert.KernelIdeal.S8x64x4096 .f32) (idx : IVec Cert.KernelIdeal.S8x64x2048 32)
    (h : ∀ (b : Fin 8) (c : Fin 64) (n : Fin 2048),
      0 ≤ BitVec.toInt (idx (ix3 b c n)) ∧ BitVec.toInt (idx (ix3 b c n)) < 4096)
    (b : Fin 8) (c : Fin 64) (n : Fin 2048) :
    fillTake x idx (ix3 b c n)
      = x (ix3 b c ⟨(BitVec.toInt (idx (ix3 b c n))).toNat, by have := h b c n; omega⟩) := by
  have hw : ∀ (b : Fin 8) (c : Fin 64) (n : Fin 2048) (z : Fin 1), takeIdx4 idx (ix4 b c n z) = idx (ix3 b c n) :=
    fun b c n z => (takeIdx4_apply idx b c n z).trans (wrapWord_nonneg _ _ (h b c n).1)
  have hm : inbMask idx (ix3 b c n) = 1#1 := by
    unfold inbMask
    refine AllOnes.reduce_andi_of_all _ _ _ _ rfl (fun i => ?_) _
    obtain ⟨b', c', n', z', rfl⟩ : ∃ (b' : Fin 8) (c' : Fin 64) (n' : Fin 2048) (z' : Fin 1), i = ix4 b' c' n' z' :=
      ⟨i 0, i 1, i 2, i 3, eq_ix4 i⟩
    show IntOp.andi (IntOp.cmpi .sge (takeIdx4 idx (ix4 b' c' n' z')) 0#32)
      (IntOp.cmpi .sle (takeIdx4 idx (ix4 b' c' n' z')) 4095#32) = 1#1
    rw [hw]
    exact inb_bit _ (h b' c' n')
  unfold fillTake
  rw [select_apply, hm, select_one, kgather_apply]
  refine congrArg (fun z => x (ix3 b c z)) (Fin.ext ?_)
  show min (BitVec.toInt (takeIdx4 idx (ix4 b c n (0 : Fin 1)))).toNat 4095 = (BitVec.toInt (idx (ix3 b c n))).toNat
  rw [hw]
  have := h b c n
  omega

variable (a0 a1 : (⟨Cert.KernelIdeal.S8x64x64x64, .f32⟩ : BufTy).Contents (Elt Ideal))
  (a2 : (⟨Cert.KernelIdeal.S8x2048, .i32⟩ : BufTy).Contents (Elt Ideal))
  (a3 : (⟨Cert.KernelIdeal.S8x2x2048, .i32⟩ : BufTy).Contents (Elt Ideal))

theorem k_v20_fill : k_main_v20 (F := Ideal) a0 a1 a2 a3
    = fillTake (k_main_v9 (F := Ideal) a0 a1 a2 a3) (k_main_v19 (F := Ideal) a0 a1 a2 a3) := rfl

theorem k_v30_fill : k_main_v30 (F := Ideal) a0 a1 a2 a3
    = fillTake (k_main_v1 (F := Ideal) a0 a1 a2 a3) (k_main_v29 (F := Ideal) a0 a1 a2 a3) := rfl

theorem k_v19_apply (b : Fin 8) (c : Fin 64) (n : Fin 2048) :
    k_main_v19 (F := Ideal) a0 a1 a2 a3 (ix3 b c n) = a2 (ix2 b n) :=
  chan_bcast_apply _ _ a2 b c n

theorem k_v20_apply
    (hids : ∀ (b : Fin 8) (n : Fin 2048), 0 ≤ BitVec.toInt (a2 (ix2 b n)) ∧ BitVec.toInt (a2 (ix2 b n)) < 4096)
    (b : Fin 8) (c : Fin 64) (n : Fin 2048) :
    k_main_v20 (F := Ideal) a0 a1 a2 a3 (ix3 b c n)
      = k_main_v9 (F := Ideal) a0 a1 a2 a3
          (ix3 b c ⟨(BitVec.toInt (a2 (ix2 b n))).toNat, by have := hids b n; omega⟩) := by
  have h : ∀ (b : Fin 8) (c : Fin 64) (n : Fin 2048),
      0 ≤ BitVec.toInt (k_main_v19 (F := Ideal) a0 a1 a2 a3 (ix3 b c n))
        ∧ BitVec.toInt (k_main_v19 (F := Ideal) a0 a1 a2 a3 (ix3 b c n)) < 4096 := by
    intro b c n; rw [k_v19_apply]; exact hids b n
  rw [k_v20_fill]
  refine (fillTake_apply _ _ h b c n).trans ?_
  refine congrArg (fun z => k_main_v9 (F := Ideal) a0 a1 a2 a3 (ix3 b c z)) (Fin.ext ?_)
  show (BitVec.toInt (k_main_v19 (F := Ideal) a0 a1 a2 a3 (ix3 b c n))).toNat = (BitVec.toInt (a2 (ix2 b n))).toNat
  rw [k_v19_apply]

theorem r_v23_apply (b : Fin 8) (n : Fin 2048) :
    r_main_v23 (F := Ideal) a0 a1 a2 a3 (ix3 b n (0 : Fin 1)) = IndexWrap.wrapWord 4096#32 (a2 (ix2 b n)) :=
  (col3_apply _ (r_main_v22 (F := Ideal) a0 a1 a2 a3) b n).trans
    (IndexWrap.wrapped_apply _ 4096#32 a2 (ix2 b n))

theorem r_v24_apply
    (hids : ∀ (b : Fin 8) (n : Fin 2048), 0 ≤ BitVec.toInt (a2 (ix2 b n)) ∧ BitVec.toInt (a2 (ix2 b n)) < 4096)
    (b : Fin 8) (c : Fin 64) (n : Fin 2048) :
    r_main_v24 (F := Ideal) a0 a1 a2 a3 (ix3 b c n)
      = r_main_v8 (F := Ideal) a0 a1 a2 a3
          (ix3 b c ⟨(BitVec.toInt (a2 (ix2 b n))).toNat, by have := hids b n; omega⟩) := by
  unfold r_main_v24
  refine (rgather_apply _ _ b c n).trans ?_
  refine congrArg (fun z => r_main_v8 (F := Ideal) a0 a1 a2 a3 (ix3 b c z)) (Fin.ext ?_)
  show min (BitVec.toInt (r_main_v23 (F := Ideal) a0 a1 a2 a3 (ix3 b n (0 : Fin 1)))).toNat 4095
    = (BitVec.toInt (a2 (ix2 b n))).toNat
  rw [r_v23_apply, wrapWord_nonneg _ _ (hids b n).1]
  have := hids b n
  omega

theorem k_v9_eq_r_v8 : k_main_v9 (F := Ideal) a0 a1 a2 a3 = r_main_v8 (F := Ideal) a0 a1 a2 a3 := rfl

theorem k_v17_eq_r_v17 : k_main_v17 (F := Ideal) a0 a1 a2 a3 = r_main_v17 (F := Ideal) a0 a1 a2 a3 := rfl

theorem k_v20_eq_r_v24
    (hids : ∀ (b : Fin 8) (n : Fin 2048), 0 ≤ BitVec.toInt (a2 (ix2 b n)) ∧ BitVec.toInt (a2 (ix2 b n)) < 4096) :
    k_main_v20 (F := Ideal) a0 a1 a2 a3 = r_main_v24 (F := Ideal) a0 a1 a2 a3 := by
  funext j
  obtain ⟨b, c, n, rfl⟩ : ∃ (b : Fin 8) (c : Fin 64) (n : Fin 2048), j = ix3 b c n := ⟨j 0, j 1, j 2, eq_ix3 j⟩
  rw [k_v20_apply a0 a1 a2 a3 hids, r_v24_apply a0 a1 a2 a3 hids, k_v9_eq_r_v8]

theorem k_v27_apply (b : Fin 8) (n : Fin 2048) :
    k_main_v27 (F := Ideal) a0 a1 a2 a3 (ix2 b n)
      = IntOp.addi (IntOp.muli (a3 (ix3 b (0 : Fin 2) n)) 64#32) (a3 (ix3 b (1 : Fin 2) n)) := by
  have e1 : k_main_v22 (F := Ideal) a0 a1 a2 a3 (ix2 b n) = a3 (ix3 b (0 : Fin 2) n) := by
    unfold k_main_v22 k_main_v21
    refine slice_row_apply ?_ ?_ a3 b n
  have e2 : k_main_v24 (F := Ideal) a0 a1 a2 a3 (ix2 b n) = a3 (ix3 b (1 : Fin 2) n) := by
    unfold k_main_v24 k_main_v23
    refine slice_col_apply ?_ ?_ a3 b n
  show IntOp.addi (IntOp.muli (k_main_v22 (F := Ideal) a0 a1 a2 a3 (ix2 b n)) 64#32) (k_main_v24 (F := Ideal) a0 a1 a2 a3 (ix2 b n)) = _
  rw [e1, e2]

theorem k_v29_apply (b : Fin 8) (c : Fin 64) (n : Fin 2048) :
    k_main_v29 (F := Ideal) a0 a1 a2 a3 (ix3 b c n)
      = IntOp.addi (IntOp.muli (a3 (ix3 b (0 : Fin 2) n)) 64#32) (a3 (ix3 b (1 : Fin 2) n)) :=
  (chan_bcast_apply _ _ (k_main_v27 (F := Ideal) a0 a1 a2 a3) b c n).trans (k_v27_apply a0 a1 a2 a3 b n)

theorem k_v30_apply (hpos : ∀ (b : Fin 8) (j : Fin 2) (n : Fin 2048), 0 ≤ BitVec.toInt (a3 (ix3 b j n)) ∧ BitVec.toInt (a3 (ix3 b j n)) < 64)
    (b : Fin 8) (c : Fin 64) (n : Fin 2048) :
    k_main_v30 (F := Ideal) a0 a1 a2 a3 (ix3 b c n)
      = a1 (ix4 b c ⟨(BitVec.toInt (a3 (ix3 b (0 : Fin 2) n))).toNat, by have := hpos b 0 n; omega⟩
            ⟨(BitVec.toInt (a3 (ix3 b (1 : Fin 2) n))).toNat, by have := hpos b 1 n; omega⟩) := by
  have hf : ∀ (b : Fin 8) (c : Fin 64) (n : Fin 2048), BitVec.toInt (k_main_v29 (F := Ideal) a0 a1 a2 a3 (ix3 b c n))
      = BitVec.toInt (a3 (ix3 b (0 : Fin 2) n)) * 64 + BitVec.toInt (a3 (ix3 b (1 : Fin 2) n)) := by
    intro b c n
    rw [k_v29_apply]
    exact flat_word _ _ (hpos b 0 n) (hpos b 1 n)
  have h : ∀ (b : Fin 8) (c : Fin 64) (n : Fin 2048),
      0 ≤ BitVec.toInt (k_main_v29 (F := Ideal) a0 a1 a2 a3 (ix3 b c n)) ∧ BitVec.toInt (k_main_v29 (F := Ideal) a0 a1 a2 a3 (ix3 b c n)) < 4096 := by
    intro b c n
    rw [hf]
    have := hpos b 0 n
    have := hpos b 1 n
    omega
  rw [k_v30_fill]
  refine (fillTake_apply _ _ h b c n).trans ?_
  unfold k_main_v1
  refine (flatten_apply _ a1 b c _).trans ?_
  refine congrArg₂ (fun p q => a1 (ix4 b c p q)) (Fin.ext ?_) (Fin.ext ?_)
  · show (BitVec.toInt (k_main_v29 (F := Ideal) a0 a1 a2 a3 (ix3 b c n))).toNat / 64 = (BitVec.toInt (a3 (ix3 b (0 : Fin 2) n))).toNat
    rw [hf]
    have := hpos b 0 n
    have := hpos b 1 n
    omega
  · show (BitVec.toInt (k_main_v29 (F := Ideal) a0 a1 a2 a3 (ix3 b c n))).toNat % 64 = (BitVec.toInt (a3 (ix3 b (1 : Fin 2) n))).toNat
    rw [hf]
    have := hpos b 0 n
    have := hpos b 1 n
    omega

theorem r_v41_fst (b : Fin 8) (n : Fin 2048) :
    r_main_v41 (F := Ideal) a0 a1 a2 a3 (ix3 b n (0 : Fin 2)) = IndexWrap.wrapWord 64#32 (a3 (ix3 b (0 : Fin 2) n)) := by
  unfold r_main_v41
  refine (pair3_fst _ _ _ b n).trans ?_
  refine (col3_apply _ (r_main_v33 (F := Ideal) a0 a1 a2 a3) b n).trans ?_
  refine (IndexWrap.wrapped_apply _ 64#32 (r_main_v26 (F := Ideal) a0 a1 a2 a3) (ix2 b n)).trans ?_
  refine congrArg (IndexWrap.wrapWord 64#32) ?_
  unfold r_main_v26 r_main_v25
  refine slice_row_apply ?_ ?_ a3 b n

theorem r_v41_snd (b : Fin 8) (n : Fin 2048) :
    r_main_v41 (F := Ideal) a0 a1 a2 a3 (ix3 b n (1 : Fin 2)) = IndexWrap.wrapWord 64#32 (a3 (ix3 b (1 : Fin 2) n)) := by
  unfold r_main_v41
  refine (pair3_snd _ _ _ b n).trans ?_
  refine (col3_apply _ (r_main_v38 (F := Ideal) a0 a1 a2 a3) b n).trans ?_
  refine (IndexWrap.wrapped_apply _ 64#32 (r_main_v28 (F := Ideal) a0 a1 a2 a3) (ix2 b n)).trans ?_
  refine congrArg (IndexWrap.wrapWord 64#32) ?_
  unfold r_main_v28 r_main_v27
  refine slice_col_apply ?_ ?_ a3 b n

theorem r_v42_apply (hpos : ∀ (b : Fin 8) (j : Fin 2) (n : Fin 2048), 0 ≤ BitVec.toInt (a3 (ix3 b j n)) ∧ BitVec.toInt (a3 (ix3 b j n)) < 64)
    (b : Fin 8) (c : Fin 64) (n : Fin 2048) :
    r_main_v42 (F := Ideal) a0 a1 a2 a3 (ix3 b c n)
      = a1 (ix4 b c ⟨(BitVec.toInt (a3 (ix3 b (0 : Fin 2) n))).toNat, by have := hpos b 0 n; omega⟩
            ⟨(BitVec.toInt (a3 (ix3 b (1 : Fin 2) n))).toNat, by have := hpos b 1 n; omega⟩) := by
  unfold r_main_v42
  refine (rgather2_apply a1 _ b c n).trans ?_
  refine congrArg₂ (fun p q => a1 (ix4 b c p q)) (Fin.ext ?_) (Fin.ext ?_)
  · show min (BitVec.toInt (r_main_v41 (F := Ideal) a0 a1 a2 a3 (ix3 b n (0 : Fin 2)))).toNat 63
      = (BitVec.toInt (a3 (ix3 b (0 : Fin 2) n))).toNat
    rw [r_v41_fst, wrapWord_nonneg _ _ (hpos b 0 n).1]
    have := hpos b 0 n
    omega
  · show min (BitVec.toInt (r_main_v41 (F := Ideal) a0 a1 a2 a3 (ix3 b n (1 : Fin 2)))).toNat 63
      = (BitVec.toInt (a3 (ix3 b (1 : Fin 2) n))).toNat
    rw [r_v41_snd, wrapWord_nonneg _ _ (hpos b 1 n).1]
    have := hpos b 1 n
    omega

theorem k_v30_eq_r_v42 (hpos : ∀ (b : Fin 8) (j : Fin 2) (n : Fin 2048), 0 ≤ BitVec.toInt (a3 (ix3 b j n)) ∧ BitVec.toInt (a3 (ix3 b j n)) < 64) :
    k_main_v30 (F := Ideal) a0 a1 a2 a3 = r_main_v42 (F := Ideal) a0 a1 a2 a3 := by
  funext j
  obtain ⟨b, c, n, rfl⟩ : ∃ (b : Fin 8) (c : Fin 64) (n : Fin 2048), j = ix3 b c n := ⟨j 0, j 1, j 2, eq_ix3 j⟩
  rw [k_v30_apply a0 a1 a2 a3 hpos, r_v42_apply a0 a1 a2 a3 hpos]

theorem k_v38_eq_r_v50 (hpos : ∀ (b : Fin 8) (j : Fin 2) (n : Fin 2048), 0 ≤ BitVec.toInt (a3 (ix3 b j n)) ∧ BitVec.toInt (a3 (ix3 b j n)) < 64) :
    k_main_v38 (F := Ideal) a0 a1 a2 a3 = r_main_v50 (F := Ideal) a0 a1 a2 a3 := by
  have h := k_v30_eq_r_v42 a0 a1 a2 a3 hpos
  unfold k_main_v38 k_main_v37 k_main_v36 k_main_v35 k_main_v34 k_main_v33 k_main_v32 k_main_v31 k_main_cst_3 k_main_cst_4
  unfold r_main_v50 r_main_v49 r_main_v48 r_main_v47 r_main_v46 r_main_v45 r_main_v44 r_main_v43 r_main_cst_8 r_main_cst_9
  generalize k_main_v30 (F := Ideal) a0 a1 a2 a3 = d at h ⊢
  generalize r_main_v42 (F := Ideal) a0 a1 a2 a3 = d' at h ⊢
  subst h
  rfl

theorem k_v62_eq_r_v56 (hids : ∀ (b : Fin 8) (n : Fin 2048), 0 ≤ BitVec.toInt (a2 (ix2 b n)) ∧ BitVec.toInt (a2 (ix2 b n)) < 4096)
    (hpos : ∀ (b : Fin 8) (j : Fin 2) (n : Fin 2048), 0 ≤ BitVec.toInt (a3 (ix3 b j n)) ∧ BitVec.toInt (a3 (ix3 b j n)) < 64) :
    k_main_v62 (F := Ideal) a0 a1 a2 a3 = r_main_v56 (F := Ideal) a0 a1 a2 a3 := by
  have h1 := k_v20_eq_r_v24 a0 a1 a2 a3 hids
  have h2 := k_v38_eq_r_v50 a0 a1 a2 a3 hpos
  unfold k_main_v62 k_main_v61 k_main_v60 k_main_v59 k_main_v58 k_main_v57 k_main_cst_7 k_main_cst_8 k_main_cst_9
  unfold r_main_v56 r_main_v55 r_main_v54 r_main_v53 r_main_v52 r_main_v51 r_main_cst_10 r_main_cst_11 r_main_cst_12
  generalize k_main_v20 (F := Ideal) a0 a1 a2 a3 = x at h1 ⊢
  generalize r_main_v24 (F := Ideal) a0 a1 a2 a3 = x' at h1 ⊢
  generalize k_main_v38 (F := Ideal) a0 a1 a2 a3 = y at h2 ⊢
  generalize r_main_v50 (F := Ideal) a0 a1 a2 a3 = y' at h2 ⊢
  subst h1
  subst h2
  rfl

end Cert.Bridge

end
-- ==== Proof.PosBridge.lean ====
import proofs.«417968_j21749714387505_1_alg».proof.Proof.Gen.KernelIdeal
import proofs.«417968_j21749714387505_1_alg».proof.Proof.Gen.ReferenceIdeal
import proofs.«417968_j21749714387505_1_alg».proof.Proof.KStages
import proofs.«417968_j21749714387505_1_alg».proof.Proof.RStages
import Idealize.ShloMosaic.PureOps.Ideal
import Idealize.ShloMosaic.Lib.ValueIdx
import Idealize.ShloMosaic.Lib.Pipeline.Value

noncomputable section

namespace Cert.Bridge

open Cert.KernelIdeal.Stages Cert.ReferenceIdeal.Stages Idealize.ShloMosaic Idealize.ShloMosaic.ValueIdx

abbrev XTy (F : FTy → Type) : Type := (⟨Cert.KernelIdeal.S8x64x64x64, .f32⟩ : BufTy).Contents (Elt F)

abbrev IdsTy (F : FTy → Type) : Type := (⟨Cert.KernelIdeal.S8x2048, .i32⟩ : BufTy).Contents (Elt F)

abbrev PosTy (F : FTy → Type) : Type := (⟨Cert.KernelIdeal.S8x2x2048, .i32⟩ : BufTy).Contents (Elt F)

section Generic
variable {F : FTy → Type} [FloatOps F]
variable (a0 a1 : XTy F) (a2 : IdsTy F) (a3 : PosTy F)

theorem grid_k_r67 : k_main_v56 a0 a1 a2 a3 = r_main_v67 a0 a1 a2 a3 := rfl

theorem grid_k_r104 : k_main_v56 a0 a1 a2 a3 = r_main_v104 a0 a1 a2 a3 := rfl

theorem r68_apply (b : Fin 8) (j : Fin 2) (n : Fin 2048) :
    r_main_v68 a0 a1 a2 a3 (ix4 b j n (0 : Fin 1)) = a3 (ix3 b j n) := by
  unfold r_main_v68
  exact broadcastInDim_apply _ _ a3 _ (ix3 b j n) (fun c => by
    match c with
    | ⟨0, _⟩ => rfl
    | ⟨1, _⟩ => rfl
    | ⟨2, _⟩ => rfl)

theorem pos2_k_r (b : Fin 8) (j : Fin 2) (n : Fin 2048) :
    k_main_v45 a0 a1 a2 a3 (ix3 b j n) = r_main_v69 a0 a1 a2 a3 (ix4 b j n (0 : Fin 1)) := by
  show FloatOps.sitofp .f32 (a3 (ix3 b j n)) = FloatOps.sitofp .f32 (r_main_v68 a0 a1 a2 a3 (ix4 b j n (0 : Fin 1)))
  rw [r68_apply]

theorem quot_k_r : k_main_v39 a0 a1 a2 a3 = r_main_v88 a0 a1 a2 a3 := rfl

theorem rem_k_r : k_main_v40 a0 a1 a2 a3 = r_main_v89 a0 a1 a2 a3 := rfl

theorem k43_row0 (b : Fin 8) (j : Fin 2) (n : Fin 2048) (hj : j.val = 0) :
    k_main_v43 a0 a1 a2 a3 (ix3 b j n) = k_main_v39 a0 a1 a2 a3 (ix2 b n) := by
  unfold k_main_v43
  refine (concatenate_pair_apply_left (s₁ := ⟨3, ![8, 1, 2048]⟩) (s₂ := ⟨3, ![8, 1, 2048]⟩) _ _ _ _ (ix3 b j n) rfl (ix3 b (0 : Fin 1) n) (fun c => by
    match c with
    | ⟨0, _⟩ => rfl
    | ⟨1, _⟩ => exact hj.symm
    | ⟨2, _⟩ => rfl)).trans ?_
  unfold k_main_v41
  exact broadcastInDim_apply _ _ _ _ (ix2 b n) (fun c => by
    match c with
    | ⟨0, _⟩ => rfl
    | ⟨1, _⟩ => rfl)

theorem k43_row1 (b : Fin 8) (j : Fin 2) (n : Fin 2048) (hj : j.val = 1) :
    k_main_v43 a0 a1 a2 a3 (ix3 b j n) = k_main_v40 a0 a1 a2 a3 (ix2 b n) := by
  unfold k_main_v43
  refine (concatenate_pair_apply_right (s₁ := ⟨3, ![8, 1, 2048]⟩) (s₂ := ⟨3, ![8, 1, 2048]⟩) _ _ _ _ (ix3 b j n) rfl rfl (ix3 b (0 : Fin 1) n) (fun c hc => by
    match c with
    | ⟨0, _⟩ => rfl
    | ⟨1, _⟩ => exact absurd rfl hc
    | ⟨2, _⟩ => rfl) (by show 0 + 1 = j.val; omega)).trans ?_
  unfold k_main_v42
  exact broadcastInDim_apply _ _ _ _ (ix2 b n) (fun c => by
    match c with
    | ⟨0, _⟩ => rfl
    | ⟨1, _⟩ => rfl)

theorem r92_row0 (b : Fin 8) (j : Fin 2) (n : Fin 2048) (hj : j.val = 0) :
    r_main_v92 a0 a1 a2 a3 (ix3 j b n) = r_main_v88 a0 a1 a2 a3 (ix2 b n) := by
  unfold r_main_v92
  refine (concatenate_pair_apply_left (s₁ := ⟨3, ![1, 8, 2048]⟩) (s₂ := ⟨3, ![1, 8, 2048]⟩) _ _ _ _ (ix3 j b n) rfl (ix3 (0 : Fin 1) b n) (fun c => by
    match c with
    | ⟨0, _⟩ => exact hj.symm
    | ⟨1, _⟩ => rfl
    | ⟨2, _⟩ => rfl)).trans ?_
  unfold r_main_v90
  exact broadcastInDim_apply _ _ _ _ (ix2 b n) (fun c => by
    match c with
    | ⟨0, _⟩ => rfl
    | ⟨1, _⟩ => rfl)

theorem r92_row1 (b : Fin 8) (j : Fin 2) (n : Fin 2048) (hj : j.val = 1) :
    r_main_v92 a0 a1 a2 a3 (ix3 j b n) = r_main_v89 a0 a1 a2 a3 (ix2 b n) := by
  unfold r_main_v92
  refine (concatenate_pair_apply_right (s₁ := ⟨3, ![1, 8, 2048]⟩) (s₂ := ⟨3, ![1, 8, 2048]⟩) _ _ _ _ (ix3 j b n) rfl rfl (ix3 (0 : Fin 1) b n) (fun c hc => by
    match c with
    | ⟨0, _⟩ => exact absurd rfl hc
    | ⟨1, _⟩ => rfl
    | ⟨2, _⟩ => rfl) (by show 0 + 1 = j.val; omega)).trans ?_
  unfold r_main_v91
  exact broadcastInDim_apply _ _ _ _ (ix2 b n) (fun c => by
    match c with
    | ⟨0, _⟩ => rfl
    | ⟨1, _⟩ => rfl)

theorem r106_apply (b : Fin 8) (j : Fin 2) (n : Fin 2048) :
    r_main_v106 a0 a1 a2 a3 (ix4 b j n (0 : Fin 1)) = FloatOps.sitofp .f32 (r_main_v92 a0 a1 a2 a3 (ix3 j b n)) := by
  unfold r_main_v106
  refine (broadcastInDim_apply _ _ _ _ (ix3 b j n) (fun c => by
    match c with
    | ⟨0, _⟩ => rfl
    | ⟨1, _⟩ => rfl
    | ⟨2, _⟩ => rfl)).trans ?_
  unfold r_main_v105
  refine (transpose_apply _ _ _ (ix3 b j n) (ix3 j b n) (fun c => by
    match c with
    | ⟨0, _⟩ => rfl
    | ⟨1, _⟩ => rfl
    | ⟨2, _⟩ => rfl)).trans ?_
  rfl

theorem k44_apply (b : Fin 8) (j : Fin 2) (n : Fin 2048) :
    k_main_v44 a0 a1 a2 a3 (ix3 b j n) = FloatOps.sitofp .f32 (k_main_v43 a0 a1 a2 a3 (ix3 b j n)) := rfl

theorem own_k_r (b : Fin 8) (j : Fin 2) (n : Fin 2048) :
    k_main_v44 a0 a1 a2 a3 (ix3 b j n) = r_main_v106 a0 a1 a2 a3 (ix4 b j n (0 : Fin 1)) := by
  rw [k44_apply, r106_apply]
  refine congrArg _ ?_
  by_cases hj : j.val = 0
  · rw [k43_row0 a0 a1 a2 a3 b j n hj, r92_row0 a0 a1 a2 a3 b j n hj, quot_k_r]
  · have hj1 : j.val = 1 := by have := j.isLt; omega
    rw [k43_row1 a0 a1 a2 a3 b j n hj1, r92_row1 a0 a1 a2 a3 b j n hj1, rem_k_r]

end Generic

section AtIdeal
variable (a0 a1 : XTy Ideal) (a2 : IdsTy Ideal) (a3 : PosTy Ideal)

theorem pos2_val (i : Cert.KernelIdeal.S8x2x2048.Idx) :
    k_main_v45 (F := Ideal) a0 a1 a2 a3 i = (((a3 i).toInt : ℝ) : EReal) := rfl

theorem own_val (i : Cert.KernelIdeal.S8x2x2048.Idx) :
    k_main_v44 (F := Ideal) a0 a1 a2 a3 i = (((k_main_v43 (F := Ideal) a0 a1 a2 a3 i).toInt : ℝ) : EReal) := rfl

theorem grid_val (i : Cert.KernelIdeal.S2x4096.Idx) :
    k_main_v56 (F := Ideal) a0 a1 a2 a3 i = (((k_main_v55 (F := Ideal) a0 a1 a2 a3 i).toInt : ℝ) : EReal) := rfl

theorem own_val_row0 (b : Fin 8) (j : Fin 2) (n : Fin 2048) (hj : j.val = 0) :
    k_main_v44 (F := Ideal) a0 a1 a2 a3 (ix3 b j n)
      = (((k_main_v39 (F := Ideal) a0 a1 a2 a3 (ix2 b n)).toInt : ℝ) : EReal) := by
  rw [own_val, k43_row0 a0 a1 a2 a3 b j n hj]

theorem own_val_row1 (b : Fin 8) (j : Fin 2) (n : Fin 2048) (hj : j.val = 1) :
    k_main_v44 (F := Ideal) a0 a1 a2 a3 (ix3 b j n)
      = (((k_main_v40 (F := Ideal) a0 a1 a2 a3 (ix2 b n)).toInt : ℝ) : EReal) := by
  rw [own_val, k43_row1 a0 a1 a2 a3 b j n hj]

theorem pos2_real (b : Fin 8) (j : Fin 2) (n : Fin 2048) :
    ∃ r : ℝ, k_main_v45 (F := Ideal) a0 a1 a2 a3 (ix3 b j n) = (r : EReal) :=
  ⟨_, pos2_val a0 a1 a2 a3 (ix3 b j n)⟩

theorem own_real (b : Fin 8) (j : Fin 2) (n : Fin 2048) :
    ∃ r : ℝ, k_main_v44 (F := Ideal) a0 a1 a2 a3 (ix3 b j n) = (r : EReal) :=
  ⟨_, own_val a0 a1 a2 a3 (ix3 b j n)⟩

theorem grid_real (j : Fin 2) (m : Fin 4096) :
    ∃ r : ℝ, k_main_v56 (F := Ideal) a0 a1 a2 a3 (ix2 j m) = (r : EReal) :=
  ⟨_, grid_val a0 a1 a2 a3 (ix2 j m)⟩

end AtIdeal

end Cert.Bridge

end
-- ==== Proof.NormBound.lean ====
import proofs.«417968_j21749714387505_1_alg».proof.Proof.Gen.ReferenceIdeal
import proofs.«417968_j21749714387505_1_alg».proof.Proof.RStages
import Idealize.ShloMosaic.Lib.IdealHost
import Idealize.ShloMosaic.Lib.Pipeline.Value
import Mathlib.Analysis.Real.Sqrt
import Mathlib.Data.EReal.Basic

noncomputable section

open scoped BigOperators

namespace Cert.Bridge

open Idealize.ShloMosaic Idealize.ShloMosaic.ValueIdx Cert.ReferenceIdeal Cert.ReferenceIdeal.Stages
open Facts₀ Facts

theorem coe_sum64 (g : Fin 64 → ℝ) : ∑ k : Fin 64, ((g k : ℝ) : EReal) = ((∑ k : Fin 64, g k : ℝ) : EReal) := by
  have : ∀ s : Finset (Fin 64), ∑ k ∈ s, ((g k : ℝ) : EReal) = ((∑ k ∈ s, g k : ℝ) : EReal) := by
    intro s
    induction s using Finset.induction_on with
    | empty => simp
    | insert a s ha ih => rw [Finset.sum_insert ha, Finset.sum_insert ha, ih, EReal.coe_add]
  exact this Finset.univ

-- A coordinate of a real vector divided by max(its norm, ε) is a real of absolute value at most 1.
theorem normalise_scalar (f : Fin 64 → ℝ) (ε : ℝ) (hε : 0 < ε) (c : Fin 64) :
    ∃ r : ℝ, Ideal.div ((f c : ℝ) : EReal)
        (max (Ideal.sqrt (0 + ∑ k : Fin 64, ((f k : ℝ) : EReal) * ((f k : ℝ) : EReal))) ((ε : ℝ) : EReal)) = (r : EReal)
      ∧ |r| ≤ 1 := by
  set S : ℝ := ∑ k : Fin 64, f k * f k with hS
  have hS0 : 0 ≤ S := Finset.sum_nonneg (fun k _ => mul_self_nonneg (f k))
  have hsum : (0 : EReal) + ∑ k : Fin 64, ((f k : ℝ) : EReal) * ((f k : ℝ) : EReal) = ((S : ℝ) : EReal) := by
    rw [zero_add, hS, ← coe_sum64]
    exact Finset.sum_congr rfl (fun k _ => (EReal.coe_mul _ _).symm)
  have hsqrt : Ideal.sqrt ((S : ℝ) : EReal) = ((Real.sqrt S : ℝ) : EReal) := by
    rw [Ideal.sqrt_coe, if_neg (not_lt.mpr hS0)]
  have hmax : max ((Real.sqrt S : ℝ) : EReal) ((ε : ℝ) : EReal) = ((max (Real.sqrt S) ε : ℝ) : EReal) :=
    (EReal.coe_strictMono.monotone.map_max).symm
  set N : ℝ := max (Real.sqrt S) ε with hN
  have hNpos : 0 < N := lt_of_lt_of_le hε (le_max_right _ _)
  have hle : |f c| ≤ N := by
    refine le_trans (Real.abs_le_sqrt ?_) (le_max_left _ _)
    rw [sq]
    exact Finset.single_le_sum (f := fun k => f k * f k) (fun k _ => mul_self_nonneg (f k)) (Finset.mem_univ c)
  refine ⟨f c * (1 / N), ?_, ?_⟩
  · rw [hsum, hsqrt, hmax, Ideal.div_coe (ne_of_gt hNpos), ← EReal.coe_mul]
  · rw [abs_mul, abs_of_pos (one_div_pos.mpr hNpos), mul_one_div, div_le_one hNpos]
    exact hle

theorem eps_eq : Ideal.ofBits .f32 0x2B8CBCCC#32 = (((9223372 : ℝ) * (2 : ℝ) ^ (-63 : ℤ) : ℝ) : EReal) := by
  simp [Ideal.ofBits, Ideal.ieee, -EReal.coe_mul]

theorem eps_pos : (0 : ℝ) < (9223372 : ℝ) * (2 : ℝ) ^ (-63 : ℤ) := by positivity

def normBank (x : FVec Ideal S8x64x4096 .f32) : FVec Ideal S8x64x4096 .f32 :=
  Host.divf x
    (broadcastInDim S8x64x4096 ![0, 1, 2] bcast_S8x1x4096_S8x64x4096_0_1_2
      (maximumf
        (Host.sqrt (broadcastInDim S8x1x4096 ![0, 2] bcast_S8x4096_S8x1x4096_0_2
          (Host.reduceAdd (mulf x x) (constant (F := Ideal) S_ .f32 0x00000000#32) reducesTo_S8x64x4096_S8x4096_d1 h_S_)))
        (broadcastInDim S8x1x4096 ![] bcast_S_S8x1x4096 (constant (F := Ideal) S_ .f32 0x2B8CBCCC#32))))

theorem r_main_v8_eq (a0 a1 : (⟨S8x64x64x64, .f32⟩ : BufTy).Contents (Elt Ideal)) (a2 : (⟨S8x2048, .i32⟩ : BufTy).Contents (Elt Ideal))
    (a3 : (⟨S8x2x2048, .i32⟩ : BufTy).Contents (Elt Ideal)) :
    r_main_v8 (F := Ideal) a0 a1 a2 a3 = normBank (r_main_v0 (F := Ideal) a0 a1 a2 a3) := rfl

theorem r_main_v17_eq (a0 a1 : (⟨S8x64x64x64, .f32⟩ : BufTy).Contents (Elt Ideal)) (a2 : (⟨S8x2048, .i32⟩ : BufTy).Contents (Elt Ideal))
    (a3 : (⟨S8x2x2048, .i32⟩ : BufTy).Contents (Elt Ideal)) :
    r_main_v17 (F := Ideal) a0 a1 a2 a3 = normBank (r_main_v9 (F := Ideal) a0 a1 a2 a3) := rfl

theorem lift4096 (hR : S8x64x4096.Reduces [1] S8x4096) (b : Fin 8) (m : Fin 4096) (k : Fin 64) :
    hR.lift (ix2 b m) k = ix3 b k m := by
  funext a
  match a with
  | ⟨0, _⟩ => exact Fin.ext rfl
  | ⟨1, _⟩ => exact Fin.ext rfl
  | ⟨2, _⟩ => exact Fin.ext rfl

theorem normBank_apply (x : FVec Ideal S8x64x4096 .f32) (b : Fin 8) (c : Fin 64) (m : Fin 4096) :
    normBank x (ix3 b c m) = Ideal.div (x (ix3 b c m))
      (max (Ideal.sqrt (0 + ∑ k : Fin 64, x (ix3 b k m) * x (ix3 b k m))) (Ideal.ofBits .f32 0x2B8CBCCC#32)) := by
  have hR : S8x64x4096.Reduces [1] S8x4096 := by decide
  unfold normBank
  refine (hostDivf_apply _ _ _).trans ?_
  congr 1
  refine (broadcastInDim_apply _ _ _ (ix3 b c m) (ix3 b (0 : Fin 1) m)
    (fun a => match a with | ⟨0, _⟩ => rfl | ⟨1, _⟩ => rfl | ⟨2, _⟩ => rfl)).trans ?_
  refine (maximumf_apply _ _ _).trans ?_
  congr 1
  show Ideal.sqrt _ = Ideal.sqrt _
  congr 1
  refine (broadcastInDim_apply _ _ _ (ix3 b (0 : Fin 1) m) (ix2 b m)
    (fun a => match a with | ⟨0, _⟩ => rfl | ⟨1, _⟩ => rfl)).trans ?_
  refine (hostReduceAdd_apply _ _ _ _ _).trans ?_
  refine (Ideal.hostReduceAdd_single _ hR _ _ _).trans ?_
  show Ideal.ofBits .f32 0x00000000#32 + ∑ k : Fin 64, (mulf x x) (hR.lift (ix2 b m) k) = _
  rw [Ideal.ofBits_zero_f32]
  congr 1
  refine Finset.sum_congr rfl (fun k _ => ?_)
  rw [lift4096]
  rfl

theorem normBank_bound (x : FVec Ideal S8x64x4096 .f32) (hx : ∀ i, ∃ r : ℝ, x i = (r : EReal))
    (b : Fin 8) (c : Fin 64) (m : Fin 4096) : ∃ r : ℝ, normBank x (ix3 b c m) = (r : EReal) ∧ |r| ≤ 1 := by
  choose f hf using hx
  have h := normalise_scalar (fun k => f (ix3 b k m)) _ eps_pos c
  rw [normBank_apply, eps_eq]
  simp only [hf]
  exact h

def normAnchors (x : FVec Ideal S8x64x2048 .f32) : FVec Ideal S8x64x2048 .f32 :=
  Host.divf x
    (broadcastInDim S8x64x2048 ![0, 1, 2] bcast_S8x1x2048_S8x64x2048_0_1_2
      (maximumf
        (Host.sqrt (broadcastInDim S8x1x2048 ![0, 2] bcast_S8x2048_S8x1x2048_0_2
          (Host.reduceAdd (mulf x x) (constant (F := Ideal) S_ .f32 0x00000000#32) reducesTo_S8x64x2048_S8x2048_d1 h_S_)))
        (broadcastInDim S8x1x2048 ![] bcast_S_S8x1x2048 (constant (F := Ideal) S_ .f32 0x2B8CBCCC#32))))

theorem r_main_v50_eq (a0 a1 : (⟨S8x64x64x64, .f32⟩ : BufTy).Contents (Elt Ideal)) (a2 : (⟨S8x2048, .i32⟩ : BufTy).Contents (Elt Ideal))
    (a3 : (⟨S8x2x2048, .i32⟩ : BufTy).Contents (Elt Ideal)) :
    r_main_v50 (F := Ideal) a0 a1 a2 a3 = normAnchors (r_main_v42 (F := Ideal) a0 a1 a2 a3) := rfl

theorem lift2048 (hR : S8x64x2048.Reduces [1] S8x2048) (b : Fin 8) (m : Fin 2048) (k : Fin 64) :
    hR.lift (ix2 b m) k = ix3 b k m := by
  funext a
  match a with
  | ⟨0, _⟩ => exact Fin.ext rfl
  | ⟨1, _⟩ => exact Fin.ext rfl
  | ⟨2, _⟩ => exact Fin.ext rfl

theorem normAnchors_apply (x : FVec Ideal S8x64x2048 .f32) (b : Fin 8) (c : Fin 64) (m : Fin 2048) :
    normAnchors x (ix3 b c m) = Ideal.div (x (ix3 b c m))
      (max (Ideal.sqrt (0 + ∑ k : Fin 64, x (ix3 b k m) * x (ix3 b k m))) (Ideal.ofBits .f32 0x2B8CBCCC#32)) := by
  have hR : S8x64x2048.Reduces [1] S8x2048 := by decide
  unfold normAnchors
  refine (hostDivf_apply _ _ _).trans ?_
  congr 1
  refine (broadcastInDim_apply _ _ _ (ix3 b c m) (ix3 b (0 : Fin 1) m)
    (fun a => match a with | ⟨0, _⟩ => rfl | ⟨1, _⟩ => rfl | ⟨2, _⟩ => rfl)).trans ?_
  refine (maximumf_apply _ _ _).trans ?_
  congr 1
  show Ideal.sqrt _ = Ideal.sqrt _
  congr 1
  refine (broadcastInDim_apply _ _ _ (ix3 b (0 : Fin 1) m) (ix2 b m)
    (fun a => match a with | ⟨0, _⟩ => rfl | ⟨1, _⟩ => rfl)).trans ?_
  refine (hostReduceAdd_apply _ _ _ _ _).trans ?_
  refine (Ideal.hostReduceAdd_single _ hR _ _ _).trans ?_
  show Ideal.ofBits .f32 0x00000000#32 + ∑ k : Fin 64, (mulf x x) (hR.lift (ix2 b m) k) = _
  rw [Ideal.ofBits_zero_f32]
  congr 1
  refine Finset.sum_congr rfl (fun k _ => ?_)
  rw [lift2048]
  rfl

theorem normAnchors_bound (x : FVec Ideal S8x64x2048 .f32) (hx : ∀ i, ∃ r : ℝ, x i = (r : EReal))
    (b : Fin 8) (c : Fin 64) (m : Fin 2048) : ∃ r : ℝ, normAnchors x (ix3 b c m) = (r : EReal) ∧ |r| ≤ 1 := by
  choose f hf using hx
  have h := normalise_scalar (fun k => f (ix3 b k m)) _ eps_pos c
  rw [normAnchors_apply, eps_eq]
  simp only [hf]
  exact h

theorem r_main_v8_bound (a0 a1 : (⟨S8x64x64x64, .f32⟩ : BufTy).Contents (Elt Ideal)) (a2 : (⟨S8x2048, .i32⟩ : BufTy).Contents (Elt Ideal))
    (a3 : (⟨S8x2x2048, .i32⟩ : BufTy).Contents (Elt Ideal))
    (h0 : ∀ i, ∃ r : ℝ, a0 i = (r : EReal)) (b : Fin 8) (c : Fin 64) (m : Fin 4096) :
    ∃ r : ℝ, r_main_v8 (F := Ideal) a0 a1 a2 a3 (ix3 b c m) = (r : EReal) ∧ |r| ≤ 1 := by
  rw [r_main_v8_eq]
  exact normBank_bound _ (fun i => h0 (Shape.reshapeEquiv shapeCasts_S8x64x64x64_S8x64x4096 i)) b c m

theorem r_main_v17_bound (a0 a1 : (⟨S8x64x64x64, .f32⟩ : BufTy).Contents (Elt Ideal)) (a2 : (⟨S8x2048, .i32⟩ : BufTy).Contents (Elt Ideal))
    (a3 : (⟨S8x2x2048, .i32⟩ : BufTy).Contents (Elt Ideal))
    (h1 : ∀ i, ∃ r : ℝ, a1 i = (r : EReal)) (b : Fin 8) (c : Fin 64) (m : Fin 4096) :
    ∃ r : ℝ, r_main_v17 (F := Ideal) a0 a1 a2 a3 (ix3 b c m) = (r : EReal) ∧ |r| ≤ 1 := by
  rw [r_main_v17_eq]
  exact normBank_bound _ (fun i => h1 (Shape.reshapeEquiv shapeCasts_S8x64x64x64_S8x64x4096 i)) b c m

theorem r_main_v50_bound (a0 a1 : (⟨S8x64x64x64, .f32⟩ : BufTy).Contents (Elt Ideal)) (a2 : (⟨S8x2048, .i32⟩ : BufTy).Contents (Elt Ideal))
    (a3 : (⟨S8x2x2048, .i32⟩ : BufTy).Contents (Elt Ideal))
    (h42 : ∀ i, ∃ r : ℝ, r_main_v42 (F := Ideal) a0 a1 a2 a3 i = (r : EReal)) (b : Fin 8) (c : Fin 64) (m : Fin 2048) :
    ∃ r : ℝ, r_main_v50 (F := Ideal) a0 a1 a2 a3 (ix3 b c m) = (r : EReal) ∧ |r| ≤ 1 := by
  rw [r_main_v50_eq]
  exact normAnchors_bound _ h42 b c m

end Cert.Bridge

end
-- ==== Proof.PreTail.lean ====
import proofs.«417968_j21749714387505_1_alg».proof.Proof.Gen.KernelIdeal
import proofs.«417968_j21749714387505_1_alg».proof.Proof.Gen.ReferenceIdeal
import proofs.«417968_j21749714387505_1_alg».proof.Proof.Gen.Pre_finite_inputs
import proofs.«417968_j21749714387505_1_alg».proof.Proof.KStages
import proofs.«417968_j21749714387505_1_alg».proof.Proof.RStages
import Idealize.ShloMosaic.Lib.ReduceAll
import Idealize.ShloMosaic.Lib.StableHlo.Predicate
import Idealize.ShloMosaic.Lib.ValueIdx
import Idealize.ShloMosaic.PureOps.Ideal.Laws
import Mathlib.Data.EReal.Operations
import Mathlib.Algebra.BigOperators.Group.Finset.Basic

noncomputable section

open scoped BigOperators

namespace Cert.Bridge

open Idealize.ShloMosaic Idealize.ShloMosaic.ValueIdx

instance : Subsingleton Cert.Pre_finite_inputs.S_.Idx := ⟨fun a b => funext fun d => d.elim0⟩

theorem ofBits_inf : Ideal.ofBits .f32 0x7F800000#32 = ⊤ := by
  simp [Ideal.ofBits, Ideal.ieee]

theorem real_of_abs_lt (x : EReal)
    (hx : FloatOps.cmpf (F := Ideal) (φ := .f32) .olt (FloatOps.hostAbsf (F := Ideal) (φ := .f32) x)
      (Ideal.ofBits .f32 0x7F800000#32) = 1#1) : ∃ r : ℝ, x = (r : EReal) := by
  rw [ofBits_inf] at hx
  induction x using EReal.rec with
  | bot => exact absurd hx (by simp [Ideal.cmpf_def, Ideal.absf_def, Ideal.cmp])
  | top => exact absurd hx (by simp [Ideal.cmpf_def, Ideal.absf_def, Ideal.cmp])
  | coe r => exact ⟨r, rfl⟩

-- The precondition read back: both float arrays are finite, the ids lie in [0, 4096) and the positions in [0, 64).
theorem pre_decode
    (a0 a1 : (⟨Cert.Pre_finite_inputs.S8x64x64x64, .f32⟩ : BufTy).Contents (Elt Ideal))
    (a2 : (⟨Cert.Pre_finite_inputs.S8x2048, .i32⟩ : BufTy).Contents (Elt Ideal))
    (a3 : (⟨Cert.Pre_finite_inputs.S8x2x2048, .i32⟩ : BufTy).Contents (Elt Ideal))
    (h : Cert.Pre_finite_inputs.fn (F := Ideal) a0 a1 a2 a3 = fun _ => 1#1) :
    (∀ i, ∃ r : ℝ, a0 i = (r : EReal)) ∧ (∀ i, ∃ r : ℝ, a1 i = (r : EReal))
      ∧ (∀ (b : Fin 8) (n : Fin 2048), 0 ≤ (a2 (ix2 b n)).toInt ∧ (a2 (ix2 b n)).toInt < 4096)
      ∧ (∀ (b : Fin 8) (j : Fin 2) (n : Fin 2048), 0 ≤ (a3 (ix3 b j n)).toInt ∧ (a3 (ix3 b j n)).toInt < 64) := by
  have e := congrFun h ix0
  dsimp only [Cert.Pre_finite_inputs.fn, Cert.Pre_finite_inputs.fn_part1] at e
  simp only [andi, IntOp.andi_eq_one] at e
  obtain ⟨⟨⟨⟨⟨e0, e1⟩, e2⟩, e3⟩, e4⟩, e5⟩ := e
  have f0 := Host.reduce_andi_all _ _ _ _ _ e0
  have f1 := Host.reduce_andi_all _ _ _ _ _ e1
  have f2 := Host.reduce_andi_all _ _ _ _ _ e2
  have f3 := Host.reduce_andi_all _ _ _ _ _ e3
  have f4 := Host.reduce_andi_all _ _ _ _ _ e4
  have f5 := Host.reduce_andi_all _ _ _ _ _ e5
  have z0 : (0#32 : BitVec 32).toInt = 0 := by decide
  have z4096 : (4096#32 : BitVec 32).toInt = 4096 := by decide
  have z64 : (64#32 : BitVec 32).toInt = 64 := by decide
  refine ⟨fun i => real_of_abs_lt _ (f0 i), fun i => real_of_abs_lt _ (f1 i), fun b n => ⟨?_, ?_⟩, fun b j n => ⟨?_, ?_⟩⟩
  · have t : (0#32 : BitVec 32).toInt ≤ (a2 (ix2 b n)).toInt := IntOp.cmpi_sge.mp (f2 (ix2 b n))
    rwa [z0] at t
  · have t : (a2 (ix2 b n)).toInt < (4096#32 : BitVec 32).toInt := IntOp.cmpi_slt.mp (f3 (ix2 b n))
    rwa [z4096] at t
  · have t : (0#32 : BitVec 32).toInt ≤ (a3 (ix3 b j n)).toInt := IntOp.cmpi_sge.mp (f4 (ix3 b j n))
    rwa [z0] at t
  · have t : (a3 (ix3 b j n)).toInt < (64#32 : BitVec 32).toInt := IntOp.cmpi_slt.mp (f5 (ix3 b j n))
    rwa [z64] at t

section Tail
variable {F : FTy → Type} [FloatOps F]

def kTail [Cert.KernelIdeal.Facts] (pos n1 n2 : FVec F Cert.KernelIdeal.S8x2048 .f32) : FVec F Cert.KernelIdeal.S_ .f32 :=
  Host.divf
    ((fun x v => Host.reduceAdd x v Cert.KernelIdeal.Facts₀.reducesTo_S8x2048_S_d0_1 Cert.KernelIdeal.Facts₀.h_S_)
      (maximumf
        (addf
          (broadcastInDim Cert.KernelIdeal.S8x2048 ![] Cert.KernelIdeal.Facts₀.bcast_S_S8x2048
            (constant Cert.KernelIdeal.S_ .f32 0x3F800000#32))
          (subf pos (minimumf n1 n2)))
        (broadcastInDim Cert.KernelIdeal.S8x2048 ![] Cert.KernelIdeal.Facts₀.bcast_S_S8x2048
          (constant Cert.KernelIdeal.S_ .f32 0x00000000#32)))
      (constant Cert.KernelIdeal.S_ .f32 0x00000000#32))
    (constant Cert.KernelIdeal.S_ .f32 0x46800000#32)

def rTail [Cert.ReferenceIdeal.Facts] (pos n1 n2 : FVec F Cert.ReferenceIdeal.S8x2048 .f32) : FVec F Cert.ReferenceIdeal.S_ .f32 :=
  Host.divf
    ((fun x v => Host.reduceAdd x v Cert.ReferenceIdeal.Facts₀.reducesTo_S8_S_d0 Cert.ReferenceIdeal.Facts₀.h_S_)
      (Host.divf
        ((fun x v => Host.reduceAdd x v Cert.ReferenceIdeal.Facts₀.reducesTo_S8x2048_S8_d1 Cert.ReferenceIdeal.Facts₀.h_S_)
          (maximumf
            (addf
              (broadcastInDim Cert.ReferenceIdeal.S8x2048 ![] Cert.ReferenceIdeal.Facts₀.bcast_S_S8x2048
                (constant Cert.ReferenceIdeal.S_ .f32 0x3F800000#32))
              (subf pos (minimumf n1 n2)))
            (broadcastInDim Cert.ReferenceIdeal.S8x2048 ![] Cert.ReferenceIdeal.Facts₀.bcast_S_S8x2048
              (constant Cert.ReferenceIdeal.S_ .f32 0x00000000#32)))
          (constant Cert.ReferenceIdeal.S_ .f32 0x00000000#32))
        (broadcastInDim Cert.ReferenceIdeal.S8 ![] Cert.ReferenceIdeal.Facts₀.bcast_S_S8
          (constant Cert.ReferenceIdeal.S_ .f32 0x45000000#32)))
      (constant Cert.ReferenceIdeal.S_ .f32 0x00000000#32))
    (constant Cert.ReferenceIdeal.S_ .f32 0x41000000#32)

open Cert.KernelIdeal.Stages in

theorem k_main_v78_eq_kTail [Cert.KernelIdeal.Facts]
    (a0 a1 : (⟨Cert.KernelIdeal.S8x64x64x64, .f32⟩ : BufTy).Contents (Elt F))
    (a2 : (⟨Cert.KernelIdeal.S8x2048, .i32⟩ : BufTy).Contents (Elt F))
    (a3 : (⟨Cert.KernelIdeal.S8x2x2048, .i32⟩ : BufTy).Contents (Elt F))
    (o67 o69 : (⟨Cert.KernelIdeal.S8x1x2048, .f32⟩ : BufTy).Contents (Elt F)) :
    k_main_v78 a0 a1 a2 a3 o67 o69
      = kTail (k_main_v62 a0 a1 a2 a3)
          (shapeCast Cert.KernelIdeal.S8x2048 o69 Cert.KernelIdeal.Facts₀.shapeCasts_S8x1x2048_S8x2048)
          (shapeCast Cert.KernelIdeal.S8x2048 o67 Cert.KernelIdeal.Facts₀.shapeCasts_S8x1x2048_S8x2048) := rfl

open Cert.ReferenceIdeal.Stages in

theorem r_main_v134_eq_rTail [Cert.ReferenceIdeal.Facts]
    (a0 a1 : (⟨Cert.ReferenceIdeal.S8x64x64x64, .f32⟩ : BufTy).Contents (Elt F))
    (a2 : (⟨Cert.ReferenceIdeal.S8x2048, .i32⟩ : BufTy).Contents (Elt F))
    (a3 : (⟨Cert.ReferenceIdeal.S8x2x2048, .i32⟩ : BufTy).Contents (Elt F)) :
    r_main_v134 a0 a1 a2 a3
      = rTail (r_main_v56 a0 a1 a2 a3) (r_main_v124 a0 a1 a2 a3) (r_main_v87 a0 a1 a2 a3) := rfl

end Tail

def mulCoe (c : ℝ) (hc : 0 ≤ c) : EReal →+ EReal where
  toFun x := x * (c : EReal)
  map_zero' := zero_mul _
  map_add' y z := EReal.right_distrib_of_nonneg_of_ne_top (by exact_mod_cast hc) (EReal.coe_ne_top c) y z

theorem sum_mul_coe {ι : Type*} (s : Finset ι) (g : ι → EReal) (c : ℝ) (hc : 0 ≤ c) :
    (∑ i ∈ s, g i) * (c : EReal) = ∑ i ∈ s, g i * (c : EReal) :=
  map_sum (mulCoe c hc) g s

theorem ofBits_2048 : Ideal.ofBits .f32 0x45000000#32 = ((2048 : ℝ) : EReal) := by
  simp [Ideal.ofBits, Ideal.ieee, -EReal.coe_mul]; norm_num
theorem ofBits_8 : Ideal.ofBits .f32 0x41000000#32 = ((8 : ℝ) : EReal) := by
  simp [Ideal.ofBits, Ideal.ieee, -EReal.coe_mul]; norm_num
theorem ofBits_16384 : Ideal.ofBits .f32 0x46800000#32 = ((16384 : ℝ) : EReal) := by
  simp [Ideal.ofBits, Ideal.ieee, -EReal.coe_mul]; norm_num

theorem mean_eq {s t : Shape} {a : List (Fin s.rank)} (h1 : s.ReducesTo a t) (f : s.Idx → EReal) :
    (0 + ∑ i : s.Idx, f i) * (((1 / 16384 : ℝ)) : EReal)
      = (0 + ∑ j : t.Idx, (0 + ∑ i ∈ Finset.univ.filter (fun i => h1.drop i = j), f i) * (((1 / 2048 : ℝ)) : EReal))
          * (((1 / 8 : ℝ)) : EReal) := by
  simp only [zero_add]
  rw [← sum_mul_coe _ _ _ (by norm_num), Finset.sum_fiberwise, mul_assoc, ← EReal.coe_mul]
  norm_num

-- The mean over all 8 · 2048 entries is the mean over the images of the per-image means.
theorem tail_eq (pos n1 n2 : FVec Ideal Cert.KernelIdeal.S8x2048 .f32) :
    kTail (F := Ideal) pos n1 n2 = rTail (F := Ideal) pos n1 n2 := by
  funext j
  have hk : kTail (F := Ideal) pos n1 n2 j
      = Ideal.div (Ideal.hostReduceAdd Cert.KernelIdeal.Facts₀.reducesTo_S8x2048_S_d0_1
          (fun i => max (Ideal.ofBits .f32 0x3F800000#32 + (pos i - min (n1 i) (n2 i))) (Ideal.ofBits .f32 0x00000000#32))
          (Ideal.ofBits .f32 0x00000000#32) j) (Ideal.ofBits .f32 0x46800000#32) := rfl
  have hr : rTail (F := Ideal) pos n1 n2 j
      = Ideal.div (Ideal.hostReduceAdd Cert.ReferenceIdeal.Facts₀.reducesTo_S8_S_d0
          (fun b => Ideal.div (Ideal.hostReduceAdd Cert.ReferenceIdeal.Facts₀.reducesTo_S8x2048_S8_d1
            (fun i => max (Ideal.ofBits .f32 0x3F800000#32 + (pos i - min (n1 i) (n2 i))) (Ideal.ofBits .f32 0x00000000#32))
            (Ideal.ofBits .f32 0x00000000#32) b) (Ideal.ofBits .f32 0x45000000#32))
          (Ideal.ofBits .f32 0x00000000#32) j) (Ideal.ofBits .f32 0x41000000#32) := rfl
  rw [hk, hr, Ideal.hostReduceAdd_total _ (fun b => b.elim0), Ideal.hostReduceAdd_total _ (fun b => b.elim0)]
  simp only [Ideal.hostReduceAdd]
  rw [Ideal.ofBits_zero_f32, ofBits_2048, ofBits_8, ofBits_16384,
    Ideal.div_coe (by norm_num : (16384 : ℝ) ≠ 0), Ideal.div_coe (by norm_num : (8 : ℝ) ≠ 0)]
  simp only [Ideal.div_coe (by norm_num : (2048 : ℝ) ≠ 0)]
  exact mean_eq _ _

end Cert.Bridge

end
-- ==== Proof.LossBridge.lean ====
import proofs.«417968_j21749714387505_1_alg».proof.Proof.SpecDefs
import proofs.«417968_j21749714387505_1_alg».proof.Proof.RefNegMath
import proofs.«417968_j21749714387505_1_alg».proof.Proof.GatherBridge
import proofs.«417968_j21749714387505_1_alg».proof.Proof.PosBridge
import proofs.«417968_j21749714387505_1_alg».proof.Proof.NormBound
import proofs.«417968_j21749714387505_1_alg».proof.Proof.PreTail
import Idealize.ShloMosaic.Lib.ValueIdx
import Idealize.ShloMosaic.Lib.Pipeline.Value
import Idealize.ShloMosaic.PureOps.Ideal.Laws
import Mathlib.Data.EReal.Operations
import Mathlib.Algebra.Order.BigOperators.Group.Finset
import Mathlib.Order.CompleteLattice.Finset

noncomputable section

open scoped BigOperators

namespace Cert.Bridge.Loss

open Idealize.ShloMosaic Idealize.ShloMosaic.ValueIdx Cert.Spec Cert.ReferenceIdeal.NegMath

theorem two_eq : two = ((2 : ℝ) : EReal) := by
  unfold two; simp [Ideal.ofBits, Ideal.ieee, -EReal.coe_mul]; norm_num
theorem penalty_eq : penalty = ((10 : ℝ) : EReal) := by
  unfold penalty; simp [Ideal.ofBits, Ideal.ieee, -EReal.coe_mul]; norm_num
theorem zero_eq : zero = 0 := by
  unfold zero; simp [Ideal.ofBits, Ideal.ieee]
theorem big_eq : big = (((13234890 : ℝ) * (2 : ℝ) ^ (76 : ℤ) : ℝ) : EReal) := by
  unfold big; simp [Ideal.ofBits, Ideal.ieee, -EReal.coe_mul]

theorem valOf_le_big (r : ℝ) (hr : |r| ≤ 64) (d0 d1 : EReal) : valOf (r : EReal) d0 d1 ≤ big := by
  have hm : maskOf (max d0 d1) ≤ ((10 : ℝ) : EReal) := by
    unfold maskOf
    split_ifs
    · rw [zero_eq]; exact EReal.coe_nonneg.2 (by norm_num)
    · rw [penalty_eq]
  have hd : two - two * (r : EReal) = ((2 - 2 * r : ℝ) : EReal) := by
    rw [two_eq, ← EReal.coe_mul, ← EReal.coe_sub]
  have h1 : valOf (r : EReal) d0 d1 ≤ ((2 - 2 * r : ℝ) : EReal) + ((10 : ℝ) : EReal) := by
    unfold valOf; rw [hd]; exact add_le_add le_rfl hm
  refine h1.trans ?_
  rw [← EReal.coe_add, big_eq]
  refine EReal.coe_le_coe_iff.2 ?_
  have h2 := abs_le.1 hr
  have hb : (140 : ℝ) ≤ (13234890 : ℝ) * (2 : ℝ) ^ (76 : ℤ) := by norm_num
  linarith [h2.1]

theorem dot_real (q d : Fin 64 → EReal) (hq : ∀ c, ∃ r : ℝ, q c = (r : EReal) ∧ |r| ≤ 1)
    (hd : ∀ c, ∃ r : ℝ, d c = (r : EReal) ∧ |r| ≤ 1) :
    ∃ r : ℝ, ∑ c : Fin 64, q c * d c = (r : EReal) ∧ |r| ≤ 64 := by
  choose rq hq1 hq2 using hq
  choose rd hd1 hd2 using hd
  refine ⟨∑ c : Fin 64, rq c * rd c, ?_, ?_⟩
  · refine Eq.trans ?_ (coe_sum64 (fun c => rq c * rd c))
    refine Finset.sum_congr rfl fun c _ => ?_
    show q c * d c = ((rq c * rd c : ℝ) : EReal)
    rw [hq1 c, hd1 c, EReal.coe_mul]
  · refine (Finset.abs_sum_le_sum_abs _ _).trans ?_
    refine (Finset.sum_le_sum (fun c _ => (?_ : |rq c * rd c| ≤ 1))).trans ?_
    · rw [abs_mul]; exact mul_le_one₀ (hq2 c) (abs_nonneg _) (hd2 c)
    · simp

theorem dist_swap (g p : EReal) (hg : ∃ r : ℝ, g = (r : EReal)) (hp : ∃ r : ℝ, p = (r : EReal)) :
    max (g - p) (-(g - p)) = eabs (p - g) := by
  obtain ⟨rg, rfl⟩ := hg
  obtain ⟨rp, rfl⟩ := hp
  unfold eabs
  rw [← EReal.coe_sub, ← EReal.coe_sub, ← EReal.coe_neg, ← EReal.coe_neg, neg_sub, neg_sub]
  exact max_comm _ _

-- With unit-bounded descriptors every masked distance is at most `big`, so the cap changes nothing; the two sides differ by commuting the product and the sign inside the absolute value.
theorem capped_inf_eq (q : Fin 64 → EReal) (d : Fin 4096 → Fin 64 → EReal) (p0 p1 : EReal) (g0 g1 : Fin 4096 → EReal)
    (hq : ∀ c, ∃ r : ℝ, q c = (r : EReal) ∧ |r| ≤ 1) (hd : ∀ m c, ∃ r : ℝ, d m c = (r : EReal) ∧ |r| ≤ 1)
    (hp0 : ∃ r : ℝ, p0 = (r : EReal)) (hp1 : ∃ r : ℝ, p1 = (r : EReal))
    (hg0 : ∀ m, ∃ r : ℝ, g0 m = (r : EReal)) (hg1 : ∀ m, ∃ r : ℝ, g1 m = (r : EReal)) :
    min big (⨅ m : Fin 4096, valOf (∑ c : Fin 64, d m c * q c) (max (g0 m - p0) (-(g0 m - p0)))
        (max (g1 m - p1) (-(g1 m - p1))))
      = ⨅ m : Fin 4096, valOf (∑ c : Fin 64, q c * d m c) (eabs (p0 - g0 m)) (eabs (p1 - g1 m)) := by
  have e : ∀ m : Fin 4096,
      valOf (∑ c : Fin 64, d m c * q c) (max (g0 m - p0) (-(g0 m - p0))) (max (g1 m - p1) (-(g1 m - p1)))
        = valOf (∑ c : Fin 64, q c * d m c) (eabs (p0 - g0 m)) (eabs (p1 - g1 m)) := fun m => by
    rw [dist_swap _ _ (hg0 m) hp0, dist_swap _ _ (hg1 m) hp1,
      Finset.sum_congr rfl (fun c _ => mul_comm (d m c) (q c))]
  rw [iInf_congr e]
  refine min_eq_right ?_
  refine (iInf_le _ (0 : Fin 4096)).trans ?_
  obtain ⟨r, hr, hb⟩ := dot_real q (d 0) hq (hd 0)
  rw [hr]
  exact valOf_le_big r hb _ _

end Cert.Bridge.Loss

namespace Cert.Bridge

open Idealize.ShloMosaic Idealize.ShloMosaic.ValueIdx Cert.Spec Cert.KernelIdeal.Stages Cert.ReferenceIdeal.Stages
open Cert.ReferenceIdeal.NegMath Cert.Bridge.Loss

section Regions
variable (a0 a1 : XTy Ideal) (a2 : IdsTy Ideal) (a3 : PosTy Ideal)

theorem k_v63_eq : k_main_v63 (F := Ideal) a0 a1 a2 a3 = k_main_v20 (F := Ideal) a0 a1 a2 a3 :=
  funext fun i => truncf_apply (k_main_v20 (F := Ideal) a0 a1 a2 a3) _ i
theorem k_v64_eq : k_main_v64 (F := Ideal) a0 a1 a2 a3 = k_main_v38 (F := Ideal) a0 a1 a2 a3 :=
  funext fun i => truncf_apply (k_main_v38 (F := Ideal) a0 a1 a2 a3) _ i
theorem k_v65_eq : k_main_v65 (F := Ideal) a0 a1 a2 a3 = k_main_v9 (F := Ideal) a0 a1 a2 a3 :=
  funext fun i => truncf_apply (k_main_v9 (F := Ideal) a0 a1 a2 a3) _ i
theorem k_v66_eq : k_main_v66 (F := Ideal) a0 a1 a2 a3 = k_main_v17 (F := Ideal) a0 a1 a2 a3 :=
  funext fun i => truncf_apply (k_main_v17 (F := Ideal) a0 a1 a2 a3) _ i

theorem region0_eq (h0 : ∀ i, ∃ r : ℝ, a0 i = (r : EReal)) (h1 : ∀ i, ∃ r : ℝ, a1 i = (r : EReal))
    (hids : ∀ (b : Fin 8) (n : Fin 2048), 0 ≤ BitVec.toInt (a2 (ix2 b n)) ∧ BitVec.toInt (a2 (ix2 b n)) < 4096)
    (hpos : ∀ (b : Fin 8) (j : Fin 2) (n : Fin 2048), 0 ≤ BitVec.toInt (a3 (ix3 b j n)) ∧ BitVec.toInt (a3 (ix3 b j n)) < 64)
    (b : Fin 8) (n : Fin 2048) :
    min big (⨅ m : Fin 4096, valOf
          (∑ cc : Fin 64, k_main_v66 (F := Ideal) a0 a1 a2 a3 (ix3 b cc m) * k_main_v63 (F := Ideal) a0 a1 a2 a3 (ix3 b cc n))
          (max (k_main_v56 (F := Ideal) a0 a1 a2 a3 (ix2 0 m) - k_main_v45 (F := Ideal) a0 a1 a2 a3 (ix3 b 0 n)) (-(k_main_v56 (F := Ideal) a0 a1 a2 a3 (ix2 0 m) - k_main_v45 (F := Ideal) a0 a1 a2 a3 (ix3 b 0 n))))
          (max (k_main_v56 (F := Ideal) a0 a1 a2 a3 (ix2 1 m) - k_main_v45 (F := Ideal) a0 a1 a2 a3 (ix3 b 1 n)) (-(k_main_v56 (F := Ideal) a0 a1 a2 a3 (ix2 1 m) - k_main_v45 (F := Ideal) a0 a1 a2 a3 (ix3 b 1 n)))))
      = r_main_v87 (F := Ideal) a0 a1 a2 a3 (ix2 b n) := by
  refine Eq.trans ?_ (v87_apply a0 a1 a2 a3 b n).symm
  rw [k_v66_eq, k_v63_eq, k_v17_eq_r_v17, k_v20_eq_r_v24 a0 a1 a2 a3 hids, grid_k_r67,
    pos2_k_r a0 a1 a2 a3 b 0 n, pos2_k_r a0 a1 a2 a3 b 1 n]
  exact capped_inf_eq (fun c => r_main_v24 (F := Ideal) a0 a1 a2 a3 (ix3 b c n)) (fun m c => r_main_v17 (F := Ideal) a0 a1 a2 a3 (ix3 b c m))
    (r_main_v69 (F := Ideal) a0 a1 a2 a3 (ix4 b 0 n 0)) (r_main_v69 (F := Ideal) a0 a1 a2 a3 (ix4 b 1 n 0))
    (fun m => r_main_v67 (F := Ideal) a0 a1 a2 a3 (ix2 0 m)) (fun m => r_main_v67 (F := Ideal) a0 a1 a2 a3 (ix2 1 m))
    (fun c => by rw [r_v24_apply a0 a1 a2 a3 hids b c n]; exact r_main_v8_bound a0 a1 a2 a3 h0 b c _)
    (fun m c => r_main_v17_bound a0 a1 a2 a3 h1 b c m)
    (by rw [← pos2_k_r a0 a1 a2 a3 b 0 n]; exact pos2_real a0 a1 a2 a3 b 0 n)
    (by rw [← pos2_k_r a0 a1 a2 a3 b 1 n]; exact pos2_real a0 a1 a2 a3 b 1 n)
    (fun m => by rw [← grid_k_r67 a0 a1 a2 a3]; exact grid_real a0 a1 a2 a3 0 m)
    (fun m => by rw [← grid_k_r67 a0 a1 a2 a3]; exact grid_real a0 a1 a2 a3 1 m)

theorem region1_eq (h0 : ∀ i, ∃ r : ℝ, a0 i = (r : EReal)) (h1 : ∀ i, ∃ r : ℝ, a1 i = (r : EReal))
    (hpos : ∀ (b : Fin 8) (j : Fin 2) (n : Fin 2048), 0 ≤ BitVec.toInt (a3 (ix3 b j n)) ∧ BitVec.toInt (a3 (ix3 b j n)) < 64)
    (b : Fin 8) (n : Fin 2048) :
    min big (⨅ m : Fin 4096, valOf
          (∑ cc : Fin 64, k_main_v65 (F := Ideal) a0 a1 a2 a3 (ix3 b cc m) * k_main_v64 (F := Ideal) a0 a1 a2 a3 (ix3 b cc n))
          (max (k_main_v56 (F := Ideal) a0 a1 a2 a3 (ix2 0 m) - k_main_v44 (F := Ideal) a0 a1 a2 a3 (ix3 b 0 n)) (-(k_main_v56 (F := Ideal) a0 a1 a2 a3 (ix2 0 m) - k_main_v44 (F := Ideal) a0 a1 a2 a3 (ix3 b 0 n))))
          (max (k_main_v56 (F := Ideal) a0 a1 a2 a3 (ix2 1 m) - k_main_v44 (F := Ideal) a0 a1 a2 a3 (ix3 b 1 n)) (-(k_main_v56 (F := Ideal) a0 a1 a2 a3 (ix2 1 m) - k_main_v44 (F := Ideal) a0 a1 a2 a3 (ix3 b 1 n)))))
      = r_main_v124 (F := Ideal) a0 a1 a2 a3 (ix2 b n) := by
  refine Eq.trans ?_ (v124_apply a0 a1 a2 a3 b n).symm
  have h42 : ∀ i, ∃ r : ℝ, r_main_v42 (F := Ideal) a0 a1 a2 a3 i = (r : EReal) := fun i => by
    obtain ⟨b', c', n', rfl⟩ : ∃ (b' : Fin 8) (c' : Fin 64) (n' : Fin 2048), i = ix3 b' c' n' := ⟨i 0, i 1, i 2, eq_ix3 i⟩
    rw [r_v42_apply a0 a1 a2 a3 hpos b' c' n']
    exact h1 _
  rw [k_v65_eq, k_v64_eq, k_v9_eq_r_v8, k_v38_eq_r_v50 a0 a1 a2 a3 hpos, grid_k_r104,
    own_k_r a0 a1 a2 a3 b 0 n, own_k_r a0 a1 a2 a3 b 1 n]
  exact capped_inf_eq (fun c => r_main_v50 (F := Ideal) a0 a1 a2 a3 (ix3 b c n)) (fun m c => r_main_v8 (F := Ideal) a0 a1 a2 a3 (ix3 b c m))
    (r_main_v106 (F := Ideal) a0 a1 a2 a3 (ix4 b 0 n 0)) (r_main_v106 (F := Ideal) a0 a1 a2 a3 (ix4 b 1 n 0))
    (fun m => r_main_v104 (F := Ideal) a0 a1 a2 a3 (ix2 0 m)) (fun m => r_main_v104 (F := Ideal) a0 a1 a2 a3 (ix2 1 m))
    (fun c => r_main_v50_bound a0 a1 a2 a3 h42 b c n)
    (fun m c => r_main_v8_bound a0 a1 a2 a3 h0 b c m)
    (by rw [← own_k_r a0 a1 a2 a3 b 0 n]; exact own_real a0 a1 a2 a3 b 0 n)
    (by rw [← own_k_r a0 a1 a2 a3 b 1 n]; exact own_real a0 a1 a2 a3 b 1 n)
    (fun m => by rw [← grid_k_r104 a0 a1 a2 a3]; exact grid_real a0 a1 a2 a3 0 m)
    (fun m => by rw [← grid_k_r104 a0 a1 a2 a3]; exact grid_real a0 a1 a2 a3 1 m)

theorem squeeze_apply {α : Type} (o : Cert.KernelIdeal.S8x1x2048.Idx → α) (b : Fin 8) (n : Fin 2048) :
    shapeCast Cert.KernelIdeal.S8x2048 o Cert.KernelIdeal.Facts₀.shapeCasts_S8x1x2048_S8x2048 (ix2 b n)
      = o (ix3 b 0 n) :=
  shapeCast_apply o _ (ix2 b n) (ix3 b (0 : Fin 1) n) (by
    rw [Shape.rowMajor_val_three, Shape.rowMajor_val_two]
    show (b.val * 1 + 0) * 2048 + n.val = b.val * 2048 + n.val
    omega)

-- If each region's row is the capped minimum of the masked distance over the database columns, the kernel's loss is the reference's: the hardest negatives agree entry by entry and the closing means are one function.
theorem loss_bridge
    (hpre : Cert.Pre_finite_inputs.fn (F := Ideal) a0 a1 a2 a3 = fun _ => 1#1)
    (o67 o69 : (⟨Cert.KernelIdeal.S8x1x2048, .f32⟩ : BufTy).Contents (Elt Ideal))
    (h67 : ∀ (b : Fin 8) (n : Fin 2048), o67 (ix3 b 0 n)
      = min big (⨅ m : Fin 4096, valOf
          (∑ cc : Fin 64, k_main_v66 (F := Ideal) a0 a1 a2 a3 (ix3 b cc m) * k_main_v63 (F := Ideal) a0 a1 a2 a3 (ix3 b cc n))
          (max (k_main_v56 (F := Ideal) a0 a1 a2 a3 (ix2 0 m) - k_main_v45 (F := Ideal) a0 a1 a2 a3 (ix3 b 0 n)) (-(k_main_v56 (F := Ideal) a0 a1 a2 a3 (ix2 0 m) - k_main_v45 (F := Ideal) a0 a1 a2 a3 (ix3 b 0 n))))
          (max (k_main_v56 (F := Ideal) a0 a1 a2 a3 (ix2 1 m) - k_main_v45 (F := Ideal) a0 a1 a2 a3 (ix3 b 1 n)) (-(k_main_v56 (F := Ideal) a0 a1 a2 a3 (ix2 1 m) - k_main_v45 (F := Ideal) a0 a1 a2 a3 (ix3 b 1 n))))))
    (h69 : ∀ (b : Fin 8) (n : Fin 2048), o69 (ix3 b 0 n)
      = min big (⨅ m : Fin 4096, valOf
          (∑ cc : Fin 64, k_main_v65 (F := Ideal) a0 a1 a2 a3 (ix3 b cc m) * k_main_v64 (F := Ideal) a0 a1 a2 a3 (ix3 b cc n))
          (max (k_main_v56 (F := Ideal) a0 a1 a2 a3 (ix2 0 m) - k_main_v44 (F := Ideal) a0 a1 a2 a3 (ix3 b 0 n)) (-(k_main_v56 (F := Ideal) a0 a1 a2 a3 (ix2 0 m) - k_main_v44 (F := Ideal) a0 a1 a2 a3 (ix3 b 0 n))))
          (max (k_main_v56 (F := Ideal) a0 a1 a2 a3 (ix2 1 m) - k_main_v44 (F := Ideal) a0 a1 a2 a3 (ix3 b 1 n)) (-(k_main_v56 (F := Ideal) a0 a1 a2 a3 (ix2 1 m) - k_main_v44 (F := Ideal) a0 a1 a2 a3 (ix3 b 1 n)))))) :
    k_main_v78 (F := Ideal) a0 a1 a2 a3 o67 o69 = r_main_v134 (F := Ideal) a0 a1 a2 a3 := by
  obtain ⟨h0, h1, hids, hpos⟩ := pre_decode a0 a1 a2 a3 hpre
  have e67 : shapeCast Cert.KernelIdeal.S8x2048 o67 Cert.KernelIdeal.Facts₀.shapeCasts_S8x1x2048_S8x2048
      = r_main_v87 (F := Ideal) a0 a1 a2 a3 := by
    funext i
    obtain ⟨b, n, rfl⟩ : ∃ (b : Fin 8) (n : Fin 2048), i = ix2 b n := ⟨i 0, i 1, eq_ix2 i⟩
    exact ((squeeze_apply o67 b n).trans (h67 b n)).trans (region0_eq a0 a1 a2 a3 h0 h1 hids hpos b n)
  have e69 : shapeCast Cert.KernelIdeal.S8x2048 o69 Cert.KernelIdeal.Facts₀.shapeCasts_S8x1x2048_S8x2048
      = r_main_v124 (F := Ideal) a0 a1 a2 a3 := by
    funext i
    obtain ⟨b, n, rfl⟩ : ∃ (b : Fin 8) (n : Fin 2048), i = ix2 b n := ⟨i 0, i 1, eq_ix2 i⟩
    exact ((squeeze_apply o69 b n).trans (h69 b n)).trans (region1_eq a0 a1 a2 a3 h0 h1 hpos b n)
  refine (k_main_v78_eq_kTail a0 a1 a2 a3 o67 o69).trans ?_
  rw [e67, e69, k_v62_eq_r_v56 a0 a1 a2 a3 hids hpos]
  exact (tail_eq _ _ _).trans (r_main_v134_eq_rTail a0 a1 a2 a3).symm

end Regions

end Cert.Bridge

end
-- ==== Proof.KILoss.lean ====
import proofs.«417968_j21749714387505_1_alg».proof.Proof.KIRun
import proofs.«417968_j21749714387505_1_alg».proof.Proof.KI0Formula
import proofs.«417968_j21749714387505_1_alg».proof.Proof.KI1Formula
import proofs.«417968_j21749714387505_1_alg».proof.Proof.KHostRead
import proofs.«417968_j21749714387505_1_alg».proof.Proof.LossBridge

noncomputable section

namespace Cert.KernelIdeal.Hand

open Cert.KernelIdeal Cert.KernelIdeal.Gen Cert.KernelIdeal.Stages
open Idealize.ShloMosaic Idealize.ShloMosaic.TcCoe Idealize.SL.Sem ValueIdx Cert.Spec

variable (m : (ℓ : Loc nD τ sig) → Buf (Elt Ideal) ℓ) (ρ : Dev nD → PrngReg)

-- The kernel's result is its closing host stretch applied to what the two regions leave, each region's row being a minimum over all database columns.
theorem kloss (c : Dev nD)
    (hpre : Cert.Pre_finite_inputs.fn (F := Ideal) (m ((c : Thread nD τ).loc main_arg0)) (m ((c : Thread nD τ).loc main_arg1)) (m ((c : Thread nD τ).loc main_arg2)) (m ((c : Thread nD τ).loc main_arg3)) = fun _ => 1#1) :
    V13 m (outsOf m) c main_v78
      = Cert.ReferenceIdeal.Stages.r_main_v134 (F := Ideal) (m ((c : Thread nD τ).loc main_arg0)) (m ((c : Thread nD τ).loc main_arg1)) (m ((c : Thread nD τ).loc main_arg2)) (m ((c : Thread nD τ).loc main_arg3)) := by
  refine (V13_v78 m (outsOf m) c).trans ?_
  refine Cert.Bridge.loss_bridge _ _ _ _ hpre _ _ (fun b n => ?_) (fun b n => ?_)
  · refine (congrFun (outsOf_67 m c) (ix3 b 0 n)).trans ?_
    refine (region0_value (VR (V9 m)) c b n).trans ?_
    unfold region0_dist
    rw [show VR (V9 m) c main_v66 = _ from V9_v66 m c, show VR (V9 m) c main_v63 = _ from V9_v63 m c,
      show VR (V9 m) c main_v45 = _ from V9_v45 m c, show VR (V9 m) c main_v56 = _ from V9_v56 m c]
  · refine (congrFun (outsOf_69 m c) (ix3 b 0 n)).trans ?_
    refine (region1_value (VR (V11 m (outsOf m))) c b n).trans ?_
    unfold region1_dist
    rw [show VR (V11 m (outsOf m)) c main_v65 = _ from V11_v65 m (outsOf m) c, show VR (V11 m (outsOf m)) c main_v64 = _ from V11_v64 m (outsOf m) c,
      show VR (V11 m (outsOf m)) c main_v44 = _ from V11_v44 m (outsOf m) c, show VR (V11 m (outsOf m)) c main_v56 = _ from V11_v56 m (outsOf m) c]

-- Every run of the kernel program ends at the reference's value, inputs unchanged.
theorem run_loss
    (hpre : ∀ c : Dev nD, Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) = fun _ => 1#1) :
    θ_run defs (onTc (τ := τ) (main (F := Ideal))) ⟨m, fun _ => 0, ρ⟩ (fun r => ∀ c : Dev nD,
      r.2.mem ((c.tc : Thread nD τ).loc main_v78)
        = Cert.ReferenceIdeal.Stages.r_main_v134 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (kloss m c (hpre c)), (h c).2⟩) (run_result m ρ)

end Cert.KernelIdeal.Hand

end
-- ==== Proof.ROps.lean ====
import proofs.«417968_j21749714387505_1_alg».proof.ReferenceIdeal
import Idealize.ShloMosaic.Lib.StableHlo.Run

noncomputable section

namespace Cert.ReferenceIdeal.Hand

open Idealize.ShloMosaic Idealize.ShloMosaic.TcCoe Idealize.ShloMosaic.StableHlo Cert.ReferenceIdeal

variable {F : FTy → Type} [FloatOps F] [Facts]
open Facts₀ Facts

/-- Operations 1 to 40. -/
abbrev ops0 : List (HloOp τ sig (Elt F)) :=
  [ TRef.reshape (.of main_arg0 : TRef sig ⟨S8x64x64x64, .f32⟩) (.of main_v0 : TRef sig ⟨S8x64x4096, .f32⟩) rfl shapeCasts_S8x64x64x64_S8x64x4096,
    TRef.binary (.of main_v0 : TRef sig ⟨S8x64x4096, .f32⟩) (.of main_v0 : TRef sig ⟨S8x64x4096, .f32⟩) (.of main_v1 : TRef sig ⟨S8x64x4096, .f32⟩) mulf,
    TRef.nullary (.of main_cst : TRef sig ⟨S_, .f32⟩) (constant S_ .f32 0x00000000#32),
    TRef.binary (.of main_v1 : TRef sig ⟨S8x64x4096, .f32⟩) (.of main_cst : TRef sig ⟨S_, .f32⟩) (.of main_v2 : TRef sig ⟨S8x4096, .f32⟩) (fun x v => Host.reduceAdd x v reducesTo_S8x64x4096_S8x4096_d1 h_S_),
    TRef.unary (.of main_v2 : TRef sig ⟨S8x4096, .f32⟩) (.of main_v3 : TRef sig ⟨S8x1x4096, .f32⟩) (broadcastInDim S8x1x4096 ![0, 2] bcast_S8x4096_S8x1x4096_0_2),
    TRef.unary (.of main_v3 : TRef sig ⟨S8x1x4096, .f32⟩) (.of main_v4 : TRef sig ⟨S8x1x4096, .f32⟩) Host.sqrt,
    TRef.nullary (.of main_cst_0 : TRef sig ⟨S_, .f32⟩) (constant S_ .f32 0x2B8CBCCC#32),
    TRef.unary (.of main_cst_0 : TRef sig ⟨S_, .f32⟩) (.of main_v5 : TRef sig ⟨S8x1x4096, .f32⟩) (broadcastInDim S8x1x4096 ![] bcast_S_S8x1x4096),
    TRef.binary (.of main_v4 : TRef sig ⟨S8x1x4096, .f32⟩) (.of main_v5 : TRef sig ⟨S8x1x4096, .f32⟩) (.of main_v6 : TRef sig ⟨S8x1x4096, .f32⟩) maximumf,
    TRef.unary (.of main_v6 : TRef sig ⟨S8x1x4096, .f32⟩) (.of main_v7 : TRef sig ⟨S8x64x4096, .f32⟩) (broadcastInDim S8x64x4096 ![0, 1, 2] bcast_S8x1x4096_S8x64x4096_0_1_2),
    TRef.binary (.of main_v0 : TRef sig ⟨S8x64x4096, .f32⟩) (.of main_v7 : TRef sig ⟨S8x64x4096, .f32⟩) (.of main_v8 : TRef sig ⟨S8x64x4096, .f32⟩) Host.divf,
    TRef.reshape (.of main_arg1 : TRef sig ⟨S8x64x64x64, .f32⟩) (.of main_v9 : TRef sig ⟨S8x64x4096, .f32⟩) rfl shapeCasts_S8x64x64x64_S8x64x4096,
    TRef.binary (.of main_v9 : TRef sig ⟨S8x64x4096, .f32⟩) (.of main_v9 : TRef sig ⟨S8x64x4096, .f32⟩) (.of main_v10 : TRef sig ⟨S8x64x4096, .f32⟩) mulf,
    TRef.nullary (.of main_cst_1 : TRef sig ⟨S_, .f32⟩) (constant S_ .f32 0x00000000#32),
    TRef.binary (.of main_v10 : TRef sig ⟨S8x64x4096, .f32⟩) (.of main_cst_1 : TRef sig ⟨S_, .f32⟩) (.of main_v11 : TRef sig ⟨S8x4096, .f32⟩) (fun x v => Host.reduceAdd x v reducesTo_S8x64x4096_S8x4096_d1 h_S_),
    TRef.unary (.of main_v11 : TRef sig ⟨S8x4096, .f32⟩) (.of main_v12 : TRef sig ⟨S8x1x4096, .f32⟩) (broadcastInDim S8x1x4096 ![0, 2] bcast_S8x4096_S8x1x4096_0_2),
    TRef.unary (.of main_v12 : TRef sig ⟨S8x1x4096, .f32⟩) (.of main_v13 : TRef sig ⟨S8x1x4096, .f32⟩) Host.sqrt,
    TRef.nullary (.of main_cst_2 : TRef sig ⟨S_, .f32⟩) (constant S_ .f32 0x2B8CBCCC#32),
    TRef.unary (.of main_cst_2 : TRef sig ⟨S_, .f32⟩) (.of main_v14 : TRef sig ⟨S8x1x4096, .f32⟩) (broadcastInDim S8x1x4096 ![] bcast_S_S8x1x4096),
    TRef.binary (.of main_v13 : TRef sig ⟨S8x1x4096, .f32⟩) (.of main_v14 : TRef sig ⟨S8x1x4096, .f32⟩) (.of main_v15 : TRef sig ⟨S8x1x4096, .f32⟩) maximumf,
    TRef.unary (.of main_v15 : TRef sig ⟨S8x1x4096, .f32⟩) (.of main_v16 : TRef sig ⟨S8x64x4096, .f32⟩) (broadcastInDim S8x64x4096 ![0, 1, 2] bcast_S8x1x4096_S8x64x4096_0_1_2),
    TRef.binary (.of main_v9 : TRef sig ⟨S8x64x4096, .f32⟩) (.of main_v16 : TRef sig ⟨S8x64x4096, .f32⟩) (.of main_v17 : TRef sig ⟨S8x64x4096, .f32⟩) Host.divf,
    TRef.nullary (.of main_c : TRef sig ⟨S_, .i32⟩) (constantI S_ 32 0#32),
    TRef.unary (.of main_c : TRef sig ⟨S_, .i32⟩) (.of main_v18 : TRef sig ⟨S8x2048, .i32⟩) (broadcastInDim S8x2048 ![] bcast_S_S8x2048),
    TRef.binary (.of main_arg2 : TRef sig ⟨S8x2048, .i32⟩) (.of main_v18 : TRef sig ⟨S8x2048, .i32⟩) (.of main_v19 : TRef sig ⟨S8x2048, .i1⟩) (cmpi .slt),
    TRef.nullary (.of main_c_3 : TRef sig ⟨S_, .i32⟩) (constantI S_ 32 4096#32),
    TRef.unary (.of main_c_3 : TRef sig ⟨S_, .i32⟩) (.of main_v20 : TRef sig ⟨S8x2048, .i32⟩) (broadcastInDim S8x2048 ![] bcast_S_S8x2048),
    TRef.binary (.of main_arg2 : TRef sig ⟨S8x2048, .i32⟩) (.of main_v20 : TRef sig ⟨S8x2048, .i32⟩) (.of main_v21 : TRef sig ⟨S8x2048, .i32⟩) addi,
    TRef.ternary (.of main_v19 : TRef sig ⟨S8x2048, .i1⟩) (.of main_v21 : TRef sig ⟨S8x2048, .i32⟩) (.of main_arg2 : TRef sig ⟨S8x2048, .i32⟩) (.of main_v22 : TRef sig ⟨S8x2048, .i32⟩) select,
    TRef.unary (.of main_v22 : TRef sig ⟨S8x2048, .i32⟩) (.of main_v23 : TRef sig ⟨S8x2048x1, .i32⟩) (broadcastInDim S8x2048x1 ![0, 1] bcast_S8x2048_S8x2048x1_0_1),
    TRef.binary (.of main_v8 : TRef sig ⟨S8x64x4096, .f32⟩) (.of main_v23 : TRef sig ⟨S8x2048x1, .i32⟩) (.of main_v24 : TRef sig ⟨S8x64x2048, .f32⟩) (fun x i => Host.gather gather_S8x64x4096_S8x2048x1_S8x64x2048_1_2_0_0_2_2_1641 x i),
    TRef.unary (.of main_arg3 : TRef sig ⟨S8x2x2048, .i32⟩) (.of main_v25 : TRef sig ⟨S8x1x2048, .i32⟩) (extractStridedSlice S8x1x2048 ![0, 0, 0] · slices_S8x2x2048_S8x1x2048_0_0_0),
    TRef.reshape (.of main_v25 : TRef sig ⟨S8x1x2048, .i32⟩) (.of main_v26 : TRef sig ⟨S8x2048, .i32⟩) rfl shapeCasts_S8x1x2048_S8x2048,
    TRef.unary (.of main_arg3 : TRef sig ⟨S8x2x2048, .i32⟩) (.of main_v27 : TRef sig ⟨S8x1x2048, .i32⟩) (extractStridedSlice S8x1x2048 ![0, 1, 0] · slices_S8x2x2048_S8x1x2048_0_1_0),
    TRef.reshape (.of main_v27 : TRef sig ⟨S8x1x2048, .i32⟩) (.of main_v28 : TRef sig ⟨S8x2048, .i32⟩) rfl shapeCasts_S8x1x2048_S8x2048,
    TRef.nullary (.of main_c_4 : TRef sig ⟨S_, .i32⟩) (constantI S_ 32 0#32),
    TRef.unary (.of main_c_4 : TRef sig ⟨S_, .i32⟩) (.of main_v29 : TRef sig ⟨S8x2048, .i32⟩) (broadcastInDim S8x2048 ![] bcast_S_S8x2048),
    TRef.binary (.of main_v26 : TRef sig ⟨S8x2048, .i32⟩) (.of main_v29 : TRef sig ⟨S8x2048, .i32⟩) (.of main_v30 : TRef sig ⟨S8x2048, .i1⟩) (cmpi .slt),
    TRef.nullary (.of main_c_5 : TRef sig ⟨S_, .i32⟩) (constantI S_ 32 64#32),
    TRef.unary (.of main_c_5 : TRef sig ⟨S_, .i32⟩) (.of main_v31 : TRef sig ⟨S8x2048, .i32⟩) (broadcastInDim S8x2048 ![] bcast_S_S8x2048) ]

/-- Operations 41 to 80. -/
abbrev ops1 : List (HloOp τ sig (Elt F)) :=
  [ TRef.binary (.of main_v26 : TRef sig ⟨S8x2048, .i32⟩) (.of main_v31 : TRef sig ⟨S8x2048, .i32⟩) (.of main_v32 : TRef sig ⟨S8x2048, .i32⟩) addi,
    TRef.ternary (.of main_v30 : TRef sig ⟨S8x2048, .i1⟩) (.of main_v32 : TRef sig ⟨S8x2048, .i32⟩) (.of main_v26 : TRef sig ⟨S8x2048, .i32⟩) (.of main_v33 : TRef sig ⟨S8x2048, .i32⟩) select,
    TRef.nullary (.of main_c_6 : TRef sig ⟨S_, .i32⟩) (constantI S_ 32 0#32),
    TRef.unary (.of main_c_6 : TRef sig ⟨S_, .i32⟩) (.of main_v34 : TRef sig ⟨S8x2048, .i32⟩) (broadcastInDim S8x2048 ![] bcast_S_S8x2048),
    TRef.binary (.of main_v28 : TRef sig ⟨S8x2048, .i32⟩) (.of main_v34 : TRef sig ⟨S8x2048, .i32⟩) (.of main_v35 : TRef sig ⟨S8x2048, .i1⟩) (cmpi .slt),
    TRef.nullary (.of main_c_7 : TRef sig ⟨S_, .i32⟩) (constantI S_ 32 64#32),
    TRef.unary (.of main_c_7 : TRef sig ⟨S_, .i32⟩) (.of main_v36 : TRef sig ⟨S8x2048, .i32⟩) (broadcastInDim S8x2048 ![] bcast_S_S8x2048),
    TRef.binary (.of main_v28 : TRef sig ⟨S8x2048, .i32⟩) (.of main_v36 : TRef sig ⟨S8x2048, .i32⟩) (.of main_v37 : TRef sig ⟨S8x2048, .i32⟩) addi,
    TRef.ternary (.of main_v35 : TRef sig ⟨S8x2048, .i1⟩) (.of main_v37 : TRef sig ⟨S8x2048, .i32⟩) (.of main_v28 : TRef sig ⟨S8x2048, .i32⟩) (.of main_v38 : TRef sig ⟨S8x2048, .i32⟩) select,
    TRef.unary (.of main_v33 : TRef sig ⟨S8x2048, .i32⟩) (.of main_v39 : TRef sig ⟨S8x2048x1, .i32⟩) (broadcastInDim S8x2048x1 ![0, 1] bcast_S8x2048_S8x2048x1_0_1),
    TRef.unary (.of main_v38 : TRef sig ⟨S8x2048, .i32⟩) (.of main_v40 : TRef sig ⟨S8x2048x1, .i32⟩) (broadcastInDim S8x2048x1 ![0, 1] bcast_S8x2048_S8x2048x1_0_1),
    TRef.binary (.of main_v39 : TRef sig ⟨S8x2048x1, .i32⟩) (.of main_v40 : TRef sig ⟨S8x2048x1, .i32⟩) (.of main_v41 : TRef sig ⟨S8x2048x2, .i32⟩) (fun a b => concatenate S8x2048x2 2 [⟨S8x2048x1, a⟩, ⟨S8x2048x1, b⟩] concatenates_S8x2048x1_S8x2048x1_S8x2048x2_d2),
    TRef.binary (.of main_arg1 : TRef sig ⟨S8x64x64x64, .f32⟩) (.of main_v41 : TRef sig ⟨S8x2048x2, .i32⟩) (.of main_v42 : TRef sig ⟨S8x64x2048, .f32⟩) (fun x i => Host.gather gather_S8x64x64x64_S8x2048x2_S8x64x2048_1_23_0_0_23_2_16411 x i),
    TRef.binary (.of main_v42 : TRef sig ⟨S8x64x2048, .f32⟩) (.of main_v42 : TRef sig ⟨S8x64x2048, .f32⟩) (.of main_v43 : TRef sig ⟨S8x64x2048, .f32⟩) mulf,
    TRef.nullary (.of main_cst_8 : TRef sig ⟨S_, .f32⟩) (constant S_ .f32 0x00000000#32),
    TRef.binary (.of main_v43 : TRef sig ⟨S8x64x2048, .f32⟩) (.of main_cst_8 : TRef sig ⟨S_, .f32⟩) (.of main_v44 : TRef sig ⟨S8x2048, .f32⟩) (fun x v => Host.reduceAdd x v reducesTo_S8x64x2048_S8x2048_d1 h_S_),
    TRef.unary (.of main_v44 : TRef sig ⟨S8x2048, .f32⟩) (.of main_v45 : TRef sig ⟨S8x1x2048, .f32⟩) (broadcastInDim S8x1x2048 ![0, 2] bcast_S8x2048_S8x1x2048_0_2),
    TRef.unary (.of main_v45 : TRef sig ⟨S8x1x2048, .f32⟩) (.of main_v46 : TRef sig ⟨S8x1x2048, .f32⟩) Host.sqrt,
    TRef.nullary (.of main_cst_9 : TRef sig ⟨S_, .f32⟩) (constant S_ .f32 0x2B8CBCCC#32),
    TRef.unary (.of main_cst_9 : TRef sig ⟨S_, .f32⟩) (.of main_v47 : TRef sig ⟨S8x1x2048, .f32⟩) (broadcastInDim S8x1x2048 ![] bcast_S_S8x1x2048),
    TRef.binary (.of main_v46 : TRef sig ⟨S8x1x2048, .f32⟩) (.of main_v47 : TRef sig ⟨S8x1x2048, .f32⟩) (.of main_v48 : TRef sig ⟨S8x1x2048, .f32⟩) maximumf,
    TRef.unary (.of main_v48 : TRef sig ⟨S8x1x2048, .f32⟩) (.of main_v49 : TRef sig ⟨S8x64x2048, .f32⟩) (broadcastInDim S8x64x2048 ![0, 1, 2] bcast_S8x1x2048_S8x64x2048_0_1_2),
    TRef.binary (.of main_v42 : TRef sig ⟨S8x64x2048, .f32⟩) (.of main_v49 : TRef sig ⟨S8x64x2048, .f32⟩) (.of main_v50 : TRef sig ⟨S8x64x2048, .f32⟩) Host.divf,
    TRef.binary (.of main_v24 : TRef sig ⟨S8x64x2048, .f32⟩) (.of main_v50 : TRef sig ⟨S8x64x2048, .f32⟩) (.of main_v51 : TRef sig ⟨S8x64x2048, .f32⟩) mulf,
    TRef.nullary (.of main_cst_10 : TRef sig ⟨S_, .f32⟩) (constant S_ .f32 0x00000000#32),
    TRef.binary (.of main_v51 : TRef sig ⟨S8x64x2048, .f32⟩) (.of main_cst_10 : TRef sig ⟨S_, .f32⟩) (.of main_v52 : TRef sig ⟨S8x2048, .f32⟩) (fun x v => Host.reduceAdd x v reducesTo_S8x64x2048_S8x2048_d1 h_S_),
    TRef.nullary (.of main_cst_11 : TRef sig ⟨S_, .f32⟩) (constant S_ .f32 0x40000000#32),
    TRef.unary (.of main_cst_11 : TRef sig ⟨S_, .f32⟩) (.of main_v53 : TRef sig ⟨S8x2048, .f32⟩) (broadcastInDim S8x2048 ![] bcast_S_S8x2048),
    TRef.binary (.of main_v53 : TRef sig ⟨S8x2048, .f32⟩) (.of main_v52 : TRef sig ⟨S8x2048, .f32⟩) (.of main_v54 : TRef sig ⟨S8x2048, .f32⟩) mulf,
    TRef.nullary (.of main_cst_12 : TRef sig ⟨S_, .f32⟩) (constant S_ .f32 0x40000000#32),
    TRef.unary (.of main_cst_12 : TRef sig ⟨S_, .f32⟩) (.of main_v55 : TRef sig ⟨S8x2048, .f32⟩) (broadcastInDim S8x2048 ![] bcast_S_S8x2048),
    TRef.binary (.of main_v55 : TRef sig ⟨S8x2048, .f32⟩) (.of main_v54 : TRef sig ⟨S8x2048, .f32⟩) (.of main_v56 : TRef sig ⟨S8x2048, .f32⟩) subf,
    TRef.nullary (.of main_v57 : TRef sig ⟨S64, .i32⟩) (iotaInDim S64 32 0),
    TRef.unary (.of main_v57 : TRef sig ⟨S64, .i32⟩) (.of main_v58 : TRef sig ⟨S64x64, .i32⟩) (broadcastInDim S64x64 ![0] bcast_S64_S64x64_0),
    TRef.reshape (.of main_v58 : TRef sig ⟨S64x64, .i32⟩) (.of main_v59 : TRef sig ⟨S4096, .i32⟩) rfl shapeCasts_S64x64_S4096,
    TRef.nullary (.of main_v60 : TRef sig ⟨S64, .i32⟩) (iotaInDim S64 32 0),
    TRef.reshape (.of main_v60 : TRef sig ⟨S64, .i32⟩) (.of main_v61 : TRef sig ⟨S1x64, .i32⟩) rfl shapeCasts_S64_S1x64,
    TRef.unary (.of main_v61 : TRef sig ⟨S1x64, .i32⟩) (.of main_v62 : TRef sig ⟨S64x64, .i32⟩) (broadcastInDim S64x64 ![0, 1] bcast_S1x64_S64x64_0_1),
    TRef.reshape (.of main_v62 : TRef sig ⟨S64x64, .i32⟩) (.of main_v63 : TRef sig ⟨S4096, .i32⟩) rfl shapeCasts_S64x64_S4096,
    TRef.unary (.of main_v59 : TRef sig ⟨S4096, .i32⟩) (.of main_v64 : TRef sig ⟨S1x4096, .i32⟩) (broadcastInDim S1x4096 ![1] bcast_S4096_S1x4096_1) ]

/-- Operations 81 to 120. -/
abbrev ops2 : List (HloOp τ sig (Elt F)) :=
  [ TRef.unary (.of main_v63 : TRef sig ⟨S4096, .i32⟩) (.of main_v65 : TRef sig ⟨S1x4096, .i32⟩) (broadcastInDim S1x4096 ![1] bcast_S4096_S1x4096_1),
    TRef.binary (.of main_v64 : TRef sig ⟨S1x4096, .i32⟩) (.of main_v65 : TRef sig ⟨S1x4096, .i32⟩) (.of main_v66 : TRef sig ⟨S2x4096, .i32⟩) (fun a b => concatenate S2x4096 0 [⟨S1x4096, a⟩, ⟨S1x4096, b⟩] concatenates_S1x4096_S1x4096_S2x4096_d0),
    TRef.unary (.of main_v66 : TRef sig ⟨S2x4096, .i32⟩) (.of main_v67 : TRef sig ⟨S2x4096, .f32⟩) (sitofp .f32),
    TRef.unary (.of main_arg3 : TRef sig ⟨S8x2x2048, .i32⟩) (.of main_v68 : TRef sig ⟨S8x2x2048x1, .i32⟩) (broadcastInDim S8x2x2048x1 ![0, 1, 2] bcast_S8x2x2048_S8x2x2048x1_0_1_2),
    TRef.unary (.of main_v68 : TRef sig ⟨S8x2x2048x1, .i32⟩) (.of main_v69 : TRef sig ⟨S8x2x2048x1, .f32⟩) (sitofp .f32),
    TRef.unary (.of main_v67 : TRef sig ⟨S2x4096, .f32⟩) (.of main_v70 : TRef sig ⟨S2x1x4096, .f32⟩) (broadcastInDim S2x1x4096 ![0, 2] bcast_S2x4096_S2x1x4096_0_2),
    TRef.unary (.of main_v70 : TRef sig ⟨S2x1x4096, .f32⟩) (.of main_v71 : TRef sig ⟨S1x2x1x4096, .f32⟩) (broadcastInDim S1x2x1x4096 ![1, 2, 3] bcast_S2x1x4096_S1x2x1x4096_1_2_3),
    TRef.unary (.of main_v69 : TRef sig ⟨S8x2x2048x1, .f32⟩) (.of main_v72 : TRef sig ⟨S8x2x2048x4096, .f32⟩) (broadcastInDim S8x2x2048x4096 ![0, 1, 2, 3] bcast_S8x2x2048x1_S8x2x2048x4096_0_1_2_3),
    TRef.unary (.of main_v71 : TRef sig ⟨S1x2x1x4096, .f32⟩) (.of main_v73 : TRef sig ⟨S8x2x2048x4096, .f32⟩) (broadcastInDim S8x2x2048x4096 ![0, 1, 2, 3] bcast_S1x2x1x4096_S8x2x2048x4096_0_1_2_3),
    TRef.binary (.of main_v72 : TRef sig ⟨S8x2x2048x4096, .f32⟩) (.of main_v73 : TRef sig ⟨S8x2x2048x4096, .f32⟩) (.of main_v74 : TRef sig ⟨S8x2x2048x4096, .f32⟩) subf,
    TRef.unary (.of main_v74 : TRef sig ⟨S8x2x2048x4096, .f32⟩) (.of main_v75 : TRef sig ⟨S8x2x2048x4096, .f32⟩) Host.absf,
    TRef.nullary (.of main_cst_13 : TRef sig ⟨S_, .f32⟩) (constant S_ .f32 0xFF800000#32),
    TRef.binary (.of main_v75 : TRef sig ⟨S8x2x2048x4096, .f32⟩) (.of main_cst_13 : TRef sig ⟨S_, .f32⟩) (.of main_v76 : TRef sig ⟨S8x2048x4096, .f32⟩) (fun x v => Host.reduce FloatOps.maximumf x v reducesTo_S8x2x2048x4096_S8x2048x4096_d1 h_S_),
    TRef.binary (.of main_v24 : TRef sig ⟨S8x64x2048, .f32⟩) (.of main_v17 : TRef sig ⟨S8x64x4096, .f32⟩) (.of main_v77 : TRef sig ⟨S8x2048x4096, .f32⟩) (fun l r => Host.dotGeneral dot_S8x64x2048_S8x64x4096_S8x2048x4096_1_1_2_2_0_0 none l r),
    TRef.nullary (.of main_cst_14 : TRef sig ⟨S_, .f32⟩) (constant S_ .f32 0x40000000#32),
    TRef.unary (.of main_cst_14 : TRef sig ⟨S_, .f32⟩) (.of main_v78 : TRef sig ⟨S8x2048x4096, .f32⟩) (broadcastInDim S8x2048x4096 ![] bcast_S_S8x2048x4096),
    TRef.binary (.of main_v78 : TRef sig ⟨S8x2048x4096, .f32⟩) (.of main_v77 : TRef sig ⟨S8x2048x4096, .f32⟩) (.of main_v79 : TRef sig ⟨S8x2048x4096, .f32⟩) mulf,
    TRef.nullary (.of main_cst_15 : TRef sig ⟨S_, .f32⟩) (constant S_ .f32 0x40000000#32),
    TRef.unary (.of main_cst_15 : TRef sig ⟨S_, .f32⟩) (.of main_v80 : TRef sig ⟨S8x2048x4096, .f32⟩) (broadcastInDim S8x2048x4096 ![] bcast_S_S8x2048x4096),
    TRef.binary (.of main_v80 : TRef sig ⟨S8x2048x4096, .f32⟩) (.of main_v79 : TRef sig ⟨S8x2048x4096, .f32⟩) (.of main_v81 : TRef sig ⟨S8x2048x4096, .f32⟩) subf,
    TRef.nullary (.of main_cst_16 : TRef sig ⟨S_, .f32⟩) (constant S_ .f32 0x40800000#32),
    TRef.unary (.of main_cst_16 : TRef sig ⟨S_, .f32⟩) (.of main_v82 : TRef sig ⟨S8x2048x4096, .f32⟩) (broadcastInDim S8x2048x4096 ![] bcast_S_S8x2048x4096),
    TRef.binary (.of main_v76 : TRef sig ⟨S8x2048x4096, .f32⟩) (.of main_v82 : TRef sig ⟨S8x2048x4096, .f32⟩) (.of main_v83 : TRef sig ⟨S8x2048x4096, .i1⟩) (cmpf .ogt),
    TRef.nullary (.of main_cst_17 : TRef sig ⟨S_, .f32⟩) (constant S_ .f32 0x00000000#32),
    TRef.nullary (.of main_cst_18 : TRef sig ⟨S_, .f32⟩) (constant S_ .f32 0x41200000#32),
    TRef.unary (.of main_cst_17 : TRef sig ⟨S_, .f32⟩) (.of main_call0_v0 : TRef sig ⟨S2048x4096, .f32⟩) (broadcastInDim S2048x4096 ![] bcast_S_S2048x4096),
    TRef.unary (.of main_cst_18 : TRef sig ⟨S_, .f32⟩) (.of main_call0_v1 : TRef sig ⟨S2048x4096, .f32⟩) (broadcastInDim S2048x4096 ![] bcast_S_S2048x4096),
    TRef.unary (.of main_call0_v1 : TRef sig ⟨S2048x4096, .f32⟩) (.of main_call0_v2 : TRef sig ⟨S8x2048x4096, .f32⟩) (broadcastInDim S8x2048x4096 ![1, 2] bcast_S2048x4096_S8x2048x4096_1_2),
    TRef.unary (.of main_call0_v0 : TRef sig ⟨S2048x4096, .f32⟩) (.of main_call0_v3 : TRef sig ⟨S8x2048x4096, .f32⟩) (broadcastInDim S8x2048x4096 ![1, 2] bcast_S2048x4096_S8x2048x4096_1_2),
    TRef.ternary (.of main_v83 : TRef sig ⟨S8x2048x4096, .i1⟩) (.of main_call0_v3 : TRef sig ⟨S8x2048x4096, .f32⟩) (.of main_call0_v2 : TRef sig ⟨S8x2048x4096, .f32⟩) (.of main_v84 : TRef sig ⟨S8x2048x4096, .f32⟩) select,
    TRef.unary (.of main_v84 : TRef sig ⟨S8x2048x4096, .f32⟩) (.of main_v85 : TRef sig ⟨S8x2048x4096, .f32⟩) id,
    TRef.binary (.of main_v81 : TRef sig ⟨S8x2048x4096, .f32⟩) (.of main_v85 : TRef sig ⟨S8x2048x4096, .f32⟩) (.of main_v86 : TRef sig ⟨S8x2048x4096, .f32⟩) addf,
    TRef.nullary (.of main_cst_19 : TRef sig ⟨S_, .f32⟩) (constant S_ .f32 0x7F800000#32),
    TRef.binary (.of main_v86 : TRef sig ⟨S8x2048x4096, .f32⟩) (.of main_cst_19 : TRef sig ⟨S_, .f32⟩) (.of main_v87 : TRef sig ⟨S8x2048, .f32⟩) (fun x v => Host.reduce FloatOps.minimumf x v reducesTo_S8x2048x4096_S8x2048_d2 h_S_),
    TRef.nullary (.of main_c_20 : TRef sig ⟨S_, .i32⟩) (constantI S_ 32 64#32),
    TRef.unary (.of main_c_20 : TRef sig ⟨S_, .i32⟩) (.of main_call1_v0 : TRef sig ⟨S_, .i32⟩) id,
    TRef.unary (.of main_call1_v0 : TRef sig ⟨S_, .i32⟩) (.of main_call1_v1 : TRef sig ⟨S8x2048, .i32⟩) (broadcastInDim S8x2048 ![] bcast_S_S8x2048),
    TRef.binary (.of main_arg2 : TRef sig ⟨S8x2048, .i32⟩) (.of main_call1_v1 : TRef sig ⟨S8x2048, .i32⟩) (.of main_call1_v2 : TRef sig ⟨S8x2048, .i32⟩) Host.divsi,
    TRef.unary (.of main_arg2 : TRef sig ⟨S8x2048, .i32⟩) (.of main_call1_v3 : TRef sig ⟨S8x2048, .i32⟩) signi,
    TRef.unary (.of main_call1_v0 : TRef sig ⟨S_, .i32⟩) (.of main_call1_v4 : TRef sig ⟨S_, .i32⟩) signi ]

/-- Operations 121 to 160. -/
abbrev ops3 : List (HloOp τ sig (Elt F)) :=
  [ TRef.unary (.of main_call1_v4 : TRef sig ⟨S_, .i32⟩) (.of main_call1_v5 : TRef sig ⟨S8x2048, .i32⟩) (broadcastInDim S8x2048 ![] bcast_S_S8x2048),
    TRef.binary (.of main_call1_v3 : TRef sig ⟨S8x2048, .i32⟩) (.of main_call1_v5 : TRef sig ⟨S8x2048, .i32⟩) (.of main_call1_v6 : TRef sig ⟨S8x2048, .i1⟩) (cmpi .ne),
    TRef.unary (.of main_call1_v0 : TRef sig ⟨S_, .i32⟩) (.of main_call1_v7 : TRef sig ⟨S8x2048, .i32⟩) (broadcastInDim S8x2048 ![] bcast_S_S8x2048),
    TRef.binary (.of main_arg2 : TRef sig ⟨S8x2048, .i32⟩) (.of main_call1_v7 : TRef sig ⟨S8x2048, .i32⟩) (.of main_call1_v8 : TRef sig ⟨S8x2048, .i32⟩) Host.remsi,
    TRef.nullary (.of main_call1_c : TRef sig ⟨S_, .i32⟩) (constantI S_ 32 0#32),
    TRef.unary (.of main_call1_c : TRef sig ⟨S_, .i32⟩) (.of main_call1_v9 : TRef sig ⟨S8x2048, .i32⟩) (broadcastInDim S8x2048 ![] bcast_S_S8x2048),
    TRef.binary (.of main_call1_v8 : TRef sig ⟨S8x2048, .i32⟩) (.of main_call1_v9 : TRef sig ⟨S8x2048, .i32⟩) (.of main_call1_v10 : TRef sig ⟨S8x2048, .i1⟩) (cmpi .ne),
    TRef.binary (.of main_call1_v6 : TRef sig ⟨S8x2048, .i1⟩) (.of main_call1_v10 : TRef sig ⟨S8x2048, .i1⟩) (.of main_call1_v11 : TRef sig ⟨S8x2048, .i1⟩) andi,
    TRef.nullary (.of main_call1_c_0 : TRef sig ⟨S_, .i32⟩) (constantI S_ 32 1#32),
    TRef.unary (.of main_call1_c_0 : TRef sig ⟨S_, .i32⟩) (.of main_call1_v12 : TRef sig ⟨S8x2048, .i32⟩) (broadcastInDim S8x2048 ![] bcast_S_S8x2048),
    TRef.binary (.of main_call1_v2 : TRef sig ⟨S8x2048, .i32⟩) (.of main_call1_v12 : TRef sig ⟨S8x2048, .i32⟩) (.of main_call1_v13 : TRef sig ⟨S8x2048, .i32⟩) subi,
    TRef.ternary (.of main_call1_v11 : TRef sig ⟨S8x2048, .i1⟩) (.of main_call1_v13 : TRef sig ⟨S8x2048, .i32⟩) (.of main_call1_v2 : TRef sig ⟨S8x2048, .i32⟩) (.of main_v88 : TRef sig ⟨S8x2048, .i32⟩) select,
    TRef.nullary (.of main_c_21 : TRef sig ⟨S_, .i32⟩) (constantI S_ 32 64#32),
    TRef.unary (.of main_c_21 : TRef sig ⟨S_, .i32⟩) (.of main_call2_v0 : TRef sig ⟨S_, .i32⟩) id,
    TRef.nullary (.of main_call2_c : TRef sig ⟨S_, .i32⟩) (constantI S_ 32 0#32),
    TRef.binary (.of main_call2_v0 : TRef sig ⟨S_, .i32⟩) (.of main_call2_c : TRef sig ⟨S_, .i32⟩) (.of main_call2_v1 : TRef sig ⟨S_, .i1⟩) (cmpi .eq),
    TRef.nullary (.of main_call2_c_0 : TRef sig ⟨S_, .i32⟩) (constantI S_ 32 1#32),
    TRef.ternary (.of main_call2_v1 : TRef sig ⟨S_, .i1⟩) (.of main_call2_c_0 : TRef sig ⟨S_, .i32⟩) (.of main_call2_v0 : TRef sig ⟨S_, .i32⟩) (.of main_call2_v2 : TRef sig ⟨S_, .i32⟩) select,
    TRef.unary (.of main_call2_v2 : TRef sig ⟨S_, .i32⟩) (.of main_call2_v3 : TRef sig ⟨S8x2048, .i32⟩) (broadcastInDim S8x2048 ![] bcast_S_S8x2048),
    TRef.binary (.of main_arg2 : TRef sig ⟨S8x2048, .i32⟩) (.of main_call2_v3 : TRef sig ⟨S8x2048, .i32⟩) (.of main_call2_v4 : TRef sig ⟨S8x2048, .i32⟩) Host.remsi,
    TRef.nullary (.of main_call2_c_1 : TRef sig ⟨S_, .i32⟩) (constantI S_ 32 0#32),
    TRef.unary (.of main_call2_c_1 : TRef sig ⟨S_, .i32⟩) (.of main_call2_v5 : TRef sig ⟨S8x2048, .i32⟩) (broadcastInDim S8x2048 ![] bcast_S_S8x2048),
    TRef.binary (.of main_call2_v4 : TRef sig ⟨S8x2048, .i32⟩) (.of main_call2_v5 : TRef sig ⟨S8x2048, .i32⟩) (.of main_call2_v6 : TRef sig ⟨S8x2048, .i1⟩) (cmpi .ne),
    TRef.nullary (.of main_call2_c_2 : TRef sig ⟨S_, .i32⟩) (constantI S_ 32 0#32),
    TRef.unary (.of main_call2_c_2 : TRef sig ⟨S_, .i32⟩) (.of main_call2_v7 : TRef sig ⟨S8x2048, .i32⟩) (broadcastInDim S8x2048 ![] bcast_S_S8x2048),
    TRef.binary (.of main_call2_v4 : TRef sig ⟨S8x2048, .i32⟩) (.of main_call2_v7 : TRef sig ⟨S8x2048, .i32⟩) (.of main_call2_v8 : TRef sig ⟨S8x2048, .i1⟩) (cmpi .slt),
    TRef.nullary (.of main_call2_c_3 : TRef sig ⟨S_, .i32⟩) (constantI S_ 32 0#32),
    TRef.binary (.of main_call2_v2 : TRef sig ⟨S_, .i32⟩) (.of main_call2_c_3 : TRef sig ⟨S_, .i32⟩) (.of main_call2_v9 : TRef sig ⟨S_, .i1⟩) (cmpi .slt),
    TRef.unary (.of main_call2_v9 : TRef sig ⟨S_, .i1⟩) (.of main_call2_v10 : TRef sig ⟨S8x2048, .i1⟩) (broadcastInDim S8x2048 ![] bcast_S_S8x2048),
    TRef.binary (.of main_call2_v8 : TRef sig ⟨S8x2048, .i1⟩) (.of main_call2_v10 : TRef sig ⟨S8x2048, .i1⟩) (.of main_call2_v11 : TRef sig ⟨S8x2048, .i1⟩) (cmpi .ne),
    TRef.binary (.of main_call2_v11 : TRef sig ⟨S8x2048, .i1⟩) (.of main_call2_v6 : TRef sig ⟨S8x2048, .i1⟩) (.of main_call2_v12 : TRef sig ⟨S8x2048, .i1⟩) andi,
    TRef.unary (.of main_call2_v2 : TRef sig ⟨S_, .i32⟩) (.of main_call2_v13 : TRef sig ⟨S8x2048, .i32⟩) (broadcastInDim S8x2048 ![] bcast_S_S8x2048),
    TRef.binary (.of main_call2_v4 : TRef sig ⟨S8x2048, .i32⟩) (.of main_call2_v13 : TRef sig ⟨S8x2048, .i32⟩) (.of main_call2_v14 : TRef sig ⟨S8x2048, .i32⟩) addi,
    TRef.ternary (.of main_call2_v12 : TRef sig ⟨S8x2048, .i1⟩) (.of main_call2_v14 : TRef sig ⟨S8x2048, .i32⟩) (.of main_call2_v4 : TRef sig ⟨S8x2048, .i32⟩) (.of main_v89 : TRef sig ⟨S8x2048, .i32⟩) select,
    TRef.unary (.of main_v88 : TRef sig ⟨S8x2048, .i32⟩) (.of main_v90 : TRef sig ⟨S1x8x2048, .i32⟩) (broadcastInDim S1x8x2048 ![1, 2] bcast_S8x2048_S1x8x2048_1_2),
    TRef.unary (.of main_v89 : TRef sig ⟨S8x2048, .i32⟩) (.of main_v91 : TRef sig ⟨S1x8x2048, .i32⟩) (broadcastInDim S1x8x2048 ![1, 2] bcast_S8x2048_S1x8x2048_1_2),
    TRef.binary (.of main_v90 : TRef sig ⟨S1x8x2048, .i32⟩) (.of main_v91 : TRef sig ⟨S1x8x2048, .i32⟩) (.of main_v92 : TRef sig ⟨S2x8x2048, .i32⟩) (fun a b => concatenate S2x8x2048 0 [⟨S1x8x2048, a⟩, ⟨S1x8x2048, b⟩] concatenates_S1x8x2048_S1x8x2048_S2x8x2048_d0),
    TRef.unary (.of main_v92 : TRef sig ⟨S2x8x2048, .i32⟩) (.of main_v93 : TRef sig ⟨S2x8x2048, .f32⟩) (sitofp .f32),
    TRef.nullary (.of main_v94 : TRef sig ⟨S64, .i32⟩) (iotaInDim S64 32 0),
    TRef.unary (.of main_v94 : TRef sig ⟨S64, .i32⟩) (.of main_v95 : TRef sig ⟨S64x64, .i32⟩) (broadcastInDim S64x64 ![0] bcast_S64_S64x64_0) ]

/-- Operations 161 to 200. -/
abbrev ops4 : List (HloOp τ sig (Elt F)) :=
  [ TRef.reshape (.of main_v95 : TRef sig ⟨S64x64, .i32⟩) (.of main_v96 : TRef sig ⟨S4096, .i32⟩) rfl shapeCasts_S64x64_S4096,
    TRef.nullary (.of main_v97 : TRef sig ⟨S64, .i32⟩) (iotaInDim S64 32 0),
    TRef.reshape (.of main_v97 : TRef sig ⟨S64, .i32⟩) (.of main_v98 : TRef sig ⟨S1x64, .i32⟩) rfl shapeCasts_S64_S1x64,
    TRef.unary (.of main_v98 : TRef sig ⟨S1x64, .i32⟩) (.of main_v99 : TRef sig ⟨S64x64, .i32⟩) (broadcastInDim S64x64 ![0, 1] bcast_S1x64_S64x64_0_1),
    TRef.reshape (.of main_v99 : TRef sig ⟨S64x64, .i32⟩) (.of main_v100 : TRef sig ⟨S4096, .i32⟩) rfl shapeCasts_S64x64_S4096,
    TRef.unary (.of main_v96 : TRef sig ⟨S4096, .i32⟩) (.of main_v101 : TRef sig ⟨S1x4096, .i32⟩) (broadcastInDim S1x4096 ![1] bcast_S4096_S1x4096_1),
    TRef.unary (.of main_v100 : TRef sig ⟨S4096, .i32⟩) (.of main_v102 : TRef sig ⟨S1x4096, .i32⟩) (broadcastInDim S1x4096 ![1] bcast_S4096_S1x4096_1),
    TRef.binary (.of main_v101 : TRef sig ⟨S1x4096, .i32⟩) (.of main_v102 : TRef sig ⟨S1x4096, .i32⟩) (.of main_v103 : TRef sig ⟨S2x4096, .i32⟩) (fun a b => concatenate S2x4096 0 [⟨S1x4096, a⟩, ⟨S1x4096, b⟩] concatenates_S1x4096_S1x4096_S2x4096_d0),
    TRef.unary (.of main_v103 : TRef sig ⟨S2x4096, .i32⟩) (.of main_v104 : TRef sig ⟨S2x4096, .f32⟩) (sitofp .f32),
    TRef.unary (.of main_v93 : TRef sig ⟨S2x8x2048, .f32⟩) (.of main_v105 : TRef sig ⟨S8x2x2048, .f32⟩) (transpose S8x2x2048 [1, 0, 2] · transposes_S2x8x2048_S8x2x2048_1_0_2),
    TRef.unary (.of main_v105 : TRef sig ⟨S8x2x2048, .f32⟩) (.of main_v106 : TRef sig ⟨S8x2x2048x1, .f32⟩) (broadcastInDim S8x2x2048x1 ![0, 1, 2] bcast_S8x2x2048_S8x2x2048x1_0_1_2),
    TRef.unary (.of main_v104 : TRef sig ⟨S2x4096, .f32⟩) (.of main_v107 : TRef sig ⟨S2x1x4096, .f32⟩) (broadcastInDim S2x1x4096 ![0, 2] bcast_S2x4096_S2x1x4096_0_2),
    TRef.unary (.of main_v107 : TRef sig ⟨S2x1x4096, .f32⟩) (.of main_v108 : TRef sig ⟨S1x2x1x4096, .f32⟩) (broadcastInDim S1x2x1x4096 ![1, 2, 3] bcast_S2x1x4096_S1x2x1x4096_1_2_3),
    TRef.unary (.of main_v106 : TRef sig ⟨S8x2x2048x1, .f32⟩) (.of main_v109 : TRef sig ⟨S8x2x2048x4096, .f32⟩) (broadcastInDim S8x2x2048x4096 ![0, 1, 2, 3] bcast_S8x2x2048x1_S8x2x2048x4096_0_1_2_3),
    TRef.unary (.of main_v108 : TRef sig ⟨S1x2x1x4096, .f32⟩) (.of main_v110 : TRef sig ⟨S8x2x2048x4096, .f32⟩) (broadcastInDim S8x2x2048x4096 ![0, 1, 2, 3] bcast_S1x2x1x4096_S8x2x2048x4096_0_1_2_3),
    TRef.binary (.of main_v109 : TRef sig ⟨S8x2x2048x4096, .f32⟩) (.of main_v110 : TRef sig ⟨S8x2x2048x4096, .f32⟩) (.of main_v111 : TRef sig ⟨S8x2x2048x4096, .f32⟩) subf,
    TRef.unary (.of main_v111 : TRef sig ⟨S8x2x2048x4096, .f32⟩) (.of main_v112 : TRef sig ⟨S8x2x2048x4096, .f32⟩) Host.absf,
    TRef.nullary (.of main_cst_22 : TRef sig ⟨S_, .f32⟩) (constant S_ .f32 0xFF800000#32),
    TRef.binary (.of main_v112 : TRef sig ⟨S8x2x2048x4096, .f32⟩) (.of main_cst_22 : TRef sig ⟨S_, .f32⟩) (.of main_v113 : TRef sig ⟨S8x2048x4096, .f32⟩) (fun x v => Host.reduce FloatOps.maximumf x v reducesTo_S8x2x2048x4096_S8x2048x4096_d1 h_S_),
    TRef.binary (.of main_v50 : TRef sig ⟨S8x64x2048, .f32⟩) (.of main_v8 : TRef sig ⟨S8x64x4096, .f32⟩) (.of main_v114 : TRef sig ⟨S8x2048x4096, .f32⟩) (fun l r => Host.dotGeneral dot_S8x64x2048_S8x64x4096_S8x2048x4096_1_1_2_2_0_0 none l r),
    TRef.nullary (.of main_cst_23 : TRef sig ⟨S_, .f32⟩) (constant S_ .f32 0x40000000#32),
    TRef.unary (.of main_cst_23 : TRef sig ⟨S_, .f32⟩) (.of main_v115 : TRef sig ⟨S8x2048x4096, .f32⟩) (broadcastInDim S8x2048x4096 ![] bcast_S_S8x2048x4096),
    TRef.binary (.of main_v115 : TRef sig ⟨S8x2048x4096, .f32⟩) (.of main_v114 : TRef sig ⟨S8x2048x4096, .f32⟩) (.of main_v116 : TRef sig ⟨S8x2048x4096, .f32⟩) mulf,
    TRef.nullary (.of main_cst_24 : TRef sig ⟨S_, .f32⟩) (constant S_ .f32 0x40000000#32),
    TRef.unary (.of main_cst_24 : TRef sig ⟨S_, .f32⟩) (.of main_v117 : TRef sig ⟨S8x2048x4096, .f32⟩) (broadcastInDim S8x2048x4096 ![] bcast_S_S8x2048x4096),
    TRef.binary (.of main_v117 : TRef sig ⟨S8x2048x4096, .f32⟩) (.of main_v116 : TRef sig ⟨S8x2048x4096, .f32⟩) (.of main_v118 : TRef sig ⟨S8x2048x4096, .f32⟩) subf,
    TRef.nullary (.of main_cst_25 : TRef sig ⟨S_, .f32⟩) (constant S_ .f32 0x40800000#32),
    TRef.unary (.of main_cst_25 : TRef sig ⟨S_, .f32⟩) (.of main_v119 : TRef sig ⟨S8x2048x4096, .f32⟩) (broadcastInDim S8x2048x4096 ![] bcast_S_S8x2048x4096),
    TRef.binary (.of main_v113 : TRef sig ⟨S8x2048x4096, .f32⟩) (.of main_v119 : TRef sig ⟨S8x2048x4096, .f32⟩) (.of main_v120 : TRef sig ⟨S8x2048x4096, .i1⟩) (cmpf .ogt),
    TRef.nullary (.of main_cst_26 : TRef sig ⟨S_, .f32⟩) (constant S_ .f32 0x00000000#32),
    TRef.nullary (.of main_cst_27 : TRef sig ⟨S_, .f32⟩) (constant S_ .f32 0x41200000#32),
    TRef.unary (.of main_cst_26 : TRef sig ⟨S_, .f32⟩) (.of main_call3_v0 : TRef sig ⟨S2048x4096, .f32⟩) (broadcastInDim S2048x4096 ![] bcast_S_S2048x4096),
    TRef.unary (.of main_cst_27 : TRef sig ⟨S_, .f32⟩) (.of main_call3_v1 : TRef sig ⟨S2048x4096, .f32⟩) (broadcastInDim S2048x4096 ![] bcast_S_S2048x4096),
    TRef.unary (.of main_call3_v1 : TRef sig ⟨S2048x4096, .f32⟩) (.of main_call3_v2 : TRef sig ⟨S8x2048x4096, .f32⟩) (broadcastInDim S8x2048x4096 ![1, 2] bcast_S2048x4096_S8x2048x4096_1_2),
    TRef.unary (.of main_call3_v0 : TRef sig ⟨S2048x4096, .f32⟩) (.of main_call3_v3 : TRef sig ⟨S8x2048x4096, .f32⟩) (broadcastInDim S8x2048x4096 ![1, 2] bcast_S2048x4096_S8x2048x4096_1_2),
    TRef.ternary (.of main_v120 : TRef sig ⟨S8x2048x4096, .i1⟩) (.of main_call3_v3 : TRef sig ⟨S8x2048x4096, .f32⟩) (.of main_call3_v2 : TRef sig ⟨S8x2048x4096, .f32⟩) (.of main_v121 : TRef sig ⟨S8x2048x4096, .f32⟩) select,
    TRef.unary (.of main_v121 : TRef sig ⟨S8x2048x4096, .f32⟩) (.of main_v122 : TRef sig ⟨S8x2048x4096, .f32⟩) id,
    TRef.binary (.of main_v118 : TRef sig ⟨S8x2048x4096, .f32⟩) (.of main_v122 : TRef sig ⟨S8x2048x4096, .f32⟩) (.of main_v123 : TRef sig ⟨S8x2048x4096, .f32⟩) addf,
    TRef.nullary (.of main_cst_28 : TRef sig ⟨S_, .f32⟩) (constant S_ .f32 0x7F800000#32),
    TRef.binary (.of main_v123 : TRef sig ⟨S8x2048x4096, .f32⟩) (.of main_cst_28 : TRef sig ⟨S_, .f32⟩) (.of main_v124 : TRef sig ⟨S8x2048, .f32⟩) (fun x v => Host.reduce FloatOps.minimumf x v reducesTo_S8x2048x4096_S8x2048_d2 h_S_) ]

/-- Operations 201 to 217. -/
abbrev ops5 : List (HloOp τ sig (Elt F)) :=
  [ TRef.binary (.of main_v124 : TRef sig ⟨S8x2048, .f32⟩) (.of main_v87 : TRef sig ⟨S8x2048, .f32⟩) (.of main_v125 : TRef sig ⟨S8x2048, .f32⟩) minimumf,
    TRef.binary (.of main_v56 : TRef sig ⟨S8x2048, .f32⟩) (.of main_v125 : TRef sig ⟨S8x2048, .f32⟩) (.of main_v126 : TRef sig ⟨S8x2048, .f32⟩) subf,
    TRef.nullary (.of main_cst_29 : TRef sig ⟨S_, .f32⟩) (constant S_ .f32 0x3F800000#32),
    TRef.unary (.of main_cst_29 : TRef sig ⟨S_, .f32⟩) (.of main_v127 : TRef sig ⟨S8x2048, .f32⟩) (broadcastInDim S8x2048 ![] bcast_S_S8x2048),
    TRef.binary (.of main_v127 : TRef sig ⟨S8x2048, .f32⟩) (.of main_v126 : TRef sig ⟨S8x2048, .f32⟩) (.of main_v128 : TRef sig ⟨S8x2048, .f32⟩) addf,
    TRef.nullary (.of main_call4_cst : TRef sig ⟨S_, .f32⟩) (constant S_ .f32 0x00000000#32),
    TRef.unary (.of main_call4_cst : TRef sig ⟨S_, .f32⟩) (.of main_call4_v0 : TRef sig ⟨S8x2048, .f32⟩) (broadcastInDim S8x2048 ![] bcast_S_S8x2048),
    TRef.binary (.of main_v128 : TRef sig ⟨S8x2048, .f32⟩) (.of main_call4_v0 : TRef sig ⟨S8x2048, .f32⟩) (.of main_v129 : TRef sig ⟨S8x2048, .f32⟩) maximumf,
    TRef.nullary (.of main_cst_30 : TRef sig ⟨S_, .f32⟩) (constant S_ .f32 0x00000000#32),
    TRef.binary (.of main_v129 : TRef sig ⟨S8x2048, .f32⟩) (.of main_cst_30 : TRef sig ⟨S_, .f32⟩) (.of main_v130 : TRef sig ⟨S8, .f32⟩) (fun x v => Host.reduceAdd x v reducesTo_S8x2048_S8_d1 h_S_),
    TRef.nullary (.of main_cst_31 : TRef sig ⟨S_, .f32⟩) (constant S_ .f32 0x45000000#32),
    TRef.unary (.of main_cst_31 : TRef sig ⟨S_, .f32⟩) (.of main_v131 : TRef sig ⟨S8, .f32⟩) (broadcastInDim S8 ![] bcast_S_S8),
    TRef.binary (.of main_v130 : TRef sig ⟨S8, .f32⟩) (.of main_v131 : TRef sig ⟨S8, .f32⟩) (.of main_v132 : TRef sig ⟨S8, .f32⟩) Host.divf,
    TRef.nullary (.of main_cst_32 : TRef sig ⟨S_, .f32⟩) (constant S_ .f32 0x00000000#32),
    TRef.binary (.of main_v132 : TRef sig ⟨S8, .f32⟩) (.of main_cst_32 : TRef sig ⟨S_, .f32⟩) (.of main_v133 : TRef sig ⟨S_, .f32⟩) (fun x v => Host.reduceAdd x v reducesTo_S8_S_d0 h_S_),
    TRef.nullary (.of main_cst_33 : TRef sig ⟨S_, .f32⟩) (constant S_ .f32 0x41000000#32),
    TRef.binary (.of main_v133 : TRef sig ⟨S_, .f32⟩) (.of main_cst_33 : TRef sig ⟨S_, .f32⟩) (.of main_v134 : TRef sig ⟨S_, .f32⟩) Host.divf ]

abbrev ops : List (HloOp τ sig (Elt F)) := ops0 ++ ops1 ++ ops2 ++ ops3 ++ ops4 ++ ops5

end Cert.ReferenceIdeal.Hand

end
-- ==== Proof.RefRun.lean ====
import proofs.«417968_j21749714387505_1_alg».proof.Proof.Gen.ReferenceIdeal
import proofs.«417968_j21749714387505_1_alg».proof.Proof.ROps
import proofs.«417968_j21749714387505_1_alg».proof.Proof.RStages
import Idealize.ShloMosaic.Lib.StableHlo.Run
import Idealize.ShloMosaic.Lib.Pipeline.Frame
import Mathlib.Data.List.Basic

noncomputable section

namespace Cert.ReferenceIdeal.Hand

open Cert.ReferenceIdeal Cert.ReferenceIdeal.Gen Cert.ReferenceIdeal.Stages Idealize.ShloMosaic Idealize.ShloMosaic.TcCoe Idealize.SL.Sem Idealize.ShloMosaic.StableHlo

variable {F : FTy → Type} [FloatOps F]

theorem main_eq (c : Dev nD) : main (F := F) c = seq ops := by
  chain_rfl

theorem ops0_sub : (ops0 : List (HloOp τ sig (Elt F))).Forall fun op => op.bufs ⊆ tcRefs τ sig :=
  ⟨reshape_bufs_sub .., binary_bufs_sub .., nullary_bufs_sub .., binary_bufs_sub .., unary_bufs_sub .., unary_bufs_sub ..,
    nullary_bufs_sub .., unary_bufs_sub .., binary_bufs_sub .., unary_bufs_sub .., binary_bufs_sub .., reshape_bufs_sub ..,
    binary_bufs_sub .., nullary_bufs_sub .., binary_bufs_sub .., unary_bufs_sub .., unary_bufs_sub .., nullary_bufs_sub ..,
    unary_bufs_sub .., binary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., reshape_bufs_sub .., unary_bufs_sub .., reshape_bufs_sub .., nullary_bufs_sub ..,
    unary_bufs_sub .., binary_bufs_sub .., nullary_bufs_sub .., unary_bufs_sub ..⟩

theorem ops1_sub : (ops1 : List (HloOp τ sig (Elt F))).Forall fun op => op.bufs ⊆ tcRefs τ sig :=
  ⟨binary_bufs_sub .., ternary_bufs_sub .., nullary_bufs_sub .., unary_bufs_sub .., binary_bufs_sub .., nullary_bufs_sub ..,
    unary_bufs_sub .., binary_bufs_sub .., ternary_bufs_sub .., unary_bufs_sub .., unary_bufs_sub .., binary_bufs_sub ..,
    binary_bufs_sub .., binary_bufs_sub .., nullary_bufs_sub .., binary_bufs_sub .., unary_bufs_sub .., unary_bufs_sub ..,
    nullary_bufs_sub .., unary_bufs_sub .., binary_bufs_sub .., unary_bufs_sub .., binary_bufs_sub .., binary_bufs_sub ..,
    nullary_bufs_sub .., binary_bufs_sub .., nullary_bufs_sub .., unary_bufs_sub .., binary_bufs_sub .., nullary_bufs_sub ..,
    unary_bufs_sub .., binary_bufs_sub .., nullary_bufs_sub .., unary_bufs_sub .., reshape_bufs_sub .., nullary_bufs_sub ..,
    reshape_bufs_sub .., unary_bufs_sub .., reshape_bufs_sub .., unary_bufs_sub ..⟩

theorem ops2_sub : (ops2 : List (HloOp τ sig (Elt F))).Forall fun op => op.bufs ⊆ tcRefs τ sig :=
  ⟨unary_bufs_sub .., binary_bufs_sub .., unary_bufs_sub .., unary_bufs_sub .., unary_bufs_sub .., unary_bufs_sub ..,
    unary_bufs_sub .., unary_bufs_sub .., unary_bufs_sub .., binary_bufs_sub .., unary_bufs_sub .., nullary_bufs_sub ..,
    binary_bufs_sub .., binary_bufs_sub .., nullary_bufs_sub .., unary_bufs_sub .., binary_bufs_sub .., nullary_bufs_sub ..,
    unary_bufs_sub .., binary_bufs_sub .., nullary_bufs_sub .., unary_bufs_sub .., binary_bufs_sub .., nullary_bufs_sub ..,
    nullary_bufs_sub .., unary_bufs_sub .., unary_bufs_sub .., unary_bufs_sub .., unary_bufs_sub .., ternary_bufs_sub ..,
    unary_bufs_sub .., binary_bufs_sub .., nullary_bufs_sub .., binary_bufs_sub .., nullary_bufs_sub .., unary_bufs_sub ..,
    unary_bufs_sub .., binary_bufs_sub .., unary_bufs_sub .., unary_bufs_sub ..⟩

theorem ops3_sub : (ops3 : List (HloOp τ sig (Elt F))).Forall fun op => op.bufs ⊆ tcRefs τ sig :=
  ⟨unary_bufs_sub .., binary_bufs_sub .., unary_bufs_sub .., binary_bufs_sub .., nullary_bufs_sub .., unary_bufs_sub ..,
    binary_bufs_sub .., binary_bufs_sub .., nullary_bufs_sub .., unary_bufs_sub .., binary_bufs_sub .., ternary_bufs_sub ..,
    nullary_bufs_sub .., unary_bufs_sub .., nullary_bufs_sub .., binary_bufs_sub .., nullary_bufs_sub .., ternary_bufs_sub ..,
    unary_bufs_sub .., binary_bufs_sub .., nullary_bufs_sub .., unary_bufs_sub .., binary_bufs_sub .., nullary_bufs_sub ..,
    unary_bufs_sub .., binary_bufs_sub .., nullary_bufs_sub .., binary_bufs_sub .., unary_bufs_sub .., binary_bufs_sub ..,
    binary_bufs_sub .., unary_bufs_sub .., binary_bufs_sub .., ternary_bufs_sub .., unary_bufs_sub .., unary_bufs_sub ..,
    binary_bufs_sub .., unary_bufs_sub .., nullary_bufs_sub .., unary_bufs_sub ..⟩

theorem ops4_sub : (ops4 : List (HloOp τ sig (Elt F))).Forall fun op => op.bufs ⊆ tcRefs τ sig :=
  ⟨reshape_bufs_sub .., nullary_bufs_sub .., reshape_bufs_sub .., unary_bufs_sub .., reshape_bufs_sub .., unary_bufs_sub ..,
    unary_bufs_sub .., binary_bufs_sub .., unary_bufs_sub .., unary_bufs_sub .., unary_bufs_sub .., unary_bufs_sub ..,
    unary_bufs_sub .., unary_bufs_sub .., unary_bufs_sub .., binary_bufs_sub .., unary_bufs_sub .., nullary_bufs_sub ..,
    binary_bufs_sub .., binary_bufs_sub .., nullary_bufs_sub .., unary_bufs_sub .., binary_bufs_sub .., nullary_bufs_sub ..,
    unary_bufs_sub .., binary_bufs_sub .., nullary_bufs_sub .., unary_bufs_sub .., binary_bufs_sub .., nullary_bufs_sub ..,
    nullary_bufs_sub .., unary_bufs_sub .., unary_bufs_sub .., unary_bufs_sub .., unary_bufs_sub .., ternary_bufs_sub ..,
    unary_bufs_sub .., binary_bufs_sub .., nullary_bufs_sub .., binary_bufs_sub ..⟩

theorem ops5_sub : (ops5 : List (HloOp τ sig (Elt F))).Forall fun op => op.bufs ⊆ tcRefs τ sig :=
  ⟨binary_bufs_sub .., binary_bufs_sub .., nullary_bufs_sub .., unary_bufs_sub .., binary_bufs_sub .., nullary_bufs_sub ..,
    unary_bufs_sub .., binary_bufs_sub .., nullary_bufs_sub .., binary_bufs_sub .., nullary_bufs_sub .., unary_bufs_sub ..,
    binary_bufs_sub .., nullary_bufs_sub .., binary_bufs_sub .., nullary_bufs_sub .., binary_bufs_sub ..⟩

theorem ops_sub : (ops : List (HloOp τ sig (Elt F))).Forall fun op => op.bufs ⊆ tcRefs τ sig :=
  List.forall_append.2 ⟨List.forall_append.2 ⟨List.forall_append.2 ⟨List.forall_append.2 ⟨List.forall_append.2 ⟨ops0_sub, ops1_sub⟩, ops2_sub⟩, ops3_sub⟩, ops4_sub⟩, ops5_sub⟩

theorem ops0_fresh : ∀ op ∈ (ops0 : List (HloOp τ sig (Elt F))), op.fresh = ∅ := by
  intro _ h; (repeat (cases h with | head => rfl | tail _ h => ?_)); exact nomatch h

theorem ops1_fresh : ∀ op ∈ (ops1 : List (HloOp τ sig (Elt F))), op.fresh = ∅ := by
  intro _ h; (repeat (cases h with | head => rfl | tail _ h => ?_)); exact nomatch h

theorem ops2_fresh : ∀ op ∈ (ops2 : List (HloOp τ sig (Elt F))), op.fresh = ∅ := by
  intro _ h; (repeat (cases h with | head => rfl | tail _ h => ?_)); exact nomatch h

theorem ops3_fresh : ∀ op ∈ (ops3 : List (HloOp τ sig (Elt F))), op.fresh = ∅ := by
  intro _ h; (repeat (cases h with | head => rfl | tail _ h => ?_)); exact nomatch h

theorem ops4_fresh : ∀ op ∈ (ops4 : List (HloOp τ sig (Elt F))), op.fresh = ∅ := by
  intro _ h; (repeat (cases h with | head => rfl | tail _ h => ?_)); exact nomatch h

theorem ops5_fresh : ∀ op ∈ (ops5 : List (HloOp τ sig (Elt F))), op.fresh = ∅ := by
  intro _ h; (repeat (cases h with | head => rfl | tail _ h => ?_)); exact nomatch h

theorem ops_fresh : ∀ op ∈ (ops : List (HloOp τ sig (Elt F))), op.fresh = ∅ := by
  intro op h
  rcases List.mem_append.1 h with h | h
  · rcases List.mem_append.1 h with h | h
    · rcases List.mem_append.1 h with h | h
      · rcases List.mem_append.1 h with h | h
        · rcases List.mem_append.1 h with h | h
          · exact ops0_fresh op h
          · exact ops1_fresh op h
        · exact ops2_fresh op h
      · exact ops3_fresh op h
    · exact ops4_fresh op h
  · exact ops5_fresh op h

theorem scopedRefs_eq : (Finset.univ.filter fun b : Ref sig .tc => b.isScoped) = ∅ := by decide
theorem scopedSems_eq : (Finset.univ.filter fun sm : SemLoc sig => sm.isScoped .tc) = ∅ := by decide

theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-- Every buffer after the straight line is the fold of the operations' results; read at one buffer it unfolds to that buffer's stage term. -/
macro "read_ops" : tactic =>
  `(tactic| (
    dsimp only [ops, ops0, ops1, ops2, ops3, ops4, ops5]
    simp (disch := decide) only [StableHlo.after_append, StableHlo.after_cons, StableHlo.after_nil, StableHlo.nullary_result', StableHlo.unary_result', StableHlo.binary_result',
      StableHlo.ternary_result', StableHlo.quaternary_result', StableHlo.reshape_result', StableHlo.nary4_result', StableHlo.nary_result',
      StableHlo.unaryIndexed_result', StableHlo.binaryIndexed_result', StableHlo.nullary_result_ne', StableHlo.unary_result_ne',
      StableHlo.binary_result_ne', StableHlo.ternary_result_ne', StableHlo.quaternary_result_ne', StableHlo.reshape_result_ne',
      StableHlo.nary_result_ne', StableHlo.unaryIndexed_result_ne', StableHlo.binaryIndexed_result_ne',
      StableHlo.TRef.toBuf, StableHlo.TRef.ofBuf, cast_eq, Function.update_self, Function.update_of_ne]))

set_option maxHeartbeats 4000000 in
theorem after_v134 (V : Valuation τ sig (Elt F)) :
    after ops V (main_v134 : DevRef τ sig) = r_main_v134 (V (main_arg0 : DevRef τ sig)) (V (main_arg1 : DevRef τ sig)) (V (main_arg2 : DevRef τ sig)) (V (main_arg3 : DevRef τ sig)) := by
  read_ops; rfl

theorem after_arg0 (V : Valuation τ sig (Elt F)) : after ops V (main_arg0 : DevRef τ sig) = V (main_arg0 : DevRef τ sig) := by read_ops
theorem after_arg1 (V : Valuation τ sig (Elt F)) : after ops V (main_arg1 : DevRef τ sig) = V (main_arg1 : DevRef τ sig) := by read_ops
theorem after_arg2 (V : Valuation τ sig (Elt F)) : after ops V (main_arg2 : DevRef τ sig) = V (main_arg2 : DevRef τ sig) := by read_ops
theorem after_arg3 (V : Valuation τ sig (Elt F)) : after ops V (main_arg3 : DevRef τ sig) = V (main_arg3 : DevRef τ sig) := by read_ops

theorem run_value (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v134) = r_main_v134 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v134).trans (after_v134 (launchContents m c)),
      (h c main_arg0).trans (after_arg0 (launchContents m c)),
      (h c main_arg1).trans (after_arg1 (launchContents m c)),
      (h c main_arg2).trans (after_arg2 (launchContents m c)),
      (h c main_arg3).trans (after_arg3 (launchContents m c))⟩)
    (run_all m ρ)

end Cert.ReferenceIdeal.Hand

end
-- ==== Proof.ClaimValues.lean ====
import proofs.«417968_j21749714387505_1_alg».proof.Defs
import proofs.«417968_j21749714387505_1_alg».proof.Proof.Gen.Pre_finite_inputs
import proofs.«417968_j21749714387505_1_alg».proof.Proof.KILoss
import proofs.«417968_j21749714387505_1_alg».proof.Proof.RefRun

noncomputable section

namespace Cert.Proof.Values

open Idealize.ShloMosaic Idealize.SL.Sem

theorem frame_ri : Cert.frame_ReferenceIdeal := fun m ρ _ =>
  (θ_run Cert.ReferenceIdeal.defs _ _).mono (fun _ h c => (h c).2) (Cert.ReferenceIdeal.Hand.run_value (F := Ideal) m ρ)

-- Both runs end with the result at one common expression of the four input arrays, the reference's last stage.
theorem algebraic : Cert.algebraic_KernelIdeal_ReferenceIdeal := by
  intro m ρ m' ρ' hpre hagree
  refine ⟨fun c => Cert.ReferenceIdeal.Stages.r_main_v134 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3)), ?_,
    Cert.ReferenceIdeal.Hand.run_value (F := Ideal) m' ρ'⟩
  refine (θ_run (Cert.KernelIdeal.defs (F := Ideal)) _ _).mono (fun r h c => ⟨?_, (h c).2⟩) (Cert.KernelIdeal.Hand.run_loss m ρ hpre)
  dsimp only
  rw [(hagree c).1, (hagree c).2.1, (hagree c).2.2.1, (hagree c).2.2.2]
  exact (h c).1

end Cert.Proof.Values

end
-- ==== Proof.lean ====
import proofs.«417968_j21749714387505_1_alg».proof.Defs
import proofs.«417968_j21749714387505_1_alg».proof.Proof.Gen.Kernel
import proofs.«417968_j21749714387505_1_alg».proof.Proof.Gen.KernelIdeal
import proofs.«417968_j21749714387505_1_alg».proof.Proof.Gen.ReferenceIdeal
import proofs.«417968_j21749714387505_1_alg».proof.Proof.Gen.Pre_finite_inputs
import proofs.«417968_j21749714387505_1_alg».proof.Proof.ClaimFrames
import proofs.«417968_j21749714387505_1_alg».proof.Proof.ClaimValues

noncomputable section

namespace Cert.Proof

-- All three programs end without fault with their inputs unchanged, and the kernel and the reference end with the same loss.
theorem claim : Cert.Claim := ⟨Cert.Kernel.Gen.facts, Cert.KernelIdeal.Gen.facts, Cert.ReferenceIdeal.Gen.facts, Cert.Pre_finite_inputs.Gen.facts,
  Cert.Proof.Frames.frame_k, Cert.Proof.Frames.frame_ki, Cert.Proof.Values.frame_ri, Cert.Proof.Frames.preserves, Cert.Proof.Values.algebraic⟩

end Cert.Proof

end
